-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v494) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S64 : Shape := ⟨1, ![64]⟩
abbrev S512x256 : Shape := ⟨2, ![512, 256]⟩
abbrev S512 : Shape := ⟨1, ![512]⟩
abbrev S2x16x512x512 : Shape := ⟨4, ![2, 16, 512, 512]⟩
abbrev S2x16x512 : Shape := ⟨3, ![2, 16, 512]⟩
abbrev S2x1x512x512 : Shape := ⟨4, ![2, 1, 512, 512]⟩
abbrev S2x1x512 : Shape := ⟨3, ![2, 1, 512]⟩
abbrev S256x512 : Shape := ⟨2, ![256, 512]⟩
abbrev S256 : Shape := ⟨1, ![256]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S2x16x512x512 : S_.BroadcastsInDim S2x16x512x512 (![] : Fin 0 → Fin S2x16x512x512.rank)
  reducesTo_S2x16x512x512_S_d0_1_2_3 : S2x16x512x512.ReducesTo [0, 1, 2, 3] S_
  bcast_S_S2x16x512 : S_.BroadcastsInDim S2x16x512 (![] : Fin 0 → Fin S2x16x512.rank)
  reducesTo_S2x16x512_S_d0_1_2 : S2x16x512.ReducesTo [0, 1, 2] S_
  bcast_S_S2x1x512x512 : S_.BroadcastsInDim S2x1x512x512 (![] : Fin 0 → Fin S2x1x512x512.rank)
  reducesTo_S2x1x512x512_S_d0_1_2_3 : S2x1x512x512.ReducesTo [0, 1, 2, 3] S_
  bcast_S_S2x1x512 : S_.BroadcastsInDim S2x1x512 (![] : Fin 0 → Fin S2x1x512.rank)
  reducesTo_S2x1x512_S_d0_1_2 : S2x1x512.ReducesTo [0, 1, 2] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg1 : IVec S64 32) (main_arg8 : FVec F S256x512 .f32) (main_arg9 : FVec F S256 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S64 32 := broadcastInDim S64 ![] bcast_S_S64 main_c_16
  let main_v45 : IVec S64 1 := cmpi .sge main_arg1 main_v44
  let main_c_17 : IVec S_ 32 := constantI S_ 32 16#32
  let main_v46 : IVec S64 32 := broadcastInDim S64 ![] bcast_S_S64 main_c_17
  let main_v47 : IVec S64 1 := cmpi .slt main_arg1 main_v46
  let main_v48 : IVec S64 1 := andi main_v45 main_v47
  let main_c_18 : IVec S_ 1 := constantI S_ 1 1#1
  let main_v49 : IVec S_ 1 := (fun x v => Host.reduce IntOp.andi x v reducesTo_S64_S_d0 h_S_) main_v48 main_c_18
  let main_v50 : IVec S_ 1 := andi main_v43 main_v49
  main_v50

def fn_part1 {F : FTy → Type} [FloatOps F] (main_arg1 : IVec S64 32) (main_arg5 : FVec F S2x16x512 .f32) (main_arg6 : FVec F S2x1x512x512 .f32) (main_arg7 : FVec F S2x1x512 .f32) (main_arg8 : FVec F S256x512 .f32) (main_arg9 : FVec F S256 .f32) (main_v13 : IVec S_ 1) (main_v16 : IVec S2x16x512x512 1) : IVec S_ 1 :=
  let main_c_5 : IVec S_ 1 := constantI S_ 1 1#1
  let main_v17 : IVec S_ 1 := (fun x v => Host.reduce IntOp.andi x v reducesTo_S2x16x512x512_S_d0_1_2_3 h_S_) main_v16 main_c_5
  let main_v18 : IVec S_ 1 := andi main_v13 main_v17
  let main_v19 : FVec F S2x16x512 .f32 := Host.absf main_arg5
  let main_cst_6 : FVec F S_ .f32 := constant S_ .f32 0x7F800000#32
  let main_v20 : FVec F S2x16x512 .f32 := broadcastInDim S2x16x512 ![] bcast_S_S2x16x512 main_cst_6
  let main_v21 : IVec S2x16x512 1 := cmpf .olt main_v19 main_v20
  let main_c_7 : IVec S_ 1 := constantI S_ 1 1#1
  let main_v22 : IVec S_ 1 := (fun x v => Host.reduce IntOp.andi x v reducesTo_S2x16x512_S_d0_1_2 h_S_) main_v21 main_c_7
  let main_v23 : IVec S_ 1 := andi main_v18 main_v22
  let main_v24 : FVec F S2x1x512x512 .f32 := Host.absf main_arg6
  let main_cst_8 : FVec F S_ .f32 := constant S_ .f32 0x7F800000#32
  let main_v25 : FVec F S2x1x512x512 .f32 := broadcastInDim S2x1x512x512 ![] bcast_S_S2x1x512x512 main_cst_8
  let main_v26 : IVec S2x1x512x512 1 := cmpf .olt main_v24 main_v25
  let main_c_9 : IVec S_ 1 := constantI S_ 1 1#1
  let main_v27 : IVec S_ 1 := (fun x v => Host.reduce IntOp.andi x v reducesTo_S2x1x512x512_S_d0_1_2_3 h_S_) main_v26 main_c_9
  let main_v28 : IVec S_ 1 := andi main_v23 main_v27
  let main_v29 : FVec F S2x1x512 .f32 := Host.absf main_arg7
  let main_cst_10 : FVec F S_ .f32 := constant S_ .f32 0x7F800000#32
  let main_v30 : FVec F S2x1x512 .f32 := broadcastInDim S2x1x512 ![] bcast_S_S2x1x512 main_cst_10
  let main_v31 : IVec S2x1x512 1 := cmpf .olt main_v29 main_v30
  let main_c_11 : IVec S_ 1 := constantI S_ 1 1#1
  let main_v32 : IVec S_ 1 := (fun x v => Host.reduce IntOp.andi x v reducesTo_S2x1x512_S_d0_1_2 h_S_) main_v31 main_c_11
  let main_v33 : IVec S_ 1 := andi main_v28 main_v32
  fn_part2 (F := F) main_arg1 main_arg8 main_arg9 main_v33

def fn {F : FTy → Type} [FloatOps F] (main_arg0 : FVec F S64x256x256 .f32) (main_arg1 : IVec S64 32) (main_arg2 : FVec F S512x256 .f32) (main_arg3 : FVec F S512 .f32) (main_arg4 : FVec F S2x16x512x512 .f32) (main_arg5 : FVec F S2x16x512 .f32) (main_arg6 : FVec F S2x1x512x512 .f32) (main_arg7 : FVec F S2x1x512 .f32) (main_arg8 : FVec F S256x512 .f32) (main_arg9 : FVec F S256 .f32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2x16x512x512 .f32 := Host.absf main_arg4
  let main_cst_4 : FVec F S_ .f32 := constant S_ .f32 0x7F800000#32
  let main_v15 : FVec F S2x16x512x512 .f32 := broadcastInDim S2x16x512x512 ![] bcast_S_S2x16x512x512 main_cst_4
  let main_v16 : IVec S2x16x512x512 1 := cmpf .olt main_v14 main_v15
  fn_part1 (F := F) main_arg1 main_arg5 main_arg6 main_arg7 main_arg8 main_arg9 main_v13 main_v16
-- ==== Kernel.lean ====
abbrev S64x256x256 : Shape := ⟨3, ![64, 256, 256]⟩
abbrev S64 : Shape := ⟨1, ![64]⟩
abbrev S512x256 : Shape := ⟨2, ![512, 256]⟩
abbrev S512 : Shape := ⟨1, ![512]⟩
abbrev S2x16x512x512 : Shape := ⟨4, ![2, 16, 512, 512]⟩
abbrev S2x16x512 : Shape := ⟨3, ![2, 16, 512]⟩
abbrev S2x1x512x512 : Shape := ⟨4, ![2, 1, 512, 512]⟩
abbrev S2x1x512 : Shape := ⟨3, ![2, 1, 512]⟩
abbrev S256x512 : Shape := ⟨2, ![256, 512]⟩
abbrev S256 : Shape := ⟨1, ![256]⟩
abbrev S_ : Shape := ⟨0, ![]⟩
abbrev S1x512 : Shape := ⟨2, ![1, 512]⟩
abbrev S1x256 : Shape := ⟨2, ![1, 256]⟩
abbrev S4x256x256 : Shape := ⟨3, ![4, 256, 256]⟩
abbrev S1024x256 : Shape := ⟨2, ![1024, 256]⟩
abbrev S1024x512 : Shape := ⟨2, ![1024, 512]⟩
abbrev S1x1x512x512 : Shape := ⟨4, ![1, 1, 512, 512]⟩
abbrev S512x512 : Shape := ⟨2, ![512, 512]⟩
abbrev S1x1x512 : Shape := ⟨3, ![1, 1, 512]⟩
abbrev S1 : Shape := ⟨1, ![1]⟩
abbrev S1x16x512x512 : Shape := ⟨4, ![1, 16, 512, 512]⟩
abbrev S16x512x512 : Shape := ⟨3, ![16, 512, 512]⟩
abbrev S1x512x512 : Shape := ⟨3, ![1, 512, 512]⟩
abbrev S1x16x512 : Shape := ⟨3, ![1, 16, 512]⟩
abbrev S16x512 : Shape := ⟨2, ![16, 512]⟩

abbrev nBuf : Space → Nat
  | .hbm => 25
  | .vmem => 12
  | .smem => 1
  | _ => 0

abbrev bufTy : (tb : Table) → Fin (tcTables nBuf tb) → BufTy
  | .hbm, ⟨0, _⟩ => ⟨S64x256x256, .f32⟩
  | .hbm, ⟨1, _⟩ => ⟨S64, .i32⟩
  | .hbm, ⟨2, _⟩ => ⟨S512x256, .f32⟩
  | .hbm, ⟨3, _⟩ => ⟨S512, .f32⟩
  | .hbm, ⟨4, _⟩ => ⟨S2x16x512x512, .f32⟩
  | .hbm, ⟨5, _⟩ => ⟨S2x16x512, .f32⟩
  | .hbm, ⟨6, _⟩ => ⟨S2x1x512x512, .f32⟩
  | .hbm, ⟨7, _⟩ => ⟨S2x1x512, .f32⟩
  | .hbm, ⟨8, _⟩ => ⟨S256x512, .f32⟩
  | .hbm, ⟨9, _⟩ => ⟨S256, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64x256x256, .bf16⟩
  | .hbm, ⟨18, _⟩ => ⟨S512x256, .bf16⟩
  | .hbm, ⟨19, _⟩ => ⟨S2x16x512x512, .bf16⟩
  | .hbm, ⟨20, _⟩ => ⟨S2x1x512x512, .bf16⟩
  | .hbm, ⟨21, _⟩ => ⟨S256x512, .bf16⟩
  | .hbm, ⟨22, _⟩ => ⟨S1x512, .f32⟩
  | .hbm, ⟨23, _⟩ => ⟨S1x256, .f32⟩
  | .hbm, ⟨24, _⟩ => ⟨S64x256x256, .f32⟩
  | .local _ .vmem, ⟨0, _⟩ => ⟨S4x256x256, .bf16⟩
  | .local _ .vmem, ⟨1, _⟩ => ⟨S4x256x256, .bf16⟩
  | .local _ .vmem, ⟨2, _⟩ => ⟨S512x256, .bf16⟩
  | .local _ .vmem, ⟨3, _⟩ => ⟨S1x512, .f32⟩
  | .local _ .vmem, ⟨4, _⟩ => ⟨S2x16x512x512, .bf16⟩
  | .local _ .vmem, ⟨5, _⟩ => ⟨S2x16x512, .f32⟩
  | .local _ .vmem, ⟨6, _⟩ => ⟨S2x1x512x512, .bf16⟩
  | .local _ .vmem, ⟨7, _⟩ => ⟨S2x1x512, .f32⟩
  | .local _ .vmem, ⟨8, _⟩ => ⟨S256x512, .bf16⟩
  | .local _ .vmem, ⟨9, _⟩ => ⟨S1x256, .f32⟩
  | .local _ .vmem, ⟨10, _⟩ => ⟨S4x256x256, .f32⟩
  | .local _ .vmem, ⟨11, _⟩ => ⟨S4x256x256, .f32⟩
  | .local _ .smem, ⟨0, _⟩ => ⟨S64, .i32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v23 : BitVec 32 := Scalar.muli arg0 c4_i32
  let c0_i32 : BitVec 32 := 0#32
  let v24 : BitVec 32 := Scalar.addi v23 c0_i32
  let v25 : Index := Scalar.indexCast v24
  ![v25.toNat]
def k0_off2 (v26 : BitVec 32) : Fin 3 → Nat :=
  let v29 : Index := Scalar.indexCast v26
  let c0_19 : Index := 0#32
  let c0_20 : Index := 0#32
  ![v29.toNat, 0, 0]

def k0_off3 (v26 : BitVec 32) : Fin 2 → Nat :=
  let v34 : Index := Scalar.indexCast v26
  let c0_24 : Index := 0#32
  ![v34.toNat, 0]

def k0_chk1 (v26 : BitVec 32) : Prop :=
  (∀ a, (k0_off2 v26) a + S1x512x512.size a ≤ S16x512x512.size a) ∧
  (∀ a, (k0_off3 v26) a + S1x512.size a ≤ S16x512.size a)
instance k0_chk1.dec : ∀ (v26 : BitVec 32), Decidable (k0_chk1 v26) := fun v26 => decidable_of_iff' _ (Iff.of_eq (k0_chk1.eq_1 v26))
theorem k0_off2_inb : ∀ (v26 : BitVec 32) (k0_hw1 : k0_chk1 v26), ∀ a, (k0_off2 v26) a + S1x512x512.size a ≤ S16x512x512.size a := fun v26 k0_hw1 => k0_hw1.1
theorem k0_off3_inb : ∀ (v26 : BitVec 32) (k0_hw1 : k0_chk1 v26), ∀ a, (k0_off3 v26) a + S1x512.size a ≤ S16x512.size a := fun v26 k0_hw1 => k0_hw1.2

def k0_off4 (i : grid0.Coords) : Fin 1 → Nat :=
  let arg0 : BitVec 32 := BitVec.ofNat 32 (i 0).val
  let c4_i32_26 : BitVec 32 := 4#32
  let v43 : BitVec 32 := Scalar.muli arg0 c4_i32_26
  let c1_i32 : BitVec 32 := 1#32
  let v44 : BitVec 32 := Scalar.addi v43 c1_i32
  let v45 : Index := Scalar.indexCast v44
  ![v45.toNat]
def k0_off5 (v46 : BitVec 32) : Fin 3 → Nat :=
  let v49 : Index := Scalar.indexCast v46
  let c0_31 : Index := 0#32
  let c0_32 : Index := 0#32
  ![v49.toNat, 0, 0]

def k0_off6 (v46 : BitVec 32) : Fin 2 → Nat :=
  let v54 : Index := Scalar.indexCast v46
  let c0_36 : Index := 0#32
  ![v54.toNat, 0]

def k0_chk2 (v46 : BitVec 32) : Prop :=
  (∀ a, (k0_off5 v46) a + S1x512x512.size a ≤ S16x512x512.size a) ∧
  (∀ a, (k0_off6 v46) a + S1x512.size a ≤ S16x512.size a)
instance k0_chk2.dec : ∀ (v46 : BitVec 32), Decidable (k0_chk2 v46) := fun v46 => decidable_of_iff' _ (Iff.of_eq (k0_chk2.eq_1 v46))
theorem k0_off5_inb : ∀ (v46 : BitVec 32) (k0_hw2 : k0_chk2 v46), ∀ a, (k0_off5 v46) a + S1x512x512.size a ≤ S16x512x512.size a := fun v46 k0_hw2 => k0_hw2.1
theorem k0_off6_inb : ∀ (v46 : BitVec 32) (k0_hw2 : k0_chk2 v46), ∀ a, (k0_off6 v46) a + S1x512.size a ≤ S16x512.size a := fun v46 k0_hw2 => k0_hw2.2

def k0_off7 (i : grid0.Coords) : Fin 1 → Nat :=
  let arg0 : BitVec 32 := BitVec.ofNat 32 (i 0).val
  let c4_i32_38 : BitVec 32 := 4#32
  let v63 : BitVec 32 := Scalar.muli arg0 c4_i32_38
  let c2_i32 : BitVec 32 := 2#32
  let v64 : BitVec 32 := Scalar.addi v63 c2_i32
  let v65 : Index := Scalar.indexCast v64
  ![v65.toNat]
def k0_off8 (v66 : BitVec 32) : Fin 3 → Nat :=
  let v69 : Index := Scalar.indexCast v66
  let c0_43 : Index := 0#32
  let c0_44 : Index := 0#32
  ![v69.toNat, 0, 0]

def k0_off9 (v66 : BitVec 32) : Fin 2 → Nat :=
  let v74 : Index := Scalar.indexCast v66
  let c0_48 : Index := 0#32
  ![v74.toNat, 0]

def k0_chk3 (v66 : BitVec 32) : Prop :=
  (∀ a, (k0_off8 v66) a + S1x512x512.size a ≤ S16x512x512.size a) ∧
  (∀ a, (k0_off9 v66) a + S1x512.size a ≤ S16x512.size a)
instance k0_chk3.dec : ∀ (v66 : BitVec 32), Decidable (k0_chk3 v66) := fun v66 => decidable_of_iff' _ (Iff.of_eq (k0_chk3.eq_1 v66))
theorem k0_off8_inb : ∀ (v66 : BitVec 32) (k0_hw3 : k0_chk3 v66), ∀ a, (k0_off8 v66) a + S1x512x512.size a ≤ S16x512x512.size a := fun v66 k0_hw3 => k0_hw3.1
theorem k0_off9_inb : ∀ (v66 : BitVec 32) (k0_hw3 : k0_chk3 v66), ∀ a, (k0_off9 v66) a + S1x512.size a ≤ S16x512.size a := fun v66 k0_hw3 => k0_hw3.2

def k0_off10 (i : grid0.Coords) : Fin 1 → Nat :=
  let arg0 : BitVec 32 := BitVec.ofNat 32 (i 0).val
  let c4_i32_50 : BitVec 32 := 4#32
  let v83 : BitVec 32 := Scalar.muli arg0 c4_i32_50
  let c3_i32 : BitVec 32 := 3#32
  let v84 : BitVec 32 := Scalar.addi v83 c3_i32
  let v85 : Index := Scalar.indexCast v84
  ![v85.toNat]
def k0_off11 (v86 : BitVec 32) : Fin 3 → Nat :=
  let v89 : Index := Scalar.indexCast v86
  let c0_55 : Index := 0#32
  let c0_56 : Index := 0#32
  ![v89.toNat, 0, 0]

def k0_off12 (v86 : BitVec 32) : Fin 2 → Nat :=
  let v94 : Index := Scalar.indexCast v86
  let c0_60 : Index := 0#32
  ![v94.toNat, 0]

def k0_chk4 (v86 : BitVec 32) : Prop :=
  (∀ a, (k0_off11 v86) a + S1x512x512.size a ≤ S16x512x512.size a) ∧
  (∀ a, (k0_off12 v86) a + S1x512.size a ≤ S16x512.size a)
instance k0_chk4.dec : ∀ (v86 : BitVec 32), Decidable (k0_chk4 v86) := fun v86 => decidable_of_iff' _ (Iff.of_eq (k0_chk4.eq_1 v86))
theorem k0_off11_inb : ∀ (v86 : BitVec 32) (k0_hw4 : k0_chk4 v86), ∀ a, (k0_off11 v86) a + S1x512x512.size a ≤ S16x512x512.size a := fun v86 k0_hw4 => k0_hw4.1
theorem k0_off12_inb : ∀ (v86 : BitVec 32) (k0_hw4 : k0_chk4 v86), ∀ a, (k0_off12 v86) a + S1x512.size a ≤ S16x512.size a := fun v86 k0_hw4 => k0_hw4.2

def k0_off13 (i : grid0.Coords) : Fin 1 → Nat :=
  let arg0 : BitVec 32 := BitVec.ofNat 32 (i 0).val
  let c4_i32_70 : BitVec 32 := 4#32
  let v118 : BitVec 32 := Scalar.muli arg0 c4_i32_70
  let c0_i32_71 : BitVec 32 := 0#32
  let v119 : BitVec 32 := Scalar.addi v118 c0_i32_71
  let v120 : Index := Scalar.indexCast v119
  ![v120.toNat]
def k0_off14 (v121 : BitVec 32) : Fin 3 → Nat :=
  let v124 : Index := Scalar.indexCast v121
  let c0_76 : Index := 0#32
  let c0_77 : Index := 0#32
  ![v124.toNat, 0, 0]

def k0_off15 (v121 : BitVec 32) : Fin 2 → Nat :=
  let v129 : Index := Scalar.indexCast v121
  let c0_81 : Index := 0#32
  ![v129.toNat, 0]

def k0_chk5 (v121 : BitVec 32) : Prop :=
  (∀ a, (k0_off14 v121) a + S1x512x512.size a ≤ S16x512x512.size a) ∧
  (∀ a, (k0_off15 v121) a + S1x512.size a ≤ S16x512.size a)
instance k0_chk5.dec : ∀ (v121 : BitVec 32), Decidable (k0_chk5 v121) := fun v121 => decidable_of_iff' _ (Iff.of_eq (k0_chk5.eq_1 v121))
theorem k0_off14_inb : ∀ (v121 : BitVec 32) (k0_hw5 : k0_chk5 v121), ∀ a, (k0_off14 v121) a + S1x512x512.size a ≤ S16x512x512.size a := fun v121 k0_hw5 => k0_hw5.1
theorem k0_off15_inb : ∀ (v121 : BitVec 32) (k0_hw5 : k0_chk5 v121), ∀ a, (k0_off15 v121) a + S1x512.size a ≤ S16x512.size a := fun v121 k0_hw5 => k0_hw5.2

def k0_off16 (i : grid0.Coords) : Fin 1 → Nat :=
  let arg0 : BitVec 32 := BitVec.ofNat 32 (i 0).val
  let c4_i32_83 : BitVec 32 := 4#32
  let v138 : BitVec 32 := Scalar.muli arg0 c4_i32_83
  let c1_i32_84 : BitVec 32 := 1#32
  let v139 : BitVec 32 := Scalar.addi v138 c1_i32_84
  let v140 : Index := Scalar.indexCast v139
  ![v140.toNat]
def k0_off17 (v141 : BitVec 32) : Fin 3 → Nat :=
  let v144 : Index := Scalar.indexCast v141
  let c0_89 : Index := 0#32
  let c0_90 : Index := 0#32
  ![v144.toNat, 0, 0]

def k0_off18 (v141 : BitVec 32) : Fin 2 → Nat :=
  let v149 : Index := Scalar.indexCast v141
  let c0_94 : Index := 0#32
  ![v149.toNat, 0]

def k0_chk6 (v141 : BitVec 32) : Prop :=
  (∀ a, (k0_off17 v141) a + S1x512x512.size a ≤ S16x512x512.size a) ∧
  (∀ a, (k0_off18 v141) a + S1x512.size a ≤ S16x512.size a)
instance k0_chk6.dec : ∀ (v141 : BitVec 32), Decidable (k0_chk6 v141) := fun v141 => decidable_of_iff' _ (Iff.of_eq (k0_chk6.eq_1 v141))
theorem k0_off17_inb : ∀ (v141 : BitVec 32) (k0_hw6 : k0_chk6 v141), ∀ a, (k0_off17 v141) a + S1x512x512.size a ≤ S16x512x512.size a := fun v141 k0_hw6 => k0_hw6.1
theorem k0_off18_inb : ∀ (v141 : BitVec 32) (k0_hw6 : k0_chk6 v141), ∀ a, (k0_off18 v141) a + S1x512.size a ≤ S16x512.size a := fun v141 k0_hw6 => k0_hw6.2

def k0_off19 (i : grid0.Coords) : Fin 1 → Nat :=
  let arg0 : BitVec 32 := BitVec.ofNat 32 (i 0).val
  let c4_i32_96 : BitVec 32 := 4#32
  let v158 : BitVec 32 := Scalar.muli arg0 c4_i32_96
  let c2_i32_97 : BitVec 32 := 2#32
  let v159 : BitVec 32 := Scalar.addi v158 c2_i32_97
  let v160 : Index := Scalar.indexCast v159
  ![v160.toNat]
def k0_off20 (v161 : BitVec 32) : Fin 3 → Nat :=
  let v164 : Index := Scalar.indexCast v161
  let c0_102 : Index := 0#32
  let c0_103 : Index := 0#32
  ![v164.toNat, 0, 0]

def k0_off21 (v161 : BitVec 32) : Fin 2 → Nat :=
  let v169 : Index := Scalar.indexCast v161
  let c0_107 : Index := 0#32
  ![v169.toNat, 0]

def k0_chk7 (v161 : BitVec 32) : Prop :=
  (∀ a, (k0_off20 v161) a + S1x512x512.size a ≤ S16x512x512.size a) ∧
  (∀ a, (k0_off21 v161) a + S1x512.size a ≤ S16x512.size a)
instance k0_chk7.dec : ∀ (v161 : BitVec 32), Decidable (k0_chk7 v161) := fun v161 => decidable_of_iff' _ (Iff.of_eq (k0_chk7.eq_1 v161))
theorem k0_off20_inb : ∀ (v161 : BitVec 32) (k0_hw7 : k0_chk7 v161), ∀ a, (k0_off20 v161) a + S1x512x512.size a ≤ S16x512x512.size a := fun v161 k0_hw7 => k0_hw7.1
theorem k0_off21_inb : ∀ (v161 : BitVec 32) (k0_hw7 : k0_chk7 v161), ∀ a, (k0_off21 v161) a + S1x512.size a ≤ S16x512.size a := fun v161 k0_hw7 => k0_hw7.2

def k0_off22 (i : grid0.Coords) : Fin 1 → Nat :=
  let arg0 : BitVec 32 := BitVec.ofNat 32 (i 0).val
  let c4_i32_109 : BitVec 32 := 4#32
  let v178 : BitVec 32 := Scalar.muli arg0 c4_i32_109
  let c3_i32_110 : BitVec 32 := 3#32
  let v179 : BitVec 32 := Scalar.addi v178 c3_i32_110
  let v180 : Index := Scalar.indexCast v179
  ![v180.toNat]
def k0_off23 (v181 : BitVec 32) : Fin 3 → Nat :=
  let v184 : Index := Scalar.indexCast v181
  let c0_115 : Index := 0#32
  let c0_116 : Index := 0#32
  ![v184.toNat, 0, 0]

def k0_off24 (v181 : BitVec 32) : Fin 2 → Nat :=
  let v189 : Index := Scalar.indexCast v181
  let c0_120 : Index := 0#32
  ![v189.toNat, 0]

def k0_chk8 (v181 : BitVec 32) : Prop :=
  (∀ a, (k0_off23 v181) a + S1x512x512.size a ≤ S16x512x512.size a) ∧
  (∀ a, (k0_off24 v181) a + S1x512.size a ≤ S16x512.size a)
instance k0_chk8.dec : ∀ (v181 : BitVec 32), Decidable (k0_chk8 v181) := fun v181 => decidable_of_iff' _ (Iff.of_eq (k0_chk8.eq_1 v181))
theorem k0_off23_inb : ∀ (v181 : BitVec 32) (k0_hw8 : k0_chk8 v181), ∀ a, (k0_off23 v181) a + S1x512x512.size a ≤ S16x512x512.size a := fun v181 k0_hw8 => k0_hw8.1
theorem k0_off24_inb : ∀ (v181 : BitVec 32) (k0_hw8 : k0_chk8 v181), ∀ a, (k0_off24 v181) a + S1x512.size a ≤ S16x512.size a := fun v181 k0_hw8 => k0_hw8.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x16x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S64 : S_.BroadcastsInDim S64 (![] : Fin 0 → Fin S64.rank)
  bitsLt_bf16_f32 : FTy.bits .bf16 < FTy.bits .f32
  shapeCasts_S512_S1x512 : S512.ShapeCasts S1x512
  shapeCasts_S256_S1x256 : S256.ShapeCasts S1x256
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  shapeCasts_S4x256x256_S1024x256 : S4x256x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S2x1x512x512_S1x1x512x512_0_0_0_0 : ∀ a, (![0, 0, 0, 0] : Fin 4 → Nat) a + S1x1x512x512.size a ≤ S2x1x512x512.size a
  h_S1x1x512x512 : 0 < S1x1x512x512.numel
  shapeCasts_S1x1x512x512_S512x512 : S1x1x512x512.ShapeCasts S512x512
  inb_S2x1x512_S1x1x512_0_0_0 : ∀ a, (![0, 0, 0] : Fin 3 → Nat) a + S1x1x512.size a ≤ S2x1x512.size a
  h_S1x1x512 : 0 < S1x1x512.numel
  shapeCasts_S1x1x512_S512 : S1x1x512.ShapeCasts S512
  transposes_S512x512_p1_0_S512x512 : S512x512.Transposes [1, 0] S512x512
  numel1_S1 : S1.numel = 1
  inb_S2x16x512x512_S1x16x512x512_0_0_0_0 : ∀ a, (![0, 0, 0, 0] : Fin 4 → Nat) a + S1x16x512x512.size a ≤ S2x16x512x512.size a
  squeezes_S1x16x512x512_S16x512x512 : S1x16x512x512.Squeezes S16x512x512
  h_S1x512x512 : 0 < S1x512x512.numel
  shapeCasts_S1x512x512_S512x512 : S1x512x512.ShapeCasts S512x512
  inb_S2x16x512_S1x16x512_0_0_0 : ∀ a, (![0, 0, 0] : Fin 3 → Nat) a + S1x16x512.size a ≤ S2x16x512.size a
  squeezes_S1x16x512_S16x512 : S1x16x512.Squeezes S16x512
  shapeCasts_S1x512_S512 : S1x512.ShapeCasts S512
  slices_S1024x512_o0_0_S256x512 : S1024x512.Slices ![0, 0] S256x512
  broadcasts_S1x512_S256x512 : S1x512.Broadcasts S256x512
  slices_S1024x512_o256_0_S256x512 : S1024x512.Slices ![256, 0] S256x512
  slices_S1024x512_o512_0_S256x512 : S1024x512.Slices ![512, 0] S256x512
  slices_S1024x512_o768_0_S256x512 : S1024x512.Slices ![768, 0] S256x512
  concatenates_S256x512_S256x512_S256x512_S256x512_S1024x512_d0 : Shape.Concatenates [S256x512, S256x512, S256x512, S256x512] S1024x512 0
  inb_S2x1x512x512_S1x1x512x512_1_0_0_0 : ∀ a, (![1, 0, 0, 0] : Fin 4 → Nat) a + S1x1x512x512.size a ≤ S2x1x512x512.size a
  inb_S2x1x512_S1x1x512_1_0_0 : ∀ a, (![1, 0, 0] : Fin 3 → Nat) a + S1x1x512.size a ≤ S2x1x512.size a
  inb_S2x16x512x512_S1x16x512x512_1_0_0_0 : ∀ a, (![1, 0, 0, 0] : Fin 4 → Nat) a + S1x16x512x512.size a ≤ S2x16x512x512.size a
  inb_S2x16x512_S1x16x512_1_0_0 : ∀ a, (![1, 0, 0] : Fin 3 → Nat) a + S1x16x512.size a ≤ S2x16x512.size a
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S4x256x256 : S1024x256.ShapeCasts S4x256x256
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S256x512_S512x512_S256x512_1_0_0_1_n_n_wf : DotDims.WF S256x512 S512x512 S256x512 [1] [0] [0] [1] [] []
  dot_S1024x512_S512x256_S1024x256_1_0_0_1_n_n_wf : DotDims.WF S1024x512 S512x256 S1024x256 [1] [0] [0] [1] [] []
  hrank0 : 0 < grid0.rank
  k0_off1_inb : ∀ i : grid0.Coords, ∀ a, (k0_off1 i) a + S1.size a ≤ S64.size a
  k0_off4_inb : ∀ i : grid0.Coords, ∀ a, (k0_off4 i) a + S1.size a ≤ S64.size a
  k0_off7_inb : ∀ i : grid0.Coords, ∀ a, (k0_off7 i) a + S1.size a ≤ S64.size a
  k0_off10_inb : ∀ i : grid0.Coords, ∀ a, (k0_off10 i) a + S1.size a ≤ S64.size a
  k0_off13_inb : ∀ i : grid0.Coords, ∀ a, (k0_off13 i) a + S1.size a ≤ S64.size a
  k0_off16_inb : ∀ i : grid0.Coords, ∀ a, (k0_off16 i) a + S1.size a ≤ S64.size a
  k0_off19_inb : ∀ i : grid0.Coords, ∀ a, (k0_off19 i) a + S1.size a ≤ S64.size a
  k0_off22_inb : ∀ i : grid0.Coords, ∀ a, (k0_off22 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x256.size a ≤ S64x256x256.size a
  hwx0_0 : ∀ i : grid0.Coords, EltTy.bits .bf16 = 32 ∨ (Rect.block (s := S64x256x256) S4x256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x16x512x512.size a ≤ S2x16x512x512.size a
  hwx0_3 : ∀ i : grid0.Coords, EltTy.bits .bf16 = 32 ∨ (Rect.block (s := S2x16x512x512) S2x16x512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x16x512.size a ≤ S2x16x512.size a
  hwx0_4 : ∀ i : grid0.Coords, EltTy.bits .f32 = 32 ∨ (Rect.block (s := S2x16x512) S2x16x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1x512x512.size a ≤ S2x1x512x512.size a
  hwx0_5 : ∀ i : grid0.Coords, EltTy.bits .bf16 = 32 ∨ (Rect.block (s := S2x1x512x512) S2x1x512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1x512.size a ≤ S2x1x512.size a
  hwx0_6 : ∀ i : grid0.Coords, EltTy.bits .f32 = 32 ∨ (Rect.block (s := S2x1x512) S2x1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x256x256.size a ≤ S64x256x256.size a
  hwx0_9 : ∀ i : grid0.Coords, EltTy.bits .f32 = 32 ∨ (Rect.block (s := S64x256x256) S4x256x256.size (cc0_transform_9 i) (hinb0_9 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev spec0_0 : Pipeline.WinSpec sig grid0.rank :=
  Pipeline.WinSpec.ofSpec (Memref.whole main_v1) S4x256x256.size reads0_0 false false 2 stage0_0 sem0_0 nbuf0_0 hstage0_0

abbrev spec0_1 : Pipeline.WinSpec sig grid0.rank :=
  Pipeline.WinSpec.ofSpec (Memref.whole main_v2) S512x256.size reads0_1 false true 1 stage0_1 sem0_1 nbuf0_1 hstage0_1

abbrev spec0_2 : Pipeline.WinSpec sig grid0.rank :=
  Pipeline.WinSpec.ofSpec (Memref.whole main_v6) S1x512.size reads0_2 false true 1 stage0_2 sem0_2 nbuf0_2 hstage0_2

abbrev spec0_3 : Pipeline.WinSpec sig grid0.rank :=
  Pipeline.WinSpec.ofSpec (Memref.whole main_v3) S2x16x512x512.size reads0_3 false true 1 stage0_3 sem0_3 nbuf0_3 hstage0_3

abbrev spec0_4 : Pipeline.WinSpec sig grid0.rank :=
  Pipeline.WinSpec.ofSpec (Memref.whole main_arg5) S2x16x512.size reads0_4 false true 1 stage0_4 sem0_4 nbuf0_4 hstage0_4

abbrev spec0_5 : Pipeline.WinSpec sig grid0.rank :=
  Pipeline.WinSpec.ofSpec (Memref.whole main_v4) S2x1x512x512.size reads0_5 false true 1 stage0_5 sem0_5 nbuf0_5 hstage0_5

abbrev spec0_6 : Pipeline.WinSpec sig grid0.rank :=
  Pipeline.WinSpec.ofSpec (Memref.whole main_arg7) S2x1x512.size reads0_6 false true 1 stage0_6 sem0_6 nbuf0_6 hstage0_6

abbrev spec0_7 : Pipeline.WinSpec sig grid0.rank :=
  Pipeline.WinSpec.ofSpec (Memref.whole main_v5) S256x512.size reads0_7 false true 1 stage0_7 sem0_7 nbuf0_7 hstage0_7

abbrev spec0_8 : Pipeline.WinSpec sig grid0.rank :=
  Pipeline.WinSpec.ofSpec (Memref.whole main_v7) S1x256.size reads0_8 false true 1 stage0_8 sem0_8 nbuf0_8 hstage0_8

abbrev spec0_9 : Pipeline.WinSpec sig grid0.rank :=
  Pipeline.WinSpec.ofSpec (Memref.whole main_v8) S4x256x256.size reads0_9 true false 2 stage0_9 sem0_9 nbuf0_9 hstage0_9

abbrev spec0 : Fin 10 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | ⟨_ + 10, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | ⟨_ + 10, h⟩ => absurd h (Nat.not_lt.2 (Nat.le_add_left _ _))
abbrev ix0 (pf : pre0.Contents (Elt F)) : (w : Fin 10) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | ⟨_ + 10, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | ⟨_ + 10, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | ⟨_ + 10, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | ⟨_ + 10, h⟩ => absurd h (Nat.not_lt.2 (Nat.le_add_left _ _))

class Facts : Prop extends Facts₀ where
  harr0 : ∀ w, (spec0 w).arr.IsWhole

variable [Facts]
-- ==== ReferenceIdeal.lean ====
abbrev S64x256x256 : Shape := ⟨3, ![64, 256, 256]⟩
abbrev S64 : Shape := ⟨1, ![64]⟩
abbrev S512x256 : Shape := ⟨2, ![512, 256]⟩
abbrev S512 : Shape := ⟨1, ![512]⟩
abbrev S2x16x512x512 : Shape := ⟨4, ![2, 16, 512, 512]⟩
abbrev S2x16x512 : Shape := ⟨3, ![2, 16, 512]⟩
abbrev S2x1x512x512 : Shape := ⟨4, ![2, 1, 512, 512]⟩
abbrev S2x1x512 : Shape := ⟨3, ![2, 1, 512]⟩
abbrev S256x512 : Shape := ⟨2, ![256, 512]⟩
abbrev S256 : Shape := ⟨1, ![256]⟩
abbrev S16384x256 : Shape := ⟨2, ![16384, 256]⟩
abbrev S64x256 : Shape := ⟨2, ![64, 256]⟩
abbrev S16384 : Shape := ⟨1, ![16384]⟩
abbrev S16384x512 : Shape := ⟨2, ![16384, 512]⟩
abbrev S1x512 : Shape := ⟨2, ![1, 512]⟩
abbrev S_ : Shape := ⟨0, ![]⟩
abbrev S1x1x512x512 : Shape := ⟨4, ![1, 1, 512, 512]⟩
abbrev S1x512x512 : Shape := ⟨3, ![1, 512, 512]⟩
abbrev S1x512x16384 : Shape := ⟨3, ![1, 512, 16384]⟩
abbrev S1x16384x512 : Shape := ⟨3, ![1, 16384, 512]⟩
abbrev S1x1x512 : Shape := ⟨3, ![1, 1, 512]⟩
abbrev S512x512 : Shape := ⟨2, ![512, 512]⟩
abbrev S16384x1 : Shape := ⟨2, ![16384, 1]⟩
abbrev S1x256 : Shape := ⟨2, ![1, 256]⟩

abbrev nBuf : Space → Nat
  | .hbm => 677
  | .vmem => 0
  | .smem => 0
  | _ => 0

abbrev hbmTy0_0 (i : Nat) : BufTy := match i % 128 with
  | 0 => ⟨S64x256x256, .f32⟩
  | 1 => ⟨S64, .i32⟩
  | 2 => ⟨S512x256, .f32⟩
  | 3 => ⟨S512, .f32⟩
  | 4 => ⟨S2x16x512x512, .f32⟩
  | 5 => ⟨S2x16x512, .f32⟩
  | 6 => ⟨S2x1x512x512, .f32⟩
  | 7 => ⟨S2x1x512, .f32⟩
  | 8 => ⟨S256x512, .f32⟩
  | 9 => ⟨S256, .f32⟩
  | 10 => ⟨S16384x256, .f32⟩
  | 11 => ⟨S64x256, .i32⟩
  | 12 => ⟨S16384, .i32⟩
  | 13 => ⟨S256x512, .f32⟩
  | 14 => ⟨S16384x512, .f32⟩
  | 15 => ⟨S1x512, .f32⟩
  | 16 => ⟨S16384x512, .f32⟩
  | 17 => ⟨S16384x512, .f32⟩
  | 18 => ⟨S_, .f32⟩
  | 19 => ⟨S16384x512, .f32⟩
  | 20 => ⟨S16384x512, .f32⟩
  | 21 => ⟨S1x1x512x512, .f32⟩
  | 22 => ⟨S1x512x512, .f32⟩
  | 23 => ⟨S1x512x16384, .f32⟩
  | 24 => ⟨S1x16384x512, .f32⟩
  | 25 => ⟨S1x1x512, .f32⟩
  | 26 => ⟨S1x512, .f32⟩
  | 27 => ⟨S1x1x512, .f32⟩
  | 28 => ⟨S1x16384x512, .f32⟩
  | 29 => ⟨S1x16384x512, .f32⟩
  | 30 => ⟨S_, .f32⟩
  | 31 => ⟨S16384x512, .f32⟩
  | 32 => ⟨S_, .f32⟩
  | 33 => ⟨S16384x512, .f32⟩
  | 34 => ⟨S16384x512, .f32⟩
  | 35 => ⟨S_, .f32⟩
  | 36 => ⟨S16384x512, .f32⟩
  | 37 => ⟨S1x1x512x512, .f32⟩
  | 38 => ⟨S512x512, .f32⟩
  | 39 => ⟨S512x512, .f32⟩
  | 40 => ⟨S16384x512, .f32⟩
  | 41 => ⟨S1x1x512, .f32⟩
  | 42 => ⟨S512, .f32⟩
  | 43 => ⟨S1x512, .f32⟩
  | 44 => ⟨S16384x512, .f32⟩
  | 45 => ⟨S16384x512, .f32⟩
  | 46 => ⟨S_, .i32⟩
  | 47 => ⟨S16384, .i32⟩
  | 48 => ⟨S16384, .i1⟩
  | 49 => ⟨S16384x1, .i1⟩
  | 50 => ⟨S_, .f32⟩
  | 51 => ⟨S_, .f32⟩
  | 52 => ⟨S16384x512, .i1⟩
  | 53 => ⟨S16384x512, .f32⟩
  | 54 => ⟨S16384x512, .f32⟩
  | 55 => ⟨S16384x512, .f32⟩
  | 56 => ⟨S1x1x512x512, .f32⟩
  | 57 => ⟨S512x512, .f32⟩
  | 58 => ⟨S512x512, .f32⟩
  | 59 => ⟨S16384x512, .f32⟩
  | 60 => ⟨S1x1x512, .f32⟩
  | 61 => ⟨S512, .f32⟩
  | 62 => ⟨S1x512, .f32⟩
  | 63 => ⟨S16384x512, .f32⟩
  | 64 => ⟨S16384x512, .f32⟩
  | 65 => ⟨S_, .i32⟩
  | 66 => ⟨S16384, .i32⟩
  | 67 => ⟨S16384, .i1⟩
  | 68 => ⟨S16384x1, .i1⟩
  | 69 => ⟨S_, .f32⟩
  | 70 => ⟨S_, .f32⟩
  | 71 => ⟨S16384x512, .i1⟩
  | 72 => ⟨S16384x512, .f32⟩
  | 73 => ⟨S16384x512, .f32⟩
  | 74 => ⟨S16384x512, .f32⟩
  | 75 => ⟨S1x1x512x512, .f32⟩
  | 76 => ⟨S512x512, .f32⟩
  | 77 => ⟨S512x512, .f32⟩
  | 78 => ⟨S16384x512, .f32⟩
  | 79 => ⟨S1x1x512, .f32⟩
  | 80 => ⟨S512, .f32⟩
  | 81 => ⟨S1x512, .f32⟩
  | 82 => ⟨S16384x512, .f32⟩
  | 83 => ⟨S16384x512, .f32⟩
  | 84 => ⟨S_, .i32⟩
  | 85 => ⟨S16384, .i32⟩
  | 86 => ⟨S16384, .i1⟩
  | 87 => ⟨S16384x1, .i1⟩
  | 88 => ⟨S_, .f32⟩
  | 89 => ⟨S_, .f32⟩
  | 90 => ⟨S16384x512, .i1⟩
  | 91 => ⟨S16384x512, .f32⟩
  | 92 => ⟨S16384x512, .f32⟩
  | 93 => ⟨S16384x512, .f32⟩
  | 94 => ⟨S1x1x512x512, .f32⟩
  | 95 => ⟨S512x512, .f32⟩
  | 96 => ⟨S512x512, .f32⟩
  | 97 => ⟨S16384x512, .f32⟩
  | 98 => ⟨S1x1x512, .f32⟩
  | 99 => ⟨S512, .f32⟩
  | 100 => ⟨S1x512, .f32⟩
  | 101 => ⟨S16384x512, .f32⟩
  | 102 => ⟨S16384x512, .f32⟩
  | 103 => ⟨S_, .i32⟩
  | 104 => ⟨S16384, .i32⟩
  | 105 => ⟨S16384, .i1⟩
  | 106 => ⟨S16384x1, .i1⟩
  | 107 => ⟨S_, .f32⟩
  | 108 => ⟨S_, .f32⟩
  | 109 => ⟨S16384x512, .i1⟩
  | 110 => ⟨S16384x512, .f32⟩
  | 111 => ⟨S16384x512, .f32⟩
  | 112 => ⟨S16384x512, .f32⟩
  | 113 => ⟨S1x1x512x512, .f32⟩
  | 114 => ⟨S512x512, .f32⟩
  | 115 => ⟨S512x512, .f32⟩
  | 116 => ⟨S16384x512, .f32⟩
  | 117 => ⟨S1x1x512, .f32⟩
  | 118 => ⟨S512, .f32⟩
  | 119 => ⟨S1x512, .f32⟩
  | 120 => ⟨S16384x512, .f32⟩
  | 121 => ⟨S16384x512, .f32⟩
  | 122 => ⟨S_, .i32⟩
  | 123 => ⟨S16384, .i32⟩
  | 124 => ⟨S16384, .i1⟩
  | 125 => ⟨S16384x1, .i1⟩
  | 126 => ⟨S_, .f32⟩
  | 127 => ⟨S_, .f32⟩
  | _ => ⟨S64x256x256, .f32⟩

abbrev hbmTy0_1 (i : Nat) : BufTy := match i % 128 with
  | 0 => ⟨S16384x512, .i1⟩
  | 1 => ⟨S16384x512, .f32⟩
  | 2 => ⟨S16384x512, .f32⟩
  | 3 => ⟨S16384x512, .f32⟩
  | 4 => ⟨S1x1x512x512, .f32⟩
  | 5 => ⟨S512x512, .f32⟩
  | 6 => ⟨S512x512, .f32⟩
  | 7 => ⟨S16384x512, .f32⟩
  | 8 => ⟨S1x1x512, .f32⟩
  | 9 => ⟨S512, .f32⟩
  | 10 => ⟨S1x512, .f32⟩
  | 11 => ⟨S16384x512, .f32⟩
  | 12 => ⟨S16384x512, .f32⟩
  | 13 => ⟨S_, .i32⟩
  | 14 => ⟨S16384, .i32⟩
  | 15 => ⟨S16384, .i1⟩
  | 16 => ⟨S16384x1, .i1⟩
  | 17 => ⟨S_, .f32⟩
  | 18 => ⟨S_, .f32⟩
  | 19 => ⟨S16384x512, .i1⟩
  | 20 => ⟨S16384x512, .f32⟩
  | 21 => ⟨S16384x512, .f32⟩
  | 22 => ⟨S16384x512, .f32⟩
  | 23 => ⟨S1x1x512x512, .f32⟩
  | 24 => ⟨S512x512, .f32⟩
  | 25 => ⟨S512x512, .f32⟩
  | 26 => ⟨S16384x512, .f32⟩
  | 27 => ⟨S1x1x512, .f32⟩
  | 28 => ⟨S512, .f32⟩
  | 29 => ⟨S1x512, .f32⟩
  | 30 => ⟨S16384x512, .f32⟩
  | 31 => ⟨S16384x512, .f32⟩
  | 32 => ⟨S_, .i32⟩
  | 33 => ⟨S16384, .i32⟩
  | 34 => ⟨S16384, .i1⟩
  | 35 => ⟨S16384x1, .i1⟩
  | 36 => ⟨S_, .f32⟩
  | 37 => ⟨S_, .f32⟩
  | 38 => ⟨S16384x512, .i1⟩
  | 39 => ⟨S16384x512, .f32⟩
  | 40 => ⟨S16384x512, .f32⟩
  | 41 => ⟨S16384x512, .f32⟩
  | 42 => ⟨S1x1x512x512, .f32⟩
  | 43 => ⟨S512x512, .f32⟩
  | 44 => ⟨S512x512, .f32⟩
  | 45 => ⟨S16384x512, .f32⟩
  | 46 => ⟨S1x1x512, .f32⟩
  | 47 => ⟨S512, .f32⟩
  | 48 => ⟨S1x512, .f32⟩
  | 49 => ⟨S16384x512, .f32⟩
  | 50 => ⟨S16384x512, .f32⟩
  | 51 => ⟨S_, .i32⟩
  | 52 => ⟨S16384, .i32⟩
  | 53 => ⟨S16384, .i1⟩
  | 54 => ⟨S16384x1, .i1⟩
  | 55 => ⟨S_, .f32⟩
  | 56 => ⟨S_, .f32⟩
  | 57 => ⟨S16384x512, .i1⟩
  | 58 => ⟨S16384x512, .f32⟩
  | 59 => ⟨S16384x512, .f32⟩
  | 60 => ⟨S16384x512, .f32⟩
  | 61 => ⟨S1x1x512x512, .f32⟩
  | 62 => ⟨S512x512, .f32⟩
  | 63 => ⟨S512x512, .f32⟩
  | 64 => ⟨S16384x512, .f32⟩
  | 65 => ⟨S1x1x512, .f32⟩
  | 66 => ⟨S512, .f32⟩
  | 67 => ⟨S1x512, .f32⟩
  | 68 => ⟨S16384x512, .f32⟩
  | 69 => ⟨S16384x512, .f32⟩
  | 70 => ⟨S_, .i32⟩
  | 71 => ⟨S16384, .i32⟩
  | 72 => ⟨S16384, .i1⟩
  | 73 => ⟨S16384x1, .i1⟩
  | 74 => ⟨S_, .f32⟩
  | 75 => ⟨S_, .f32⟩
  | 76 => ⟨S16384x512, .i1⟩
  | 77 => ⟨S16384x512, .f32⟩
  | 78 => ⟨S16384x512, .f32⟩
  | 79 => ⟨S16384x512, .f32⟩
  | 80 => ⟨S1x1x512x512, .f32⟩
  | 81 => ⟨S512x512, .f32⟩
  | 82 => ⟨S512x512, .f32⟩
  | 83 => ⟨S16384x512, .f32⟩
  | 84 => ⟨S1x1x512, .f32⟩
  | 85 => ⟨S512, .f32⟩
  | 86 => ⟨S1x512, .f32⟩
  | 87 => ⟨S16384x512, .f32⟩
  | 88 => ⟨S16384x512, .f32⟩
  | 89 => ⟨S_, .i32⟩
  | 90 => ⟨S16384, .i32⟩
  | 91 => ⟨S16384, .i1⟩
  | 92 => ⟨S16384x1, .i1⟩
  | 93 => ⟨S_, .f32⟩
  | 94 => ⟨S_, .f32⟩
  | 95 => ⟨S16384x512, .i1⟩
  | 96 => ⟨S16384x512, .f32⟩
  | 97 => ⟨S16384x512, .f32⟩
  | 98 => ⟨S16384x512, .f32⟩
  | 99 => ⟨S1x1x512x512, .f32⟩
  | 100 => ⟨S512x512, .f32⟩
  | 101 => ⟨S512x512, .f32⟩
  | 102 => ⟨S16384x512, .f32⟩
  | 103 => ⟨S1x1x512, .f32⟩
  | 104 => ⟨S512, .f32⟩
  | 105 => ⟨S1x512, .f32⟩
  | 106 => ⟨S16384x512, .f32⟩
  | 107 => ⟨S16384x512, .f32⟩
  | 108 => ⟨S_, .i32⟩
  | 109 => ⟨S16384, .i32⟩
  | 110 => ⟨S16384, .i1⟩
  | 111 => ⟨S16384x1, .i1⟩
  | 112 => ⟨S_, .f32⟩
  | 113 => ⟨S_, .f32⟩
  | 114 => ⟨S16384x512, .i1⟩
  | 115 => ⟨S16384x512, .f32⟩
  | 116 => ⟨S16384x512, .f32⟩
  | 117 => ⟨S16384x512, .f32⟩
  | 118 => ⟨S1x1x512x512, .f32⟩
  | 119 => ⟨S512x512, .f32⟩
  | 120 => ⟨S512x512, .f32⟩
  | 121 => ⟨S16384x512, .f32⟩
  | 122 => ⟨S1x1x512, .f32⟩
  | 123 => ⟨S512, .f32⟩
  | 124 => ⟨S1x512, .f32⟩
  | 125 => ⟨S16384x512, .f32⟩
  | 126 => ⟨S16384x512, .f32⟩
  | 127 => ⟨S_, .i32⟩
  | _ => ⟨S64x256x256, .f32⟩

abbrev hbmTy0_2 (i : Nat) : BufTy := match i % 128 with
  | 0 => ⟨S16384, .i32⟩
  | 1 => ⟨S16384, .i1⟩
  | 2 => ⟨S16384x1, .i1⟩
  | 3 => ⟨S_, .f32⟩
  | 4 => ⟨S_, .f32⟩
  | 5 => ⟨S16384x512, .i1⟩
  | 6 => ⟨S16384x512, .f32⟩
  | 7 => ⟨S16384x512, .f32⟩
  | 8 => ⟨S16384x512, .f32⟩
  | 9 => ⟨S1x1x512x512, .f32⟩
  | 10 => ⟨S512x512, .f32⟩
  | 11 => ⟨S512x512, .f32⟩
  | 12 => ⟨S16384x512, .f32⟩
  | 13 => ⟨S1x1x512, .f32⟩
  | 14 => ⟨S512, .f32⟩
  | 15 => ⟨S1x512, .f32⟩
  | 16 => ⟨S16384x512, .f32⟩
  | 17 => ⟨S16384x512, .f32⟩
  | 18 => ⟨S_, .i32⟩
  | 19 => ⟨S16384, .i32⟩
  | 20 => ⟨S16384, .i1⟩
  | 21 => ⟨S16384x1, .i1⟩
  | 22 => ⟨S_, .f32⟩
  | 23 => ⟨S_, .f32⟩
  | 24 => ⟨S16384x512, .i1⟩
  | 25 => ⟨S16384x512, .f32⟩
  | 26 => ⟨S16384x512, .f32⟩
  | 27 => ⟨S16384x512, .f32⟩
  | 28 => ⟨S1x1x512x512, .f32⟩
  | 29 => ⟨S512x512, .f32⟩
  | 30 => ⟨S512x512, .f32⟩
  | 31 => ⟨S16384x512, .f32⟩
  | 32 => ⟨S1x1x512, .f32⟩
  | 33 => ⟨S512, .f32⟩
  | 34 => ⟨S1x512, .f32⟩
  | 35 => ⟨S16384x512, .f32⟩
  | 36 => ⟨S16384x512, .f32⟩
  | 37 => ⟨S_, .i32⟩
  | 38 => ⟨S16384, .i32⟩
  | 39 => ⟨S16384, .i1⟩
  | 40 => ⟨S16384x1, .i1⟩
  | 41 => ⟨S_, .f32⟩
  | 42 => ⟨S_, .f32⟩
  | 43 => ⟨S16384x512, .i1⟩
  | 44 => ⟨S16384x512, .f32⟩
  | 45 => ⟨S16384x512, .f32⟩
  | 46 => ⟨S16384x512, .f32⟩
  | 47 => ⟨S1x1x512x512, .f32⟩
  | 48 => ⟨S512x512, .f32⟩
  | 49 => ⟨S512x512, .f32⟩
  | 50 => ⟨S16384x512, .f32⟩
  | 51 => ⟨S1x1x512, .f32⟩
  | 52 => ⟨S512, .f32⟩
  | 53 => ⟨S1x512, .f32⟩
  | 54 => ⟨S16384x512, .f32⟩
  | 55 => ⟨S16384x512, .f32⟩
  | 56 => ⟨S_, .i32⟩
  | 57 => ⟨S16384, .i32⟩
  | 58 => ⟨S16384, .i1⟩
  | 59 => ⟨S16384x1, .i1⟩
  | 60 => ⟨S_, .f32⟩
  | 61 => ⟨S_, .f32⟩
  | 62 => ⟨S16384x512, .i1⟩
  | 63 => ⟨S16384x512, .f32⟩
  | 64 => ⟨S16384x512, .f32⟩
  | 65 => ⟨S16384x512, .f32⟩
  | 66 => ⟨S1x1x512x512, .f32⟩
  | 67 => ⟨S512x512, .f32⟩
  | 68 => ⟨S512x512, .f32⟩
  | 69 => ⟨S16384x512, .f32⟩
  | 70 => ⟨S1x1x512, .f32⟩
  | 71 => ⟨S512, .f32⟩
  | 72 => ⟨S1x512, .f32⟩
  | 73 => ⟨S16384x512, .f32⟩
  | 74 => ⟨S16384x512, .f32⟩
  | 75 => ⟨S_, .i32⟩
  | 76 => ⟨S16384, .i32⟩
  | 77 => ⟨S16384, .i1⟩
  | 78 => ⟨S16384x1, .i1⟩
  | 79 => ⟨S_, .f32⟩
  | 80 => ⟨S_, .f32⟩
  | 81 => ⟨S16384x512, .i1⟩
  | 82 => ⟨S16384x512, .f32⟩
  | 83 => ⟨S16384x512, .f32⟩
  | 84 => ⟨S16384x512, .f32⟩
  | 85 => ⟨S16384x512, .f32⟩
  | 86 => ⟨S16384x512, .f32⟩
  | 87 => ⟨S_, .f32⟩
  | 88 => ⟨S16384x512, .f32⟩
  | 89 => ⟨S16384x512, .f32⟩
  | 90 => ⟨S1x1x512x512, .f32⟩
  | 91 => ⟨S1x512x512, .f32⟩
  | 92 => ⟨S1x512x16384, .f32⟩
  | 93 => ⟨S1x16384x512, .f32⟩
  | 94 => ⟨S1x1x512, .f32⟩
  | 95 => ⟨S1x512, .f32⟩
  | 96 => ⟨S1x1x512, .f32⟩
  | 97 => ⟨S1x16384x512, .f32⟩
  | 98 => ⟨S1x16384x512, .f32⟩
  | 99 => ⟨S_, .f32⟩
  | 100 => ⟨S16384x512, .f32⟩
  | 101 => ⟨S_, .f32⟩
  | 102 => ⟨S16384x512, .f32⟩
  | 103 => ⟨S16384x512, .f32⟩
  | 104 => ⟨S_, .f32⟩
  | 105 => ⟨S16384x512, .f32⟩
  | 106 => ⟨S1x1x512x512, .f32⟩
  | 107 => ⟨S512x512, .f32⟩
  | 108 => ⟨S512x512, .f32⟩
  | 109 => ⟨S16384x512, .f32⟩
  | 110 => ⟨S1x1x512, .f32⟩
  | 111 => ⟨S512, .f32⟩
  | 112 => ⟨S1x512, .f32⟩
  | 113 => ⟨S16384x512, .f32⟩
  | 114 => ⟨S16384x512, .f32⟩
  | 115 => ⟨S_, .i32⟩
  | 116 => ⟨S16384, .i32⟩
  | 117 => ⟨S16384, .i1⟩
  | 118 => ⟨S16384x1, .i1⟩
  | 119 => ⟨S_, .f32⟩
  | 120 => ⟨S_, .f32⟩
  | 121 => ⟨S16384x512, .i1⟩
  | 122 => ⟨S16384x512, .f32⟩
  | 123 => ⟨S16384x512, .f32⟩
  | 124 => ⟨S16384x512, .f32⟩
  | 125 => ⟨S1x1x512x512, .f32⟩
  | 126 => ⟨S512x512, .f32⟩
  | 127 => ⟨S512x512, .f32⟩
  | _ => ⟨S64x256x256, .f32⟩

abbrev hbmTy0_3 (i : Nat) : BufTy := match i % 128 with
  | 0 => ⟨S16384x512, .f32⟩
  | 1 => ⟨S1x1x512, .f32⟩
  | 2 => ⟨S512, .f32⟩
  | 3 => ⟨S1x512, .f32⟩
  | 4 => ⟨S16384x512, .f32⟩
  | 5 => ⟨S16384x512, .f32⟩
  | 6 => ⟨S_, .i32⟩
  | 7 => ⟨S16384, .i32⟩
  | 8 => ⟨S16384, .i1⟩
  | 9 => ⟨S16384x1, .i1⟩
  | 10 => ⟨S_, .f32⟩
  | 11 => ⟨S_, .f32⟩
  | 12 => ⟨S16384x512, .i1⟩
  | 13 => ⟨S16384x512, .f32⟩
  | 14 => ⟨S16384x512, .f32⟩
  | 15 => ⟨S16384x512, .f32⟩
  | 16 => ⟨S1x1x512x512, .f32⟩
  | 17 => ⟨S512x512, .f32⟩
  | 18 => ⟨S512x512, .f32⟩
  | 19 => ⟨S16384x512, .f32⟩
  | 20 => ⟨S1x1x512, .f32⟩
  | 21 => ⟨S512, .f32⟩
  | 22 => ⟨S1x512, .f32⟩
  | 23 => ⟨S16384x512, .f32⟩
  | 24 => ⟨S16384x512, .f32⟩
  | 25 => ⟨S_, .i32⟩
  | 26 => ⟨S16384, .i32⟩
  | 27 => ⟨S16384, .i1⟩
  | 28 => ⟨S16384x1, .i1⟩
  | 29 => ⟨S_, .f32⟩
  | 30 => ⟨S_, .f32⟩
  | 31 => ⟨S16384x512, .i1⟩
  | 32 => ⟨S16384x512, .f32⟩
  | 33 => ⟨S16384x512, .f32⟩
  | 34 => ⟨S16384x512, .f32⟩
  | 35 => ⟨S1x1x512x512, .f32⟩
  | 36 => ⟨S512x512, .f32⟩
  | 37 => ⟨S512x512, .f32⟩
  | 38 => ⟨S16384x512, .f32⟩
  | 39 => ⟨S1x1x512, .f32⟩
  | 40 => ⟨S512, .f32⟩
  | 41 => ⟨S1x512, .f32⟩
  | 42 => ⟨S16384x512, .f32⟩
  | 43 => ⟨S16384x512, .f32⟩
  | 44 => ⟨S_, .i32⟩
  | 45 => ⟨S16384, .i32⟩
  | 46 => ⟨S16384, .i1⟩
  | 47 => ⟨S16384x1, .i1⟩
  | 48 => ⟨S_, .f32⟩
  | 49 => ⟨S_, .f32⟩
  | 50 => ⟨S16384x512, .i1⟩
  | 51 => ⟨S16384x512, .f32⟩
  | 52 => ⟨S16384x512, .f32⟩
  | 53 => ⟨S16384x512, .f32⟩
  | 54 => ⟨S1x1x512x512, .f32⟩
  | 55 => ⟨S512x512, .f32⟩
  | 56 => ⟨S512x512, .f32⟩
  | 57 => ⟨S16384x512, .f32⟩
  | 58 => ⟨S1x1x512, .f32⟩
  | 59 => ⟨S512, .f32⟩
  | 60 => ⟨S1x512, .f32⟩
  | 61 => ⟨S16384x512, .f32⟩
  | 62 => ⟨S16384x512, .f32⟩
  | 63 => ⟨S_, .i32⟩
  | 64 => ⟨S16384, .i32⟩
  | 65 => ⟨S16384, .i1⟩
  | 66 => ⟨S16384x1, .i1⟩
  | 67 => ⟨S_, .f32⟩
  | 68 => ⟨S_, .f32⟩
  | 69 => ⟨S16384x512, .i1⟩
  | 70 => ⟨S16384x512, .f32⟩
  | 71 => ⟨S16384x512, .f32⟩
  | 72 => ⟨S16384x512, .f32⟩
  | 73 => ⟨S1x1x512x512, .f32⟩
  | 74 => ⟨S512x512, .f32⟩
  | 75 => ⟨S512x512, .f32⟩
  | 76 => ⟨S16384x512, .f32⟩
  | 77 => ⟨S1x1x512, .f32⟩
  | 78 => ⟨S512, .f32⟩
  | 79 => ⟨S1x512, .f32⟩
  | 80 => ⟨S16384x512, .f32⟩
  | 81 => ⟨S16384x512, .f32⟩
  | 82 => ⟨S_, .i32⟩
  | 83 => ⟨S16384, .i32⟩
  | 84 => ⟨S16384, .i1⟩
  | 85 => ⟨S16384x1, .i1⟩
  | 86 => ⟨S_, .f32⟩
  | 87 => ⟨S_, .f32⟩
  | 88 => ⟨S16384x512, .i1⟩
  | 89 => ⟨S16384x512, .f32⟩
  | 90 => ⟨S16384x512, .f32⟩
  | 91 => ⟨S16384x512, .f32⟩
  | 92 => ⟨S1x1x512x512, .f32⟩
  | 93 => ⟨S512x512, .f32⟩
  | 94 => ⟨S512x512, .f32⟩
  | 95 => ⟨S16384x512, .f32⟩
  | 96 => ⟨S1x1x512, .f32⟩
  | 97 => ⟨S512, .f32⟩
  | 98 => ⟨S1x512, .f32⟩
  | 99 => ⟨S16384x512, .f32⟩
  | 100 => ⟨S16384x512, .f32⟩
  | 101 => ⟨S_, .i32⟩
  | 102 => ⟨S16384, .i32⟩
  | 103 => ⟨S16384, .i1⟩
  | 104 => ⟨S16384x1, .i1⟩
  | 105 => ⟨S_, .f32⟩
  | 106 => ⟨S_, .f32⟩
  | 107 => ⟨S16384x512, .i1⟩
  | 108 => ⟨S16384x512, .f32⟩
  | 109 => ⟨S16384x512, .f32⟩
  | 110 => ⟨S16384x512, .f32⟩
  | 111 => ⟨S1x1x512x512, .f32⟩
  | 112 => ⟨S512x512, .f32⟩
  | 113 => ⟨S512x512, .f32⟩
  | 114 => ⟨S16384x512, .f32⟩
  | 115 => ⟨S1x1x512, .f32⟩
  | 116 => ⟨S512, .f32⟩
  | 117 => ⟨S1x512, .f32⟩
  | 118 => ⟨S16384x512, .f32⟩
  | 119 => ⟨S16384x512, .f32⟩
  | 120 => ⟨S_, .i32⟩
  | 121 => ⟨S16384, .i32⟩
  | 122 => ⟨S16384, .i1⟩
  | 123 => ⟨S16384x1, .i1⟩
  | 124 => ⟨S_, .f32⟩
  | 125 => ⟨S_, .f32⟩
  | 126 => ⟨S16384x512, .i1⟩
  | 127 => ⟨S16384x512, .f32⟩
  | _ => ⟨S64x256x256, .f32⟩

abbrev hbmTy0_4 (i : Nat) : BufTy := match i % 128 with
  | 0 => ⟨S16384x512, .f32⟩
  | 1 => ⟨S16384x512, .f32⟩
  | 2 => ⟨S1x1x512x512, .f32⟩
  | 3 => ⟨S512x512, .f32⟩
  | 4 => ⟨S512x512, .f32⟩
  | 5 => ⟨S16384x512, .f32⟩
  | 6 => ⟨S1x1x512, .f32⟩
  | 7 => ⟨S512, .f32⟩
  | 8 => ⟨S1x512, .f32⟩
  | 9 => ⟨S16384x512, .f32⟩
  | 10 => ⟨S16384x512, .f32⟩
  | 11 => ⟨S_, .i32⟩
  | 12 => ⟨S16384, .i32⟩
  | 13 => ⟨S16384, .i1⟩
  | 14 => ⟨S16384x1, .i1⟩
  | 15 => ⟨S_, .f32⟩
  | 16 => ⟨S_, .f32⟩
  | 17 => ⟨S16384x512, .i1⟩
  | 18 => ⟨S16384x512, .f32⟩
  | 19 => ⟨S16384x512, .f32⟩
  | 20 => ⟨S16384x512, .f32⟩
  | 21 => ⟨S1x1x512x512, .f32⟩
  | 22 => ⟨S512x512, .f32⟩
  | 23 => ⟨S512x512, .f32⟩
  | 24 => ⟨S16384x512, .f32⟩
  | 25 => ⟨S1x1x512, .f32⟩
  | 26 => ⟨S512, .f32⟩
  | 27 => ⟨S1x512, .f32⟩
  | 28 => ⟨S16384x512, .f32⟩
  | 29 => ⟨S16384x512, .f32⟩
  | 30 => ⟨S_, .i32⟩
  | 31 => ⟨S16384, .i32⟩
  | 32 => ⟨S16384, .i1⟩
  | 33 => ⟨S16384x1, .i1⟩
  | 34 => ⟨S_, .f32⟩
  | 35 => ⟨S_, .f32⟩
  | 36 => ⟨S16384x512, .i1⟩
  | 37 => ⟨S16384x512, .f32⟩
  | 38 => ⟨S16384x512, .f32⟩
  | 39 => ⟨S16384x512, .f32⟩
  | 40 => ⟨S1x1x512x512, .f32⟩
  | 41 => ⟨S512x512, .f32⟩
  | 42 => ⟨S512x512, .f32⟩
  | 43 => ⟨S16384x512, .f32⟩
  | 44 => ⟨S1x1x512, .f32⟩
  | 45 => ⟨S512, .f32⟩
  | 46 => ⟨S1x512, .f32⟩
  | 47 => ⟨S16384x512, .f32⟩
  | 48 => ⟨S16384x512, .f32⟩
  | 49 => ⟨S_, .i32⟩
  | 50 => ⟨S16384, .i32⟩
  | 51 => ⟨S16384, .i1⟩
  | 52 => ⟨S16384x1, .i1⟩
  | 53 => ⟨S_, .f32⟩
  | 54 => ⟨S_, .f32⟩
  | 55 => ⟨S16384x512, .i1⟩
  | 56 => ⟨S16384x512, .f32⟩
  | 57 => ⟨S16384x512, .f32⟩
  | 58 => ⟨S16384x512, .f32⟩
  | 59 => ⟨S1x1x512x512, .f32⟩
  | 60 => ⟨S512x512, .f32⟩
  | 61 => ⟨S512x512, .f32⟩
  | 62 => ⟨S16384x512, .f32⟩
  | 63 => ⟨S1x1x512, .f32⟩
  | 64 => ⟨S512, .f32⟩
  | 65 => ⟨S1x512, .f32⟩
  | 66 => ⟨S16384x512, .f32⟩
  | 67 => ⟨S16384x512, .f32⟩
  | 68 => ⟨S_, .i32⟩
  | 69 => ⟨S16384, .i32⟩
  | 70 => ⟨S16384, .i1⟩
  | 71 => ⟨S16384x1, .i1⟩
  | 72 => ⟨S_, .f32⟩
  | 73 => ⟨S_, .f32⟩
  | 74 => ⟨S16384x512, .i1⟩
  | 75 => ⟨S16384x512, .f32⟩
  | 76 => ⟨S16384x512, .f32⟩
  | 77 => ⟨S16384x512, .f32⟩
  | 78 => ⟨S1x1x512x512, .f32⟩
  | 79 => ⟨S512x512, .f32⟩
  | 80 => ⟨S512x512, .f32⟩
  | 81 => ⟨S16384x512, .f32⟩
  | 82 => ⟨S1x1x512, .f32⟩
  | 83 => ⟨S512, .f32⟩
  | 84 => ⟨S1x512, .f32⟩
  | 85 => ⟨S16384x512, .f32⟩
  | 86 => ⟨S16384x512, .f32⟩
  | 87 => ⟨S_, .i32⟩
  | 88 => ⟨S16384, .i32⟩
  | 89 => ⟨S16384, .i1⟩
  | 90 => ⟨S16384x1, .i1⟩
  | 91 => ⟨S_, .f32⟩
  | 92 => ⟨S_, .f32⟩
  | 93 => ⟨S16384x512, .i1⟩
  | 94 => ⟨S16384x512, .f32⟩
  | 95 => ⟨S16384x512, .f32⟩
  | 96 => ⟨S16384x512, .f32⟩
  | 97 => ⟨S1x1x512x512, .f32⟩
  | 98 => ⟨S512x512, .f32⟩
  | 99 => ⟨S512x512, .f32⟩
  | 100 => ⟨S16384x512, .f32⟩
  | 101 => ⟨S1x1x512, .f32⟩
  | 102 => ⟨S512, .f32⟩
  | 103 => ⟨S1x512, .f32⟩
  | 104 => ⟨S16384x512, .f32⟩
  | 105 => ⟨S16384x512, .f32⟩
  | 106 => ⟨S_, .i32⟩
  | 107 => ⟨S16384, .i32⟩
  | 108 => ⟨S16384, .i1⟩
  | 109 => ⟨S16384x1, .i1⟩
  | 110 => ⟨S_, .f32⟩
  | 111 => ⟨S_, .f32⟩
  | 112 => ⟨S16384x512, .i1⟩
  | 113 => ⟨S16384x512, .f32⟩
  | 114 => ⟨S16384x512, .f32⟩
  | 115 => ⟨S16384x512, .f32⟩
  | 116 => ⟨S1x1x512x512, .f32⟩
  | 117 => ⟨S512x512, .f32⟩
  | 118 => ⟨S512x512, .f32⟩
  | 119 => ⟨S16384x512, .f32⟩
  | 120 => ⟨S1x1x512, .f32⟩
  | 121 => ⟨S512, .f32⟩
  | 122 => ⟨S1x512, .f32⟩
  | 123 => ⟨S16384x512, .f32⟩
  | 124 => ⟨S16384x512, .f32⟩
  | 125 => ⟨S_, .i32⟩
  | 126 => ⟨S16384, .i32⟩
  | 127 => ⟨S16384, .i1⟩
  | _ => ⟨S64x256x256, .f32⟩

abbrev hbmTy0_5 (i : Nat) : BufTy := match i % 128 with
  | 0 => ⟨S16384x1, .i1⟩
  | 1 => ⟨S_, .f32⟩
  | 2 => ⟨S_, .f32⟩
  | 3 => ⟨S16384x512, .i1⟩
  | 4 => ⟨S16384x512, .f32⟩
  | 5 => ⟨S16384x512, .f32⟩
  | 6 => ⟨S16384x512, .f32⟩
  | 7 => ⟨S1x1x512x512, .f32⟩
  | 8 => ⟨S512x512, .f32⟩
  | 9 => ⟨S512x512, .f32⟩
  | 10 => ⟨S16384x512, .f32⟩
  | 11 => ⟨S1x1x512, .f32⟩
  | 12 => ⟨S512, .f32⟩
  | 13 => ⟨S1x512, .f32⟩
  | 14 => ⟨S16384x512, .f32⟩
  | 15 => ⟨S16384x512, .f32⟩
  | 16 => ⟨S_, .i32⟩
  | 17 => ⟨S16384, .i32⟩
  | 18 => ⟨S16384, .i1⟩
  | 19 => ⟨S16384x1, .i1⟩
  | 20 => ⟨S_, .f32⟩
  | 21 => ⟨S_, .f32⟩
  | 22 => ⟨S16384x512, .i1⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S_, .f32⟩
  | 29 => ⟨S16384x512, .f32⟩
  | 30 => ⟨S16384x512, .f32⟩
  | 31 => ⟨S512x256, .f32⟩
  | 32 => ⟨S16384x256, .f32⟩
  | 33 => ⟨S1x256, .f32⟩
  | 34 => ⟨S16384x256, .f32⟩
  | 35 => ⟨S16384x256, .f32⟩
  | 36 => ⟨S64x256x256, .f32⟩
  | _ => ⟨S64x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x256x256, .f32⟩

abbrev bufTy : (tb : Table) → Fin (tcTables nBuf tb) → BufTy
  | .hbm, ⟨i, _⟩ => hbmTy i
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_3 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_4 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_5 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_7 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_8 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_9 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_10 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_c_11 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_12 : Ref sig .tc := ⟨.hbm, 145, rfl⟩
abbrev main_call6_v0 : Ref sig .tc := ⟨.hbm, 146, rfl⟩
abbrev main_call6_v1 : Ref sig .tc := ⟨.hbm, 147, rfl⟩
abbrev main_call6_v2 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_c_13 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_14 : Ref sig .tc := ⟨.hbm, 164, rfl⟩
abbrev main_call7_v0 : Ref sig .tc := ⟨.hbm, 165, rfl⟩
abbrev main_call7_v1 : Ref sig .tc := ⟨.hbm, 166, rfl⟩
abbrev main_call7_v2 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_c_15 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_16 : Ref sig .tc := ⟨.hbm, 183, rfl⟩
abbrev main_call8_v0 : Ref sig .tc := ⟨.hbm, 184, rfl⟩
abbrev main_call8_v1 : Ref sig .tc := ⟨.hbm, 185, rfl⟩
abbrev main_call8_v2 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_c_17 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_18 : Ref sig .tc := ⟨.hbm, 202, rfl⟩
abbrev main_call9_v0 : Ref sig .tc := ⟨.hbm, 203, rfl⟩
abbrev main_call9_v1 : Ref sig .tc := ⟨.hbm, 204, rfl⟩
abbrev main_call9_v2 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_c_19 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_20 : Ref sig .tc := ⟨.hbm, 221, rfl⟩
abbrev main_call10_v0 : Ref sig .tc := ⟨.hbm, 222, rfl⟩
abbrev main_call10_v1 : Ref sig .tc := ⟨.hbm, 223, rfl⟩
abbrev main_call10_v2 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_c_21 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_cst_22 : Ref sig .tc := ⟨.hbm, 240, rfl⟩
abbrev main_call11_v0 : Ref sig .tc := ⟨.hbm, 241, rfl⟩
abbrev main_call11_v1 : Ref sig .tc := ⟨.hbm, 242, rfl⟩
abbrev main_call11_v2 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_c_23 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_cst_24 : Ref sig .tc := ⟨.hbm, 259, rfl⟩
abbrev main_call12_v0 : Ref sig .tc := ⟨.hbm, 260, rfl⟩
abbrev main_call12_v1 : Ref sig .tc := ⟨.hbm, 261, rfl⟩
abbrev main_call12_v2 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_c_25 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_cst_26 : Ref sig .tc := ⟨.hbm, 278, rfl⟩
abbrev main_call13_v0 : Ref sig .tc := ⟨.hbm, 279, rfl⟩
abbrev main_call13_v1 : Ref sig .tc := ⟨.hbm, 280, rfl⟩
abbrev main_call13_v2 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_c_27 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_cst_28 : Ref sig .tc := ⟨.hbm, 297, rfl⟩
abbrev main_call14_v0 : Ref sig .tc := ⟨.hbm, 298, rfl⟩
abbrev main_call14_v1 : Ref sig .tc := ⟨.hbm, 299, rfl⟩
abbrev main_call14_v2 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_c_29 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_cst_30 : Ref sig .tc := ⟨.hbm, 316, rfl⟩
abbrev main_call15_v0 : Ref sig .tc := ⟨.hbm, 317, rfl⟩
abbrev main_call15_v1 : Ref sig .tc := ⟨.hbm, 318, rfl⟩
abbrev main_call15_v2 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_c_31 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_cst_32 : Ref sig .tc := ⟨.hbm, 335, rfl⟩
abbrev main_call16_v0 : Ref sig .tc := ⟨.hbm, 336, rfl⟩
abbrev main_call16_v1 : Ref sig .tc := ⟨.hbm, 337, rfl⟩
abbrev main_call16_v2 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_call17_cst : Ref sig .tc := ⟨.hbm, 343, rfl⟩
abbrev main_call17_v0 : Ref sig .tc := ⟨.hbm, 344, rfl⟩
abbrev main_v248 : Ref sig .tc := ⟨.hbm, 345, rfl⟩
abbrev main_v249 : Ref sig .tc := ⟨.hbm, 346, rfl⟩
abbrev main_v250 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_cst_33 : Ref sig .tc := ⟨.hbm, 355, rfl⟩
abbrev main_v258 : Ref sig .tc := ⟨.hbm, 356, rfl⟩
abbrev main_cst_34 : Ref sig .tc := ⟨.hbm, 357, rfl⟩
abbrev main_v259 : Ref sig .tc := ⟨.hbm, 358, rfl⟩
abbrev main_v260 : Ref sig .tc := ⟨.hbm, 359, rfl⟩
abbrev main_cst_35 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_v264 : Ref sig .tc := ⟨.hbm, 364, rfl⟩
abbrev main_v265 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_c_36 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_cst_37 : Ref sig .tc := ⟨.hbm, 375, rfl⟩
abbrev main_call18_v0 : Ref sig .tc := ⟨.hbm, 376, rfl⟩
abbrev main_call18_v1 : Ref sig .tc := ⟨.hbm, 377, rfl⟩
abbrev main_call18_v2 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_v277 : Ref sig .tc := ⟨.hbm, 382, rfl⟩
abbrev main_v278 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_c_38 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_cst_39 : Ref sig .tc := ⟨.hbm, 394, rfl⟩
abbrev main_call19_v0 : Ref sig .tc := ⟨.hbm, 395, rfl⟩
abbrev main_call19_v1 : Ref sig .tc := ⟨.hbm, 396, rfl⟩
abbrev main_call19_v2 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_v292 : Ref sig .tc := ⟨.hbm, 402, rfl⟩
abbrev main_v293 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_c_40 : Ref sig .tc := ⟨.hbm, 409, rfl⟩
abbrev main_v299 : Ref sig .tc := ⟨.hbm, 410, rfl⟩
abbrev main_v300 : Ref sig .tc := ⟨.hbm, 411, rfl⟩
abbrev main_v301 : Ref sig .tc := ⟨.hbm, 412, rfl⟩
abbrev main_cst_41 : Ref sig .tc := ⟨.hbm, 413, rfl⟩
abbrev main_call20_v0 : Ref sig .tc := ⟨.hbm, 414, rfl⟩
abbrev main_call20_v1 : Ref sig .tc := ⟨.hbm, 415, rfl⟩
abbrev main_call20_v2 : Ref sig .tc := ⟨.hbm, 416, rfl⟩
abbrev main_v302 : Ref sig .tc := ⟨.hbm, 417, rfl⟩
abbrev main_v303 : Ref sig .tc := ⟨.hbm, 418, rfl⟩
abbrev main_v304 : Ref sig .tc := ⟨.hbm, 419, rfl⟩
abbrev main_v305 : Ref sig .tc := ⟨.hbm, 420, rfl⟩
abbrev main_v306 : Ref sig .tc := ⟨.hbm, 421, rfl⟩
abbrev main_v307 : Ref sig .tc := ⟨.hbm, 422, rfl⟩
abbrev main_v308 : Ref sig .tc := ⟨.hbm, 423, rfl⟩
abbrev main_v309 : Ref sig .tc := ⟨.hbm, 424, rfl⟩
abbrev main_v310 : Ref sig .tc := ⟨.hbm, 425, rfl⟩
abbrev main_v311 : Ref sig .tc := ⟨.hbm, 426, rfl⟩
abbrev main_v312 : Ref sig .tc := ⟨.hbm, 427, rfl⟩
abbrev main_c_42 : Ref sig .tc := ⟨.hbm, 428, rfl⟩
abbrev main_v313 : Ref sig .tc := ⟨.hbm, 429, rfl⟩
abbrev main_v314 : Ref sig .tc := ⟨.hbm, 430, rfl⟩
abbrev main_v315 : Ref sig .tc := ⟨.hbm, 431, rfl⟩
abbrev main_cst_43 : Ref sig .tc := ⟨.hbm, 432, rfl⟩
abbrev main_call21_v0 : Ref sig .tc := ⟨.hbm, 433, rfl⟩
abbrev main_call21_v1 : Ref sig .tc := ⟨.hbm, 434, rfl⟩
abbrev main_call21_v2 : Ref sig .tc := ⟨.hbm, 435, rfl⟩
abbrev main_v316 : Ref sig .tc := ⟨.hbm, 436, rfl⟩
abbrev main_v317 : Ref sig .tc := ⟨.hbm, 437, rfl⟩
abbrev main_v318 : Ref sig .tc := ⟨.hbm, 438, rfl⟩
abbrev main_v319 : Ref sig .tc := ⟨.hbm, 439, rfl⟩
abbrev main_v320 : Ref sig .tc := ⟨.hbm, 440, rfl⟩
abbrev main_v321 : Ref sig .tc := ⟨.hbm, 441, rfl⟩
abbrev main_v322 : Ref sig .tc := ⟨.hbm, 442, rfl⟩
abbrev main_v323 : Ref sig .tc := ⟨.hbm, 443, rfl⟩
abbrev main_v324 : Ref sig .tc := ⟨.hbm, 444, rfl⟩
abbrev main_v325 : Ref sig .tc := ⟨.hbm, 445, rfl⟩
abbrev main_v326 : Ref sig .tc := ⟨.hbm, 446, rfl⟩
abbrev main_c_44 : Ref sig .tc := ⟨.hbm, 447, rfl⟩
abbrev main_v327 : Ref sig .tc := ⟨.hbm, 448, rfl⟩
abbrev main_v328 : Ref sig .tc := ⟨.hbm, 449, rfl⟩
abbrev main_v329 : Ref sig .tc := ⟨.hbm, 450, rfl⟩
abbrev main_cst_45 : Ref sig .tc := ⟨.hbm, 451, rfl⟩
abbrev main_call22_v0 : Ref sig .tc := ⟨.hbm, 452, rfl⟩
abbrev main_call22_v1 : Ref sig .tc := ⟨.hbm, 453, rfl⟩
abbrev main_call22_v2 : Ref sig .tc := ⟨.hbm, 454, rfl⟩
abbrev main_v330 : Ref sig .tc := ⟨.hbm, 455, rfl⟩
abbrev main_v331 : Ref sig .tc := ⟨.hbm, 456, rfl⟩
abbrev main_v332 : Ref sig .tc := ⟨.hbm, 457, rfl⟩
abbrev main_v333 : Ref sig .tc := ⟨.hbm, 458, rfl⟩
abbrev main_v334 : Ref sig .tc := ⟨.hbm, 459, rfl⟩
abbrev main_v335 : Ref sig .tc := ⟨.hbm, 460, rfl⟩
abbrev main_v336 : Ref sig .tc := ⟨.hbm, 461, rfl⟩
abbrev main_v337 : Ref sig .tc := ⟨.hbm, 462, rfl⟩
abbrev main_v338 : Ref sig .tc := ⟨.hbm, 463, rfl⟩
abbrev main_v339 : Ref sig .tc := ⟨.hbm, 464, rfl⟩
abbrev main_v340 : Ref sig .tc := ⟨.hbm, 465, rfl⟩
abbrev main_c_46 : Ref sig .tc := ⟨.hbm, 466, rfl⟩
abbrev main_v341 : Ref sig .tc := ⟨.hbm, 467, rfl⟩
abbrev main_v342 : Ref sig .tc := ⟨.hbm, 468, rfl⟩
abbrev main_v343 : Ref sig .tc := ⟨.hbm, 469, rfl⟩
abbrev main_cst_47 : Ref sig .tc := ⟨.hbm, 470, rfl⟩
abbrev main_call23_v0 : Ref sig .tc := ⟨.hbm, 471, rfl⟩
abbrev main_call23_v1 : Ref sig .tc := ⟨.hbm, 472, rfl⟩
abbrev main_call23_v2 : Ref sig .tc := ⟨.hbm, 473, rfl⟩
abbrev main_v344 : Ref sig .tc := ⟨.hbm, 474, rfl⟩
abbrev main_v345 : Ref sig .tc := ⟨.hbm, 475, rfl⟩
abbrev main_v346 : Ref sig .tc := ⟨.hbm, 476, rfl⟩
abbrev main_v347 : Ref sig .tc := ⟨.hbm, 477, rfl⟩
abbrev main_v348 : Ref sig .tc := ⟨.hbm, 478, rfl⟩
abbrev main_v349 : Ref sig .tc := ⟨.hbm, 479, rfl⟩
abbrev main_v350 : Ref sig .tc := ⟨.hbm, 480, rfl⟩
abbrev main_v351 : Ref sig .tc := ⟨.hbm, 481, rfl⟩
abbrev main_v352 : Ref sig .tc := ⟨.hbm, 482, rfl⟩
abbrev main_v353 : Ref sig .tc := ⟨.hbm, 483, rfl⟩
abbrev main_v354 : Ref sig .tc := ⟨.hbm, 484, rfl⟩
abbrev main_c_48 : Ref sig .tc := ⟨.hbm, 485, rfl⟩
abbrev main_v355 : Ref sig .tc := ⟨.hbm, 486, rfl⟩
abbrev main_v356 : Ref sig .tc := ⟨.hbm, 487, rfl⟩
abbrev main_v357 : Ref sig .tc := ⟨.hbm, 488, rfl⟩
abbrev main_cst_49 : Ref sig .tc := ⟨.hbm, 489, rfl⟩
abbrev main_call24_v0 : Ref sig .tc := ⟨.hbm, 490, rfl⟩
abbrev main_call24_v1 : Ref sig .tc := ⟨.hbm, 491, rfl⟩
abbrev main_call24_v2 : Ref sig .tc := ⟨.hbm, 492, rfl⟩
abbrev main_v358 : Ref sig .tc := ⟨.hbm, 493, rfl⟩
abbrev main_v359 : Ref sig .tc := ⟨.hbm, 494, rfl⟩
abbrev main_v360 : Ref sig .tc := ⟨.hbm, 495, rfl⟩
abbrev main_v361 : Ref sig .tc := ⟨.hbm, 496, rfl⟩
abbrev main_v362 : Ref sig .tc := ⟨.hbm, 497, rfl⟩
abbrev main_v363 : Ref sig .tc := ⟨.hbm, 498, rfl⟩
abbrev main_v364 : Ref sig .tc := ⟨.hbm, 499, rfl⟩
abbrev main_v365 : Ref sig .tc := ⟨.hbm, 500, rfl⟩
abbrev main_v366 : Ref sig .tc := ⟨.hbm, 501, rfl⟩
abbrev main_v367 : Ref sig .tc := ⟨.hbm, 502, rfl⟩
abbrev main_v368 : Ref sig .tc := ⟨.hbm, 503, rfl⟩
abbrev main_c_50 : Ref sig .tc := ⟨.hbm, 504, rfl⟩
abbrev main_v369 : Ref sig .tc := ⟨.hbm, 505, rfl⟩
abbrev main_v370 : Ref sig .tc := ⟨.hbm, 506, rfl⟩
abbrev main_v371 : Ref sig .tc := ⟨.hbm, 507, rfl⟩
abbrev main_cst_51 : Ref sig .tc := ⟨.hbm, 508, rfl⟩
abbrev main_call25_v0 : Ref sig .tc := ⟨.hbm, 509, rfl⟩
abbrev main_call25_v1 : Ref sig .tc := ⟨.hbm, 510, rfl⟩
abbrev main_call25_v2 : Ref sig .tc := ⟨.hbm, 511, rfl⟩
abbrev main_v372 : Ref sig .tc := ⟨.hbm, 512, rfl⟩
abbrev main_v373 : Ref sig .tc := ⟨.hbm, 513, rfl⟩
abbrev main_v374 : Ref sig .tc := ⟨.hbm, 514, rfl⟩
abbrev main_v375 : Ref sig .tc := ⟨.hbm, 515, rfl⟩
abbrev main_v376 : Ref sig .tc := ⟨.hbm, 516, rfl⟩
abbrev main_v377 : Ref sig .tc := ⟨.hbm, 517, rfl⟩
abbrev main_v378 : Ref sig .tc := ⟨.hbm, 518, rfl⟩
abbrev main_v379 : Ref sig .tc := ⟨.hbm, 519, rfl⟩
abbrev main_v380 : Ref sig .tc := ⟨.hbm, 520, rfl⟩
abbrev main_v381 : Ref sig .tc := ⟨.hbm, 521, rfl⟩
abbrev main_v382 : Ref sig .tc := ⟨.hbm, 522, rfl⟩
abbrev main_c_52 : Ref sig .tc := ⟨.hbm, 523, rfl⟩
abbrev main_v383 : Ref sig .tc := ⟨.hbm, 524, rfl⟩
abbrev main_v384 : Ref sig .tc := ⟨.hbm, 525, rfl⟩
abbrev main_v385 : Ref sig .tc := ⟨.hbm, 526, rfl⟩
abbrev main_cst_53 : Ref sig .tc := ⟨.hbm, 527, rfl⟩
abbrev main_call26_v0 : Ref sig .tc := ⟨.hbm, 528, rfl⟩
abbrev main_call26_v1 : Ref sig .tc := ⟨.hbm, 529, rfl⟩
abbrev main_call26_v2 : Ref sig .tc := ⟨.hbm, 530, rfl⟩
abbrev main_v386 : Ref sig .tc := ⟨.hbm, 531, rfl⟩
abbrev main_v387 : Ref sig .tc := ⟨.hbm, 532, rfl⟩
abbrev main_v388 : Ref sig .tc := ⟨.hbm, 533, rfl⟩
abbrev main_v389 : Ref sig .tc := ⟨.hbm, 534, rfl⟩
abbrev main_v390 : Ref sig .tc := ⟨.hbm, 535, rfl⟩
abbrev main_v391 : Ref sig .tc := ⟨.hbm, 536, rfl⟩
abbrev main_v392 : Ref sig .tc := ⟨.hbm, 537, rfl⟩
abbrev main_v393 : Ref sig .tc := ⟨.hbm, 538, rfl⟩
abbrev main_v394 : Ref sig .tc := ⟨.hbm, 539, rfl⟩
abbrev main_v395 : Ref sig .tc := ⟨.hbm, 540, rfl⟩
abbrev main_v396 : Ref sig .tc := ⟨.hbm, 541, rfl⟩
abbrev main_c_54 : Ref sig .tc := ⟨.hbm, 542, rfl⟩
abbrev main_v397 : Ref sig .tc := ⟨.hbm, 543, rfl⟩
abbrev main_v398 : Ref sig .tc := ⟨.hbm, 544, rfl⟩
abbrev main_v399 : Ref sig .tc := ⟨.hbm, 545, rfl⟩
abbrev main_cst_55 : Ref sig .tc := ⟨.hbm, 546, rfl⟩
abbrev main_call27_v0 : Ref sig .tc := ⟨.hbm, 547, rfl⟩
abbrev main_call27_v1 : Ref sig .tc := ⟨.hbm, 548, rfl⟩
abbrev main_call27_v2 : Ref sig .tc := ⟨.hbm, 549, rfl⟩
abbrev main_v400 : Ref sig .tc := ⟨.hbm, 550, rfl⟩
abbrev main_v401 : Ref sig .tc := ⟨.hbm, 551, rfl⟩
abbrev main_v402 : Ref sig .tc := ⟨.hbm, 552, rfl⟩
abbrev main_v403 : Ref sig .tc := ⟨.hbm, 553, rfl⟩
abbrev main_v404 : Ref sig .tc := ⟨.hbm, 554, rfl⟩
abbrev main_v405 : Ref sig .tc := ⟨.hbm, 555, rfl⟩
abbrev main_v406 : Ref sig .tc := ⟨.hbm, 556, rfl⟩
abbrev main_v407 : Ref sig .tc := ⟨.hbm, 557, rfl⟩
abbrev main_v408 : Ref sig .tc := ⟨.hbm, 558, rfl⟩
abbrev main_v409 : Ref sig .tc := ⟨.hbm, 559, rfl⟩
abbrev main_v410 : Ref sig .tc := ⟨.hbm, 560, rfl⟩
abbrev main_c_56 : Ref sig .tc := ⟨.hbm, 561, rfl⟩
abbrev main_v411 : Ref sig .tc := ⟨.hbm, 562, rfl⟩
abbrev main_v412 : Ref sig .tc := ⟨.hbm, 563, rfl⟩
abbrev main_v413 : Ref sig .tc := ⟨.hbm, 564, rfl⟩
abbrev main_cst_57 : Ref sig .tc := ⟨.hbm, 565, rfl⟩
abbrev main_call28_v0 : Ref sig .tc := ⟨.hbm, 566, rfl⟩
abbrev main_call28_v1 : Ref sig .tc := ⟨.hbm, 567, rfl⟩
abbrev main_call28_v2 : Ref sig .tc := ⟨.hbm, 568, rfl⟩
abbrev main_v414 : Ref sig .tc := ⟨.hbm, 569, rfl⟩
abbrev main_v415 : Ref sig .tc := ⟨.hbm, 570, rfl⟩
abbrev main_v416 : Ref sig .tc := ⟨.hbm, 571, rfl⟩
abbrev main_v417 : Ref sig .tc := ⟨.hbm, 572, rfl⟩
abbrev main_v418 : Ref sig .tc := ⟨.hbm, 573, rfl⟩
abbrev main_v419 : Ref sig .tc := ⟨.hbm, 574, rfl⟩
abbrev main_v420 : Ref sig .tc := ⟨.hbm, 575, rfl⟩
abbrev main_v421 : Ref sig .tc := ⟨.hbm, 576, rfl⟩
abbrev main_v422 : Ref sig .tc := ⟨.hbm, 577, rfl⟩
abbrev main_v423 : Ref sig .tc := ⟨.hbm, 578, rfl⟩
abbrev main_v424 : Ref sig .tc := ⟨.hbm, 579, rfl⟩
abbrev main_c_58 : Ref sig .tc := ⟨.hbm, 580, rfl⟩
abbrev main_v425 : Ref sig .tc := ⟨.hbm, 581, rfl⟩
abbrev main_v426 : Ref sig .tc := ⟨.hbm, 582, rfl⟩
abbrev main_v427 : Ref sig .tc := ⟨.hbm, 583, rfl⟩
abbrev main_cst_59 : Ref sig .tc := ⟨.hbm, 584, rfl⟩
abbrev main_call29_v0 : Ref sig .tc := ⟨.hbm, 585, rfl⟩
abbrev main_call29_v1 : Ref sig .tc := ⟨.hbm, 586, rfl⟩
abbrev main_call29_v2 : Ref sig .tc := ⟨.hbm, 587, rfl⟩
abbrev main_v428 : Ref sig .tc := ⟨.hbm, 588, rfl⟩
abbrev main_v429 : Ref sig .tc := ⟨.hbm, 589, rfl⟩
abbrev main_v430 : Ref sig .tc := ⟨.hbm, 590, rfl⟩
abbrev main_v431 : Ref sig .tc := ⟨.hbm, 591, rfl⟩
abbrev main_v432 : Ref sig .tc := ⟨.hbm, 592, rfl⟩
abbrev main_v433 : Ref sig .tc := ⟨.hbm, 593, rfl⟩
abbrev main_v434 : Ref sig .tc := ⟨.hbm, 594, rfl⟩
abbrev main_v435 : Ref sig .tc := ⟨.hbm, 595, rfl⟩
abbrev main_v436 : Ref sig .tc := ⟨.hbm, 596, rfl⟩
abbrev main_v437 : Ref sig .tc := ⟨.hbm, 597, rfl⟩
abbrev main_v438 : Ref sig .tc := ⟨.hbm, 598, rfl⟩
abbrev main_c_60 : Ref sig .tc := ⟨.hbm, 599, rfl⟩
abbrev main_v439 : Ref sig .tc := ⟨.hbm, 600, rfl⟩
abbrev main_v440 : Ref sig .tc := ⟨.hbm, 601, rfl⟩
abbrev main_v441 : Ref sig .tc := ⟨.hbm, 602, rfl⟩
abbrev main_cst_61 : Ref sig .tc := ⟨.hbm, 603, rfl⟩
abbrev main_call30_v0 : Ref sig .tc := ⟨.hbm, 604, rfl⟩
abbrev main_call30_v1 : Ref sig .tc := ⟨.hbm, 605, rfl⟩
abbrev main_call30_v2 : Ref sig .tc := ⟨.hbm, 606, rfl⟩
abbrev main_v442 : Ref sig .tc := ⟨.hbm, 607, rfl⟩
abbrev main_v443 : Ref sig .tc := ⟨.hbm, 608, rfl⟩
abbrev main_v444 : Ref sig .tc := ⟨.hbm, 609, rfl⟩
abbrev main_v445 : Ref sig .tc := ⟨.hbm, 610, rfl⟩
abbrev main_v446 : Ref sig .tc := ⟨.hbm, 611, rfl⟩
abbrev main_v447 : Ref sig .tc := ⟨.hbm, 612, rfl⟩
abbrev main_v448 : Ref sig .tc := ⟨.hbm, 613, rfl⟩
abbrev main_v449 : Ref sig .tc := ⟨.hbm, 614, rfl⟩
abbrev main_v450 : Ref sig .tc := ⟨.hbm, 615, rfl⟩
abbrev main_v451 : Ref sig .tc := ⟨.hbm, 616, rfl⟩
abbrev main_v452 : Ref sig .tc := ⟨.hbm, 617, rfl⟩
abbrev main_c_62 : Ref sig .tc := ⟨.hbm, 618, rfl⟩
abbrev main_v453 : Ref sig .tc := ⟨.hbm, 619, rfl⟩
abbrev main_v454 : Ref sig .tc := ⟨.hbm, 620, rfl⟩
abbrev main_v455 : Ref sig .tc := ⟨.hbm, 621, rfl⟩
abbrev main_cst_63 : Ref sig .tc := ⟨.hbm, 622, rfl⟩
abbrev main_call31_v0 : Ref sig .tc := ⟨.hbm, 623, rfl⟩
abbrev main_call31_v1 : Ref sig .tc := ⟨.hbm, 624, rfl⟩
abbrev main_call31_v2 : Ref sig .tc := ⟨.hbm, 625, rfl⟩
abbrev main_v456 : Ref sig .tc := ⟨.hbm, 626, rfl⟩
abbrev main_v457 : Ref sig .tc := ⟨.hbm, 627, rfl⟩
abbrev main_v458 : Ref sig .tc := ⟨.hbm, 628, rfl⟩
abbrev main_v459 : Ref sig .tc := ⟨.hbm, 629, rfl⟩
abbrev main_v460 : Ref sig .tc := ⟨.hbm, 630, rfl⟩
abbrev main_v461 : Ref sig .tc := ⟨.hbm, 631, rfl⟩
abbrev main_v462 : Ref sig .tc := ⟨.hbm, 632, rfl⟩
abbrev main_v463 : Ref sig .tc := ⟨.hbm, 633, rfl⟩
abbrev main_v464 : Ref sig .tc := ⟨.hbm, 634, rfl⟩
abbrev main_v465 : Ref sig .tc := ⟨.hbm, 635, rfl⟩
abbrev main_v466 : Ref sig .tc := ⟨.hbm, 636, rfl⟩
abbrev main_c_64 : Ref sig .tc := ⟨.hbm, 637, rfl⟩
abbrev main_v467 : Ref sig .tc := ⟨.hbm, 638, rfl⟩
abbrev main_v468 : Ref sig .tc := ⟨.hbm, 639, rfl⟩
abbrev main_v469 : Ref sig .tc := ⟨.hbm, 640, rfl⟩
abbrev main_cst_65 : Ref sig .tc := ⟨.hbm, 641, rfl⟩
abbrev main_call32_v0 : Ref sig .tc := ⟨.hbm, 642, rfl⟩
abbrev main_call32_v1 : Ref sig .tc := ⟨.hbm, 643, rfl⟩
abbrev main_call32_v2 : Ref sig .tc := ⟨.hbm, 644, rfl⟩
abbrev main_v470 : Ref sig .tc := ⟨.hbm, 645, rfl⟩
abbrev main_v471 : Ref sig .tc := ⟨.hbm, 646, rfl⟩
abbrev main_v472 : Ref sig .tc := ⟨.hbm, 647, rfl⟩
abbrev main_v473 : Ref sig .tc := ⟨.hbm, 648, rfl⟩
abbrev main_v474 : Ref sig .tc := ⟨.hbm, 649, rfl⟩
abbrev main_v475 : Ref sig .tc := ⟨.hbm, 650, rfl⟩
abbrev main_v476 : Ref sig .tc := ⟨.hbm, 651, rfl⟩
abbrev main_v477 : Ref sig .tc := ⟨.hbm, 652, rfl⟩
abbrev main_v478 : Ref sig .tc := ⟨.hbm, 653, rfl⟩
abbrev main_v479 : Ref sig .tc := ⟨.hbm, 654, rfl⟩
abbrev main_v480 : Ref sig .tc := ⟨.hbm, 655, rfl⟩
abbrev main_c_66 : Ref sig .tc := ⟨.hbm, 656, rfl⟩
abbrev main_v481 : Ref sig .tc := ⟨.hbm, 657, rfl⟩
abbrev main_v482 : Ref sig .tc := ⟨.hbm, 658, rfl⟩
abbrev main_v483 : Ref sig .tc := ⟨.hbm, 659, rfl⟩
abbrev main_cst_67 : Ref sig .tc := ⟨.hbm, 660, rfl⟩
abbrev main_call33_v0 : Ref sig .tc := ⟨.hbm, 661, rfl⟩
abbrev main_call33_v1 : Ref sig .tc := ⟨.hbm, 662, rfl⟩
abbrev main_call33_v2 : Ref sig .tc := ⟨.hbm, 663, rfl⟩
abbrev main_v484 : Ref sig .tc := ⟨.hbm, 664, rfl⟩
abbrev main_v485 : Ref sig .tc := ⟨.hbm, 665, rfl⟩
abbrev main_v486 : Ref sig .tc := ⟨.hbm, 666, rfl⟩
abbrev main_v487 : Ref sig .tc := ⟨.hbm, 667, rfl⟩
abbrev main_call34_cst : Ref sig .tc := ⟨.hbm, 668, rfl⟩
abbrev main_call34_v0 : Ref sig .tc := ⟨.hbm, 669, rfl⟩
abbrev main_v488 : Ref sig .tc := ⟨.hbm, 670, rfl⟩
abbrev main_v489 : Ref sig .tc := ⟨.hbm, 671, rfl⟩
abbrev main_v490 : Ref sig .tc := ⟨.hbm, 672, rfl⟩
abbrev main_v491 : Ref sig .tc := ⟨.hbm, 673, rfl⟩
abbrev main_v492 : Ref sig .tc := ⟨.hbm, 674, rfl⟩
abbrev main_v493 : Ref sig .tc := ⟨.hbm, 675, rfl⟩
abbrev main_v494 : Ref sig .tc := ⟨.hbm, 676, rfl⟩

abbrev nD : Nat := 1
abbrev τ : Topo := Topo.v7x

variable {F : FTy → Type} [FloatOps F]

class Facts₀ : Prop where
  shapeCasts_S64x256x256_S16384x256 : S64x256x256.ShapeCasts S16384x256
  bcast_S64_S64x256_0 : S64.BroadcastsInDim S64x256 (![0] : Fin 1 → Fin S64x256.rank)
  shapeCasts_S64x256_S16384 : S64x256.ShapeCasts S16384
  transposes_S512x256_S256x512_1_0 : S512x256.Transposes [1, 0] S256x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  slices_S2x1x512x512_S1x1x512x512_0_0_0_0 : S2x1x512x512.Slices ![0, 0, 0, 0] S1x1x512x512
  shapeCasts_S1x1x512x512_S1x512x512 : S1x1x512x512.ShapeCasts S1x512x512
  transposes_S1x512x16384_S1x16384x512_0_2_1 : S1x512x16384.Transposes [0, 2, 1] S1x16384x512
  slices_S2x1x512_S1x1x512_0_0_0 : S2x1x512.Slices ![0, 0, 0] S1x1x512
  shapeCasts_S1x1x512_S1x512 : S1x1x512.ShapeCasts S1x512
  bcast_S1x512_S1x1x512_0_2 : S1x512.BroadcastsInDim S1x1x512 (![0, 2] : Fin 2 → Fin S1x1x512.rank)
  bcast_S1x1x512_S1x16384x512_0_1_2 : S1x1x512.BroadcastsInDim S1x16384x512 (![0, 1, 2] : Fin 3 → Fin S1x16384x512.rank)
  reducesTo_S1x16384x512_S16384x512_d0 : S1x16384x512.ReducesTo [0] S16384x512
  h_S_ : 0 < S_.numel
  slices_S2x16x512x512_S1x1x512x512_0_0_0_0 : S2x16x512x512.Slices ![0, 0, 0, 0] S1x1x512x512
  shapeCasts_S1x1x512x512_S512x512 : S1x1x512x512.ShapeCasts S512x512
  transposes_S512x512_S512x512_1_0 : S512x512.Transposes [1, 0] S512x512
  slices_S2x16x512_S1x1x512_0_0_0 : S2x16x512.Slices ![0, 0, 0] S1x1x512
  shapeCasts_S1x1x512_S512 : S1x1x512.ShapeCasts S512
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  slices_S2x16x512x512_S1x1x512x512_0_1_0_0 : S2x16x512x512.Slices ![0, 1, 0, 0] S1x1x512x512
  slices_S2x16x512_S1x1x512_0_1_0 : S2x16x512.Slices ![0, 1, 0] S1x1x512
  slices_S2x16x512x512_S1x1x512x512_0_2_0_0 : S2x16x512x512.Slices ![0, 2, 0, 0] S1x1x512x512
  slices_S2x16x512_S1x1x512_0_2_0 : S2x16x512.Slices ![0, 2, 0] S1x1x512
  slices_S2x16x512x512_S1x1x512x512_0_3_0_0 : S2x16x512x512.Slices ![0, 3, 0, 0] S1x1x512x512
  slices_S2x16x512_S1x1x512_0_3_0 : S2x16x512.Slices ![0, 3, 0] S1x1x512
  slices_S2x16x512x512_S1x1x512x512_0_4_0_0 : S2x16x512x512.Slices ![0, 4, 0, 0] S1x1x512x512
  slices_S2x16x512_S1x1x512_0_4_0 : S2x16x512.Slices ![0, 4, 0] S1x1x512
  slices_S2x16x512x512_S1x1x512x512_0_5_0_0 : S2x16x512x512.Slices ![0, 5, 0, 0] S1x1x512x512
  slices_S2x16x512_S1x1x512_0_5_0 : S2x16x512.Slices ![0, 5, 0] S1x1x512
  slices_S2x16x512x512_S1x1x512x512_0_6_0_0 : S2x16x512x512.Slices ![0, 6, 0, 0] S1x1x512x512
  slices_S2x16x512_S1x1x512_0_6_0 : S2x16x512.Slices ![0, 6, 0] S1x1x512
  slices_S2x16x512x512_S1x1x512x512_0_7_0_0 : S2x16x512x512.Slices ![0, 7, 0, 0] S1x1x512x512
  slices_S2x16x512_S1x1x512_0_7_0 : S2x16x512.Slices ![0, 7, 0] S1x1x512
  slices_S2x16x512x512_S1x1x512x512_0_8_0_0 : S2x16x512x512.Slices ![0, 8, 0, 0] S1x1x512x512
  slices_S2x16x512_S1x1x512_0_8_0 : S2x16x512.Slices ![0, 8, 0] S1x1x512
  slices_S2x16x512x512_S1x1x512x512_0_9_0_0 : S2x16x512x512.Slices ![0, 9, 0, 0] S1x1x512x512
  slices_S2x16x512_S1x1x512_0_9_0 : S2x16x512.Slices ![0, 9, 0] S1x1x512
  slices_S2x16x512x512_S1x1x512x512_0_10_0_0 : S2x16x512x512.Slices ![0, 10, 0, 0] S1x1x512x512
  slices_S2x16x512_S1x1x512_0_10_0 : S2x16x512.Slices ![0, 10, 0] S1x1x512
  slices_S2x16x512x512_S1x1x512x512_0_11_0_0 : S2x16x512x512.Slices ![0, 11, 0, 0] S1x1x512x512
  slices_S2x16x512_S1x1x512_0_11_0 : S2x16x512.Slices ![0, 11, 0] S1x1x512
  slices_S2x16x512x512_S1x1x512x512_0_12_0_0 : S2x16x512x512.Slices ![0, 12, 0, 0] S1x1x512x512
  slices_S2x16x512_S1x1x512_0_12_0 : S2x16x512.Slices ![0, 12, 0] S1x1x512
  slices_S2x16x512x512_S1x1x512x512_0_13_0_0 : S2x16x512x512.Slices ![0, 13, 0, 0] S1x1x512x512
  slices_S2x16x512_S1x1x512_0_13_0 : S2x16x512.Slices ![0, 13, 0] S1x1x512
  slices_S2x16x512x512_S1x1x512x512_0_14_0_0 : S2x16x512x512.Slices ![0, 14, 0, 0] S1x1x512x512
  slices_S2x16x512_S1x1x512_0_14_0 : S2x16x512.Slices ![0, 14, 0] S1x1x512
  slices_S2x16x512x512_S1x1x512x512_0_15_0_0 : S2x16x512x512.Slices ![0, 15, 0, 0] S1x1x512x512
  slices_S2x16x512_S1x1x512_0_15_0 : S2x16x512.Slices ![0, 15, 0] S1x1x512
  slices_S2x1x512x512_S1x1x512x512_1_0_0_0 : S2x1x512x512.Slices ![1, 0, 0, 0] S1x1x512x512
  slices_S2x1x512_S1x1x512_1_0_0 : S2x1x512.Slices ![1, 0, 0] S1x1x512
  slices_S2x16x512x512_S1x1x512x512_1_0_0_0 : S2x16x512x512.Slices ![1, 0, 0, 0] S1x1x512x512
  slices_S2x16x512_S1x1x512_1_0_0 : S2x16x512.Slices ![1, 0, 0] S1x1x512
  slices_S2x16x512x512_S1x1x512x512_1_1_0_0 : S2x16x512x512.Slices ![1, 1, 0, 0] S1x1x512x512
  slices_S2x16x512_S1x1x512_1_1_0 : S2x16x512.Slices ![1, 1, 0] S1x1x512
  slices_S2x16x512x512_S1x1x512x512_1_2_0_0 : S2x16x512x512.Slices ![1, 2, 0, 0] S1x1x512x512
  slices_S2x16x512_S1x1x512_1_2_0 : S2x16x512.Slices ![1, 2, 0] S1x1x512
  slices_S2x16x512x512_S1x1x512x512_1_3_0_0 : S2x16x512x512.Slices ![1, 3, 0, 0] S1x1x512x512
  slices_S2x16x512_S1x1x512_1_3_0 : S2x16x512.Slices ![1, 3, 0] S1x1x512
  slices_S2x16x512x512_S1x1x512x512_1_4_0_0 : S2x16x512x512.Slices ![1, 4, 0, 0] S1x1x512x512
  slices_S2x16x512_S1x1x512_1_4_0 : S2x16x512.Slices ![1, 4, 0] S1x1x512
  slices_S2x16x512x512_S1x1x512x512_1_5_0_0 : S2x16x512x512.Slices ![1, 5, 0, 0] S1x1x512x512
  slices_S2x16x512_S1x1x512_1_5_0 : S2x16x512.Slices ![1, 5, 0] S1x1x512
  slices_S2x16x512x512_S1x1x512x512_1_6_0_0 : S2x16x512x512.Slices ![1, 6, 0, 0] S1x1x512x512
  slices_S2x16x512_S1x1x512_1_6_0 : S2x16x512.Slices ![1, 6, 0] S1x1x512
  slices_S2x16x512x512_S1x1x512x512_1_7_0_0 : S2x16x512x512.Slices ![1, 7, 0, 0] S1x1x512x512
  slices_S2x16x512_S1x1x512_1_7_0 : S2x16x512.Slices ![1, 7, 0] S1x1x512
  slices_S2x16x512x512_S1x1x512x512_1_8_0_0 : S2x16x512x512.Slices ![1, 8, 0, 0] S1x1x512x512
  slices_S2x16x512_S1x1x512_1_8_0 : S2x16x512.Slices ![1, 8, 0] S1x1x512
  slices_S2x16x512x512_S1x1x512x512_1_9_0_0 : S2x16x512x512.Slices ![1, 9, 0, 0] S1x1x512x512
  slices_S2x16x512_S1x1x512_1_9_0 : S2x16x512.Slices ![1, 9, 0] S1x1x512
  slices_S2x16x512x512_S1x1x512x512_1_10_0_0 : S2x16x512x512.Slices ![1, 10, 0, 0] S1x1x512x512
  slices_S2x16x512_S1x1x512_1_10_0 : S2x16x512.Slices ![1, 10, 0] S1x1x512
  slices_S2x16x512x512_S1x1x512x512_1_11_0_0 : S2x16x512x512.Slices ![1, 11, 0, 0] S1x1x512x512
  slices_S2x16x512_S1x1x512_1_11_0 : S2x16x512.Slices ![1, 11, 0] S1x1x512
  slices_S2x16x512x512_S1x1x512x512_1_12_0_0 : S2x16x512x512.Slices ![1, 12, 0, 0] S1x1x512x512
  slices_S2x16x512_S1x1x512_1_12_0 : S2x16x512.Slices ![1, 12, 0] S1x1x512
  slices_S2x16x512x512_S1x1x512x512_1_13_0_0 : S2x16x512x512.Slices ![1, 13, 0, 0] S1x1x512x512
  slices_S2x16x512_S1x1x512_1_13_0 : S2x16x512.Slices ![1, 13, 0] S1x1x512
  slices_S2x16x512x512_S1x1x512x512_1_14_0_0 : S2x16x512x512.Slices ![1, 14, 0, 0] S1x1x512x512
  slices_S2x16x512_S1x1x512_1_14_0 : S2x16x512.Slices ![1, 14, 0] S1x1x512
  slices_S2x16x512x512_S1x1x512x512_1_15_0_0 : S2x16x512x512.Slices ![1, 15, 0, 0] S1x1x512x512
  slices_S2x16x512_S1x1x512_1_15_0 : S2x16x512.Slices ![1, 15, 0] S1x1x512
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S16384x256_S64x256x256 : S16384x256.ShapeCasts S64x256x256
  dot_S16384x256_S256x512_S16384x512_1_0_0_1_n_n_wf : DotDims.WF S16384x256 S256x512 S16384x512 [1] [0] [0] [1] [] []
  dot_S1x512x512_S16384x512_S1x512x16384_2_1_01_0_n_n_wf : DotDims.WF S1x512x512 S16384x512 S1x512x16384 [2] [1] [0, 1] [0] [] []
  dot_S16384x512_S512x512_S16384x512_1_0_0_1_n_n_wf : DotDims.WF S16384x512 S512x512 S16384x512 [1] [0] [0] [1] [] []
  dot_S16384x512_S512x256_S16384x256_1_0_0_1_n_n_wf : DotDims.WF S16384x512 S512x256 S16384x256 [1] [0] [0] [1] [] []

variable [Facts₀]

def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def dot_S1x512x512_S16384x512_S1x512x16384_2_1_01_0_n_n : DotDims S1x512x512 S16384x512 S1x512x16384 where
  lhsContracting := [2]
  rhsContracting := [1]
  lhsNonContracting := [0, 1]
  rhsNonContracting := [0]
  lhsBatch := []
  rhsBatch := []
  wf := dot_S1x512x512_S16384x512_S1x512x16384_2_1_01_0_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf

class Facts : Prop extends Facts₀ where

variable [Facts]
-- ==== Proof.KbKit.lean ====
import proofs.«406211_j29257317220859_3_alg».proof.Proof.Gen.Kernel.Launch
import proofs.«406211_j29257317220859_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

abbrev tbM0_0 : Memref sig .tc .smem S64 .i32 := Memref.whole main_v0
abbrev htbM0_0 : tbM0_0.IsWhole := Memref.isWhole_whole _
abbrev TbBuf0 (c : Dev nD) {S : Shape} {e : EltTy} (M : Memref sig .tc .smem S e) : Type := Buf (Elt F) (M.view.loc (c : Thread nD τ))

abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ (cfgM m) c) (hA : dat.A 8 = V m c (Pipeline.arrRef spec0 8))
    (hafter : ∀ t, dat.after 8 t = iblk m c 8 t) (t : Fin (cfgM m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev VO0_9 : View sig .tc .vmem S4x256x256 .f32 := (Memref.whole cc0_stg9_0 : Memref sig .tc .vmem S4x256x256 .f32).view
abbrev ms0_0 (t : Fin (cfgM m).N) : Memref sig .tc .vmem S4x256x256 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S512x256 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x512 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S2x16x512x512 .bf16 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S2x16x512 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S2x1x512x512 .bf16 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S2x1x512 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S256x512 .bf16 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S1x256 .f32 := spec0_8.stage ((cfgM m).slots t 8)
abbrev hs0_8 (t : Fin (cfgM m).N) : (ms0_8 m t).IsWhole := hstage0_8 (((cfgM m).slots t 8).cast nbuf0_8)
abbrev ms0_9 (t : Fin (cfgM m).N) : Memref sig .tc .vmem S4x256x256 .f32 := spec0_9.stage ((cfgM m).slots t 9)
abbrev hs0_9 (t : Fin (cfgM m).N) : (ms0_9 m t).IsWhole := hstage0_9 (((cfgM m).slots t 9).cast nbuf0_9)

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 4).trans (((dats 0 c).arrAt_in 4 rfl _).trans ((hA c 4).trans (V_main_arg5 m c))),
      ((h c).2 main_arg6 (by decide : main_arg6 ∈ Pipeline.restRefs sig spec0)).trans (V_main_arg6 m c),
      ((h c).1 6).trans (((dats 0 c).arrAt_in 6 rfl _).trans ((hA c 6).trans (V_main_arg7 m c))),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) h

end Cert.Kernel.Fr

end
-- ==== Proof.KbRun.lean ====
import proofs.«406211_j29257317220859_3_alg».proof.Proof.KbKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0 (c : Dev nD) (i : grid0.Coords) (arg2 : Memref sig .tc .vmem S4x256x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2x16x512x512 .bf16) (harg5 : arg5.IsWhole) (arg6 : Memref sig .tc .vmem S2x16x512 .f32) (harg6 : arg6.IsWhole) (arg7 : Memref sig .tc .vmem S2x1x512x512 .bf16) (harg7 : arg7.IsWhole) (arg8 : Memref sig .tc .vmem S2x1x512 .f32) (harg8 : arg8.IsWhole) (arg9 : Memref sig .tc .vmem S256x512 .bf16) (harg9 : arg9.IsWhole) (arg10 : Memref sig .tc .vmem S1x256 .f32) (harg10 : arg10.IsWhole) (arg11 : Memref sig .tc .vmem S4x256x256 .f32) (harg11 : arg11.IsWhole)
    (x0 : Vec F S4x256x256 .bf16) (x1 : Vec F S512x256 .bf16) (x2 : Vec F S1x512 .f32) (x3 : Vec F S2x16x512x512 .bf16) (x4 : Vec F S2x16x512 .f32) (x5 : Vec F S2x1x512x512 .bf16) (x6 : Vec F S2x1x512 .f32) (x7 : Vec F S256x512 .bf16) (x8 : Vec F S1x256 .f32) (xt0 : TbBuf0 (F := F) c tbM0_0)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off4 i) S1.size (k0_off4_inb i)).toLoadRect xt0 (Shape.Idx.first (numel1_S1.symm ▸ Nat.one_pos))))
    (k0_hw3 : k0_chk3 (tbM0_0.view.readAt (Elt F) (Rect.unit (s := S64) (k0_off7 i) S1.size (k0_off7_inb i)).toLoadRect xt0 (Shape.Idx.first (numel1_S1.symm ▸ Nat.one_pos))))
    (k0_hw4 : k0_chk4 (tbM0_0.view.readAt (Elt F) (Rect.unit (s := S64) (k0_off10 i) S1.size (k0_off10_inb i)).toLoadRect xt0 (Shape.Idx.first (numel1_S1.symm ▸ Nat.one_pos))))
    (k0_hw5 : k0_chk5 (tbM0_0.view.readAt (Elt F) (Rect.unit (s := S64) (k0_off13 i) S1.size (k0_off13_inb i)).toLoadRect xt0 (Shape.Idx.first (numel1_S1.symm ▸ Nat.one_pos))))
    (k0_hw6 : k0_chk6 (tbM0_0.view.readAt (Elt F) (Rect.unit (s := S64) (k0_off16 i) S1.size (k0_off16_inb i)).toLoadRect xt0 (Shape.Idx.first (numel1_S1.symm ▸ Nat.one_pos))))
    (k0_hw7 : k0_chk7 (tbM0_0.view.readAt (Elt F) (Rect.unit (s := S64) (k0_off19 i) S1.size (k0_off19_inb i)).toLoadRect xt0 (Shape.Idx.first (numel1_S1.symm ▸ Nat.one_pos))))
    (k0_hw8 : k0_chk8 (tbM0_0.view.readAt (Elt F) (Rect.unit (s := S64) (k0_off22 i) S1.size (k0_off22_inb i)).toLoadRect xt0 (Shape.Idx.first (numel1_S1.symm ▸ Nat.one_pos)))) :
    { L9 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ tbPt0 c tbM0_0 xt0) -∗ K ⟨⟩))
          ⊢ wp frame (wpE (defs₀ (F := F)) Variants.none c none) E (cc0__kernel i tbM0_0 htbM0_0 arg2 harg2 arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexact HT0

end Cert.Kernel.Fr

end
-- ==== Proof.KbHypsDef.lean ====
import proofs.«406211_j29257317220859_3_alg».proof.Proof.KbKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def Hyps : Prop :=
  ∀ (c : Dev nD) (t : Fin (cfgM m).N),
    k0_chk1 (tbM0_0.view.readAt (Elt F) (Rect.unit (s := S64) (k0_off1 (grid0.coords t)) S1.size (k0_off1_inb (grid0.coords t))).toLoadRect (tbl m 0) (Shape.Idx.first (numel1_S1.symm ▸ Nat.one_pos)))
    ∧ k0_chk2 (tbM0_0.view.readAt (Elt F) (Rect.unit (s := S64) (k0_off4 (grid0.coords t)) S1.size (k0_off4_inb (grid0.coords t))).toLoadRect (tbl m 0) (Shape.Idx.first (numel1_S1.symm ▸ Nat.one_pos)))
    ∧ k0_chk3 (tbM0_0.view.readAt (Elt F) (Rect.unit (s := S64) (k0_off7 (grid0.coords t)) S1.size (k0_off7_inb (grid0.coords t))).toLoadRect (tbl m 0) (Shape.Idx.first (numel1_S1.symm ▸ Nat.one_pos)))
    ∧ k0_chk4 (tbM0_0.view.readAt (Elt F) (Rect.unit (s := S64) (k0_off10 (grid0.coords t)) S1.size (k0_off10_inb (grid0.coords t))).toLoadRect (tbl m 0) (Shape.Idx.first (numel1_S1.symm ▸ Nat.one_pos)))
    ∧ k0_chk5 (tbM0_0.view.readAt (Elt F) (Rect.unit (s := S64) (k0_off13 (grid0.coords t)) S1.size (k0_off13_inb (grid0.coords t))).toLoadRect (tbl m 0) (Shape.Idx.first (numel1_S1.symm ▸ Nat.one_pos)))
    ∧ k0_chk6 (tbM0_0.view.readAt (Elt F) (Rect.unit (s := S64) (k0_off16 (grid0.coords t)) S1.size (k0_off16_inb (grid0.coords t))).toLoadRect (tbl m 0) (Shape.Idx.first (numel1_S1.symm ▸ Nat.one_pos)))
    ∧ k0_chk7 (tbM0_0.view.readAt (Elt F) (Rect.unit (s := S64) (k0_off19 (grid0.coords t)) S1.size (k0_off19_inb (grid0.coords t))).toLoadRect (tbl m 0) (Shape.Idx.first (numel1_S1.symm ▸ Nat.one_pos)))
    ∧ k0_chk8 (tbM0_0.view.readAt (Elt F) (Rect.unit (s := S64) (k0_off22 (grid0.coords t)) S1.size (k0_off22_inb (grid0.coords t))).toLoadRect (tbl m 0) (Shape.Idx.first (numel1_S1.symm ▸ Nat.one_pos)))

variable {m}
theorem Hyps.c1 (hH : Hyps m) (c : Dev nD) (t : Fin (cfgM m).N) :
    k0_chk1 (tbM0_0.view.readAt (Elt F) (Rect.unit (s := S64) (k0_off1 (grid0.coords t)) S1.size (k0_off1_inb (grid0.coords t))).toLoadRect (tbl m 0) (Shape.Idx.first (numel1_S1.symm ▸ Nat.one_pos))) := (hH c t).1
theorem Hyps.c2 (hH : Hyps m) (c : Dev nD) (t : Fin (cfgM m).N) :
    k0_chk2 (tbM0_0.view.readAt (Elt F) (Rect.unit (s := S64) (k0_off4 (grid0.coords t)) S1.size (k0_off4_inb (grid0.coords t))).toLoadRect (tbl m 0) (Shape.Idx.first (numel1_S1.symm ▸ Nat.one_pos))) := (hH c t).2.1
theorem Hyps.c3 (hH : Hyps m) (c : Dev nD) (t : Fin (cfgM m).N) :
    k0_chk3 (tbM0_0.view.readAt (Elt F) (Rect.unit (s := S64) (k0_off7 (grid0.coords t)) S1.size (k0_off7_inb (grid0.coords t))).toLoadRect (tbl m 0) (Shape.Idx.first (numel1_S1.symm ▸ Nat.one_pos))) := (hH c t).2.2.1
theorem Hyps.c4 (hH : Hyps m) (c : Dev nD) (t : Fin (cfgM m).N) :
    k0_chk4 (tbM0_0.view.readAt (Elt F) (Rect.unit (s := S64) (k0_off10 (grid0.coords t)) S1.size (k0_off10_inb (grid0.coords t))).toLoadRect (tbl m 0) (Shape.Idx.first (numel1_S1.symm ▸ Nat.one_pos))) := (hH c t).2.2.2.1
theorem Hyps.c5 (hH : Hyps m) (c : Dev nD) (t : Fin (cfgM m).N) :
    k0_chk5 (tbM0_0.view.readAt (Elt F) (Rect.unit (s := S64) (k0_off13 (grid0.coords t)) S1.size (k0_off13_inb (grid0.coords t))).toLoadRect (tbl m 0) (Shape.Idx.first (numel1_S1.symm ▸ Nat.one_pos))) := (hH c t).2.2.2.2.1
theorem Hyps.c6 (hH : Hyps m) (c : Dev nD) (t : Fin (cfgM m).N) :
    k0_chk6 (tbM0_0.view.readAt (Elt F) (Rect.unit (s := S64) (k0_off16 (grid0.coords t)) S1.size (k0_off16_inb (grid0.coords t))).toLoadRect (tbl m 0) (Shape.Idx.first (numel1_S1.symm ▸ Nat.one_pos))) := (hH c t).2.2.2.2.2.1
theorem Hyps.c7 (hH : Hyps m) (c : Dev nD) (t : Fin (cfgM m).N) :
    k0_chk7 (tbM0_0.view.readAt (Elt F) (Rect.unit (s := S64) (k0_off19 (grid0.coords t)) S1.size (k0_off19_inb (grid0.coords t))).toLoadRect (tbl m 0) (Shape.Idx.first (numel1_S1.symm ▸ Nat.one_pos))) := (hH c t).2.2.2.2.2.2.1
theorem Hyps.c8 (hH : Hyps m) (c : Dev nD) (t : Fin (cfgM m).N) :
    k0_chk8 (tbM0_0.view.readAt (Elt F) (Rect.unit (s := S64) (k0_off22 (grid0.coords t)) S1.size (k0_off22_inb (grid0.coords t))).toLoadRect (tbl m 0) (Shape.Idx.first (numel1_S1.symm ▸ Nat.one_pos))) := (hH c t).2.2.2.2.2.2.2

end Cert.Kernel.Fr

end
-- ==== Proof.KbFrame.lean ====
import proofs.«406211_j29257317220859_3_alg».proof.Proof.KbRun
import proofs.«406211_j29257317220859_3_alg».proof.Proof.KbHypsDef

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_9 (c : Dev nD) (i : grid0.Coords) (arg2 : Memref sig .tc .vmem S4x256x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2x16x512x512 .bf16) (harg5 : arg5.IsWhole) (arg6 : Memref sig .tc .vmem S2x16x512 .f32) (harg6 : arg6.IsWhole) (arg7 : Memref sig .tc .vmem S2x1x512x512 .bf16) (harg7 : arg7.IsWhole) (arg8 : Memref sig .tc .vmem S2x1x512 .f32) (harg8 : arg8.IsWhole) (arg9 : Memref sig .tc .vmem S256x512 .bf16) (harg9 : arg9.IsWhole) (arg10 : Memref sig .tc .vmem S1x256 .f32) (harg10 : arg10.IsWhole) (arg11 : Memref sig .tc .vmem S4x256x256 .f32) (harg11 : arg11.IsWhole)
    (x0 : Vec F S4x256x256 .bf16) (x1 : Vec F S512x256 .bf16) (x2 : Vec F S1x512 .f32) (x3 : Vec F S2x16x512x512 .bf16) (x4 : Vec F S2x16x512 .f32) (x5 : Vec F S2x1x512x512 .bf16) (x6 : Vec F S2x1x512 .f32) (x7 : Vec F S256x512 .bf16) (x8 : Vec F S1x256 .f32) (xt0 : TbBuf0 (F := F) c tbM0_0)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off4 i) S1.size (k0_off4_inb i)).toLoadRect xt0 (Shape.Idx.first (numel1_S1.symm ▸ Nat.one_pos))))
    (k0_hw3 : k0_chk3 (tbM0_0.view.readAt (Elt F) (Rect.unit (s := S64) (k0_off7 i) S1.size (k0_off7_inb i)).toLoadRect xt0 (Shape.Idx.first (numel1_S1.symm ▸ Nat.one_pos))))
    (k0_hw4 : k0_chk4 (tbM0_0.view.readAt (Elt F) (Rect.unit (s := S64) (k0_off10 i) S1.size (k0_off10_inb i)).toLoadRect xt0 (Shape.Idx.first (numel1_S1.symm ▸ Nat.one_pos))))
    (k0_hw5 : k0_chk5 (tbM0_0.view.readAt (Elt F) (Rect.unit (s := S64) (k0_off13 i) S1.size (k0_off13_inb i)).toLoadRect xt0 (Shape.Idx.first (numel1_S1.symm ▸ Nat.one_pos))))
    (k0_hw6 : k0_chk6 (tbM0_0.view.readAt (Elt F) (Rect.unit (s := S64) (k0_off16 i) S1.size (k0_off16_inb i)).toLoadRect xt0 (Shape.Idx.first (numel1_S1.symm ▸ Nat.one_pos))))
    (k0_hw7 : k0_chk7 (tbM0_0.view.readAt (Elt F) (Rect.unit (s := S64) (k0_off19 i) S1.size (k0_off19_inb i)).toLoadRect xt0 (Shape.Idx.first (numel1_S1.symm ▸ Nat.one_pos))))
    (k0_hw8 : k0_chk8 (tbM0_0.view.readAt (Elt F) (Rect.unit (s := S64) (k0_off22 i) S1.size (k0_off22_inb i)).toLoadRect xt0 (Shape.Idx.first (numel1_S1.symm ▸ Nat.one_pos)))) (y : S4x256x256.Idx) :
    ∃ pc ∈ (kernelRun0 c i arg2 harg2 arg3 harg3 arg4 harg4 arg5 harg5 arg6 harg6 arg7 harg7 arg8 harg8 arg9 harg9 arg10 harg10 arg11 harg11 x0 x1 x2 x3 x4 x5 x6 x7 x8 xt0 k0_hw1 k0_hw2 k0_hw3 k0_hw4 k0_hw5 k0_hw6 k0_hw7 k0_hw8).1, y ∈ pc.1.set :=
  View.cover_of_wholeMem (kernelRun0 c i arg2 harg2 arg3 harg3 arg4 harg4 arg5 harg5 arg6 harg6 arg7 harg7 arg8 harg8 arg9 harg9 arg10 harg10 arg11 harg11 x0 x1 x2 x3 x4 x5 x6 x7 x8 xt0 k0_hw1 k0_hw2 k0_hw3 k0_hw4 k0_hw5 k0_hw6 k0_hw7 k0_hw8).1 (by sl_whole_mem) y

def out0_9 (c : Dev nD) (i : grid0.Coords) (arg2 : Memref sig .tc .vmem S4x256x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2x16x512x512 .bf16) (harg5 : arg5.IsWhole) (arg6 : Memref sig .tc .vmem S2x16x512 .f32) (harg6 : arg6.IsWhole) (arg7 : Memref sig .tc .vmem S2x1x512x512 .bf16) (harg7 : arg7.IsWhole) (arg8 : Memref sig .tc .vmem S2x1x512 .f32) (harg8 : arg8.IsWhole) (arg9 : Memref sig .tc .vmem S256x512 .bf16) (harg9 : arg9.IsWhole) (arg10 : Memref sig .tc .vmem S1x256 .f32) (harg10 : arg10.IsWhole) (arg11 : Memref sig .tc .vmem S4x256x256 .f32) (harg11 : arg11.IsWhole)
    (x0 : Vec F S4x256x256 .bf16) (x1 : Vec F S512x256 .bf16) (x2 : Vec F S1x512 .f32) (x3 : Vec F S2x16x512x512 .bf16) (x4 : Vec F S2x16x512 .f32) (x5 : Vec F S2x1x512x512 .bf16) (x6 : Vec F S2x1x512 .f32) (x7 : Vec F S256x512 .bf16) (x8 : Vec F S1x256 .f32) (xt0 : TbBuf0 (F := F) c tbM0_0)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off4 i) S1.size (k0_off4_inb i)).toLoadRect xt0 (Shape.Idx.first (numel1_S1.symm ▸ Nat.one_pos))))
    (k0_hw3 : k0_chk3 (tbM0_0.view.readAt (Elt F) (Rect.unit (s := S64) (k0_off7 i) S1.size (k0_off7_inb i)).toLoadRect xt0 (Shape.Idx.first (numel1_S1.symm ▸ Nat.one_pos))))
    (k0_hw4 : k0_chk4 (tbM0_0.view.readAt (Elt F) (Rect.unit (s := S64) (k0_off10 i) S1.size (k0_off10_inb i)).toLoadRect xt0 (Shape.Idx.first (numel1_S1.symm ▸ Nat.one_pos))))
    (k0_hw5 : k0_chk5 (tbM0_0.view.readAt (Elt F) (Rect.unit (s := S64) (k0_off13 i) S1.size (k0_off13_inb i)).toLoadRect xt0 (Shape.Idx.first (numel1_S1.symm ▸ Nat.one_pos))))
    (k0_hw6 : k0_chk6 (tbM0_0.view.readAt (Elt F) (Rect.unit (s := S64) (k0_off16 i) S1.size (k0_off16_inb i)).toLoadRect xt0 (Shape.Idx.first (numel1_S1.symm ▸ Nat.one_pos))))
    (k0_hw7 : k0_chk7 (tbM0_0.view.readAt (Elt F) (Rect.unit (s := S64) (k0_off19 i) S1.size (k0_off19_inb i)).toLoadRect xt0 (Shape.Idx.first (numel1_S1.symm ▸ Nat.one_pos))))
    (k0_hw8 : k0_chk8 (tbM0_0.view.readAt (Elt F) (Rect.unit (s := S64) (k0_off22 i) S1.size (k0_off22_inb i)).toLoadRect xt0 (Shape.Idx.first (numel1_S1.symm ▸ Nat.one_pos)))) : Vec F S4x256x256 .f32 :=
  VO0_9.read (Elt F) (VO0_9.writes (Elt F) VO0_9.junk (kernelRun0 c i arg2 harg2 arg3 harg3 arg4 harg4 arg5 harg5 arg6 harg6 arg7 harg7 arg8 harg8 arg9 harg9 arg10 harg10 arg11 harg11 x0 x1 x2 x3 x4 x5 x6 x7 x8 xt0 k0_hw1 k0_hw2 k0_hw3 k0_hw4 k0_hw5 k0_hw6 k0_hw7 k0_hw8).1)

def outsAt0 (hH : Hyps m) (c : Dev nD) (t : Fin (cfgM m).N) : Vec F S4x256x256 .f32 :=
  out0_9 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (iblk m c 0 t) (iblk m c 1 t) (iblk m c 2 t) (iblk m c 3 t) (iblk m c 4 t) (iblk m c 5 t) (iblk m c 6 t) (iblk m c 7 t) (iblk m c 8 t) (tbl m 0) (Hyps.c1 hH c t) (Hyps.c2 hH c t) (Hyps.c3 hH c t) (Hyps.c4 hH c t) (Hyps.c5 hH c t) (Hyps.c6 hH c t) (Hyps.c7 hH c t) (Hyps.c8 hH c t)

def dats (hH : Hyps m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt0 m hH c t
  Φ _ := iprop(Pipeline.ΦA spec0 c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = iblk m c 1 t := by dsimp only [dats]; try rfl
theorem after0_2 (hH : Hyps m) (c : Dev nD) (t : Fin (cfgM m).N) : (dats m hH 0 c).after 2 t = iblk m c 2 t := by dsimp only [dats]; try rfl
theorem after0_3 (hH : Hyps m) (c : Dev nD) (t : Fin (cfgM m).N) : (dats m hH 0 c).after 3 t = iblk m c 3 t := by dsimp only [dats]; try rfl
theorem after0_4 (hH : Hyps m) (c : Dev nD) (t : Fin (cfgM m).N) : (dats m hH 0 c).after 4 t = iblk m c 4 t := by dsimp only [dats]; try rfl
theorem after0_5 (hH : Hyps m) (c : Dev nD) (t : Fin (cfgM m).N) : (dats m hH 0 c).after 5 t = iblk m c 5 t := by dsimp only [dats]; try rfl
theorem after0_6 (hH : Hyps m) (c : Dev nD) (t : Fin (cfgM m).N) : (dats m hH 0 c).after 6 t = iblk m c 6 t := by dsimp only [dats]; try rfl
theorem after0_7 (hH : Hyps m) (c : Dev nD) (t : Fin (cfgM m).N) : (dats m hH 0 c).after 7 t = iblk m c 7 t := by dsimp only [dats]; try rfl
theorem after0_8 (hH : Hyps m) (c : Dev nD) (t : Fin (cfgM m).N) : (dats m hH 0 c).after 8 t = iblk m c 8 t := by dsimp only [dats]; try rfl
theorem after0_9 (hH : Hyps m) (c : Dev nD) (t : Fin (cfgM m).N) : (dats m hH 0 c).after 9 t = outsAt0 m hH c t := by dsimp only [dats]; try rfl

theorem before0_0 (hH : Hyps m) (c : Dev nD) (t : Fin (cfgM m).N) (d) : (dats m hH 0 c).before 0 t d = iblk m c 0 t :=
  before0_0_of m (dats m hH 0 c) (A_eq m hH c 0) (after0_0 m hH c) t d
theorem before0_1 (hH : Hyps m) (c : Dev nD) (t : Fin (cfgM m).N) (d) : (dats m hH 0 c).before 1 t d = iblk m c 1 t :=
  before0_1_of m (dats m hH 0 c) (A_eq m hH c 1) (after0_1 m hH c) t d
theorem before0_2 (hH : Hyps m) (c : Dev nD) (t : Fin (cfgM m).N) (d) : (dats m hH 0 c).before 2 t d = iblk m c 2 t :=
  before0_2_of m (dats m hH 0 c) (A_eq m hH c 2) (after0_2 m hH c) t d
theorem before0_3 (hH : Hyps m) (c : Dev nD) (t : Fin (cfgM m).N) (d) : (dats m hH 0 c).before 3 t d = iblk m c 3 t :=
  before0_3_of m (dats m hH 0 c) (A_eq m hH c 3) (after0_3 m hH c) t d
theorem before0_4 (hH : Hyps m) (c : Dev nD) (t : Fin (cfgM m).N) (d) : (dats m hH 0 c).before 4 t d = iblk m c 4 t :=
  before0_4_of m (dats m hH 0 c) (A_eq m hH c 4) (after0_4 m hH c) t d
theorem before0_5 (hH : Hyps m) (c : Dev nD) (t : Fin (cfgM m).N) (d) : (dats m hH 0 c).before 5 t d = iblk m c 5 t :=
  before0_5_of m (dats m hH 0 c) (A_eq m hH c 5) (after0_5 m hH c) t d
theorem before0_6 (hH : Hyps m) (c : Dev nD) (t : Fin (cfgM m).N) (d) : (dats m hH 0 c).before 6 t d = iblk m c 6 t :=
  before0_6_of m (dats m hH 0 c) (A_eq m hH c 6) (after0_6 m hH c) t d
theorem before0_7 (hH : Hyps m) (c : Dev nD) (t : Fin (cfgM m).N) (d) : (dats m hH 0 c).before 7 t d = iblk m c 7 t :=
  before0_7_of m (dats m hH 0 c) (A_eq m hH c 7) (after0_7 m hH c) t d
theorem before0_8 (hH : Hyps m) (c : Dev nD) (t : Fin (cfgM m).N) (d) : (dats m hH 0 c).before 8 t d = iblk m c 8 t :=
  before0_8_of m (dats m hH 0 c) (A_eq m hH c 8) (after0_8 m hH c) t d

abbrev bodyAt0 (t : Fin (cfgM m).N) : Prog (TpuEff nD τ sig (Elt F) Λ₀ .tc) PUnit :=
  cc0__kernel (grid0.coords t) tbM0_0 htbM0_0 (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t)

def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d))
    ∗ (∃ d, owns (c : Thread nD τ) (ms0_3 m t) fullShare ((dats m hH 0 c).before 3 t d))
    ∗ (∃ d, owns (c : Thread nD τ) (ms0_4 m t) fullShare ((dats m hH 0 c).before 4 t d))
    ∗ (∃ d, owns (c : Thread nD τ) (ms0_5 m t) fullShare ((dats m hH 0 c).before 5 t d))
    ∗ (∃ d, owns (c : Thread nD τ) (ms0_6 m t) fullShare ((dats m hH 0 c).before 6 t d))
    ∗ (∃ d, owns (c : Thread nD τ) (ms0_7 m t) fullShare ((dats m hH 0 c).before 7 t d))
    ∗ (∃ d, owns (c : Thread nD τ) (ms0_8 m t) fullShare ((dats m hH 0 c).before 8 t d))
    ∗ (∃ d, owns (c : Thread nD τ) (ms0_9 m t) fullShare ((dats m hH 0 c).before 9 t d)))

def bodyPost (hH : Hyps m) (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t)
    ∗ owns (c : Thread nD τ) (ms0_3 m t) fullShare ((dats m hH 0 c).after 3 t)
    ∗ owns (c : Thread nD τ) (ms0_4 m t) fullShare ((dats m hH 0 c).after 4 t)
    ∗ owns (c : Thread nD τ) (ms0_5 m t) fullShare ((dats m hH 0 c).after 5 t)
    ∗ owns (c : Thread nD τ) (ms0_6 m t) fullShare ((dats m hH 0 c).after 6 t)
    ∗ owns (c : Thread nD τ) (ms0_7 m t) fullShare ((dats m hH 0 c).after 7 t)
    ∗ owns (c : Thread nD τ) (ms0_8 m t) fullShare ((dats m hH 0 c).after 8 t)
    ∗ owns (c : Thread nD τ) (ms0_9 m t) fullShare ((dats m hH 0 c).after 9 t))

set_option maxHeartbeats 2000000 in
theorem sound_body (hH : Hyps m) (c : Dev nD) (t : Fin (cfgM m).N) :
    bodyPre m hH c t ⊢ wp frame (wpE (defs₀ (F := F)) Variants.none c none) Set.univ (bodyAt0 m t) (fun _ => bodyPost m hH c t) := by
  unfold bodyPre bodyPost bodyAt0
  simp only [before0_0, before0_1, before0_2, before0_3, before0_4, before0_5, before0_6, before0_7, before0_8]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9]
  rw [show (dats m hH 0 c).Φ t.castSucc = iprop(Pipeline.ΦA spec0 c ∗ Pipeline.ΦT pre0 (tbl m) c) from rfl, PhiT0_eq]
  unfold outsAt0
  unfold out0_9
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0 c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (tbl m 0) (Hyps.c1 hH c t) (Hyps.c2 hH c t) (Hyps.c3 hH c t) (Hyps.c4 hH c t) (Hyps.c5 hH c t) (Hyps.c6 hH c t) (Hyps.c7 hH c t) (Hyps.c8 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HT0]; · iexact HT0
  iintro ⟨H0, H1, H2, H3, H4, H5, H6, H7, H8, ⟨%e9, H9⟩, HT0⟩
  isplitl [HΦ HT0]
  · isplitl [HΦ]; · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover0_9 c _ _ _ _ _ _ _ _ _ _ _ _ _ _ _ _ _ _ _ _ _ _ _ _ _ _ _ _ _ _ _ _ _ _ _ _ _ _ _)

theorem body_obligation (hH : Hyps m) (c : Dev nD) : BodyObligation (dats (F := F) m hH 0 c) (defs₀ (F := F)) Variants.none () Set.univ := fun t => by
  rw [bigSep_W0, bigSep_W0]
  exact sound_body m hH c t

set_option backward.isDefEq.respectTransparency.types false in

theorem run_main (hH : Hyps m) : θ_run defs (onTc (τ := τ) (main (F := F))) (s₀ m ρ) (Pipeline.FramePost (Pipeline.pin pcfgs fun _ => adm m) (dats m hH) 0 (V m)) :=
  Pipeline.θ_run_frameP pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hΦ := fun _ _ => rfl)

theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m hH) (A_eq m hH) (run_main m ρ hH)

end Cert.Kernel.Fr

end
-- ==== Proof.RouteRange.lean ====
import proofs.«406211_j29257317220859_3_alg».proof.Pre_finite_inputs
import proofs.«406211_j29257317220859_3_alg».proof.Proof.Gen.Pre_finite_inputs
import Idealize.ShloMosaic.Lib.ReduceAll
import Idealize.ShloMosaic.Lib.ValueIdx

noncomputable section

namespace Cert.RouteRange

open Idealize.ShloMosaic Idealize.ShloMosaic.ValueIdx

theorem toInt_cases (w : BitVec 32) :
    (2 * w.toNat < 2 ^ 32 ∧ w.toInt = (w.toNat : Int)) ∨ (2 ^ 32 ≤ 2 * w.toNat ∧ w.toInt = (w.toNat : Int) - 2 ^ 32) := by
  rw [BitVec.toInt_eq_toNat_cond]
  by_cases c : 2 * w.toNat < 2 ^ 32
  · left; exact ⟨c, by rw [if_pos c]⟩
  · right; refine ⟨by omega, ?_⟩; rw [if_neg c]; norm_cast

theorem toInt_zero32 : (0#32 : BitVec 32).toInt = 0 := by decide
theorem toInt_fifteen32 : (15#32 : BitVec 32).toInt = 15 := by decide
theorem toInt_sixteen32 : (16#32 : BitVec 32).toInt = 16 := by decide

theorem toNat_lt_of_signed (w : BitVec 32) (h0 : (0#32 : BitVec 32).toInt ≤ w.toInt) (h1 : w.toInt < (16#32 : BitVec 32).toInt) :
    w.toNat < 16 := by
  rw [toInt_zero32] at h0
  rw [toInt_sixteen32] at h1
  have hw := w.isLt
  rcases toInt_cases w with ⟨_, e⟩ | ⟨_, e⟩ <;> omega

theorem maxsi_zero (w : BitVec 32) : IntOp.maxsi 0#32 w = if w.toInt < 0 then 0#32 else w := by
  unfold IntOp.maxsi
  by_cases c : w.toInt < 0
  · rw [if_pos c, if_pos (by rw [BitVec.slt_iff_toInt_lt, toInt_zero32]; exact c)]
  · rw [if_neg c, if_neg (by rw [BitVec.slt_iff_toInt_lt, toInt_zero32]; exact c)]

theorem minsi_fifteen (m : BitVec 32) : IntOp.minsi 15#32 m = if 15 < m.toInt then 15#32 else m := by
  unfold IntOp.minsi
  by_cases c : 15 < m.toInt
  · rw [if_pos c, if_pos (by rw [BitVec.slt_iff_toInt_lt, toInt_fifteen32]; exact c)]
  · rw [if_neg c, if_neg (by rw [BitVec.slt_iff_toInt_lt, toInt_fifteen32]; exact c)]

theorem clampWord_toNat_lt (w : BitVec 32) : (IntOp.minsi 15#32 (IntOp.maxsi 0#32 w)).toNat < 16 := by
  rw [maxsi_zero]
  by_cases c : w.toInt < 0
  · rw [if_pos c, minsi_fifteen, if_neg (by rw [toInt_zero32]; omega)]; decide
  · rw [if_neg c, minsi_fifteen]
    by_cases d : 15 < w.toInt
    · rw [if_pos d]; decide
    · rw [if_neg d]
      have hw := w.isLt
      rcases toInt_cases w with ⟨_, e⟩ | ⟨_, e⟩ <;> omega

theorem clampWord_eq_of_lt (w : BitVec 32) (h : w.toNat < 16) : IntOp.minsi 15#32 (IntOp.maxsi 0#32 w) = w := by
  have e : w.toInt = (w.toNat : Int) := by
    rcases toInt_cases w with ⟨_, e⟩ | ⟨_, e⟩
    · exact e
    · omega
  rw [maxsi_zero, if_neg (by omega), minsi_fifteen, if_neg (by omega)]

theorem clamp_toNat_lt (hb : (⟨0, ![]⟩ : Shape).BroadcastsInDim ⟨1, ![64]⟩ ![]) (r : IVec ⟨1, ![64]⟩ 32)
    (i : (⟨1, ![64]⟩ : Shape).Idx) :
    (minsi (broadcastInDim _ ![] hb (constantI ⟨0, ![]⟩ 32 15#32))
      (maxsi (broadcastInDim _ ![] hb (constantI ⟨0, ![]⟩ 32 0#32)) r) i).toNat < 16 :=
  clampWord_toNat_lt (r i)

theorem clamp_eq_of_lt (hb : (⟨0, ![]⟩ : Shape).BroadcastsInDim ⟨1, ![64]⟩ ![]) (r : IVec ⟨1, ![64]⟩ 32)
    (i : (⟨1, ![64]⟩ : Shape).Idx) (h : (r i).toNat < 16) :
    minsi (broadcastInDim _ ![] hb (constantI ⟨0, ![]⟩ 32 15#32))
      (maxsi (broadcastInDim _ ![] hb (constantI ⟨0, ![]⟩ 32 0#32)) r) i = r i :=
  clampWord_eq_of_lt (r i) h

open Cert.Pre_finite_inputs in

theorem route_lt_of_pre {F : FTy → Type} [FloatOps F] [Cert.Pre_finite_inputs.Facts]
    (a0 : FVec F S64x256x256 .f32) (a1 : IVec S64 32) (a2 : FVec F S512x256 .f32) (a3 : FVec F S512 .f32)
    (a4 : FVec F S2x16x512x512 .f32) (a5 : FVec F S2x16x512 .f32) (a6 : FVec F S2x1x512x512 .f32)
    (a7 : FVec F S2x1x512 .f32) (a8 : FVec F S256x512 .f32) (a9 : FVec F S256 .f32)
    (h : Cert.Pre_finite_inputs.fn (F := F) a0 a1 a2 a3 a4 a5 a6 a7 a8 a9 = fun _ => 1#1) :
    ∀ b : Fin 64, (a1 (ix1 b)).toNat < 16 := by
  intro b
  haveI : Subsingleton S_.Idx := ⟨fun x y => funext fun d => d.elim0⟩
  have e := congrFun h ix0
  have e49 : Host.reduce IntOp.andi
      (andi (cmpi .sge a1 (broadcastInDim S64 ![] Facts.bcast_S_S64 (constantI S_ 32 0#32)))
        (cmpi .slt a1 (broadcastInDim S64 ![] Facts.bcast_S_S64 (constantI S_ 32 16#32))))
      (constantI S_ 1 1#1) Facts.reducesTo_S64_S_d0 Facts.h_S_ ix0 = 1#1 :=
    (IntOp.andi_eq_one.1 e).2
  have e48 := Host.reduce_andi_all _ _ _ _ _ e49 (ix1 b)
  have e' : IntOp.andi (IntOp.cmpi .sge (a1 (ix1 b)) 0#32) (IntOp.cmpi .slt (a1 (ix1 b)) 16#32) = 1#1 := e48
  obtain ⟨h0, h16⟩ := IntOp.andi_eq_one.1 e'
  exact toNat_lt_of_signed _ (IntOp.cmpi_sge.1 h0) (IntOp.cmpi_slt.1 h16)

open Cert.Pre_finite_inputs in

theorem clamp_eq_of_pre {F : FTy → Type} [FloatOps F] [Cert.Pre_finite_inputs.Facts]
    (a0 : FVec F S64x256x256 .f32) (a1 : IVec S64 32) (a2 : FVec F S512x256 .f32) (a3 : FVec F S512 .f32)
    (a4 : FVec F S2x16x512x512 .f32) (a5 : FVec F S2x16x512 .f32) (a6 : FVec F S2x1x512x512 .f32)
    (a7 : FVec F S2x1x512 .f32) (a8 : FVec F S256x512 .f32) (a9 : FVec F S256 .f32)
    (h : Cert.Pre_finite_inputs.fn (F := F) a0 a1 a2 a3 a4 a5 a6 a7 a8 a9 = fun _ => 1#1)
    (hb : (⟨0, ![]⟩ : Shape).BroadcastsInDim ⟨1, ![64]⟩ ![]) :
    minsi (broadcastInDim _ ![] hb (constantI ⟨0, ![]⟩ 32 15#32))
      (maxsi (broadcastInDim _ ![] hb (constantI ⟨0, ![]⟩ 32 0#32)) a1) = a1 := by
  funext i
  rw [eq_ix1 i]
  exact clamp_eq_of_lt hb a1 _ (route_lt_of_pre a0 a1 a2 a3 a4 a5 a6 a7 a8 a9 h _)

end Cert.RouteRange

end
-- ==== Proof.KbHyps.lean ====
import proofs.«406211_j29257317220859_3_alg».proof.Proof.KbHypsDef
import proofs.«406211_j29257317220859_3_alg».proof.Proof.RouteRange

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem tbl_eq : tbl m 0 = minsi (broadcastInDim S64 ![] bcast_S_S64 (constantI S_ 32 15#32))
    (maxsi (broadcastInDim S64 ![] bcast_S_S64 (constantI S_ 32 0#32)) (m (((0 : Dev nD).tc : Thread nD τ).loc main_arg1))) := by
  unfold tbl
  show V m 0 main_v0 = _
  unfold V
  simp only [hostOps0, hostOps0_1, hostOps0_2, List.flatten_cons, List.flatten_nil, List.append_nil, List.cons_append, List.nil_append]
  after_results
  rfl

theorem tbl_lt (j : S64.Idx) : (tbl m 0 j : BitVec 32).toNat < 16 := by
  rw [tbl_eq]
  exact Cert.RouteRange.clamp_toNat_lt bcast_S_S64 _ j

theorem chk_of_lt (w : BitVec 32) (hw : w.toNat < 16) :
    (∀ a, (![(Scalar.indexCast w).toNat, 0, 0] : Fin 3 → Nat) a + S1x512x512.size a ≤ S16x512x512.size a) ∧
    (∀ a, (![(Scalar.indexCast w).toNat, 0] : Fin 2 → Nat) a + S1x512.size a ≤ S16x512.size a) := by
  have e : (Scalar.indexCast w).toNat = w.toNat := rfl
  refine ⟨fun a => ?_, fun a => ?_⟩
  · match a with
    | ⟨0, _⟩ => show (Scalar.indexCast w).toNat + 1 ≤ 16; omega
    | ⟨1, _⟩ => show 0 + 512 ≤ 512; omega
    | ⟨2, _⟩ => show 0 + 512 ≤ 512; omega
  · match a with
    | ⟨0, _⟩ => show (Scalar.indexCast w).toNat + 1 ≤ 16; omega
    | ⟨1, _⟩ => show 0 + 512 ≤ 512; omega

theorem chk1_of_lt (w : BitVec 32) (hw : w.toNat < 16) : k0_chk1 w := chk_of_lt w hw
theorem chk2_of_lt (w : BitVec 32) (hw : w.toNat < 16) : k0_chk2 w := chk_of_lt w hw
theorem chk3_of_lt (w : BitVec 32) (hw : w.toNat < 16) : k0_chk3 w := chk_of_lt w hw
theorem chk4_of_lt (w : BitVec 32) (hw : w.toNat < 16) : k0_chk4 w := chk_of_lt w hw
theorem chk5_of_lt (w : BitVec 32) (hw : w.toNat < 16) : k0_chk5 w := chk_of_lt w hw
theorem chk6_of_lt (w : BitVec 32) (hw : w.toNat < 16) : k0_chk6 w := chk_of_lt w hw
theorem chk7_of_lt (w : BitVec 32) (hw : w.toNat < 16) : k0_chk7 w := chk_of_lt w hw
theorem chk8_of_lt (w : BitVec 32) (hw : w.toNat < 16) : k0_chk8 w := chk_of_lt w hw

theorem word_eq (off : Fin 1 → Nat) (inb : ∀ a, off a + S1.size a ≤ S64.size a) (f : S64.Idx → BitVec 32) (x : S1.Idx) :
    tbM0_0.view.readAt (Elt F) (Rect.unit (s := S64) off S1.size inb).toLoadRect f x
      = f ((Rect.unit (s := S64) off S1.size inb).toLoadRect.idx x) := rfl

theorem word_lt (off : Fin 1 → Nat) (inb : ∀ a, off a + S1.size a ≤ S64.size a) (x : S1.Idx) :
    (tbM0_0.view.readAt (Elt F) (Rect.unit (s := S64) off S1.size inb).toLoadRect (tbl m 0) x : BitVec 32).toNat < 16 :=
  tbl_lt m _

theorem hyps : Hyps m := fun c t =>
  ⟨chk1_of_lt _ (word_lt m _ _ _), chk2_of_lt _ (word_lt m _ _ _), chk3_of_lt _ (word_lt m _ _ _),
    chk4_of_lt _ (word_lt m _ _ _), chk5_of_lt _ (word_lt m _ _ _), chk6_of_lt _ (word_lt m _ _ _),
    chk7_of_lt _ (word_lt m _ _ _), chk8_of_lt _ (word_lt m _ _ _)⟩

end Cert.Kernel.Fr

end
-- ==== Proof.KiKit.lean ====
import proofs.«406211_j29257317220859_3_alg».proof.Proof.Gen.KernelIdeal.Launch
import proofs.«406211_j29257317220859_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

abbrev tbM0_0 : Memref sig .tc .smem S64 .i32 := Memref.whole main_v0
abbrev htbM0_0 : tbM0_0.IsWhole := Memref.isWhole_whole _
abbrev TbBuf0 (c : Dev nD) {S : Shape} {e : EltTy} (M : Memref sig .tc .smem S e) : Type := Buf (Elt F) (M.view.loc (c : Thread nD τ))

abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ (cfgM m) c) (hA : dat.A 8 = V m c (Pipeline.arrRef spec0 8))
    (hafter : ∀ t, dat.after 8 t = iblk m c 8 t) (t : Fin (cfgM m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev VO0_9 : View sig .tc .vmem S4x256x256 .f32 := (Memref.whole cc0_stg9_0 : Memref sig .tc .vmem S4x256x256 .f32).view
abbrev ms0_0 (t : Fin (cfgM m).N) : Memref sig .tc .vmem S4x256x256 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S512x256 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x512 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S2x16x512x512 .bf16 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S2x16x512 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S2x1x512x512 .bf16 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S2x1x512 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S256x512 .bf16 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S1x256 .f32 := spec0_8.stage ((cfgM m).slots t 8)
abbrev hs0_8 (t : Fin (cfgM m).N) : (ms0_8 m t).IsWhole := hstage0_8 (((cfgM m).slots t 8).cast nbuf0_8)
abbrev ms0_9 (t : Fin (cfgM m).N) : Memref sig .tc .vmem S4x256x256 .f32 := spec0_9.stage ((cfgM m).slots t 9)
abbrev hs0_9 (t : Fin (cfgM m).N) : (ms0_9 m t).IsWhole := hstage0_9 (((cfgM m).slots t 9).cast nbuf0_9)

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 4).trans (((dats 0 c).arrAt_in 4 rfl _).trans ((hA c 4).trans (V_main_arg5 m c))),
      ((h c).2 main_arg6 (by decide : main_arg6 ∈ Pipeline.restRefs sig spec0)).trans (V_main_arg6 m c),
      ((h c).1 6).trans (((dats 0 c).arrAt_in 6 rfl _).trans ((hA c 6).trans (V_main_arg7 m c))),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) h

end Cert.KernelIdeal.Fr

end
-- ==== Proof.KiRun.lean ====
import proofs.«406211_j29257317220859_3_alg».proof.Proof.KiKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0 (c : Dev nD) (i : grid0.Coords) (arg2 : Memref sig .tc .vmem S4x256x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2x16x512x512 .bf16) (harg5 : arg5.IsWhole) (arg6 : Memref sig .tc .vmem S2x16x512 .f32) (harg6 : arg6.IsWhole) (arg7 : Memref sig .tc .vmem S2x1x512x512 .bf16) (harg7 : arg7.IsWhole) (arg8 : Memref sig .tc .vmem S2x1x512 .f32) (harg8 : arg8.IsWhole) (arg9 : Memref sig .tc .vmem S256x512 .bf16) (harg9 : arg9.IsWhole) (arg10 : Memref sig .tc .vmem S1x256 .f32) (harg10 : arg10.IsWhole) (arg11 : Memref sig .tc .vmem S4x256x256 .f32) (harg11 : arg11.IsWhole)
    (x0 : Vec F S4x256x256 .bf16) (x1 : Vec F S512x256 .bf16) (x2 : Vec F S1x512 .f32) (x3 : Vec F S2x16x512x512 .bf16) (x4 : Vec F S2x16x512 .f32) (x5 : Vec F S2x1x512x512 .bf16) (x6 : Vec F S2x1x512 .f32) (x7 : Vec F S256x512 .bf16) (x8 : Vec F S1x256 .f32) (xt0 : TbBuf0 (F := F) c tbM0_0)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off4 i) S1.size (k0_off4_inb i)).toLoadRect xt0 (Shape.Idx.first (numel1_S1.symm ▸ Nat.one_pos))))
    (k0_hw3 : k0_chk3 (tbM0_0.view.readAt (Elt F) (Rect.unit (s := S64) (k0_off7 i) S1.size (k0_off7_inb i)).toLoadRect xt0 (Shape.Idx.first (numel1_S1.symm ▸ Nat.one_pos))))
    (k0_hw4 : k0_chk4 (tbM0_0.view.readAt (Elt F) (Rect.unit (s := S64) (k0_off10 i) S1.size (k0_off10_inb i)).toLoadRect xt0 (Shape.Idx.first (numel1_S1.symm ▸ Nat.one_pos))))
    (k0_hw5 : k0_chk5 (tbM0_0.view.readAt (Elt F) (Rect.unit (s := S64) (k0_off13 i) S1.size (k0_off13_inb i)).toLoadRect xt0 (Shape.Idx.first (numel1_S1.symm ▸ Nat.one_pos))))
    (k0_hw6 : k0_chk6 (tbM0_0.view.readAt (Elt F) (Rect.unit (s := S64) (k0_off16 i) S1.size (k0_off16_inb i)).toLoadRect xt0 (Shape.Idx.first (numel1_S1.symm ▸ Nat.one_pos))))
    (k0_hw7 : k0_chk7 (tbM0_0.view.readAt (Elt F) (Rect.unit (s := S64) (k0_off19 i) S1.size (k0_off19_inb i)).toLoadRect xt0 (Shape.Idx.first (numel1_S1.symm ▸ Nat.one_pos))))
    (k0_hw8 : k0_chk8 (tbM0_0.view.readAt (Elt F) (Rect.unit (s := S64) (k0_off22 i) S1.size (k0_off22_inb i)).toLoadRect xt0 (Shape.Idx.first (numel1_S1.symm ▸ Nat.one_pos)))) :
    { L9 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ tbPt0 c tbM0_0 xt0) -∗ K ⟨⟩))
          ⊢ wp frame (wpE (defs₀ (F := F)) Variants.none c none) E (cc0__kernel i tbM0_0 htbM0_0 arg2 harg2 arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexact HT0

end Cert.KernelIdeal.Fr

end
-- ==== Proof.KiHypsDef.lean ====
import proofs.«406211_j29257317220859_3_alg».proof.Proof.KiKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def Hyps : Prop :=
  ∀ (c : Dev nD) (t : Fin (cfgM m).N),
    k0_chk1 (tbM0_0.view.readAt (Elt F) (Rect.unit (s := S64) (k0_off1 (grid0.coords t)) S1.size (k0_off1_inb (grid0.coords t))).toLoadRect (tbl m 0) (Shape.Idx.first (numel1_S1.symm ▸ Nat.one_pos)))
    ∧ k0_chk2 (tbM0_0.view.readAt (Elt F) (Rect.unit (s := S64) (k0_off4 (grid0.coords t)) S1.size (k0_off4_inb (grid0.coords t))).toLoadRect (tbl m 0) (Shape.Idx.first (numel1_S1.symm ▸ Nat.one_pos)))
    ∧ k0_chk3 (tbM0_0.view.readAt (Elt F) (Rect.unit (s := S64) (k0_off7 (grid0.coords t)) S1.size (k0_off7_inb (grid0.coords t))).toLoadRect (tbl m 0) (Shape.Idx.first (numel1_S1.symm ▸ Nat.one_pos)))
    ∧ k0_chk4 (tbM0_0.view.readAt (Elt F) (Rect.unit (s := S64) (k0_off10 (grid0.coords t)) S1.size (k0_off10_inb (grid0.coords t))).toLoadRect (tbl m 0) (Shape.Idx.first (numel1_S1.symm ▸ Nat.one_pos)))
    ∧ k0_chk5 (tbM0_0.view.readAt (Elt F) (Rect.unit (s := S64) (k0_off13 (grid0.coords t)) S1.size (k0_off13_inb (grid0.coords t))).toLoadRect (tbl m 0) (Shape.Idx.first (numel1_S1.symm ▸ Nat.one_pos)))
    ∧ k0_chk6 (tbM0_0.view.readAt (Elt F) (Rect.unit (s := S64) (k0_off16 (grid0.coords t)) S1.size (k0_off16_inb (grid0.coords t))).toLoadRect (tbl m 0) (Shape.Idx.first (numel1_S1.symm ▸ Nat.one_pos)))
    ∧ k0_chk7 (tbM0_0.view.readAt (Elt F) (Rect.unit (s := S64) (k0_off19 (grid0.coords t)) S1.size (k0_off19_inb (grid0.coords t))).toLoadRect (tbl m 0) (Shape.Idx.first (numel1_S1.symm ▸ Nat.one_pos)))
    ∧ k0_chk8 (tbM0_0.view.readAt (Elt F) (Rect.unit (s := S64) (k0_off22 (grid0.coords t)) S1.size (k0_off22_inb (grid0.coords t))).toLoadRect (tbl m 0) (Shape.Idx.first (numel1_S1.symm ▸ Nat.one_pos)))

variable {m}
theorem Hyps.c1 (hH : Hyps m) (c : Dev nD) (t : Fin (cfgM m).N) :
    k0_chk1 (tbM0_0.view.readAt (Elt F) (Rect.unit (s := S64) (k0_off1 (grid0.coords t)) S1.size (k0_off1_inb (grid0.coords t))).toLoadRect (tbl m 0) (Shape.Idx.first (numel1_S1.symm ▸ Nat.one_pos))) := (hH c t).1
theorem Hyps.c2 (hH : Hyps m) (c : Dev nD) (t : Fin (cfgM m).N) :
    k0_chk2 (tbM0_0.view.readAt (Elt F) (Rect.unit (s := S64) (k0_off4 (grid0.coords t)) S1.size (k0_off4_inb (grid0.coords t))).toLoadRect (tbl m 0) (Shape.Idx.first (numel1_S1.symm ▸ Nat.one_pos))) := (hH c t).2.1
theorem Hyps.c3 (hH : Hyps m) (c : Dev nD) (t : Fin (cfgM m).N) :
    k0_chk3 (tbM0_0.view.readAt (Elt F) (Rect.unit (s := S64) (k0_off7 (grid0.coords t)) S1.size (k0_off7_inb (grid0.coords t))).toLoadRect (tbl m 0) (Shape.Idx.first (numel1_S1.symm ▸ Nat.one_pos))) := (hH c t).2.2.1
theorem Hyps.c4 (hH : Hyps m) (c : Dev nD) (t : Fin (cfgM m).N) :
    k0_chk4 (tbM0_0.view.readAt (Elt F) (Rect.unit (s := S64) (k0_off10 (grid0.coords t)) S1.size (k0_off10_inb (grid0.coords t))).toLoadRect (tbl m 0) (Shape.Idx.first (numel1_S1.symm ▸ Nat.one_pos))) := (hH c t).2.2.2.1
theorem Hyps.c5 (hH : Hyps m) (c : Dev nD) (t : Fin (cfgM m).N) :
    k0_chk5 (tbM0_0.view.readAt (Elt F) (Rect.unit (s := S64) (k0_off13 (grid0.coords t)) S1.size (k0_off13_inb (grid0.coords t))).toLoadRect (tbl m 0) (Shape.Idx.first (numel1_S1.symm ▸ Nat.one_pos))) := (hH c t).2.2.2.2.1
theorem Hyps.c6 (hH : Hyps m) (c : Dev nD) (t : Fin (cfgM m).N) :
    k0_chk6 (tbM0_0.view.readAt (Elt F) (Rect.unit (s := S64) (k0_off16 (grid0.coords t)) S1.size (k0_off16_inb (grid0.coords t))).toLoadRect (tbl m 0) (Shape.Idx.first (numel1_S1.symm ▸ Nat.one_pos))) := (hH c t).2.2.2.2.2.1
theorem Hyps.c7 (hH : Hyps m) (c : Dev nD) (t : Fin (cfgM m).N) :
    k0_chk7 (tbM0_0.view.readAt (Elt F) (Rect.unit (s := S64) (k0_off19 (grid0.coords t)) S1.size (k0_off19_inb (grid0.coords t))).toLoadRect (tbl m 0) (Shape.Idx.first (numel1_S1.symm ▸ Nat.one_pos))) := (hH c t).2.2.2.2.2.2.1
theorem Hyps.c8 (hH : Hyps m) (c : Dev nD) (t : Fin (cfgM m).N) :
    k0_chk8 (tbM0_0.view.readAt (Elt F) (Rect.unit (s := S64) (k0_off22 (grid0.coords t)) S1.size (k0_off22_inb (grid0.coords t))).toLoadRect (tbl m 0) (Shape.Idx.first (numel1_S1.symm ▸ Nat.one_pos))) := (hH c t).2.2.2.2.2.2.2

end Cert.KernelIdeal.Fr

end
-- ==== Proof.KiFrame.lean ====
import proofs.«406211_j29257317220859_3_alg».proof.Proof.KiRun
import proofs.«406211_j29257317220859_3_alg».proof.Proof.KiHypsDef

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_9 (c : Dev nD) (i : grid0.Coords) (arg2 : Memref sig .tc .vmem S4x256x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2x16x512x512 .bf16) (harg5 : arg5.IsWhole) (arg6 : Memref sig .tc .vmem S2x16x512 .f32) (harg6 : arg6.IsWhole) (arg7 : Memref sig .tc .vmem S2x1x512x512 .bf16) (harg7 : arg7.IsWhole) (arg8 : Memref sig .tc .vmem S2x1x512 .f32) (harg8 : arg8.IsWhole) (arg9 : Memref sig .tc .vmem S256x512 .bf16) (harg9 : arg9.IsWhole) (arg10 : Memref sig .tc .vmem S1x256 .f32) (harg10 : arg10.IsWhole) (arg11 : Memref sig .tc .vmem S4x256x256 .f32) (harg11 : arg11.IsWhole)
    (x0 : Vec F S4x256x256 .bf16) (x1 : Vec F S512x256 .bf16) (x2 : Vec F S1x512 .f32) (x3 : Vec F S2x16x512x512 .bf16) (x4 : Vec F S2x16x512 .f32) (x5 : Vec F S2x1x512x512 .bf16) (x6 : Vec F S2x1x512 .f32) (x7 : Vec F S256x512 .bf16) (x8 : Vec F S1x256 .f32) (xt0 : TbBuf0 (F := F) c tbM0_0)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off4 i) S1.size (k0_off4_inb i)).toLoadRect xt0 (Shape.Idx.first (numel1_S1.symm ▸ Nat.one_pos))))
    (k0_hw3 : k0_chk3 (tbM0_0.view.readAt (Elt F) (Rect.unit (s := S64) (k0_off7 i) S1.size (k0_off7_inb i)).toLoadRect xt0 (Shape.Idx.first (numel1_S1.symm ▸ Nat.one_pos))))
    (k0_hw4 : k0_chk4 (tbM0_0.view.readAt (Elt F) (Rect.unit (s := S64) (k0_off10 i) S1.size (k0_off10_inb i)).toLoadRect xt0 (Shape.Idx.first (numel1_S1.symm ▸ Nat.one_pos))))
    (k0_hw5 : k0_chk5 (tbM0_0.view.readAt (Elt F) (Rect.unit (s := S64) (k0_off13 i) S1.size (k0_off13_inb i)).toLoadRect xt0 (Shape.Idx.first (numel1_S1.symm ▸ Nat.one_pos))))
    (k0_hw6 : k0_chk6 (tbM0_0.view.readAt (Elt F) (Rect.unit (s := S64) (k0_off16 i) S1.size (k0_off16_inb i)).toLoadRect xt0 (Shape.Idx.first (numel1_S1.symm ▸ Nat.one_pos))))
    (k0_hw7 : k0_chk7 (tbM0_0.view.readAt (Elt F) (Rect.unit (s := S64) (k0_off19 i) S1.size (k0_off19_inb i)).toLoadRect xt0 (Shape.Idx.first (numel1_S1.symm ▸ Nat.one_pos))))
    (k0_hw8 : k0_chk8 (tbM0_0.view.readAt (Elt F) (Rect.unit (s := S64) (k0_off22 i) S1.size (k0_off22_inb i)).toLoadRect xt0 (Shape.Idx.first (numel1_S1.symm ▸ Nat.one_pos)))) (y : S4x256x256.Idx) :
    ∃ pc ∈ (kernelRun0 c i arg2 harg2 arg3 harg3 arg4 harg4 arg5 harg5 arg6 harg6 arg7 harg7 arg8 harg8 arg9 harg9 arg10 harg10 arg11 harg11 x0 x1 x2 x3 x4 x5 x6 x7 x8 xt0 k0_hw1 k0_hw2 k0_hw3 k0_hw4 k0_hw5 k0_hw6 k0_hw7 k0_hw8).1, y ∈ pc.1.set :=
  View.cover_of_wholeMem (kernelRun0 c i arg2 harg2 arg3 harg3 arg4 harg4 arg5 harg5 arg6 harg6 arg7 harg7 arg8 harg8 arg9 harg9 arg10 harg10 arg11 harg11 x0 x1 x2 x3 x4 x5 x6 x7 x8 xt0 k0_hw1 k0_hw2 k0_hw3 k0_hw4 k0_hw5 k0_hw6 k0_hw7 k0_hw8).1 (by sl_whole_mem) y

def out0_9 (c : Dev nD) (i : grid0.Coords) (arg2 : Memref sig .tc .vmem S4x256x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2x16x512x512 .bf16) (harg5 : arg5.IsWhole) (arg6 : Memref sig .tc .vmem S2x16x512 .f32) (harg6 : arg6.IsWhole) (arg7 : Memref sig .tc .vmem S2x1x512x512 .bf16) (harg7 : arg7.IsWhole) (arg8 : Memref sig .tc .vmem S2x1x512 .f32) (harg8 : arg8.IsWhole) (arg9 : Memref sig .tc .vmem S256x512 .bf16) (harg9 : arg9.IsWhole) (arg10 : Memref sig .tc .vmem S1x256 .f32) (harg10 : arg10.IsWhole) (arg11 : Memref sig .tc .vmem S4x256x256 .f32) (harg11 : arg11.IsWhole)
    (x0 : Vec F S4x256x256 .bf16) (x1 : Vec F S512x256 .bf16) (x2 : Vec F S1x512 .f32) (x3 : Vec F S2x16x512x512 .bf16) (x4 : Vec F S2x16x512 .f32) (x5 : Vec F S2x1x512x512 .bf16) (x6 : Vec F S2x1x512 .f32) (x7 : Vec F S256x512 .bf16) (x8 : Vec F S1x256 .f32) (xt0 : TbBuf0 (F := F) c tbM0_0)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off4 i) S1.size (k0_off4_inb i)).toLoadRect xt0 (Shape.Idx.first (numel1_S1.symm ▸ Nat.one_pos))))
    (k0_hw3 : k0_chk3 (tbM0_0.view.readAt (Elt F) (Rect.unit (s := S64) (k0_off7 i) S1.size (k0_off7_inb i)).toLoadRect xt0 (Shape.Idx.first (numel1_S1.symm ▸ Nat.one_pos))))
    (k0_hw4 : k0_chk4 (tbM0_0.view.readAt (Elt F) (Rect.unit (s := S64) (k0_off10 i) S1.size (k0_off10_inb i)).toLoadRect xt0 (Shape.Idx.first (numel1_S1.symm ▸ Nat.one_pos))))
    (k0_hw5 : k0_chk5 (tbM0_0.view.readAt (Elt F) (Rect.unit (s := S64) (k0_off13 i) S1.size (k0_off13_inb i)).toLoadRect xt0 (Shape.Idx.first (numel1_S1.symm ▸ Nat.one_pos))))
    (k0_hw6 : k0_chk6 (tbM0_0.view.readAt (Elt F) (Rect.unit (s := S64) (k0_off16 i) S1.size (k0_off16_inb i)).toLoadRect xt0 (Shape.Idx.first (numel1_S1.symm ▸ Nat.one_pos))))
    (k0_hw7 : k0_chk7 (tbM0_0.view.readAt (Elt F) (Rect.unit (s := S64) (k0_off19 i) S1.size (k0_off19_inb i)).toLoadRect xt0 (Shape.Idx.first (numel1_S1.symm ▸ Nat.one_pos))))
    (k0_hw8 : k0_chk8 (tbM0_0.view.readAt (Elt F) (Rect.unit (s := S64) (k0_off22 i) S1.size (k0_off22_inb i)).toLoadRect xt0 (Shape.Idx.first (numel1_S1.symm ▸ Nat.one_pos)))) : Vec F S4x256x256 .f32 :=
  VO0_9.read (Elt F) (VO0_9.writes (Elt F) VO0_9.junk (kernelRun0 c i arg2 harg2 arg3 harg3 arg4 harg4 arg5 harg5 arg6 harg6 arg7 harg7 arg8 harg8 arg9 harg9 arg10 harg10 arg11 harg11 x0 x1 x2 x3 x4 x5 x6 x7 x8 xt0 k0_hw1 k0_hw2 k0_hw3 k0_hw4 k0_hw5 k0_hw6 k0_hw7 k0_hw8).1)

def outsAt0 (hH : Hyps m) (c : Dev nD) (t : Fin (cfgM m).N) : Vec F S4x256x256 .f32 :=
  out0_9 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (iblk m c 0 t) (iblk m c 1 t) (iblk m c 2 t) (iblk m c 3 t) (iblk m c 4 t) (iblk m c 5 t) (iblk m c 6 t) (iblk m c 7 t) (iblk m c 8 t) (tbl m 0) (Hyps.c1 hH c t) (Hyps.c2 hH c t) (Hyps.c3 hH c t) (Hyps.c4 hH c t) (Hyps.c5 hH c t) (Hyps.c6 hH c t) (Hyps.c7 hH c t) (Hyps.c8 hH c t)

def dats (hH : Hyps m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt0 m hH c t
  Φ _ := iprop(Pipeline.ΦA spec0 c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = iblk m c 1 t := by dsimp only [dats]; try rfl
theorem after0_2 (hH : Hyps m) (c : Dev nD) (t : Fin (cfgM m).N) : (dats m hH 0 c).after 2 t = iblk m c 2 t := by dsimp only [dats]; try rfl
theorem after0_3 (hH : Hyps m) (c : Dev nD) (t : Fin (cfgM m).N) : (dats m hH 0 c).after 3 t = iblk m c 3 t := by dsimp only [dats]; try rfl
theorem after0_4 (hH : Hyps m) (c : Dev nD) (t : Fin (cfgM m).N) : (dats m hH 0 c).after 4 t = iblk m c 4 t := by dsimp only [dats]; try rfl
theorem after0_5 (hH : Hyps m) (c : Dev nD) (t : Fin (cfgM m).N) : (dats m hH 0 c).after 5 t = iblk m c 5 t := by dsimp only [dats]; try rfl
theorem after0_6 (hH : Hyps m) (c : Dev nD) (t : Fin (cfgM m).N) : (dats m hH 0 c).after 6 t = iblk m c 6 t := by dsimp only [dats]; try rfl
theorem after0_7 (hH : Hyps m) (c : Dev nD) (t : Fin (cfgM m).N) : (dats m hH 0 c).after 7 t = iblk m c 7 t := by dsimp only [dats]; try rfl
theorem after0_8 (hH : Hyps m) (c : Dev nD) (t : Fin (cfgM m).N) : (dats m hH 0 c).after 8 t = iblk m c 8 t := by dsimp only [dats]; try rfl
theorem after0_9 (hH : Hyps m) (c : Dev nD) (t : Fin (cfgM m).N) : (dats m hH 0 c).after 9 t = outsAt0 m hH c t := by dsimp only [dats]; try rfl

theorem before0_0 (hH : Hyps m) (c : Dev nD) (t : Fin (cfgM m).N) (d) : (dats m hH 0 c).before 0 t d = iblk m c 0 t :=
  before0_0_of m (dats m hH 0 c) (A_eq m hH c 0) (after0_0 m hH c) t d
theorem before0_1 (hH : Hyps m) (c : Dev nD) (t : Fin (cfgM m).N) (d) : (dats m hH 0 c).before 1 t d = iblk m c 1 t :=
  before0_1_of m (dats m hH 0 c) (A_eq m hH c 1) (after0_1 m hH c) t d
theorem before0_2 (hH : Hyps m) (c : Dev nD) (t : Fin (cfgM m).N) (d) : (dats m hH 0 c).before 2 t d = iblk m c 2 t :=
  before0_2_of m (dats m hH 0 c) (A_eq m hH c 2) (after0_2 m hH c) t d
theorem before0_3 (hH : Hyps m) (c : Dev nD) (t : Fin (cfgM m).N) (d) : (dats m hH 0 c).before 3 t d = iblk m c 3 t :=
  before0_3_of m (dats m hH 0 c) (A_eq m hH c 3) (after0_3 m hH c) t d
theorem before0_4 (hH : Hyps m) (c : Dev nD) (t : Fin (cfgM m).N) (d) : (dats m hH 0 c).before 4 t d = iblk m c 4 t :=
  before0_4_of m (dats m hH 0 c) (A_eq m hH c 4) (after0_4 m hH c) t d
theorem before0_5 (hH : Hyps m) (c : Dev nD) (t : Fin (cfgM m).N) (d) : (dats m hH 0 c).before 5 t d = iblk m c 5 t :=
  before0_5_of m (dats m hH 0 c) (A_eq m hH c 5) (after0_5 m hH c) t d
theorem before0_6 (hH : Hyps m) (c : Dev nD) (t : Fin (cfgM m).N) (d) : (dats m hH 0 c).before 6 t d = iblk m c 6 t :=
  before0_6_of m (dats m hH 0 c) (A_eq m hH c 6) (after0_6 m hH c) t d
theorem before0_7 (hH : Hyps m) (c : Dev nD) (t : Fin (cfgM m).N) (d) : (dats m hH 0 c).before 7 t d = iblk m c 7 t :=
  before0_7_of m (dats m hH 0 c) (A_eq m hH c 7) (after0_7 m hH c) t d
theorem before0_8 (hH : Hyps m) (c : Dev nD) (t : Fin (cfgM m).N) (d) : (dats m hH 0 c).before 8 t d = iblk m c 8 t :=
  before0_8_of m (dats m hH 0 c) (A_eq m hH c 8) (after0_8 m hH c) t d

abbrev bodyAt0 (t : Fin (cfgM m).N) : Prog (TpuEff nD τ sig (Elt F) Λ₀ .tc) PUnit :=
  cc0__kernel (grid0.coords t) tbM0_0 htbM0_0 (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t)

def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d))
    ∗ (∃ d, owns (c : Thread nD τ) (ms0_3 m t) fullShare ((dats m hH 0 c).before 3 t d))
    ∗ (∃ d, owns (c : Thread nD τ) (ms0_4 m t) fullShare ((dats m hH 0 c).before 4 t d))
    ∗ (∃ d, owns (c : Thread nD τ) (ms0_5 m t) fullShare ((dats m hH 0 c).before 5 t d))
    ∗ (∃ d, owns (c : Thread nD τ) (ms0_6 m t) fullShare ((dats m hH 0 c).before 6 t d))
    ∗ (∃ d, owns (c : Thread nD τ) (ms0_7 m t) fullShare ((dats m hH 0 c).before 7 t d))
    ∗ (∃ d, owns (c : Thread nD τ) (ms0_8 m t) fullShare ((dats m hH 0 c).before 8 t d))
    ∗ (∃ d, owns (c : Thread nD τ) (ms0_9 m t) fullShare ((dats m hH 0 c).before 9 t d)))

def bodyPost (hH : Hyps m) (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t)
    ∗ owns (c : Thread nD τ) (ms0_3 m t) fullShare ((dats m hH 0 c).after 3 t)
    ∗ owns (c : Thread nD τ) (ms0_4 m t) fullShare ((dats m hH 0 c).after 4 t)
    ∗ owns (c : Thread nD τ) (ms0_5 m t) fullShare ((dats m hH 0 c).after 5 t)
    ∗ owns (c : Thread nD τ) (ms0_6 m t) fullShare ((dats m hH 0 c).after 6 t)
    ∗ owns (c : Thread nD τ) (ms0_7 m t) fullShare ((dats m hH 0 c).after 7 t)
    ∗ owns (c : Thread nD τ) (ms0_8 m t) fullShare ((dats m hH 0 c).after 8 t)
    ∗ owns (c : Thread nD τ) (ms0_9 m t) fullShare ((dats m hH 0 c).after 9 t))

set_option maxHeartbeats 2000000 in
theorem sound_body (hH : Hyps m) (c : Dev nD) (t : Fin (cfgM m).N) :
    bodyPre m hH c t ⊢ wp frame (wpE (defs₀ (F := F)) Variants.none c none) Set.univ (bodyAt0 m t) (fun _ => bodyPost m hH c t) := by
  unfold bodyPre bodyPost bodyAt0
  simp only [before0_0, before0_1, before0_2, before0_3, before0_4, before0_5, before0_6, before0_7, before0_8]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9]
  rw [show (dats m hH 0 c).Φ t.castSucc = iprop(Pipeline.ΦA spec0 c ∗ Pipeline.ΦT pre0 (tbl m) c) from rfl, PhiT0_eq]
  unfold outsAt0
  unfold out0_9
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0 c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (tbl m 0) (Hyps.c1 hH c t) (Hyps.c2 hH c t) (Hyps.c3 hH c t) (Hyps.c4 hH c t) (Hyps.c5 hH c t) (Hyps.c6 hH c t) (Hyps.c7 hH c t) (Hyps.c8 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HT0]; · iexact HT0
  iintro ⟨H0, H1, H2, H3, H4, H5, H6, H7, H8, ⟨%e9, H9⟩, HT0⟩
  isplitl [HΦ HT0]
  · isplitl [HΦ]; · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover0_9 c _ _ _ _ _ _ _ _ _ _ _ _ _ _ _ _ _ _ _ _ _ _ _ _ _ _ _ _ _ _ _ _ _ _ _ _ _ _ _)

theorem body_obligation (hH : Hyps m) (c : Dev nD) : BodyObligation (dats (F := F) m hH 0 c) (defs₀ (F := F)) Variants.none () Set.univ := fun t => by
  rw [bigSep_W0, bigSep_W0]
  exact sound_body m hH c t

set_option backward.isDefEq.respectTransparency.types false in

theorem run_main (hH : Hyps m) : θ_run defs (onTc (τ := τ) (main (F := F))) (s₀ m ρ) (Pipeline.FramePost (Pipeline.pin pcfgs fun _ => adm m) (dats m hH) 0 (V m)) :=
  Pipeline.θ_run_frameP pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hΦ := fun _ _ => rfl)

theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m hH) (A_eq m hH) (run_main m ρ hH)

end Cert.KernelIdeal.Fr

end
-- ==== Proof.KiHyps.lean ====
import proofs.«406211_j29257317220859_3_alg».proof.Proof.KiHypsDef
import proofs.«406211_j29257317220859_3_alg».proof.Proof.RouteRange

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem tbl_eq : tbl m 0 = minsi (broadcastInDim S64 ![] bcast_S_S64 (constantI S_ 32 15#32))
    (maxsi (broadcastInDim S64 ![] bcast_S_S64 (constantI S_ 32 0#32)) (m (((0 : Dev nD).tc : Thread nD τ).loc main_arg1))) := by
  unfold tbl
  show V m 0 main_v0 = _
  unfold V
  simp only [hostOps0, hostOps0_1, hostOps0_2, List.flatten_cons, List.flatten_nil, List.append_nil, List.cons_append, List.nil_append]
  after_results
  rfl

theorem tbl_lt (j : S64.Idx) : (tbl m 0 j : BitVec 32).toNat < 16 := by
  rw [tbl_eq]
  exact Cert.RouteRange.clamp_toNat_lt bcast_S_S64 _ j

theorem chk_of_lt (w : BitVec 32) (hw : w.toNat < 16) :
    (∀ a, (![(Scalar.indexCast w).toNat, 0, 0] : Fin 3 → Nat) a + S1x512x512.size a ≤ S16x512x512.size a) ∧
    (∀ a, (![(Scalar.indexCast w).toNat, 0] : Fin 2 → Nat) a + S1x512.size a ≤ S16x512.size a) := by
  have e : (Scalar.indexCast w).toNat = w.toNat := rfl
  refine ⟨fun a => ?_, fun a => ?_⟩
  · match a with
    | ⟨0, _⟩ => show (Scalar.indexCast w).toNat + 1 ≤ 16; omega
    | ⟨1, _⟩ => show 0 + 512 ≤ 512; omega
    | ⟨2, _⟩ => show 0 + 512 ≤ 512; omega
  · match a with
    | ⟨0, _⟩ => show (Scalar.indexCast w).toNat + 1 ≤ 16; omega
    | ⟨1, _⟩ => show 0 + 512 ≤ 512; omega

theorem chk1_of_lt (w : BitVec 32) (hw : w.toNat < 16) : k0_chk1 w := chk_of_lt w hw
theorem chk2_of_lt (w : BitVec 32) (hw : w.toNat < 16) : k0_chk2 w := chk_of_lt w hw
theorem chk3_of_lt (w : BitVec 32) (hw : w.toNat < 16) : k0_chk3 w := chk_of_lt w hw
theorem chk4_of_lt (w : BitVec 32) (hw : w.toNat < 16) : k0_chk4 w := chk_of_lt w hw
theorem chk5_of_lt (w : BitVec 32) (hw : w.toNat < 16) : k0_chk5 w := chk_of_lt w hw
theorem chk6_of_lt (w : BitVec 32) (hw : w.toNat < 16) : k0_chk6 w := chk_of_lt w hw
theorem chk7_of_lt (w : BitVec 32) (hw : w.toNat < 16) : k0_chk7 w := chk_of_lt w hw
theorem chk8_of_lt (w : BitVec 32) (hw : w.toNat < 16) : k0_chk8 w := chk_of_lt w hw

theorem word_eq (off : Fin 1 → Nat) (inb : ∀ a, off a + S1.size a ≤ S64.size a) (f : S64.Idx → BitVec 32) (x : S1.Idx) :
    tbM0_0.view.readAt (Elt F) (Rect.unit (s := S64) off S1.size inb).toLoadRect f x
      = f ((Rect.unit (s := S64) off S1.size inb).toLoadRect.idx x) := rfl

theorem word_lt (off : Fin 1 → Nat) (inb : ∀ a, off a + S1.size a ≤ S64.size a) (x : S1.Idx) :
    (tbM0_0.view.readAt (Elt F) (Rect.unit (s := S64) off S1.size inb).toLoadRect (tbl m 0) x : BitVec 32).toNat < 16 :=
  tbl_lt m _

theorem hyps : Hyps m := fun c t =>
  ⟨chk1_of_lt _ (word_lt m _ _ _), chk2_of_lt _ (word_lt m _ _ _), chk3_of_lt _ (word_lt m _ _ _),
    chk4_of_lt _ (word_lt m _ _ _), chk5_of_lt _ (word_lt m _ _ _), chk6_of_lt _ (word_lt m _ _ _),
    chk7_of_lt _ (word_lt m _ _ _), chk8_of_lt _ (word_lt m _ _ _)⟩

end Cert.KernelIdeal.Fr

end
-- ==== Proof.KiPayload.lean ====
import proofs.«406211_j29257317220859_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

variable {F : FTy → Type} [FloatOps F]

def outPay (v0 : Vec F S4x256x256 .bf16) (v3 : Vec F S512x256 .bf16) (v7 : Vec F S1x512 .f32) (v14 : Vec F S1x1x512x512 .bf16) (v16 : Vec F S1x1x512 .f32) (v30 : Vec F S1x512x512 .bf16) (v35 : Vec F S1x512 .f32) (v50 : Vec F S1x512x512 .bf16) (v55 : Vec F S1x512 .f32) (v70 : Vec F S1x512x512 .bf16) (v75 : Vec F S1x512 .f32) (v90 : Vec F S1x512x512 .bf16) (v95 : Vec F S1x512 .f32) (v109 : Vec F S1x1x512x512 .bf16) (v111 : Vec F S1x1x512 .f32) (v125 : Vec F S1x512x512 .bf16) (v130 : Vec F S1x512 .f32) (v145 : Vec F S1x512x512 .bf16) (v150 : Vec F S1x512 .f32) (v165 : Vec F S1x512x512 .bf16) (v170 : Vec F S1x512 .f32) (v185 : Vec F S1x512x512 .bf16) (v190 : Vec F S1x512 .f32) (v204 : Vec F S256x512 .bf16) (v208 : Vec F S1x256 .f32) : FVec F S4x256x256 .f32 :=
  let v12 := k0_pay1 v0 v3 v7
  let v13 := k0_pay2 v0 v3 v7
  let v22 := k0_pay3 v0 v3 v7 v14 v16
  let v31 := k0_pay4 v30
  let v42 := k0_pay5 v13 v31 v35
  let v62 := k0_pay6 v13 v50 v55
  let v105 := k0_pay7 v12 v13 v22 v42 v62 v70 v75 v90 v95
  let v107 := k0_pay8 v105
  let v108 := k0_pay9 v105
  let v117 := k0_pay10 v105 v109 v111
  let v137 := k0_pay11 v105 v125 v130
  let v157 := k0_pay12 v108 v145 v150
  let v171 := k0_pay13 v170
  let v174 := k0_pay14 v108 v165
  k0_pay15 v107 v108 v117 v137 v157 v171 v174 v185 v190 v204 v208

def sel4 {α : Type} (i : Fin 4) (a b c d : α) : α :=
  match i with | 0 => a | 1 => b | 2 => c | 3 => d

def hid0 (v0 : S4x256x256.Idx → EReal) (v3 : S512x256.Idx → EReal) (v7 : S1x512.Idx → EReal) (i : Fin 4) (t : Fin 256) : Fin 512 → EReal :=
  fun j => max ((∑ k : Fin 256, v0 (ix3 i t k) * v3 (ix2 j k)) + v7 (ix2 0 j)) 0

def lay (ws : S1x1x512x512.Idx → EReal) (bs : S1x1x512.Idx → EReal) (wr : S1x512x512.Idx → EReal) (br : S1x512.Idx → EReal)
    (h : Fin 512 → EReal) : Fin 512 → EReal :=
  fun j => max ((((∑ k : Fin 512, h k * ws (ix4 0 0 j k)) + bs (ix3 0 0 j))
      + ((∑ k : Fin 512, h k * wr (ix3 0 j k)) + br (ix2 0 j))) + h j) 0

def outp (wo : S256x512.Idx → EReal) (bo : S1x256.Idx → EReal) (h : Fin 512 → EReal) : Fin 256 → EReal :=
  fun o => (∑ k : Fin 512, h k * wo (ix2 o k)) + bo (ix2 0 o)

def brow (i : Fin 4) (t : Fin 256) : Fin 1024 :=
  ⟨i.val * 256 + t.val, by have := i.isLt; have := t.isLt; omega⟩

theorem brow_val (i : Fin 4) (t : Fin 256) : (brow i t).val = i.val * 256 + t.val := rfl

theorem lhs_mmIn_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_mmIn_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_mmIn_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_mmIn_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

theorem mmIn_apply (x : FVec Ideal S1024x256 .bf16) (y : FVec Ideal S256x512 .bf16) (r : Fin 1024) (j : Fin 512) :
    matmul dot_S1024x256_S256x512_S1024x512_1_0_0_1_n_n none x y (constant (F := Ideal) S1024x512 .f32 0x00000000#32) (ix2 r j)
      = ∑ k : Fin 256, x (ix2 r k) * y (ix2 k j) := by
  show FloatOps.matmul dot_S1024x256_S256x512_S1024x512_1_0_0_1_n_n none x y (constant (F := Ideal) S1024x512 .f32 0x00000000#32) (ix2 r j) = _
  rw [Ideal.matmul_constant_zero_apply, ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 r j) ((ValueIdx.contrEquiv1 dot_S1024x256_S256x512_S1024x512_1_0_0_1_n_n 256 rfl rfl).symm k) = ix2 r k := funext fun a => Fin.ext (by
    match a with
    | ⟨0, _⟩ => exact lhs_mmIn_0 _ _
    | ⟨1, _⟩ => exact (lhs_mmIn_1 _ _).trans hk)
  have er : dot_S1024x256_S256x512_S1024x512_1_0_0_1_n_n.rhsIdx (ix2 r j) ((ValueIdx.contrEquiv1 dot_S1024x256_S256x512_S1024x512_1_0_0_1_n_n 256 rfl rfl).symm k) = ix2 k j := funext fun a => Fin.ext (by
    match a with
    | ⟨0, _⟩ => exact (rhs_mmIn_0 _ _).trans hk
    | ⟨1, _⟩ => exact rhs_mmIn_1 _ _)
  rw [el, er]

theorem lhs_mmSh_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mmSh_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mmSh_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mmSh_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

theorem mmSh_apply (x : FVec Ideal S1024x512 .bf16) (y : FVec Ideal S512x512 .bf16) (r : Fin 1024) (j : Fin 512) :
    matmul dot_S1024x512_S512x512_S1024x512_1_0_0_1_n_n none x y (constant (F := Ideal) S1024x512 .f32 0x00000000#32) (ix2 r j)
      = ∑ k : Fin 512, x (ix2 r k) * y (ix2 k j) := by
  show FloatOps.matmul dot_S1024x512_S512x512_S1024x512_1_0_0_1_n_n none x y (constant (F := Ideal) S1024x512 .f32 0x00000000#32) (ix2 r j) = _
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r j) ((ValueIdx.contrEquiv1 dot_S1024x512_S512x512_S1024x512_1_0_0_1_n_n 512 rfl rfl).symm k) = ix2 r k := funext fun a => Fin.ext (by
    match a with
    | ⟨0, _⟩ => exact lhs_mmSh_0 _ _
    | ⟨1, _⟩ => exact (lhs_mmSh_1 _ _).trans hk)
  have er : dot_S1024x512_S512x512_S1024x512_1_0_0_1_n_n.rhsIdx (ix2 r j) ((ValueIdx.contrEquiv1 dot_S1024x512_S512x512_S1024x512_1_0_0_1_n_n 512 rfl rfl).symm k) = ix2 k j := funext fun a => Fin.ext (by
    match a with
    | ⟨0, _⟩ => exact (rhs_mmSh_0 _ _).trans hk
    | ⟨1, _⟩ => exact rhs_mmSh_1 _ _)
  rw [el, er]

theorem lhs_mmRt_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs_mmRt_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem rhs_mmRt_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem rhs_mmRt_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

theorem mmRt_apply (x : FVec Ideal S256x512 .bf16) (y : FVec Ideal S512x512 .bf16) (r : Fin 256) (j : Fin 512) :
    matmul dot_S256x512_S512x512_S256x512_1_0_0_1_n_n none x y (constant (F := Ideal) S256x512 .f32 0x00000000#32) (ix2 r j)
      = ∑ k : Fin 512, x (ix2 r k) * y (ix2 k j) := by
  show FloatOps.matmul dot_S256x512_S512x512_S256x512_1_0_0_1_n_n none x y (constant (F := Ideal) S256x512 .f32 0x00000000#32) (ix2 r j) = _
  rw [Ideal.matmul_constant_zero_apply, ← Equiv.sum_comp (ValueIdx.contrEquiv1 dot_S256x512_S512x512_S256x512_1_0_0_1_n_n 512 rfl rfl).symm]
  refine Finset.sum_congr rfl fun k _ => ?_
  have hk := ValueIdx.contrEquiv1_symm_val dot_S256x512_S512x512_S256x512_1_0_0_1_n_n 512 rfl rfl k
  have el : dot_S256x512_S512x512_S256x512_1_0_0_1_n_n.lhsIdx (ix2 r j) ((ValueIdx.contrEquiv1 dot_S256x512_S512x512_S256x512_1_0_0_1_n_n 512 rfl rfl).symm k) = ix2 r k := funext fun a => Fin.ext (by
    match a with
    | ⟨0, _⟩ => exact lhs_mmRt_0 _ _
    | ⟨1, _⟩ => exact (lhs_mmRt_1 _ _).trans hk)
  have er : dot_S256x512_S512x512_S256x512_1_0_0_1_n_n.rhsIdx (ix2 r j) ((ValueIdx.contrEquiv1 dot_S256x512_S512x512_S256x512_1_0_0_1_n_n 512 rfl rfl).symm k) = ix2 k j := funext fun a => Fin.ext (by
    match a with
    | ⟨0, _⟩ => exact (rhs_mmRt_0 _ _).trans hk
    | ⟨1, _⟩ => exact rhs_mmRt_1 _ _)
  rw [el, er]

theorem lhs_mmOut_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_mmOut_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_mmOut_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_mmOut_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

theorem mmOut_apply (x : FVec Ideal S1024x512 .bf16) (y : FVec Ideal S512x256 .bf16) (r : Fin 1024) (j : Fin 256) :
    matmul dot_S1024x512_S512x256_S1024x256_1_0_0_1_n_n none x y (constant (F := Ideal) S1024x256 .f32 0x00000000#32) (ix2 r j)
      = ∑ k : Fin 512, x (ix2 r k) * y (ix2 k j) := by
  show FloatOps.matmul dot_S1024x512_S512x256_S1024x256_1_0_0_1_n_n none x y (constant (F := Ideal) S1024x256 .f32 0x00000000#32) (ix2 r j) = _
  rw [Ideal.matmul_constant_zero_apply, ← Equiv.sum_comp (ValueIdx.contrEquiv1 dot_S1024x512_S512x256_S1024x256_1_0_0_1_n_n 512 rfl rfl).symm]
  refine Finset.sum_congr rfl fun k _ => ?_
  have hk := ValueIdx.contrEquiv1_symm_val dot_S1024x512_S512x256_S1024x256_1_0_0_1_n_n 512 rfl rfl k
  have el : dot_S1024x512_S512x256_S1024x256_1_0_0_1_n_n.lhsIdx (ix2 r j) ((ValueIdx.contrEquiv1 dot_S1024x512_S512x256_S1024x256_1_0_0_1_n_n 512 rfl rfl).symm k) = ix2 r k := funext fun a => Fin.ext (by
    match a with
    | ⟨0, _⟩ => exact lhs_mmOut_0 _ _
    | ⟨1, _⟩ => exact (lhs_mmOut_1 _ _).trans hk)
  have er : dot_S1024x512_S512x256_S1024x256_1_0_0_1_n_n.rhsIdx (ix2 r j) ((ValueIdx.contrEquiv1 dot_S1024x512_S512x256_S1024x256_1_0_0_1_n_n 512 rfl rfl).symm k) = ix2 k j := funext fun a => Fin.ext (by
    match a with
    | ⟨0, _⟩ => exact (rhs_mmOut_0 _ _).trans hk
    | ⟨1, _⟩ => exact rhs_mmOut_1 _ _)
  rw [el, er]

section Layout
variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

theorem flatten_apply (x : S4x256x256.Idx → α) (h : S4x256x256.ShapeCasts S1024x256)
    (i : Fin 4) (t : Fin 256) (k : Fin 256) :
    shapeCast S1024x256 x h (ix2 (brow i t) k) = x (ix3 i t k) :=
  shapeCast_apply x h _ _ (by
    rw [Shape.rowMajor_val_three, Shape.rowMajor_val_two]
    rfl)

theorem unflatten_apply (x : S1024x256.Idx → α) (h : S1024x256.ShapeCasts S4x256x256)
    (i : Fin 4) (t : Fin 256) (o : Fin 256) :
    shapeCast S4x256x256 x h (ix3 i t o) = x (ix2 (brow i t) o) :=
  shapeCast_apply x h _ _ (by
    rw [Shape.rowMajor_val_two, Shape.rowMajor_val_three]
    rfl)

theorem concat4_apply (p0 p1 p2 p3 : S256x512.Idx → α)
    (h : Shape.Concatenates [S256x512, S256x512, S256x512, S256x512] S1024x512 0)
    (i : Fin 4) (t : Fin 256) (j : Fin 512) :
    concatenate S1024x512 0 [⟨S256x512, p0⟩, ⟨S256x512, p1⟩, ⟨S256x512, p2⟩, ⟨S256x512, p3⟩] h (ix2 (brow i t) j)
      = sel4 i (p0 (ix2 t j)) (p1 (ix2 t j)) (p2 (ix2 t j)) (p3 (ix2 t j)) := by
  have hoff : ∀ (r : Fin 1024) (b : Fin S256x512.rank), b.cast (rfl : S256x512.rank = S1024x512.rank) ≠ (0 : Fin S1024x512.rank) →
      ((ix2 t j : S256x512.Idx) b).val = ((ix2 r j : S1024x512.Idx) (b.cast rfl)).val := fun r b hb => by
    match b with
    | ⟨0, _⟩ => exact absurd rfl hb
    | ⟨1, _⟩ => rfl
  match i with
  | 0 =>
    exact concatenate_apply_piece (t := S1024x512) 0 [⟨S256x512, p0⟩, ⟨S256x512, p1⟩, ⟨S256x512, p2⟩, ⟨S256x512, p3⟩] h
      (ix2 (brow 0 t) j) 0 (by simp) S256x512 p0 rfl rfl 0 rfl (ix2 t j) (hoff _)
      (by show 0 + t.val = 0 * 256 + t.val; omega)
  | 1 =>
    exact concatenate_apply_piece (t := S1024x512) 0 [⟨S256x512, p0⟩, ⟨S256x512, p1⟩, ⟨S256x512, p2⟩, ⟨S256x512, p3⟩] h
      (ix2 (brow 1 t) j) 1 (by simp) S256x512 p1 rfl rfl 256 rfl (ix2 t j) (hoff _)
      (by show 256 + t.val = 1 * 256 + t.val; omega)
  | 2 =>
    exact concatenate_apply_piece (t := S1024x512) 0 [⟨S256x512, p0⟩, ⟨S256x512, p1⟩, ⟨S256x512, p2⟩, ⟨S256x512, p3⟩] h
      (ix2 (brow 2 t) j) 2 (by simp) S256x512 p2 rfl rfl 512 rfl (ix2 t j) (hoff _)
      (by show 512 + t.val = 2 * 256 + t.val; omega)
  | 3 =>
    exact concatenate_apply_piece (t := S1024x512) 0 [⟨S256x512, p0⟩, ⟨S256x512, p1⟩, ⟨S256x512, p2⟩, ⟨S256x512, p3⟩] h
      (ix2 (brow 3 t) j) 3 (by simp) S256x512 p3 rfl rfl 768 rfl (ix2 t j) (hoff _)
      (by show 768 + t.val = 3 * 256 + t.val; omega)

theorem band0_apply (X : S1024x512.Idx → α) (h : S1024x512.Slices ![0, 0] S256x512) (t : Fin 256) (j : Fin 512) :
    extractStridedSlice S256x512 ![0, 0] X h (ix2 t j) = X (ix2 (brow 0 t) j) :=
  slice2_axis0_apply 0 X h t j (brow 0 t) (by show 0 * 256 + t.val = 0 + t.val; omega)
theorem band1_apply (X : S1024x512.Idx → α) (h : S1024x512.Slices ![256, 0] S256x512) (t : Fin 256) (j : Fin 512) :
    extractStridedSlice S256x512 ![256, 0] X h (ix2 t j) = X (ix2 (brow 1 t) j) :=
  slice2_axis0_apply 256 X h t j (brow 1 t) (by show 1 * 256 + t.val = 256 + t.val; omega)
theorem band2_apply (X : S1024x512.Idx → α) (h : S1024x512.Slices ![512, 0] S256x512) (t : Fin 256) (j : Fin 512) :
    extractStridedSlice S256x512 ![512, 0] X h (ix2 t j) = X (ix2 (brow 2 t) j) :=
  slice2_axis0_apply 512 X h t j (brow 2 t) (by show 2 * 256 + t.val = 512 + t.val; omega)
theorem band3_apply (X : S1024x512.Idx → α) (h : S1024x512.Slices ![768, 0] S256x512) (t : Fin 256) (j : Fin 512) :
    extractStridedSlice S256x512 ![768, 0] X h (ix2 t j) = X (ix2 (brow 3 t) j) :=
  slice2_axis0_apply 768 X h t j (brow 3 t) (by show 3 * 256 + t.val = 768 + t.val; omega)

end Layout

section Shapes
variable {α : Type}

theorem trIn_apply (x : S512x256.Idx → α) (h : S512x256.Transposes [1, 0] S256x512) (k : Fin 256) (j : Fin 512) :
    transpose S256x512 [1, 0] x h (ix2 k j) = x (ix2 j k) := transpose_ix2_apply x h k j
theorem trSq_apply (x : S512x512.Idx → α) (h : S512x512.Transposes [1, 0] S512x512) (k : Fin 512) (j : Fin 512) :
    transpose S512x512 [1, 0] x h (ix2 k j) = x (ix2 j k) := transpose_ix2_apply x h k j
theorem trOut_apply (x : S256x512.Idx → α) (h : S256x512.Transposes [1, 0] S512x256) (k : Fin 512) (o : Fin 256) :
    transpose S512x256 [1, 0] x h (ix2 k o) = x (ix2 o k) := transpose_ix2_apply x h k o
theorem castW4_apply (x : S1x1x512x512.Idx → α) (h : S1x1x512x512.ShapeCasts S512x512) (a b : Fin 512) :
    shapeCast S512x512 x h (ix2 a b) = x (ix4 0 0 a b) := shapeCast_11ab_ab_apply x h a b
theorem castW3_apply (x : S1x512x512.Idx → α) (h : S1x512x512.ShapeCasts S512x512) (a b : Fin 512) :
    shapeCast S512x512 x h (ix2 a b) = x (ix3 0 a b) := shapeCast_1ab_ab_apply x h a b
theorem castB3_apply (x : S1x1x512.Idx → α) (h : S1x1x512.ShapeCasts S512) (j : Fin 512) :
    shapeCast S512 x h (ix1 j) = x (ix3 0 0 j) := shapeCast_11a_a_apply x h j
theorem castB2_apply (x : S1x512.Idx → α) (h : S1x512.ShapeCasts S512) (j : Fin 512) :
    shapeCast S512 x h (ix1 j) = x (ix2 0 j) := shapeCast_1a_a_apply x h j
theorem castRow_apply (x : S512.Idx → α) (h : S512.ShapeCasts S1x512) (u : Fin 1) (j : Fin 512) :
    shapeCast S1x512 x h (ix2 u j) = x (ix1 j) := shapeCast_a_1a_apply x h u j
theorem bc1024_apply (v : S1x512.Idx → α) (h : S1x512.Broadcasts S1024x512) (r : Fin 1024) (j : Fin 512) :
    broadcastTo S1024x512 v h (ix2 r j) = v (ix2 0 j) := broadcastTo_1b_ab_apply v h r j
theorem bc256_apply (v : S1x512.Idx → α) (h : S1x512.Broadcasts S256x512) (t : Fin 256) (j : Fin 512) :
    broadcastTo S256x512 v h (ix2 t j) = v (ix2 0 j) := broadcastTo_1b_ab_apply v h t j
theorem bcOut_apply (v : S1x256.Idx → α) (h : S1x256.Broadcasts S1024x256) (r : Fin 1024) (o : Fin 256) :
    broadcastTo S1024x256 v h (ix2 r o) = v (ix2 0 o) := broadcastTo_1b_ab_apply v h r o

end Shapes

theorem zero_lit : (Scalar.ofBits .f32 0x00000000#32 : Ideal .f32) = 0 := by
  rw [Ideal.ofBits_def, Ideal.ofBits_zero_f32]

theorem mmInT_apply (x : FVec Ideal S1024x256 .bf16) (w : FVec Ideal S512x256 .bf16) (h : S512x256.Transposes [1, 0] S256x512)
    (r : Fin 1024) (j : Fin 512) :
    matmul dot_S1024x256_S256x512_S1024x512_1_0_0_1_n_n none x (transpose S256x512 [1, 0] w h) (constant (F := Ideal) S1024x512 .f32 0x00000000#32) (ix2 r j)
      = ∑ k : Fin 256, x (ix2 r k) * w (ix2 j k) := by
  rw [mmIn_apply]
  exact Finset.sum_congr rfl fun k _ => by rw [trIn_apply]

theorem mmShT_apply (x : FVec Ideal S1024x512 .bf16) (w : FVec Ideal S512x512 .bf16) (h : S512x512.Transposes [1, 0] S512x512)
    (r : Fin 1024) (j : Fin 512) :
    matmul dot_S1024x512_S512x512_S1024x512_1_0_0_1_n_n none x (transpose S512x512 [1, 0] w h) (constant (F := Ideal) S1024x512 .f32 0x00000000#32) (ix2 r j)
      = ∑ k : Fin 512, x (ix2 r k) * w (ix2 j k) := by
  rw [mmSh_apply]
  exact Finset.sum_congr rfl fun k _ => by rw [trSq_apply]

theorem mmOutT_apply (x : FVec Ideal S1024x512 .bf16) (w : FVec Ideal S256x512 .bf16) (h : S256x512.Transposes [1, 0] S512x256)
    (r : Fin 1024) (j : Fin 256) :
    matmul dot_S1024x512_S512x256_S1024x256_1_0_0_1_n_n none x (transpose S512x256 [1, 0] w h) (constant (F := Ideal) S1024x256 .f32 0x00000000#32) (ix2 r j)
      = ∑ k : Fin 512, x (ix2 r k) * w (ix2 j k) := by
  rw [mmOut_apply]
  exact Finset.sum_congr rfl fun k _ => by rw [trOut_apply]

theorem mmRt0_apply (V : FVec Ideal S1024x512 .bf16) (hs : S1024x512.Slices ![0, 0] S256x512)
    (w : FVec Ideal S512x512 .bf16) (h : S512x512.Transposes [1, 0] S512x512) (t : Fin 256) (j : Fin 512) :
    matmul dot_S256x512_S512x512_S256x512_1_0_0_1_n_n none (extractStridedSlice S256x512 ![0, 0] V hs)
        (transpose S512x512 [1, 0] w h) (constant (F := Ideal) S256x512 .f32 0x00000000#32) (ix2 t j)
      = ∑ k : Fin 512, V (ix2 (brow 0 t) k) * w (ix2 j k) := by
  rw [mmRt_apply]
  exact Finset.sum_congr rfl fun k _ => by rw [band0_apply, trSq_apply]

theorem mmRt1_apply (V : FVec Ideal S1024x512 .bf16) (hs : S1024x512.Slices ![256, 0] S256x512)
    (w : FVec Ideal S512x512 .bf16) (h : S512x512.Transposes [1, 0] S512x512) (t : Fin 256) (j : Fin 512) :
    matmul dot_S256x512_S512x512_S256x512_1_0_0_1_n_n none (extractStridedSlice S256x512 ![256, 0] V hs)
        (transpose S512x512 [1, 0] w h) (constant (F := Ideal) S256x512 .f32 0x00000000#32) (ix2 t j)
      = ∑ k : Fin 512, V (ix2 (brow 1 t) k) * w (ix2 j k) := by
  rw [mmRt_apply]
  exact Finset.sum_congr rfl fun k _ => by rw [band1_apply, trSq_apply]

theorem mmRt2_apply (V : FVec Ideal S1024x512 .bf16) (hs : S1024x512.Slices ![512, 0] S256x512)
    (w : FVec Ideal S512x512 .bf16) (h : S512x512.Transposes [1, 0] S512x512) (t : Fin 256) (j : Fin 512) :
    matmul dot_S256x512_S512x512_S256x512_1_0_0_1_n_n none (extractStridedSlice S256x512 ![512, 0] V hs)
        (transpose S512x512 [1, 0] w h) (constant (F := Ideal) S256x512 .f32 0x00000000#32) (ix2 t j)
      = ∑ k : Fin 512, V (ix2 (brow 2 t) k) * w (ix2 j k) := by
  rw [mmRt_apply]
  exact Finset.sum_congr rfl fun k _ => by rw [band2_apply, trSq_apply]

theorem mmRt3_apply (V : FVec Ideal S1024x512 .bf16) (hs : S1024x512.Slices ![768, 0] S256x512)
    (w : FVec Ideal S512x512 .bf16) (h : S512x512.Transposes [1, 0] S512x512) (t : Fin 256) (j : Fin 512) :
    matmul dot_S256x512_S512x512_S256x512_1_0_0_1_n_n none (extractStridedSlice S256x512 ![768, 0] V hs)
        (transpose S512x512 [1, 0] w h) (constant (F := Ideal) S256x512 .f32 0x00000000#32) (ix2 t j)
      = ∑ k : Fin 512, V (ix2 (brow 3 t) k) * w (ix2 j k) := by
  rw [mmRt_apply]
  exact Finset.sum_congr rfl fun k _ => by rw [band3_apply, trSq_apply]

theorem pay1_apply (v0 : FVec Ideal S4x256x256 .bf16) (v3 : FVec Ideal S512x256 .bf16) (v7 : FVec Ideal S1x512 .f32)
    (i : Fin 4) (t : Fin 256) (j : Fin 512) :
    k0_pay1 (F := Ideal) v0 v3 v7 (ix2 (brow i t) j) = hid0 v0 v3 v7 i t j := by
  unfold k0_pay1
  dsimp only
  rw [maximumf_apply, addf_apply, broadcast_apply, zero_lit, mmInT_apply, bc1024_apply, shapeCast_self, shapeCast_self]
  simp only [shapeCast_self, flatten_apply]
  rfl

theorem pay2_apply (v0 : FVec Ideal S4x256x256 .bf16) (v3 : FVec Ideal S512x256 .bf16) (v7 : FVec Ideal S1x512 .f32)
    (i : Fin 4) (t : Fin 256) (j : Fin 512) :
    k0_pay2 (F := Ideal) v0 v3 v7 (ix2 (brow i t) j) = hid0 v0 v3 v7 i t j :=
  pay1_apply v0 v3 v7 i t j

theorem pay3_apply (v0 : FVec Ideal S4x256x256 .bf16) (v3 : FVec Ideal S512x256 .bf16) (v7 : FVec Ideal S1x512 .f32)
    (v14 : FVec Ideal S1x1x512x512 .bf16) (v16 : FVec Ideal S1x1x512 .f32) (r : Fin 1024) (j : Fin 512) :
    k0_pay3 (F := Ideal) v0 v3 v7 v14 v16 (ix2 r j)
      = (∑ k : Fin 512, k0_pay2 (F := Ideal) v0 v3 v7 (ix2 r k) * v14 (ix4 0 0 j k)) + v16 (ix3 0 0 j) := by
  unfold k0_pay3
  dsimp only
  rw [addf_apply, mmShT_apply, bc1024_apply, castRow_apply, castB3_apply]
  simp only [castW4_apply]

theorem pay5_apply (v13 : FVec Ideal S1024x512 .bf16) (v30 : FVec Ideal S1x512x512 .bf16) (v35 : FVec Ideal S1x512 .f32)
    (t : Fin 256) (j : Fin 512) :
    k0_pay5 (F := Ideal) v13 (k0_pay4 (F := Ideal) v30) v35 (ix2 t j)
      = (∑ k : Fin 512, v13 (ix2 (brow 0 t) k) * v30 (ix3 0 j k)) + v35 (ix2 0 j) := by
  unfold k0_pay5 k0_pay4
  dsimp only
  rw [addf_apply, mmRt0_apply, bc256_apply, castRow_apply, castB2_apply]
  simp only [castW3_apply]

theorem pay6_apply (v13 : FVec Ideal S1024x512 .bf16) (v50 : FVec Ideal S1x512x512 .bf16) (v55 : FVec Ideal S1x512 .f32)
    (t : Fin 256) (j : Fin 512) :
    k0_pay6 (F := Ideal) v13 v50 v55 (ix2 t j)
      = (∑ k : Fin 512, v13 (ix2 (brow 1 t) k) * v50 (ix3 0 j k)) + v55 (ix2 0 j) := by
  unfold k0_pay6
  dsimp only
  rw [addf_apply, mmRt1_apply, bc256_apply, castRow_apply, castB2_apply]
  simp only [castW3_apply]

theorem pay7_apply (v12 : FVec Ideal S1024x512 .f32) (v13 : FVec Ideal S1024x512 .bf16) (v22 : FVec Ideal S1024x512 .f32)
    (v42 v62 : FVec Ideal S256x512 .f32) (v70 : FVec Ideal S1x512x512 .bf16) (v75 : FVec Ideal S1x512 .f32)
    (v90 : FVec Ideal S1x512x512 .bf16) (v95 : FVec Ideal S1x512 .f32) (i : Fin 4) (t : Fin 256) (j : Fin 512) :
    k0_pay7 (F := Ideal) v12 v13 v22 v42 v62 v70 v75 v90 v95 (ix2 (brow i t) j)
      = (v22 (ix2 (brow i t) j)
          + sel4 i (v42 (ix2 t j)) (v62 (ix2 t j))
              ((∑ k : Fin 512, v13 (ix2 (brow 2 t) k) * v70 (ix3 0 j k)) + v75 (ix2 0 j))
              ((∑ k : Fin 512, v13 (ix2 (brow 3 t) k) * v90 (ix3 0 j k)) + v95 (ix2 0 j)))
        + v12 (ix2 (brow i t) j) := by
  unfold k0_pay7
  dsimp only
  rw [addf_apply, addf_apply, concat4_apply, addf_apply, mmRt2_apply, bc256_apply, castRow_apply, castB2_apply,
    addf_apply, mmRt3_apply, bc256_apply, castRow_apply, castB2_apply]
  simp only [castW3_apply]

theorem pay8_apply (v105 : FVec Ideal S1024x512 .f32) (x : S1024x512.Idx) :
    k0_pay8 (F := Ideal) v105 x = max (v105 x) 0 := by
  unfold k0_pay8
  rw [maximumf_apply, broadcast_apply, zero_lit]

theorem pay9_apply (v105 : FVec Ideal S1024x512 .f32) (x : S1024x512.Idx) :
    k0_pay9 (F := Ideal) v105 x = k0_pay8 (F := Ideal) v105 x := rfl

theorem pay10_apply (v105 : FVec Ideal S1024x512 .f32) (v109 : FVec Ideal S1x1x512x512 .bf16) (v111 : FVec Ideal S1x1x512 .f32)
    (r : Fin 1024) (j : Fin 512) :
    k0_pay10 (F := Ideal) v105 v109 v111 (ix2 r j)
      = (∑ k : Fin 512, k0_pay9 (F := Ideal) v105 (ix2 r k) * v109 (ix4 0 0 j k)) + v111 (ix3 0 0 j) := by
  unfold k0_pay10
  dsimp only
  rw [addf_apply, mmShT_apply, bc1024_apply, castRow_apply, castB3_apply]
  simp only [castW4_apply]

theorem pay11_apply (v105 : FVec Ideal S1024x512 .f32) (v125 : FVec Ideal S1x512x512 .bf16) (v130 : FVec Ideal S1x512 .f32)
    (t : Fin 256) (j : Fin 512) :
    k0_pay11 (F := Ideal) v105 v125 v130 (ix2 t j)
      = (∑ k : Fin 512, k0_pay9 (F := Ideal) v105 (ix2 (brow 0 t) k) * v125 (ix3 0 j k)) + v130 (ix2 0 j) := by
  unfold k0_pay11
  dsimp only
  rw [addf_apply, mmRt0_apply, bc256_apply, castRow_apply, castB2_apply]
  simp only [castW3_apply]

theorem pay12_apply (v108 : FVec Ideal S1024x512 .bf16) (v145 : FVec Ideal S1x512x512 .bf16) (v150 : FVec Ideal S1x512 .f32)
    (t : Fin 256) (j : Fin 512) :
    k0_pay12 (F := Ideal) v108 v145 v150 (ix2 t j)
      = (∑ k : Fin 512, v108 (ix2 (brow 1 t) k) * v145 (ix3 0 j k)) + v150 (ix2 0 j) := by
  unfold k0_pay12
  dsimp only
  rw [addf_apply, mmRt1_apply, bc256_apply, castRow_apply, castB2_apply]
  simp only [castW3_apply]

theorem pay13_apply (v170 : FVec Ideal S1x512 .f32) (j : Fin 512) :
    k0_pay13 (F := Ideal) v170 (ix1 j) = v170 (ix2 0 j) := by
  unfold k0_pay13
  rw [castB2_apply]

theorem pay14_apply (v108 : FVec Ideal S1024x512 .bf16) (v165 : FVec Ideal S1x512x512 .bf16) (t : Fin 256) (j : Fin 512) :
    k0_pay14 (F := Ideal) v108 v165 (ix2 t j) = ∑ k : Fin 512, v108 (ix2 (brow 2 t) k) * v165 (ix3 0 j k) := by
  unfold k0_pay14
  dsimp only
  rw [mmRt2_apply]
  simp only [castW3_apply]

theorem pay15_apply (v107 : FVec Ideal S1024x512 .f32) (v108 : FVec Ideal S1024x512 .bf16) (v117 : FVec Ideal S1024x512 .f32)
    (v137 v157 : FVec Ideal S256x512 .f32) (v171 : FVec Ideal S512 .f32) (v174 : FVec Ideal S256x512 .f32)
    (v185 : FVec Ideal S1x512x512 .bf16) (v190 : FVec Ideal S1x512 .f32) (v204 : FVec Ideal S256x512 .bf16) (v208 : FVec Ideal S1x256 .f32)
    (i : Fin 4) (t : Fin 256) (o : Fin 256) :
    k0_pay15 (F := Ideal) v107 v108 v117 v137 v157 v171 v174 v185 v190 v204 v208 (ix3 i t o)
      = (∑ k : Fin 512,
          max ((v117 (ix2 (brow i t) k)
                + sel4 i (v137 (ix2 t k)) (v157 (ix2 t k)) (v174 (ix2 t k) + v171 (ix1 k))
                    ((∑ k' : Fin 512, v108 (ix2 (brow 3 t) k') * v185 (ix3 0 k k')) + v190 (ix2 0 k)))
              + v107 (ix2 (brow i t) k)) 0
            * v204 (ix2 o k))
        + v208 (ix2 0 o) := by
  unfold k0_pay15
  dsimp only
  rw [unflatten_apply, addf_apply, mmOutT_apply, bcOut_apply, shapeCast_self, shapeCast_self]
  congr 1
  refine Finset.sum_congr rfl fun k _ => ?_
  rw [truncf_apply, maximumf_apply, broadcast_apply, zero_lit, addf_apply, addf_apply, concat4_apply,
    addf_apply, bc256_apply, castRow_apply, addf_apply, mmRt3_apply, bc256_apply, castRow_apply, castB2_apply]
  simp only [castW3_apply]

theorem sel4_routed (V : S1024x512.Idx → EReal) (w0 w1 w2 w3 : S1x512x512.Idx → EReal) (b0 b1 b2 b3 : S1x512.Idx → EReal)
    (i : Fin 4) (t : Fin 256) (j : Fin 512) :
    sel4 i ((∑ k : Fin 512, V (ix2 (brow 0 t) k) * w0 (ix3 0 j k)) + b0 (ix2 0 j))
        ((∑ k : Fin 512, V (ix2 (brow 1 t) k) * w1 (ix3 0 j k)) + b1 (ix2 0 j))
        ((∑ k : Fin 512, V (ix2 (brow 2 t) k) * w2 (ix3 0 j k)) + b2 (ix2 0 j))
        ((∑ k : Fin 512, V (ix2 (brow 3 t) k) * w3 (ix3 0 j k)) + b3 (ix2 0 j))
      = (∑ k : Fin 512, V (ix2 (brow i t) k) * sel4 i w0 w1 w2 w3 (ix3 0 j k)) + sel4 i b0 b1 b2 b3 (ix2 0 j) := by
  match i with
  | 0 => rfl
  | 1 => rfl
  | 2 => rfl
  | 3 => rfl

theorem hid1_apply (v0 : FVec Ideal S4x256x256 .bf16) (v3 : FVec Ideal S512x256 .bf16) (v7 : FVec Ideal S1x512 .f32)
    (v14 : FVec Ideal S1x1x512x512 .bf16) (v16 : FVec Ideal S1x1x512 .f32)
    (v30 : FVec Ideal S1x512x512 .bf16) (v35 : FVec Ideal S1x512 .f32) (v50 : FVec Ideal S1x512x512 .bf16) (v55 : FVec Ideal S1x512 .f32)
    (v70 : FVec Ideal S1x512x512 .bf16) (v75 : FVec Ideal S1x512 .f32) (v90 : FVec Ideal S1x512x512 .bf16) (v95 : FVec Ideal S1x512 .f32)
    (i : Fin 4) (t : Fin 256) (j : Fin 512) :
    k0_pay8 (F := Ideal)
        (k0_pay7 (k0_pay1 v0 v3 v7) (k0_pay2 v0 v3 v7) (k0_pay3 v0 v3 v7 v14 v16)
          (k0_pay5 (k0_pay2 v0 v3 v7) (k0_pay4 v30) v35) (k0_pay6 (k0_pay2 v0 v3 v7) v50 v55) v70 v75 v90 v95)
        (ix2 (brow i t) j)
      = lay v14 v16 (sel4 i v30 v50 v70 v90) (sel4 i v35 v55 v75 v95) (hid0 v0 v3 v7 i t) j := by
  rw [pay8_apply, pay7_apply, pay3_apply, pay1_apply, pay5_apply, pay6_apply,
    sel4_routed (k0_pay2 (F := Ideal) v0 v3 v7)]
  simp only [pay2_apply]
  rfl

theorem out_apply (v105 : FVec Ideal S1024x512 .f32)
    (v109 : FVec Ideal S1x1x512x512 .bf16) (v111 : FVec Ideal S1x1x512 .f32)
    (v125 : FVec Ideal S1x512x512 .bf16) (v130 : FVec Ideal S1x512 .f32) (v145 : FVec Ideal S1x512x512 .bf16) (v150 : FVec Ideal S1x512 .f32)
    (v165 : FVec Ideal S1x512x512 .bf16) (v170 : FVec Ideal S1x512 .f32) (v185 : FVec Ideal S1x512x512 .bf16) (v190 : FVec Ideal S1x512 .f32)
    (v204 : FVec Ideal S256x512 .bf16) (v208 : FVec Ideal S1x256 .f32) (i : Fin 4) (t : Fin 256) (o : Fin 256) :
    k0_pay15 (F := Ideal) (k0_pay8 v105) (k0_pay9 v105) (k0_pay10 v105 v109 v111) (k0_pay11 v105 v125 v130)
        (k0_pay12 (k0_pay9 v105) v145 v150) (k0_pay13 v170) (k0_pay14 (k0_pay9 v105) v165) v185 v190 v204 v208 (ix3 i t o)
      = outp v204 v208
          (lay v109 v111 (sel4 i v125 v145 v165 v185) (sel4 i v130 v150 v170 v190)
            (fun k => k0_pay8 (F := Ideal) v105 (ix2 (brow i t) k))) o := by
  rw [pay15_apply]
  unfold outp
  congr 1
  refine Finset.sum_congr rfl fun k _ => ?_
  congr 1
  rw [pay10_apply, pay11_apply, pay12_apply, pay13_apply, pay14_apply, sel4_routed (k0_pay9 (F := Ideal) v105)]
  rfl

theorem outPay_apply (v0 : Vec Ideal S4x256x256 .bf16) (v3 : Vec Ideal S512x256 .bf16) (v7 : Vec Ideal S1x512 .f32) (v14 : Vec Ideal S1x1x512x512 .bf16) (v16 : Vec Ideal S1x1x512 .f32) (v30 : Vec Ideal S1x512x512 .bf16) (v35 : Vec Ideal S1x512 .f32) (v50 : Vec Ideal S1x512x512 .bf16) (v55 : Vec Ideal S1x512 .f32) (v70 : Vec Ideal S1x512x512 .bf16) (v75 : Vec Ideal S1x512 .f32) (v90 : Vec Ideal S1x512x512 .bf16) (v95 : Vec Ideal S1x512 .f32) (v109 : Vec Ideal S1x1x512x512 .bf16) (v111 : Vec Ideal S1x1x512 .f32) (v125 : Vec Ideal S1x512x512 .bf16) (v130 : Vec Ideal S1x512 .f32) (v145 : Vec Ideal S1x512x512 .bf16) (v150 : Vec Ideal S1x512 .f32) (v165 : Vec Ideal S1x512x512 .bf16) (v170 : Vec Ideal S1x512 .f32) (v185 : Vec Ideal S1x512x512 .bf16) (v190 : Vec Ideal S1x512 .f32) (v204 : Vec Ideal S256x512 .bf16) (v208 : Vec Ideal S1x256 .f32)
    (i : Fin 4) (t : Fin 256) (o : Fin 256) :
    outPay (F := Ideal) v0 v3 v7 v14 v16 v30 v35 v50 v55 v70 v75 v90 v95 v109 v111 v125 v130 v145 v150 v165 v170 v185 v190 v204 v208 (ix3 i t o)
      = outp v204 v208
          (lay v109 v111 (sel4 i v125 v145 v165 v185) (sel4 i v130 v150 v170 v190)
            (lay v14 v16 (sel4 i v30 v50 v70 v90) (sel4 i v35 v55 v75 v95) (hid0 v0 v3 v7 i t))) o := by
  unfold outPay
  rw [out_apply]
  simp only [hid1_apply]

end Cert.KernelIdeal.Pay

end
-- ==== Proof.KiStored.lean ====
import proofs.«406211_j29257317220859_3_alg».proof.Proof.KiFrame
import proofs.«406211_j29257317220859_3_alg».proof.Proof.KiPayload

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem out0_9_eq_outPay (c : Dev nD) (i : grid0.Coords) (arg2 : Memref sig .tc .vmem S4x256x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2x16x512x512 .bf16) (harg5 : arg5.IsWhole) (arg6 : Memref sig .tc .vmem S2x16x512 .f32) (harg6 : arg6.IsWhole) (arg7 : Memref sig .tc .vmem S2x1x512x512 .bf16) (harg7 : arg7.IsWhole) (arg8 : Memref sig .tc .vmem S2x1x512 .f32) (harg8 : arg8.IsWhole) (arg9 : Memref sig .tc .vmem S256x512 .bf16) (harg9 : arg9.IsWhole) (arg10 : Memref sig .tc .vmem S1x256 .f32) (harg10 : arg10.IsWhole) (arg11 : Memref sig .tc .vmem S4x256x256 .f32) (harg11 : arg11.IsWhole)
    (x0 : Vec F S4x256x256 .bf16) (x1 : Vec F S512x256 .bf16) (x2 : Vec F S1x512 .f32) (x3 : Vec F S2x16x512x512 .bf16) (x4 : Vec F S2x16x512 .f32) (x5 : Vec F S2x1x512x512 .bf16) (x6 : Vec F S2x1x512 .f32) (x7 : Vec F S256x512 .bf16) (x8 : Vec F S1x256 .f32) (xt0 : TbBuf0 (F := F) c tbM0_0)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off4 i) S1.size (k0_off4_inb i)).toLoadRect xt0 (Shape.Idx.first (numel1_S1.symm ▸ Nat.one_pos))))
    (k0_hw3 : k0_chk3 (tbM0_0.view.readAt (Elt F) (Rect.unit (s := S64) (k0_off7 i) S1.size (k0_off7_inb i)).toLoadRect xt0 (Shape.Idx.first (numel1_S1.symm ▸ Nat.one_pos))))
    (k0_hw4 : k0_chk4 (tbM0_0.view.readAt (Elt F) (Rect.unit (s := S64) (k0_off10 i) S1.size (k0_off10_inb i)).toLoadRect xt0 (Shape.Idx.first (numel1_S1.symm ▸ Nat.one_pos))))
    (k0_hw5 : k0_chk5 (tbM0_0.view.readAt (Elt F) (Rect.unit (s := S64) (k0_off13 i) S1.size (k0_off13_inb i)).toLoadRect xt0 (Shape.Idx.first (numel1_S1.symm ▸ Nat.one_pos))))
    (k0_hw6 : k0_chk6 (tbM0_0.view.readAt (Elt F) (Rect.unit (s := S64) (k0_off16 i) S1.size (k0_off16_inb i)).toLoadRect xt0 (Shape.Idx.first (numel1_S1.symm ▸ Nat.one_pos))))
    (k0_hw7 : k0_chk7 (tbM0_0.view.readAt (Elt F) (Rect.unit (s := S64) (k0_off19 i) S1.size (k0_off19_inb i)).toLoadRect xt0 (Shape.Idx.first (numel1_S1.symm ▸ Nat.one_pos))))
    (k0_hw8 : k0_chk8 (tbM0_0.view.readAt (Elt F) (Rect.unit (s := S64) (k0_off22 i) S1.size (k0_off22_inb i)).toLoadRect xt0 (Shape.Idx.first (numel1_S1.symm ▸ Nat.one_pos)))) :
    out0_9 c i arg2 harg2 arg3 harg3 arg4 harg4 arg5 harg5 arg6 harg6 arg7 harg7 arg8 harg8 arg9 harg9 arg10 harg10 arg11 harg11 x0 x1 x2 x3 x4 x5 x6 x7 x8 xt0 k0_hw1 k0_hw2 k0_hw3 k0_hw4 k0_hw5 k0_hw6 k0_hw7 k0_hw8 = Cert.KernelIdeal.Pay.outPay
      (arg2.view.readAt (Elt F) (Rect.unit (s := S4x256x256) ![0, 0, 0] S4x256x256.size inb_S4x256x256_S4x256x256_0_0_0).toLoadRect (harg2.unread x0))
      (arg3.view.readAt (Elt F) (Rect.unit (s := S512x256) ![0, 0] S512x256.size inb_S512x256_S512x256_0_0).toLoadRect (harg3.unread x1))
      (arg4.view.readAt (Elt F) (Rect.unit (s := S1x512) ![0, 0] S1x512.size inb_S1x512_S1x512_0_0).toLoadRect (harg4.unread x2))
      (arg7.view.readAt (Elt F) (Rect.unit (s := S2x1x512x512) ![0, 0, 0, 0] S1x1x512x512.size inb_S2x1x512x512_S1x1x512x512_0_0_0_0).toLoadRect (harg7.unread x5))
      (arg8.view.readAt (Elt F) (Rect.unit (s := S2x1x512) ![0, 0, 0] S1x1x512.size inb_S2x1x512_S1x1x512_0_0_0).toLoadRect (harg8.unread x6))
      (((arg5.slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt F) (Rect.unit (s := S16x512x512) (k0_off2 (tbM0_0.view.readAt (Elt F) (Rect.unit (s := S64) (k0_off1 i) S1.size (k0_off1_inb i)).toLoadRect xt0 (Shape.Idx.first (numel1_S1.symm ▸ Nat.one_pos)))) S1x512x512.size (k0_off2_inb (tbM0_0.view.readAt (Elt F) (Rect.unit (s := S64) (k0_off1 i) S1.size (k0_off1_inb i)).toLoadRect xt0 (Shape.Idx.first (numel1_S1.symm ▸ Nat.one_pos))) k0_hw1)).toLoadRect (harg5.unread x3))
      (((arg6.slice (Rect.unit (s := S2x16x512) ![0, 0, 0] S1x16x512.size inb_S2x16x512_S1x16x512_0_0_0) (fun _ => rfl)).squeeze S16x512 squeezes_S1x16x512_S16x512).view.readAt (Elt F) (Rect.unit (s := S16x512) (k0_off3 (tbM0_0.view.readAt (Elt F) (Rect.unit (s := S64) (k0_off1 i) S1.size (k0_off1_inb i)).toLoadRect xt0 (Shape.Idx.first (numel1_S1.symm ▸ Nat.one_pos)))) S1x512.size (k0_off3_inb (tbM0_0.view.readAt (Elt F) (Rect.unit (s := S64) (k0_off1 i) S1.size (k0_off1_inb i)).toLoadRect xt0 (Shape.Idx.first (numel1_S1.symm ▸ Nat.one_pos))) k0_hw1)).toLoadRect (harg6.unread x4))
      (((arg5.slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt F) (Rect.unit (s := S16x512x512) (k0_off5 (tbM0_0.view.readAt (Elt F) (Rect.unit (s := S64) (k0_off4 i) S1.size (k0_off4_inb i)).toLoadRect xt0 (Shape.Idx.first (numel1_S1.symm ▸ Nat.one_pos)))) S1x512x512.size (k0_off5_inb (tbM0_0.view.readAt (Elt F) (Rect.unit (s := S64) (k0_off4 i) S1.size (k0_off4_inb i)).toLoadRect xt0 (Shape.Idx.first (numel1_S1.symm ▸ Nat.one_pos))) k0_hw2)).toLoadRect (harg5.unread x3))
      (((arg6.slice (Rect.unit (s := S2x16x512) ![0, 0, 0] S1x16x512.size inb_S2x16x512_S1x16x512_0_0_0) (fun _ => rfl)).squeeze S16x512 squeezes_S1x16x512_S16x512).view.readAt (Elt F) (Rect.unit (s := S16x512) (k0_off6 (tbM0_0.view.readAt (Elt F) (Rect.unit (s := S64) (k0_off4 i) S1.size (k0_off4_inb i)).toLoadRect xt0 (Shape.Idx.first (numel1_S1.symm ▸ Nat.one_pos)))) S1x512.size (k0_off6_inb (tbM0_0.view.readAt (Elt F) (Rect.unit (s := S64) (k0_off4 i) S1.size (k0_off4_inb i)).toLoadRect xt0 (Shape.Idx.first (numel1_S1.symm ▸ Nat.one_pos))) k0_hw2)).toLoadRect (harg6.unread x4))
      (((arg5.slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt F) (Rect.unit (s := S16x512x512) (k0_off8 (tbM0_0.view.readAt (Elt F) (Rect.unit (s := S64) (k0_off7 i) S1.size (k0_off7_inb i)).toLoadRect xt0 (Shape.Idx.first (numel1_S1.symm ▸ Nat.one_pos)))) S1x512x512.size (k0_off8_inb (tbM0_0.view.readAt (Elt F) (Rect.unit (s := S64) (k0_off7 i) S1.size (k0_off7_inb i)).toLoadRect xt0 (Shape.Idx.first (numel1_S1.symm ▸ Nat.one_pos))) k0_hw3)).toLoadRect (harg5.unread x3))
      (((arg6.slice (Rect.unit (s := S2x16x512) ![0, 0, 0] S1x16x512.size inb_S2x16x512_S1x16x512_0_0_0) (fun _ => rfl)).squeeze S16x512 squeezes_S1x16x512_S16x512).view.readAt (Elt F) (Rect.unit (s := S16x512) (k0_off9 (tbM0_0.view.readAt (Elt F) (Rect.unit (s := S64) (k0_off7 i) S1.size (k0_off7_inb i)).toLoadRect xt0 (Shape.Idx.first (numel1_S1.symm ▸ Nat.one_pos)))) S1x512.size (k0_off9_inb (tbM0_0.view.readAt (Elt F) (Rect.unit (s := S64) (k0_off7 i) S1.size (k0_off7_inb i)).toLoadRect xt0 (Shape.Idx.first (numel1_S1.symm ▸ Nat.one_pos))) k0_hw3)).toLoadRect (harg6.unread x4))
      (((arg5.slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt F) (Rect.unit (s := S16x512x512) (k0_off11 (tbM0_0.view.readAt (Elt F) (Rect.unit (s := S64) (k0_off10 i) S1.size (k0_off10_inb i)).toLoadRect xt0 (Shape.Idx.first (numel1_S1.symm ▸ Nat.one_pos)))) S1x512x512.size (k0_off11_inb (tbM0_0.view.readAt (Elt F) (Rect.unit (s := S64) (k0_off10 i) S1.size (k0_off10_inb i)).toLoadRect xt0 (Shape.Idx.first (numel1_S1.symm ▸ Nat.one_pos))) k0_hw4)).toLoadRect (harg5.unread x3))
      (((arg6.slice (Rect.unit (s := S2x16x512) ![0, 0, 0] S1x16x512.size inb_S2x16x512_S1x16x512_0_0_0) (fun _ => rfl)).squeeze S16x512 squeezes_S1x16x512_S16x512).view.readAt (Elt F) (Rect.unit (s := S16x512) (k0_off12 (tbM0_0.view.readAt (Elt F) (Rect.unit (s := S64) (k0_off10 i) S1.size (k0_off10_inb i)).toLoadRect xt0 (Shape.Idx.first (numel1_S1.symm ▸ Nat.one_pos)))) S1x512.size (k0_off12_inb (tbM0_0.view.readAt (Elt F) (Rect.unit (s := S64) (k0_off10 i) S1.size (k0_off10_inb i)).toLoadRect xt0 (Shape.Idx.first (numel1_S1.symm ▸ Nat.one_pos))) k0_hw4)).toLoadRect (harg6.unread x4))
      (arg7.view.readAt (Elt F) (Rect.unit (s := S2x1x512x512) ![1, 0, 0, 0] S1x1x512x512.size inb_S2x1x512x512_S1x1x512x512_1_0_0_0).toLoadRect (harg7.unread x5))
      (arg8.view.readAt (Elt F) (Rect.unit (s := S2x1x512) ![1, 0, 0] S1x1x512.size inb_S2x1x512_S1x1x512_1_0_0).toLoadRect (harg8.unread x6))
      (((arg5.slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt F) (Rect.unit (s := S16x512x512) (k0_off14 (tbM0_0.view.readAt (Elt F) (Rect.unit (s := S64) (k0_off13 i) S1.size (k0_off13_inb i)).toLoadRect xt0 (Shape.Idx.first (numel1_S1.symm ▸ Nat.one_pos)))) S1x512x512.size (k0_off14_inb (tbM0_0.view.readAt (Elt F) (Rect.unit (s := S64) (k0_off13 i) S1.size (k0_off13_inb i)).toLoadRect xt0 (Shape.Idx.first (numel1_S1.symm ▸ Nat.one_pos))) k0_hw5)).toLoadRect (harg5.unread x3))
      (((arg6.slice (Rect.unit (s := S2x16x512) ![1, 0, 0] S1x16x512.size inb_S2x16x512_S1x16x512_1_0_0) (fun _ => rfl)).squeeze S16x512 squeezes_S1x16x512_S16x512).view.readAt (Elt F) (Rect.unit (s := S16x512) (k0_off15 (tbM0_0.view.readAt (Elt F) (Rect.unit (s := S64) (k0_off13 i) S1.size (k0_off13_inb i)).toLoadRect xt0 (Shape.Idx.first (numel1_S1.symm ▸ Nat.one_pos)))) S1x512.size (k0_off15_inb (tbM0_0.view.readAt (Elt F) (Rect.unit (s := S64) (k0_off13 i) S1.size (k0_off13_inb i)).toLoadRect xt0 (Shape.Idx.first (numel1_S1.symm ▸ Nat.one_pos))) k0_hw5)).toLoadRect (harg6.unread x4))
      (((arg5.slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt F) (Rect.unit (s := S16x512x512) (k0_off17 (tbM0_0.view.readAt (Elt F) (Rect.unit (s := S64) (k0_off16 i) S1.size (k0_off16_inb i)).toLoadRect xt0 (Shape.Idx.first (numel1_S1.symm ▸ Nat.one_pos)))) S1x512x512.size (k0_off17_inb (tbM0_0.view.readAt (Elt F) (Rect.unit (s := S64) (k0_off16 i) S1.size (k0_off16_inb i)).toLoadRect xt0 (Shape.Idx.first (numel1_S1.symm ▸ Nat.one_pos))) k0_hw6)).toLoadRect (harg5.unread x3))
      (((arg6.slice (Rect.unit (s := S2x16x512) ![1, 0, 0] S1x16x512.size inb_S2x16x512_S1x16x512_1_0_0) (fun _ => rfl)).squeeze S16x512 squeezes_S1x16x512_S16x512).view.readAt (Elt F) (Rect.unit (s := S16x512) (k0_off18 (tbM0_0.view.readAt (Elt F) (Rect.unit (s := S64) (k0_off16 i) S1.size (k0_off16_inb i)).toLoadRect xt0 (Shape.Idx.first (numel1_S1.symm ▸ Nat.one_pos)))) S1x512.size (k0_off18_inb (tbM0_0.view.readAt (Elt F) (Rect.unit (s := S64) (k0_off16 i) S1.size (k0_off16_inb i)).toLoadRect xt0 (Shape.Idx.first (numel1_S1.symm ▸ Nat.one_pos))) k0_hw6)).toLoadRect (harg6.unread x4))
      (((arg5.slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt F) (Rect.unit (s := S16x512x512) (k0_off20 (tbM0_0.view.readAt (Elt F) (Rect.unit (s := S64) (k0_off19 i) S1.size (k0_off19_inb i)).toLoadRect xt0 (Shape.Idx.first (numel1_S1.symm ▸ Nat.one_pos)))) S1x512x512.size (k0_off20_inb (tbM0_0.view.readAt (Elt F) (Rect.unit (s := S64) (k0_off19 i) S1.size (k0_off19_inb i)).toLoadRect xt0 (Shape.Idx.first (numel1_S1.symm ▸ Nat.one_pos))) k0_hw7)).toLoadRect (harg5.unread x3))
      (((arg6.slice (Rect.unit (s := S2x16x512) ![1, 0, 0] S1x16x512.size inb_S2x16x512_S1x16x512_1_0_0) (fun _ => rfl)).squeeze S16x512 squeezes_S1x16x512_S16x512).view.readAt (Elt F) (Rect.unit (s := S16x512) (k0_off21 (tbM0_0.view.readAt (Elt F) (Rect.unit (s := S64) (k0_off19 i) S1.size (k0_off19_inb i)).toLoadRect xt0 (Shape.Idx.first (numel1_S1.symm ▸ Nat.one_pos)))) S1x512.size (k0_off21_inb (tbM0_0.view.readAt (Elt F) (Rect.unit (s := S64) (k0_off19 i) S1.size (k0_off19_inb i)).toLoadRect xt0 (Shape.Idx.first (numel1_S1.symm ▸ Nat.one_pos))) k0_hw7)).toLoadRect (harg6.unread x4))
      (((arg5.slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt F) (Rect.unit (s := S16x512x512) (k0_off23 (tbM0_0.view.readAt (Elt F) (Rect.unit (s := S64) (k0_off22 i) S1.size (k0_off22_inb i)).toLoadRect xt0 (Shape.Idx.first (numel1_S1.symm ▸ Nat.one_pos)))) S1x512x512.size (k0_off23_inb (tbM0_0.view.readAt (Elt F) (Rect.unit (s := S64) (k0_off22 i) S1.size (k0_off22_inb i)).toLoadRect xt0 (Shape.Idx.first (numel1_S1.symm ▸ Nat.one_pos))) k0_hw8)).toLoadRect (harg5.unread x3))
      (((arg6.slice (Rect.unit (s := S2x16x512) ![1, 0, 0] S1x16x512.size inb_S2x16x512_S1x16x512_1_0_0) (fun _ => rfl)).squeeze S16x512 squeezes_S1x16x512_S16x512).view.readAt (Elt F) (Rect.unit (s := S16x512) (k0_off24 (tbM0_0.view.readAt (Elt F) (Rect.unit (s := S64) (k0_off22 i) S1.size (k0_off22_inb i)).toLoadRect xt0 (Shape.Idx.first (numel1_S1.symm ▸ Nat.one_pos)))) S1x512.size (k0_off24_inb (tbM0_0.view.readAt (Elt F) (Rect.unit (s := S64) (k0_off22 i) S1.size (k0_off22_inb i)).toLoadRect xt0 (Shape.Idx.first (numel1_S1.symm ▸ Nat.one_pos))) k0_hw8)).toLoadRect (harg6.unread x4))
      (arg9.view.readAt (Elt F) (Rect.unit (s := S256x512) ![0, 0] S256x512.size inb_S256x512_S256x512_0_0).toLoadRect (harg9.unread x7))
      (arg10.view.readAt (Elt F) (Rect.unit (s := S1x256) ![0, 0] S1x256.size inb_S1x256_S1x256_0_0).toLoadRect (harg10.unread x8)) := by
  unfold out0_9
  rw [View.read_writes_eq_canon _ _ _ (cover0_9 c i arg2 harg2 arg3 harg3 arg4 harg4 arg5 harg5 arg6 harg6 arg7 harg7 arg8 harg8 arg9 harg9 arg10 harg10 arg11 harg11 x0 x1 x2 x3 x4 x5 x6 x7 x8 xt0 k0_hw1 k0_hw2 k0_hw3 k0_hw4 k0_hw5 k0_hw6 k0_hw7 k0_hw8)]
  unfold kernelRun0
  dsimp only
  sl_unfold_run_names
  rw [View.canon_unit_zero (S := S4x256x256) (funext fun a => by fin_cases a <;> rfl)]
  rfl

end Cert.KernelIdeal.Fr

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SX : Shape := ⟨3, ![64, 256, 256]⟩
abbrev SRoute : Shape := ⟨1, ![64]⟩
abbrev SWi : Shape := ⟨2, ![512, 256]⟩
abbrev SBi : Shape := ⟨1, ![512]⟩
abbrev SWr : Shape := ⟨4, ![2, 16, 512, 512]⟩
abbrev SBr : Shape := ⟨3, ![2, 16, 512]⟩
abbrev SWs : Shape := ⟨4, ![2, 1, 512, 512]⟩
abbrev SBs : Shape := ⟨3, ![2, 1, 512]⟩
abbrev SWo : Shape := ⟨2, ![256, 512]⟩
abbrev SBo : Shape := ⟨1, ![256]⟩

abbrev Row : Type := Fin 512 → EReal

/-- The expert a route word names: its value modulo sixteen. -/
def expertOf (w : BitVec 32) : Fin 16 := ⟨w.toNat % 16, Nat.mod_lt _ (by decide)⟩

theorem expertOf_val_of_lt (w : BitVec 32) (h : w.toNat < 16) : (expertOf w).val = w.toNat :=
  Nat.mod_eq_of_lt h

/-- A token's 256 inputs projected to 512 hidden units and rectified. -/
def inProj (x : SX.Idx → EReal) (Wi : SWi.Idx → EReal) (bi : SBi.Idx → EReal) (b : Fin 64) (t : Fin 256) : Row :=
  fun j => max ((∑ k : Fin 256, x (ix3 b t k) * Wi (ix2 j k)) + bi (ix1 j)) 0

/-- One layer at expert `e`: the shared and the routed affine images are added to the row, and the sum is rectified. -/
def layer (Wr : SWr.Idx → EReal) (br : SBr.Idx → EReal) (Ws : SWs.Idx → EReal) (bs : SBs.Idx → EReal)
    (l : Fin 2) (e : Fin 16) (h : Row) : Row :=
  fun j => max ((((∑ k : Fin 512, h k * Ws (ix4 l 0 j k)) + bs (ix3 l 0 j))
      + ((∑ k : Fin 512, h k * Wr (ix4 l e j k)) + br (ix3 l e j))) + h j) 0

/-- A hidden row projected to 256 outputs. -/
def outProj (Wo : SWo.Idx → EReal) (bo : SBo.Idx → EReal) (h : Row) : Fin 256 → EReal :=
  fun o => (∑ k : Fin 512, h k * Wo (ix2 o k)) + bo (ix1 o)

def hidden (x : SX.Idx → EReal) (route : SRoute.Idx → BitVec 32) (Wi : SWi.Idx → EReal) (bi : SBi.Idx → EReal)
    (Wr : SWr.Idx → EReal) (br : SBr.Idx → EReal) (Ws : SWs.Idx → EReal) (bs : SBs.Idx → EReal)
    (b : Fin 64) (t : Fin 256) : Row :=
  layer Wr br Ws bs 1 (expertOf (route (ix1 b)))
    (layer Wr br Ws bs 0 (expertOf (route (ix1 b))) (inProj x Wi bi b t))

/-- The decoder's result as one function of the ten arguments. -/
def G (x : SX.Idx → EReal) (route : SRoute.Idx → BitVec 32) (Wi : SWi.Idx → EReal) (bi : SBi.Idx → EReal)
    (Wr : SWr.Idx → EReal) (br : SBr.Idx → EReal) (Ws : SWs.Idx → EReal) (bs : SBs.Idx → EReal)
    (Wo : SWo.Idx → EReal) (bo : SBo.Idx → EReal) : SX.Idx → EReal :=
  fun i => outProj Wo bo (hidden x route Wi bi Wr br Ws bs (i 0) (i 1)) (i 2)

theorem G_apply (x : SX.Idx → EReal) (route : SRoute.Idx → BitVec 32) (Wi : SWi.Idx → EReal) (bi : SBi.Idx → EReal)
    (Wr : SWr.Idx → EReal) (br : SBr.Idx → EReal) (Ws : SWs.Idx → EReal) (bs : SBs.Idx → EReal)
    (Wo : SWo.Idx → EReal) (bo : SBo.Idx → EReal) (b : Fin 64) (t : Fin 256) (o : Fin 256) :
    G x route Wi bi Wr br Ws bs Wo bo (ix3 b t o)
      = outProj Wo bo (hidden x route Wi bi Wr br Ws bs b t) o := rfl

theorem G_congr_route (x : SX.Idx → EReal) (route route' : SRoute.Idx → BitVec 32) (Wi : SWi.Idx → EReal) (bi : SBi.Idx → EReal)
    (Wr : SWr.Idx → EReal) (br : SBr.Idx → EReal) (Ws : SWs.Idx → EReal) (bs : SBs.Idx → EReal)
    (Wo : SWo.Idx → EReal) (bo : SBo.Idx → EReal) (h : ∀ b : Fin 64, expertOf (route (ix1 b)) = expertOf (route' (ix1 b))) :
    G x route Wi bi Wr br Ws bs Wo bo = G x route' Wi bi Wr br Ws bs Wo bo := by
  funext i
  simp only [G, hidden, h (i 0)]

end Cert.Spec

end
-- ==== Proof.KiRowEq.lean ====
import proofs.«406211_j29257317220859_3_alg».proof.Proof.KiPayload
import proofs.«406211_j29257317220859_3_alg».proof.Proof.Spec

noncomputable section

namespace Cert.KernelIdeal.Pay

open Cert.KernelIdeal Idealize.ShloMosaic Idealize.ShloMosaic.ValueIdx

theorem hid0_eq_inProj (v0 : S4x256x256.Idx → EReal) (v3 : S512x256.Idx → EReal) (v7 : S1x512.Idx → EReal)
    (x : Cert.Spec.SX.Idx → EReal) (Wi : Cert.Spec.SWi.Idx → EReal) (bi : Cert.Spec.SBi.Idx → EReal)
    (i : Fin 4) (b : Fin 64) (t : Fin 256)
    (hx : ∀ k : Fin 256, v0 (ix3 i t k) = x (ix3 b t k)) (hW : ∀ (j : Fin 512) (k : Fin 256), v3 (ix2 j k) = Wi (ix2 j k))
    (hb : ∀ j : Fin 512, v7 (ix2 0 j) = bi (ix1 j)) :
    hid0 v0 v3 v7 i t = Cert.Spec.inProj x Wi bi b t := by
  funext j
  unfold hid0 Cert.Spec.inProj
  simp only [hx, hW, hb]

theorem lay_eq_layer (ws : S1x1x512x512.Idx → EReal) (bs : S1x1x512.Idx → EReal) (wr : S1x512x512.Idx → EReal) (br : S1x512.Idx → EReal)
    (Wr : Cert.Spec.SWr.Idx → EReal) (Br : Cert.Spec.SBr.Idx → EReal) (Ws : Cert.Spec.SWs.Idx → EReal) (Bs : Cert.Spec.SBs.Idx → EReal)
    (l : Fin 2) (e : Fin 16) (h : Fin 512 → EReal)
    (h1 : ∀ j k : Fin 512, ws (ix4 0 0 j k) = Ws (ix4 l 0 j k)) (h2 : ∀ j : Fin 512, bs (ix3 0 0 j) = Bs (ix3 l 0 j))
    (h3 : ∀ j k : Fin 512, wr (ix3 0 j k) = Wr (ix4 l e j k)) (h4 : ∀ j : Fin 512, br (ix2 0 j) = Br (ix3 l e j)) :
    lay ws bs wr br h = Cert.Spec.layer Wr Br Ws Bs l e h := by
  funext j
  unfold lay Cert.Spec.layer
  simp only [h1, h2, h3, h4]

theorem outp_eq_outProj (wo : S256x512.Idx → EReal) (bo : S1x256.Idx → EReal)
    (Wo : Cert.Spec.SWo.Idx → EReal) (Bo : Cert.Spec.SBo.Idx → EReal) (h : Fin 512 → EReal)
    (h1 : ∀ (o : Fin 256) (k : Fin 512), wo (ix2 o k) = Wo (ix2 o k)) (h2 : ∀ o : Fin 256, bo (ix2 0 o) = Bo (ix1 o)) :
    outp wo bo h = Cert.Spec.outProj Wo Bo h := by
  funext o
  unfold outp Cert.Spec.outProj
  simp only [h1, h2]

end Cert.KernelIdeal.Pay

end
-- ==== Proof.KiLoads.lean ====
import proofs.«406211_j29257317220859_3_alg».proof.Proof.KiKit
import Idealize.ShloMosaic.Lib.WholeRead
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem idx_unit_eq {s : Shape} (off size : Fin s.rank → Nat) (inb : ∀ a, off a + size a ≤ s.size a)
    (x : (⟨s.rank, size⟩ : Shape).Idx) (y : s.Idx) (h : ∀ a, (y a).val = off a + (x a).val) :
    (Rect.unit (s := s) off size inb).toLoadRect.idx x = y := by
  funext a
  apply Fin.ext
  show off a + 1 * (x a).val = (y a).val
  rw [h a, Nat.one_mul]

theorem emb_unit_eq {s : Shape} (off size : Fin s.rank → Nat) (inb : ∀ a, off a + size a ≤ s.size a)
    (x : (⟨s.rank, size⟩ : Shape).Idx) (y : s.Idx) (h : ∀ a, (y a).val = off a + (x a).val) :
    (Rect.unit (s := s) off size inb).emb x = y :=
  idx_unit_eq off size inb x y h

section Routed
variable (arg5 : Memref sig .tc .vmem S2x16x512x512 .bf16) (harg5 : arg5.IsWhole) (arg6 : Memref sig .tc .vmem S2x16x512 .f32) (harg6 : arg6.IsWhole)
variable (x3 : Vec F S2x16x512x512 .bf16) (x4 : Vec F S2x16x512 .f32)

theorem ld_wr_gen (lo : Fin 4 → Nat) (hlo : ∀ a, lo a + S1x16x512x512.size a ≤ S2x16x512x512.size a)
    (l : Fin 2) (el : lo = ![l.val, 0, 0, 0])
    (off : Fin 3 → Nat) (hoff : ∀ a, off a + S1x512x512.size a ≤ S16x512x512.size a)
    (n : Fin 16) (en : off = ![n.val, 0, 0]) (j k : Fin 512) :
    (((arg5.slice (Rect.unit (s := S2x16x512x512) lo S1x16x512x512.size hlo) (fun _ => rfl)).squeeze S16x512x512 squeezes_S1x16x512x512_S16x512x512).view.readAt (Elt F) (Rect.unit (s := S16x512x512) off S1x512x512.size hoff).toLoadRect (harg5.unread x3)) (ix3 0 j k)
      = x3 (ix4 l n j k) := by
  subst el en
  refine (harg5.readAt_slice_reshape_unread x3 _ _ _ _).trans ?_
  congr 1
  rw [idx_unit_eq _ _ _ _ (ix3 n j k) (fun a => by
    match a with
    | ⟨0, _⟩ => exact (Nat.add_zero _).symm
    | ⟨1, _⟩ => exact (Nat.zero_add _).symm
    | ⟨2, _⟩ => exact (Nat.zero_add _).symm)]
  rw [reshapeEquiv_ix3_1abc]
  exact emb_unit_eq _ _ _ _ _ (fun a => by
    match a with
    | ⟨0, _⟩ => exact (Nat.add_zero _).symm
    | ⟨1, _⟩ => exact (Nat.zero_add _).symm
    | ⟨2, _⟩ => exact (Nat.zero_add _).symm
    | ⟨3, _⟩ => exact (Nat.zero_add _).symm)

theorem ld_br_gen (lo : Fin 3 → Nat) (hlo : ∀ a, lo a + S1x16x512.size a ≤ S2x16x512.size a)
    (l : Fin 2) (el : lo = ![l.val, 0, 0])
    (off : Fin 2 → Nat) (hoff : ∀ a, off a + S1x512.size a ≤ S16x512.size a)
    (n : Fin 16) (en : off = ![n.val, 0]) (j : Fin 512) :
    (((arg6.slice (Rect.unit (s := S2x16x512) lo S1x16x512.size hlo) (fun _ => rfl)).squeeze S16x512 squeezes_S1x16x512_S16x512).view.readAt (Elt F) (Rect.unit (s := S16x512) off S1x512.size hoff).toLoadRect (harg6.unread x4)) (ix2 0 j)
      = x4 (ix3 l n j) := by
  subst el en
  refine (harg6.readAt_slice_reshape_unread x4 _ _ _ _).trans ?_
  congr 1
  rw [idx_unit_eq _ _ _ _ (ix2 n j) (fun a => by
    match a with
    | ⟨0, _⟩ => exact (Nat.add_zero _).symm
    | ⟨1, _⟩ => exact (Nat.zero_add _).symm)]
  rw [reshapeEquiv_ix2_1ab]
  exact emb_unit_eq _ _ _ _ _ (fun a => by
    match a with
    | ⟨0, _⟩ => exact (Nat.add_zero _).symm
    | ⟨1, _⟩ => exact (Nat.zero_add _).symm
    | ⟨2, _⟩ => exact (Nat.zero_add _).symm)

end Routed

theorem ld_whole_gen {S : Shape} {e : EltTy} (M : Memref sig .tc .vmem S e) (hM : M.IsWhole) (X : Vec F S e)
    (off : Fin S.rank → Nat) (h0 : off = fun _ => 0) (inb : ∀ a, off a + S.size a ≤ S.size a) :
    M.view.readAt (Elt F) (Rect.unit (s := S) off S.size inb).toLoadRect (hM.unread X) = X := by
  rw [View.readAt_eq_ld, hM.read_unread]
  exact View.ld_unit_zero h0 inb X

section
variable (arg2 : Memref sig .tc .vmem S4x256x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2x16x512x512 .bf16) (harg5 : arg5.IsWhole) (arg6 : Memref sig .tc .vmem S2x16x512 .f32) (harg6 : arg6.IsWhole) (arg7 : Memref sig .tc .vmem S2x1x512x512 .bf16) (harg7 : arg7.IsWhole) (arg8 : Memref sig .tc .vmem S2x1x512 .f32) (harg8 : arg8.IsWhole) (arg9 : Memref sig .tc .vmem S256x512 .bf16) (harg9 : arg9.IsWhole) (arg10 : Memref sig .tc .vmem S1x256 .f32) (harg10 : arg10.IsWhole)
variable (x0 : Vec F S4x256x256 .bf16) (x1 : Vec F S512x256 .bf16) (x2 : Vec F S1x512 .f32) (x3 : Vec F S2x16x512x512 .bf16) (x4 : Vec F S2x16x512 .f32) (x5 : Vec F S2x1x512x512 .bf16) (x6 : Vec F S2x1x512 .f32) (x7 : Vec F S256x512 .bf16) (x8 : Vec F S1x256 .f32)

theorem ld_x_eq : (arg2.view.readAt (Elt F) (Rect.unit (s := S4x256x256) ![0, 0, 0] S4x256x256.size inb_S4x256x256_S4x256x256_0_0_0).toLoadRect (harg2.unread x0)) = x0 := ld_whole_gen arg2 harg2 x0 _ (by funext a; match a with | ⟨0, _⟩ => rfl | ⟨1, _⟩ => rfl | ⟨2, _⟩ => rfl) _
theorem ld_wi_eq : (arg3.view.readAt (Elt F) (Rect.unit (s := S512x256) ![0, 0] S512x256.size inb_S512x256_S512x256_0_0).toLoadRect (harg3.unread x1)) = x1 := ld_whole_gen arg3 harg3 x1 _ (by funext a; match a with | ⟨0, _⟩ => rfl | ⟨1, _⟩ => rfl) _
theorem ld_bi_eq : (arg4.view.readAt (Elt F) (Rect.unit (s := S1x512) ![0, 0] S1x512.size inb_S1x512_S1x512_0_0).toLoadRect (harg4.unread x2)) = x2 := ld_whole_gen arg4 harg4 x2 _ (by funext a; match a with | ⟨0, _⟩ => rfl | ⟨1, _⟩ => rfl) _
theorem ld_wo_eq : (arg9.view.readAt (Elt F) (Rect.unit (s := S256x512) ![0, 0] S256x512.size inb_S256x512_S256x512_0_0).toLoadRect (harg9.unread x7)) = x7 := ld_whole_gen arg9 harg9 x7 _ (by funext a; match a with | ⟨0, _⟩ => rfl | ⟨1, _⟩ => rfl) _
theorem ld_bo_eq : (arg10.view.readAt (Elt F) (Rect.unit (s := S1x256) ![0, 0] S1x256.size inb_S1x256_S1x256_0_0).toLoadRect (harg10.unread x8)) = x8 := ld_whole_gen arg10 harg10 x8 _ (by funext a; match a with | ⟨0, _⟩ => rfl | ⟨1, _⟩ => rfl) _

theorem ld_ws0_apply (j k : Fin 512) : (arg7.view.readAt (Elt F) (Rect.unit (s := S2x1x512x512) ![0, 0, 0, 0] S1x1x512x512.size inb_S2x1x512x512_S1x1x512x512_0_0_0_0).toLoadRect (harg7.unread x5)) (ix4 0 0 j k) = x5 (ix4 0 0 j k) := by
  refine (harg7.readAt_unread x5 _ _).trans ?_
  congr 1
  exact idx_unit_eq _ _ _ _ _ (fun a => by
    match a with
    | ⟨0, _⟩ => rfl
    | ⟨1, _⟩ => rfl
    | ⟨2, _⟩ => exact (Nat.zero_add _).symm
    | ⟨3, _⟩ => exact (Nat.zero_add _).symm)
theorem ld_ws1_apply (j k : Fin 512) : (arg7.view.readAt (Elt F) (Rect.unit (s := S2x1x512x512) ![1, 0, 0, 0] S1x1x512x512.size inb_S2x1x512x512_S1x1x512x512_1_0_0_0).toLoadRect (harg7.unread x5)) (ix4 0 0 j k) = x5 (ix4 1 0 j k) := by
  refine (harg7.readAt_unread x5 _ _).trans ?_
  congr 1
  exact idx_unit_eq _ _ _ _ _ (fun a => by
    match a with
    | ⟨0, _⟩ => rfl
    | ⟨1, _⟩ => rfl
    | ⟨2, _⟩ => exact (Nat.zero_add _).symm
    | ⟨3, _⟩ => exact (Nat.zero_add _).symm)
theorem ld_bs0_apply (j : Fin 512) : (arg8.view.readAt (Elt F) (Rect.unit (s := S2x1x512) ![0, 0, 0] S1x1x512.size inb_S2x1x512_S1x1x512_0_0_0).toLoadRect (harg8.unread x6)) (ix3 0 0 j) = x6 (ix3 0 0 j) := by
  refine (harg8.readAt_unread x6 _ _).trans ?_
  congr 1
  exact idx_unit_eq _ _ _ _ _ (fun a => by
    match a with
    | ⟨0, _⟩ => rfl
    | ⟨1, _⟩ => rfl
    | ⟨2, _⟩ => exact (Nat.zero_add _).symm)
theorem ld_bs1_apply (j : Fin 512) : (arg8.view.readAt (Elt F) (Rect.unit (s := S2x1x512) ![1, 0, 0] S1x1x512.size inb_S2x1x512_S1x1x512_1_0_0).toLoadRect (harg8.unread x6)) (ix3 0 0 j) = x6 (ix3 1 0 j) := by
  refine (harg8.readAt_unread x6 _ _).trans ?_
  congr 1
  exact idx_unit_eq _ _ _ _ _ (fun a => by
    match a with
    | ⟨0, _⟩ => rfl
    | ⟨1, _⟩ => rfl
    | ⟨2, _⟩ => exact (Nat.zero_add _).symm)

theorem ld_wr_off2_apply (w : Elt F .i32) (hw : k0_chk1 w) (hlt : w.toNat < 16) (j k : Fin 512) :
    (((arg5.slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt F) (Rect.unit (s := S16x512x512) (k0_off2 w) S1x512x512.size (k0_off2_inb w hw)).toLoadRect (harg5.unread x3)) (ix3 0 j k)
      = x3 (ix4 0 ⟨w.toNat, hlt⟩ j k) := ld_wr_gen arg5 harg5 x3 _ _ 0 rfl _ _ ⟨w.toNat, hlt⟩ rfl j k
theorem ld_wr_off5_apply (w : Elt F .i32) (hw : k0_chk2 w) (hlt : w.toNat < 16) (j k : Fin 512) :
    (((arg5.slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt F) (Rect.unit (s := S16x512x512) (k0_off5 w) S1x512x512.size (k0_off5_inb w hw)).toLoadRect (harg5.unread x3)) (ix3 0 j k)
      = x3 (ix4 0 ⟨w.toNat, hlt⟩ j k) := ld_wr_gen arg5 harg5 x3 _ _ 0 rfl _ _ ⟨w.toNat, hlt⟩ rfl j k
theorem ld_wr_off8_apply (w : Elt F .i32) (hw : k0_chk3 w) (hlt : w.toNat < 16) (j k : Fin 512) :
    (((arg5.slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt F) (Rect.unit (s := S16x512x512) (k0_off8 w) S1x512x512.size (k0_off8_inb w hw)).toLoadRect (harg5.unread x3)) (ix3 0 j k)
      = x3 (ix4 0 ⟨w.toNat, hlt⟩ j k) := ld_wr_gen arg5 harg5 x3 _ _ 0 rfl _ _ ⟨w.toNat, hlt⟩ rfl j k
theorem ld_wr_off11_apply (w : Elt F .i32) (hw : k0_chk4 w) (hlt : w.toNat < 16) (j k : Fin 512) :
    (((arg5.slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt F) (Rect.unit (s := S16x512x512) (k0_off11 w) S1x512x512.size (k0_off11_inb w hw)).toLoadRect (harg5.unread x3)) (ix3 0 j k)
      = x3 (ix4 0 ⟨w.toNat, hlt⟩ j k) := ld_wr_gen arg5 harg5 x3 _ _ 0 rfl _ _ ⟨w.toNat, hlt⟩ rfl j k
theorem ld_wr_off14_apply (w : Elt F .i32) (hw : k0_chk5 w) (hlt : w.toNat < 16) (j k : Fin 512) :
    (((arg5.slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt F) (Rect.unit (s := S16x512x512) (k0_off14 w) S1x512x512.size (k0_off14_inb w hw)).toLoadRect (harg5.unread x3)) (ix3 0 j k)
      = x3 (ix4 1 ⟨w.toNat, hlt⟩ j k) := ld_wr_gen arg5 harg5 x3 _ _ 1 rfl _ _ ⟨w.toNat, hlt⟩ rfl j k
theorem ld_wr_off17_apply (w : Elt F .i32) (hw : k0_chk6 w) (hlt : w.toNat < 16) (j k : Fin 512) :
    (((arg5.slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt F) (Rect.unit (s := S16x512x512) (k0_off17 w) S1x512x512.size (k0_off17_inb w hw)).toLoadRect (harg5.unread x3)) (ix3 0 j k)
      = x3 (ix4 1 ⟨w.toNat, hlt⟩ j k) := ld_wr_gen arg5 harg5 x3 _ _ 1 rfl _ _ ⟨w.toNat, hlt⟩ rfl j k
theorem ld_wr_off20_apply (w : Elt F .i32) (hw : k0_chk7 w) (hlt : w.toNat < 16) (j k : Fin 512) :
    (((arg5.slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt F) (Rect.unit (s := S16x512x512) (k0_off20 w) S1x512x512.size (k0_off20_inb w hw)).toLoadRect (harg5.unread x3)) (ix3 0 j k)
      = x3 (ix4 1 ⟨w.toNat, hlt⟩ j k) := ld_wr_gen arg5 harg5 x3 _ _ 1 rfl _ _ ⟨w.toNat, hlt⟩ rfl j k
theorem ld_wr_off23_apply (w : Elt F .i32) (hw : k0_chk8 w) (hlt : w.toNat < 16) (j k : Fin 512) :
    (((arg5.slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt F) (Rect.unit (s := S16x512x512) (k0_off23 w) S1x512x512.size (k0_off23_inb w hw)).toLoadRect (harg5.unread x3)) (ix3 0 j k)
      = x3 (ix4 1 ⟨w.toNat, hlt⟩ j k) := ld_wr_gen arg5 harg5 x3 _ _ 1 rfl _ _ ⟨w.toNat, hlt⟩ rfl j k
theorem ld_br_off3_apply (w : Elt F .i32) (hw : k0_chk1 w) (hlt : w.toNat < 16) (j : Fin 512) :
    (((arg6.slice (Rect.unit (s := S2x16x512) ![0, 0, 0] S1x16x512.size inb_S2x16x512_S1x16x512_0_0_0) (fun _ => rfl)).squeeze S16x512 squeezes_S1x16x512_S16x512).view.readAt (Elt F) (Rect.unit (s := S16x512) (k0_off3 w) S1x512.size (k0_off3_inb w hw)).toLoadRect (harg6.unread x4)) (ix2 0 j)
      = x4 (ix3 0 ⟨w.toNat, hlt⟩ j) := ld_br_gen arg6 harg6 x4 _ _ 0 rfl _ _ ⟨w.toNat, hlt⟩ rfl j
theorem ld_br_off6_apply (w : Elt F .i32) (hw : k0_chk2 w) (hlt : w.toNat < 16) (j : Fin 512) :
    (((arg6.slice (Rect.unit (s := S2x16x512) ![0, 0, 0] S1x16x512.size inb_S2x16x512_S1x16x512_0_0_0) (fun _ => rfl)).squeeze S16x512 squeezes_S1x16x512_S16x512).view.readAt (Elt F) (Rect.unit (s := S16x512) (k0_off6 w) S1x512.size (k0_off6_inb w hw)).toLoadRect (harg6.unread x4)) (ix2 0 j)
      = x4 (ix3 0 ⟨w.toNat, hlt⟩ j) := ld_br_gen arg6 harg6 x4 _ _ 0 rfl _ _ ⟨w.toNat, hlt⟩ rfl j
theorem ld_br_off9_apply (w : Elt F .i32) (hw : k0_chk3 w) (hlt : w.toNat < 16) (j : Fin 512) :
    (((arg6.slice (Rect.unit (s := S2x16x512) ![0, 0, 0] S1x16x512.size inb_S2x16x512_S1x16x512_0_0_0) (fun _ => rfl)).squeeze S16x512 squeezes_S1x16x512_S16x512).view.readAt (Elt F) (Rect.unit (s := S16x512) (k0_off9 w) S1x512.size (k0_off9_inb w hw)).toLoadRect (harg6.unread x4)) (ix2 0 j)
      = x4 (ix3 0 ⟨w.toNat, hlt⟩ j) := ld_br_gen arg6 harg6 x4 _ _ 0 rfl _ _ ⟨w.toNat, hlt⟩ rfl j
theorem ld_br_off12_apply (w : Elt F .i32) (hw : k0_chk4 w) (hlt : w.toNat < 16) (j : Fin 512) :
    (((arg6.slice (Rect.unit (s := S2x16x512) ![0, 0, 0] S1x16x512.size inb_S2x16x512_S1x16x512_0_0_0) (fun _ => rfl)).squeeze S16x512 squeezes_S1x16x512_S16x512).view.readAt (Elt F) (Rect.unit (s := S16x512) (k0_off12 w) S1x512.size (k0_off12_inb w hw)).toLoadRect (harg6.unread x4)) (ix2 0 j)
      = x4 (ix3 0 ⟨w.toNat, hlt⟩ j) := ld_br_gen arg6 harg6 x4 _ _ 0 rfl _ _ ⟨w.toNat, hlt⟩ rfl j
theorem ld_br_off15_apply (w : Elt F .i32) (hw : k0_chk5 w) (hlt : w.toNat < 16) (j : Fin 512) :
    (((arg6.slice (Rect.unit (s := S2x16x512) ![1, 0, 0] S1x16x512.size inb_S2x16x512_S1x16x512_1_0_0) (fun _ => rfl)).squeeze S16x512 squeezes_S1x16x512_S16x512).view.readAt (Elt F) (Rect.unit (s := S16x512) (k0_off15 w) S1x512.size (k0_off15_inb w hw)).toLoadRect (harg6.unread x4)) (ix2 0 j)
      = x4 (ix3 1 ⟨w.toNat, hlt⟩ j) := ld_br_gen arg6 harg6 x4 _ _ 1 rfl _ _ ⟨w.toNat, hlt⟩ rfl j
theorem ld_br_off18_apply (w : Elt F .i32) (hw : k0_chk6 w) (hlt : w.toNat < 16) (j : Fin 512) :
    (((arg6.slice (Rect.unit (s := S2x16x512) ![1, 0, 0] S1x16x512.size inb_S2x16x512_S1x16x512_1_0_0) (fun _ => rfl)).squeeze S16x512 squeezes_S1x16x512_S16x512).view.readAt (Elt F) (Rect.unit (s := S16x512) (k0_off18 w) S1x512.size (k0_off18_inb w hw)).toLoadRect (harg6.unread x4)) (ix2 0 j)
      = x4 (ix3 1 ⟨w.toNat, hlt⟩ j) := ld_br_gen arg6 harg6 x4 _ _ 1 rfl _ _ ⟨w.toNat, hlt⟩ rfl j
theorem ld_br_off21_apply (w : Elt F .i32) (hw : k0_chk7 w) (hlt : w.toNat < 16) (j : Fin 512) :
    (((arg6.slice (Rect.unit (s := S2x16x512) ![1, 0, 0] S1x16x512.size inb_S2x16x512_S1x16x512_1_0_0) (fun _ => rfl)).squeeze S16x512 squeezes_S1x16x512_S16x512).view.readAt (Elt F) (Rect.unit (s := S16x512) (k0_off21 w) S1x512.size (k0_off21_inb w hw)).toLoadRect (harg6.unread x4)) (ix2 0 j)
      = x4 (ix3 1 ⟨w.toNat, hlt⟩ j) := ld_br_gen arg6 harg6 x4 _ _ 1 rfl _ _ ⟨w.toNat, hlt⟩ rfl j
theorem ld_br_off24_apply (w : Elt F .i32) (hw : k0_chk8 w) (hlt : w.toNat < 16) (j : Fin 512) :
    (((arg6.slice (Rect.unit (s := S2x16x512) ![1, 0, 0] S1x16x512.size inb_S2x16x512_S1x16x512_1_0_0) (fun _ => rfl)).squeeze S16x512 squeezes_S1x16x512_S16x512).view.readAt (Elt F) (Rect.unit (s := S16x512) (k0_off24 w) S1x512.size (k0_off24_inb w hw)).toLoadRect (harg6.unread x4)) (ix2 0 j)
      = x4 (ix3 1 ⟨w.toNat, hlt⟩ j) := ld_br_gen arg6 harg6 x4 _ _ 1 rfl _ _ ⟨w.toNat, hlt⟩ rfl j

end

end Cert.KernelIdeal.Fr

end
-- ==== Proof.Rows.lean ====
import Idealize.ShloMosaic.Lib.ValueIdx

namespace Cert.Spec

/-- Token `t` of batch element `b` is row `256 b + t` of the flattened array. -/
def row (b : Fin 64) (t : Fin 256) : Fin 16384 := ⟨b.val * 256 + t.val, by have := b.isLt; have := t.isLt; omega⟩

theorem row_val (b : Fin 64) (t : Fin 256) : (row b t).val = b.val * 256 + t.val := rfl

theorem row_div (b : Fin 64) (t : Fin 256) : (row b t).val / 256 = b.val := by
  have := t.isLt; rw [row_val]; omega

theorem row_mod (b : Fin 64) (t : Fin 256) : (row b t).val % 256 = t.val := by
  have := t.isLt; rw [row_val]; omega

end Cert.Spec
-- ==== Proof.KiBlocks.lean ====
import proofs.«406211_j29257317220859_3_alg».proof.Proof.KiFrame
import proofs.«406211_j29257317220859_3_alg».proof.Proof.Rows
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bOf (t : Fin 16) (i : Fin 4) : Fin 64 := ⟨4 * t.val + i.val, by have := t.isLt; have := i.isLt; omega⟩

theorem N_eq : (cfgM m).N = 16 := N_0

def pt (t : Fin (cfgM m).N) : Fin 16 := ⟨t.val, lt_of_lt_of_eq t.isLt (N_eq m)⟩

theorem index0_eq (a : (pcfg0 (F := F)).Adm) (t : Fin (cfg0 a).N) :
    ((cfg0 a).win 0).index t = cc0_transform_0 (grid0.coords t) := rfl
theorem index9_eq (a : (pcfg0 (F := F)).Adm) (t : Fin (cfg0 a).N) :
    ((cfg0 a).win 9).index t = cc0_transform_9 (grid0.coords t) := rfl

theorem tr0_step : ∀ t : Fin grid0.N, cc0_transform_0 (grid0.coords t) (0 : Fin 3) = t.val
    ∧ cc0_transform_0 (grid0.coords t) (1 : Fin 3) = 0 ∧ cc0_transform_0 (grid0.coords t) (2 : Fin 3) = 0 :=
  by decide +kernel
theorem tr9_step : ∀ t : Fin grid0.N, cc0_transform_9 (grid0.coords t) (0 : Fin 3) = t.val
    ∧ cc0_transform_9 (grid0.coords t) (1 : Fin 3) = 0 ∧ cc0_transform_9 (grid0.coords t) (2 : Fin 3) = 0 :=
  by decide +kernel

theorem blk0_read (a : (pcfg0 (F := F)).Adm) (A : (⟨S64x256x256, .bf16⟩ : BufTy).Contents (Elt F)) (t : Fin (cfg0 a).N)
    (i : Fin 4) (tt k : Fin 256) (b : Fin 64) (hb : b.val = 4 * t.val + i.val) :
    ((((cfg0 a).win 0).blk t).view.read (Elt F) A : S4x256x256.Idx → Elt F .bf16) (ValueIdx.ix3 i tt k) = A (ValueIdx.ix3 b tt k) := by
  obtain ⟨h0, h1, h2⟩ := tr0_step t
  show A ((((cfg0 a).win 0).blk t).view.emb (ValueIdx.ix3 i tt k)) = A (ValueIdx.ix3 b tt k)
  congr 1
  funext d; apply Fin.ext
  match d with
  | ⟨0, _⟩ => show ((cfg0 a).win 0).index t (0 : Fin 3) * 4 + 1 * i.val = b.val; rw [index0_eq, h0, hb]; omega
  | ⟨1, _⟩ => show ((cfg0 a).win 0).index t (1 : Fin 3) * 256 + 1 * tt.val = tt.val; rw [index0_eq, h1]; omega
  | ⟨2, _⟩ => show ((cfg0 a).win 0).index t (2 : Fin 3) * 256 + 1 * k.val = k.val; rw [index0_eq, h2]; omega

theorem iblk0_apply (c : Dev nD) (t : Fin (cfgM m).N) (i : Fin 4) (tt k : Fin 256) :
    (iblk m c 0 t : S4x256x256.Idx → Elt F .bf16) (ValueIdx.ix3 i tt k) = (V m c main_v1 : S64x256x256.Idx → Elt F .bf16) (ValueIdx.ix3 (bOf (pt m t) i) tt k) :=
  blk0_read (adm m) (V m c main_v1) t i tt k (bOf (pt m t) i) rfl

section Whole

set_option hygiene false in
open Lean in

local macro "whole_window " w:num S:ident e:term:max ref:ident : command => do
  let n := w.getNat
  let idx : Ident := mkIdent (Name.mkSimple s!"index{n}_eq")
  let tr : Ident := mkIdent (Name.mkSimple s!"tr{n}_zero")
  let cc : Ident := mkIdent (Name.mkSimple s!"cc0_transform_{n}")
  let blk : Ident := mkIdent (Name.mkSimple s!"blk{n}_read")
  let ib : Ident := mkIdent (Name.mkSimple s!"iblk{n}_eq")
  `(theorem $idx (a : (pcfg0 (F := F)).Adm) (t : Fin (cfg0 a).N) :
        ((cfg0 a).win $w).index t = $cc (grid0.coords t) := rfl
    theorem $tr : ∀ t : Fin grid0.N, $cc (grid0.coords t) = fun _ => 0 := by decide +kernel
    theorem $blk (a : (pcfg0 (F := F)).Adm) (A : (⟨$S, $e⟩ : BufTy).Contents (Elt F)) (t : Fin (cfg0 a).N) :
        ((((cfg0 a).win $w).blk t).view.read (Elt F) A : ($S).Idx → Elt F $e) = A := by
      have hz := $tr t
      refine funext fun (y : ($S).Idx) => ?_
      show A ((((cfg0 a).win $w).blk t).view.emb y) = A y
      congr 1
      funext d; apply Fin.ext
      show ((cfg0 a).win $w).index t d * _ + 1 * (y d).val = (y d).val
      rw [$idx:ident, hz, Nat.zero_mul, Nat.zero_add, Nat.one_mul]
    theorem $ib (c : Dev nD) (t : Fin (cfgM m).N) : (iblk m c $w t : ($S).Idx → Elt F $e) = V m c $ref :=
      $blk (adm m) (V m c $ref) t)

whole_window 1 S512x256 (.bf16) main_v2
whole_window 2 S1x512 (.f32) main_v6
whole_window 3 S2x16x512x512 (.bf16) main_v3
whole_window 4 S2x16x512 (.f32) main_arg5
whole_window 5 S2x1x512x512 (.bf16) main_v4
whole_window 6 S2x1x512 (.f32) main_arg7
whole_window 7 S256x512 (.bf16) main_v5
whole_window 8 S1x256 (.f32) main_v7

end Whole

theorem flush9 (a : (pcfg0 (F := F)).Adm) (t : Fin (cfg0 a).N) : ((cfg0 a).win 9).flush t = true := by
  have hN : (cfg0 a).grid.N = 16 := N_0
  have ht : t.val < 16 := lt_of_lt_of_eq t.isLt N_0
  unfold Window.flush
  rw [show ((cfg0 a).win 9).isOut = true from rfl, Bool.true_and, Bool.or_eq_true, decide_eq_true_eq, decide_eq_true_eq]
  by_cases h : t.val + 1 = 16
  · exact Or.inl (h.trans hN.symm)
  · have h' : t.val + 1 < (cfg0 a).grid.N := by rw [hN]; omega
    refine Or.inr ⟨h', fun e => ?_⟩
    have e0 := congrFun e (0 : Fin 3)
    rw [index9_eq, index9_eq, (tr9_step _).1, (tr9_step _).1] at e0
    exact absurd e0 (Nat.succ_ne_self _)

theorem mem_blk9 (a : (pcfg0 (F := F)).Adm) (t : Fin (cfg0 a).N) (i : S64x256x256.Idx) :
    i ∈ (((cfg0 a).win 9).blk t).view.set ↔ ∀ d : Fin 3, ((cfg0 a).win 9).index t d * S4x256x256.size d ≤ (i d).val
      ∧ (i d).val < ((cfg0 a).win 9).index t d * S4x256x256.size d + S4x256x256.size d := by
  have e : (((cfg0 a).win 9).blk t).view.set = (((cfg0 a).win 9).rect t).set := View.set_slice_whole main_v8 _
  have h1 : i ∈ (((cfg0 a).win 9).blk t).view.set ↔ i ∈ (((cfg0 a).win 9).rect t).set := by rw [e]; exact Iff.rfl
  exact h1.trans (Rect.mem_set_unit (i := i))

theorem blk9_read (a : (pcfg0 (F := F)).Adm) (G : (⟨S64x256x256, .f32⟩ : BufTy).Contents (Elt F)) (t : Fin (cfg0 a).N)
    (i : Fin 4) (tt o : Fin 256) (b : Fin 64) (hb : b.val = 4 * t.val + i.val) :
    ((((cfg0 a).win 9).blk t).view.read (Elt F) G : S4x256x256.Idx → Elt F .f32) (ValueIdx.ix3 i tt o) = G (ValueIdx.ix3 b tt o) := by
  obtain ⟨h0, h1, h2⟩ := tr9_step t
  show G ((((cfg0 a).win 9).blk t).view.emb (ValueIdx.ix3 i tt o)) = G (ValueIdx.ix3 b tt o)
  congr 1
  funext d; apply Fin.ext
  match d with
  | ⟨0, _⟩ => show ((cfg0 a).win 9).index t (0 : Fin 3) * 4 + 1 * i.val = b.val; rw [index9_eq, h0, hb]; omega
  | ⟨1, _⟩ => show ((cfg0 a).win 9).index t (1 : Fin 3) * 256 + 1 * tt.val = tt.val; rw [index9_eq, h1]; omega
  | ⟨2, _⟩ => show ((cfg0 a).win 9).index t (2 : Fin 3) * 256 + 1 * o.val = o.val; rw [index9_eq, h2]; omega

theorem covered9 (a : (pcfg0 (F := F)).Adm) (i : S64x256x256.Idx) :
    ∃ t : Fin (cfg0 a).N, ((cfg0 a).win 9).flush t = true ∧ i ∈ (((cfg0 a).win 9).blk t).view.set := by
  have hi0 : (i 0).val < 64 := (i 0).isLt
  have hi1 : (i 1).val < 256 := (i 1).isLt
  have hi2 : (i 2).val < 256 := (i 2).isLt
  let t : Fin (cfg0 a).N := ⟨(i 0).val / 4, lt_of_lt_of_eq (by omega : (i 0).val / 4 < 16) N_0.symm⟩
  obtain ⟨h0, h1, h2⟩ := tr9_step t
  have ht : t.val = (i 0).val / 4 := rfl
  refine ⟨t, flush9 a t, ?_⟩
  rw [mem_blk9]
  intro d
  match d with
  | ⟨0, _⟩ => show ((cfg0 a).win 9).index t (0 : Fin 3) * 4 ≤ (i 0).val ∧ (i 0).val < ((cfg0 a).win 9).index t (0 : Fin 3) * 4 + 4; rw [index9_eq, h0, ht]; omega
  | ⟨1, _⟩ => show ((cfg0 a).win 9).index t (1 : Fin 3) * 256 ≤ (i 1).val ∧ (i 1).val < ((cfg0 a).win 9).index t (1 : Fin 3) * 256 + 256; rw [index9_eq, h1]; omega
  | ⟨2, _⟩ => show ((cfg0 a).win 9).index t (2 : Fin 3) * 256 ≤ (i 2).val ∧ (i 2).val < ((cfg0 a).win 9).index t (2 : Fin 3) * 256 + 256; rw [index9_eq, h2]; omega

theorem flushed9_eq (hH : Hyps m) (c : Dev nD) (Gk : S64x256x256.Idx → Elt F .f32)
    (hfl : ∀ (t : Fin (cfgM m).N) (i : Fin 4) (tt o : Fin 256),
      outsAt0 m hH c t (ValueIdx.ix3 i tt o) = Gk (ValueIdx.ix3 (bOf (pt m t) i) tt o)) (t : Fin (cfgM m).N) :
    (dats m hH 0 c).flushed 9 t = (((cfgM m).win 9).blk t).view.read (Elt F) Gk := by
  show ((cfgM m).win 9).cut ((cfgM m).grid.coords t) ((dats m hH 0 c).after 9 t) = _
  rw [after0_9]
  refine funext fun (y : S4x256x256.Idx) => ?_
  obtain ⟨i, tt, o, rfl⟩ : ∃ (i : Fin 4) (tt o : Fin 256), y = ValueIdx.ix3 i tt o := ⟨y 0, y 1, y 2, ValueIdx.eq_ix3 y⟩
  show outsAt0 m hH c t (ValueIdx.ix3 i tt o) = _
  rw [hfl]
  exact (blk9_read (adm m) Gk t i tt o (bOf (pt m t) i) rfl).symm

theorem final_of_flushed (hH : Hyps m) (c : Dev nD) (Gk : S64x256x256.Idx → Elt F .f32)
    (hfl : ∀ (t : Fin (cfgM m).N) (i : Fin 4) (tt o : Fin 256),
      outsAt0 m hH c t (ValueIdx.ix3 i tt o) = Gk (ValueIdx.ix3 (bOf (pt m t) i) tt o)) :
    ((dats m hH 0 c).arrAt 9 (cfgM m).N : S64x256x256.Idx → Elt F .f32) = Gk :=
  (dats m hH 0 c).arrAt_eq_of_cover 9 Gk (fun t _ => flushed9_eq m hH c Gk hfl t) (covered9 (adm m))

end Cert.KernelIdeal.Fr

end
-- ==== Proof.KiHost.lean ====
import proofs.«406211_j29257317220859_3_alg».proof.Proof.KiKit
import Idealize.ShloMosaic.PureOps.Ideal
import Idealize.ShloMosaic.Lib.ValueLayout
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx

theorem V_v1_ideal (c : Dev nD) : (V m c main_v1 : S64x256x256.Idx → EReal) = m ((c : Thread nD τ).loc main_arg0) := by
  unfold V
  simp only [hostOps0, hostOps0_1, hostOps0_2, List.flatten_cons, List.flatten_nil, List.append_nil, List.cons_append, List.nil_append]
  after_results
  rfl
theorem V_v2_ideal (c : Dev nD) : (V m c main_v2 : S512x256.Idx → EReal) = m ((c : Thread nD τ).loc main_arg2) := by
  unfold V
  simp only [hostOps0, hostOps0_1, hostOps0_2, List.flatten_cons, List.flatten_nil, List.append_nil, List.cons_append, List.nil_append]
  after_results
  rfl
theorem V_v3_ideal (c : Dev nD) : (V m c main_v3 : S2x16x512x512.Idx → EReal) = m ((c : Thread nD τ).loc main_arg4) := by
  unfold V
  simp only [hostOps0, hostOps0_1, hostOps0_2, List.flatten_cons, List.flatten_nil, List.append_nil, List.cons_append, List.nil_append]
  after_results
  rfl
theorem V_v4_ideal (c : Dev nD) : (V m c main_v4 : S2x1x512x512.Idx → EReal) = m ((c : Thread nD τ).loc main_arg6) := by
  unfold V
  simp only [hostOps0, hostOps0_1, hostOps0_2, List.flatten_cons, List.flatten_nil, List.append_nil, List.cons_append, List.nil_append]
  after_results
  rfl
theorem V_v5_ideal (c : Dev nD) : (V m c main_v5 : S256x512.Idx → EReal) = m ((c : Thread nD τ).loc main_arg8) := by
  unfold V
  simp only [hostOps0, hostOps0_1, hostOps0_2, List.flatten_cons, List.flatten_nil, List.append_nil, List.cons_append, List.nil_append]
  after_results
  rfl
theorem V_v6_ideal (c : Dev nD) (j : Fin 512) : (V m c main_v6 : S1x512.Idx → EReal) (ix2 0 j) = (m ((c : Thread nD τ).loc main_arg3) : S512.Idx → EReal) (ix1 j) := by
  unfold V
  simp only [hostOps0, hostOps0_1, hostOps0_2, List.flatten_cons, List.flatten_nil, List.append_nil, List.cons_append, List.nil_append]
  after_results
  show shapeCast _ (m (c, Proc.tc.devRef main_arg3)) shapeCasts_S512_S1x512 (ix2 0 j) = _
  exact shapeCast_apply _ shapeCasts_S512_S1x512 (ix2 0 j) (ix1 j)
    (by rewrite [Shape.rowMajor_val_one, Shape.rowMajor_val_two]; show j.val = 0 * 512 + j.val; omega)
theorem V_v7_ideal (c : Dev nD) (o : Fin 256) : (V m c main_v7 : S1x256.Idx → EReal) (ix2 0 o) = (m ((c : Thread nD τ).loc main_arg9) : S256.Idx → EReal) (ix1 o) := by
  unfold V
  simp only [hostOps0, hostOps0_1, hostOps0_2, List.flatten_cons, List.flatten_nil, List.append_nil, List.cons_append, List.nil_append]
  after_results
  show shapeCast _ (m (c, Proc.tc.devRef main_arg9)) shapeCasts_S256_S1x256 (ix2 0 o) = _
  exact shapeCast_apply _ shapeCasts_S256_S1x256 (ix2 0 o) (ix1 o)
    (by rewrite [Shape.rowMajor_val_one, Shape.rowMajor_val_two]; show o.val = 0 * 256 + o.val; omega)

end Cert.KernelIdeal.Fr

end
-- ==== Proof.KiWords.lean ====
import proofs.«406211_j29257317220859_3_alg».proof.Proof.KiHyps
import proofs.«406211_j29257317220859_3_alg».proof.Proof.KiBlocks

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem off1_val : ∀ t : Fin grid0.N, k0_off1 (grid0.coords t) 0 = 4 * t.val + 0 := by decide +kernel
theorem off4_val : ∀ t : Fin grid0.N, k0_off4 (grid0.coords t) 0 = 4 * t.val + 1 := by decide +kernel
theorem off7_val : ∀ t : Fin grid0.N, k0_off7 (grid0.coords t) 0 = 4 * t.val + 2 := by decide +kernel
theorem off10_val : ∀ t : Fin grid0.N, k0_off10 (grid0.coords t) 0 = 4 * t.val + 3 := by decide +kernel
theorem off13_val : ∀ t : Fin grid0.N, k0_off13 (grid0.coords t) 0 = 4 * t.val + 0 := by decide +kernel
theorem off16_val : ∀ t : Fin grid0.N, k0_off16 (grid0.coords t) 0 = 4 * t.val + 1 := by decide +kernel
theorem off19_val : ∀ t : Fin grid0.N, k0_off19 (grid0.coords t) 0 = 4 * t.val + 2 := by decide +kernel
theorem off22_val : ∀ t : Fin grid0.N, k0_off22 (grid0.coords t) 0 = 4 * t.val + 3 := by decide +kernel

theorem word_at (off : Fin 1 → Nat) (inb : ∀ a, off a + S1.size a ≤ S64.size a) (f : S64.Idx → BitVec 32) (x : S1.Idx)
    (b : Fin 64) (hb : off 0 = b.val) :
    tbM0_0.view.readAt (Elt F) (Rect.unit (s := S64) off S1.size inb).toLoadRect f x = f (ix1 b) := by
  refine (word_eq (F := F) off inb f x).trans (congrArg f (funext fun a => ?_))
  match a with
  | ⟨0, _⟩ => exact Fin.ext (by
      have hx : (x 0).val < 1 := (x 0).isLt
      show off 0 + 1 * (x 0).val = b.val
      omega)

theorem word1_eq (t : Fin (cfgM m).N) :
    (tbM0_0.view.readAt (Elt F) (Rect.unit (s := S64) (k0_off1 (grid0.coords t)) S1.size (k0_off1_inb (grid0.coords t))).toLoadRect (tbl m 0) (Shape.Idx.first (numel1_S1.symm ▸ Nat.one_pos)))
      = tbl m 0 (ix1 (bOf (pt m t) 0)) := by
  exact word_at (F := F) _ _ (tbl m 0) _ (bOf (pt m t) 0) (off1_val t)
theorem word2_eq (t : Fin (cfgM m).N) :
    (tbM0_0.view.readAt (Elt F) (Rect.unit (s := S64) (k0_off4 (grid0.coords t)) S1.size (k0_off4_inb (grid0.coords t))).toLoadRect (tbl m 0) (Shape.Idx.first (numel1_S1.symm ▸ Nat.one_pos)))
      = tbl m 0 (ix1 (bOf (pt m t) 1)) := by
  exact word_at (F := F) _ _ (tbl m 0) _ (bOf (pt m t) 1) (off4_val t)
theorem word3_eq (t : Fin (cfgM m).N) :
    (tbM0_0.view.readAt (Elt F) (Rect.unit (s := S64) (k0_off7 (grid0.coords t)) S1.size (k0_off7_inb (grid0.coords t))).toLoadRect (tbl m 0) (Shape.Idx.first (numel1_S1.symm ▸ Nat.one_pos)))
      = tbl m 0 (ix1 (bOf (pt m t) 2)) := by
  exact word_at (F := F) _ _ (tbl m 0) _ (bOf (pt m t) 2) (off7_val t)
theorem word4_eq (t : Fin (cfgM m).N) :
    (tbM0_0.view.readAt (Elt F) (Rect.unit (s := S64) (k0_off10 (grid0.coords t)) S1.size (k0_off10_inb (grid0.coords t))).toLoadRect (tbl m 0) (Shape.Idx.first (numel1_S1.symm ▸ Nat.one_pos)))
      = tbl m 0 (ix1 (bOf (pt m t) 3)) := by
  exact word_at (F := F) _ _ (tbl m 0) _ (bOf (pt m t) 3) (off10_val t)
theorem word5_eq (t : Fin (cfgM m).N) :
    (tbM0_0.view.readAt (Elt F) (Rect.unit (s := S64) (k0_off13 (grid0.coords t)) S1.size (k0_off13_inb (grid0.coords t))).toLoadRect (tbl m 0) (Shape.Idx.first (numel1_S1.symm ▸ Nat.one_pos)))
      = tbl m 0 (ix1 (bOf (pt m t) 0)) := by
  exact word_at (F := F) _ _ (tbl m 0) _ (bOf (pt m t) 0) (off13_val t)
theorem word6_eq (t : Fin (cfgM m).N) :
    (tbM0_0.view.readAt (Elt F) (Rect.unit (s := S64) (k0_off16 (grid0.coords t)) S1.size (k0_off16_inb (grid0.coords t))).toLoadRect (tbl m 0) (Shape.Idx.first (numel1_S1.symm ▸ Nat.one_pos)))
      = tbl m 0 (ix1 (bOf (pt m t) 1)) := by
  exact word_at (F := F) _ _ (tbl m 0) _ (bOf (pt m t) 1) (off16_val t)
theorem word7_eq (t : Fin (cfgM m).N) :
    (tbM0_0.view.readAt (Elt F) (Rect.unit (s := S64) (k0_off19 (grid0.coords t)) S1.size (k0_off19_inb (grid0.coords t))).toLoadRect (tbl m 0) (Shape.Idx.first (numel1_S1.symm ▸ Nat.one_pos)))
      = tbl m 0 (ix1 (bOf (pt m t) 2)) := by
  exact word_at (F := F) _ _ (tbl m 0) _ (bOf (pt m t) 2) (off19_val t)
theorem word8_eq (t : Fin (cfgM m).N) :
    (tbM0_0.view.readAt (Elt F) (Rect.unit (s := S64) (k0_off22 (grid0.coords t)) S1.size (k0_off22_inb (grid0.coords t))).toLoadRect (tbl m 0) (Shape.Idx.first (numel1_S1.symm ▸ Nat.one_pos)))
      = tbl m 0 (ix1 (bOf (pt m t) 3)) := by
  exact word_at (F := F) _ _ (tbl m 0) _ (bOf (pt m t) 3) (off22_val t)

end Cert.KernelIdeal.Fr

end
-- ==== Proof.KiValue.lean ====
import proofs.«406211_j29257317220859_3_alg».proof.Proof.KiStored
import proofs.«406211_j29257317220859_3_alg».proof.Proof.KiRowEq
import proofs.«406211_j29257317220859_3_alg».proof.Proof.KiLoads
import proofs.«406211_j29257317220859_3_alg».proof.Proof.KiBlocks
import proofs.«406211_j29257317220859_3_alg».proof.Proof.KiHost
import proofs.«406211_j29257317220859_3_alg».proof.Proof.KiWords

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.KernelIdeal.Pay

def Gk (c : Dev nD) : S64x256x256.Idx → EReal :=
  Cert.Spec.G (m ((c : Thread nD τ).loc main_arg0)) (tbl m 0) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem Gk_apply (c : Dev nD) (b : Fin 64) (tt o : Fin 256) :
    Gk m c (ix3 b tt o) = Cert.Spec.outProj (m ((c : Thread nD τ).loc main_arg8)) (m ((c : Thread nD τ).loc main_arg9))
      (Cert.Spec.layer (m ((c : Thread nD τ).loc main_arg4)) (m ((c : Thread nD τ).loc main_arg5)) (m ((c : Thread nD τ).loc main_arg6)) (m ((c : Thread nD τ).loc main_arg7)) 1 (Cert.Spec.expertOf (tbl m 0 (ix1 b)))
        (Cert.Spec.layer (m ((c : Thread nD τ).loc main_arg4)) (m ((c : Thread nD τ).loc main_arg5)) (m ((c : Thread nD τ).loc main_arg6)) (m ((c : Thread nD τ).loc main_arg7)) 0 (Cert.Spec.expertOf (tbl m 0 (ix1 b)))
          (Cert.Spec.inProj (m ((c : Thread nD τ).loc main_arg0)) (m ((c : Thread nD τ).loc main_arg2)) (m ((c : Thread nD τ).loc main_arg3)) b tt))) o := rfl

theorem win0_ideal (c : Dev nD) (t : Fin (cfgM m).N) (i : Fin 4) (tt k : Fin 256) :
    (iblk m c 0 t : S4x256x256.Idx → EReal) (ix3 i tt k) = (m ((c : Thread nD τ).loc main_arg0)) (ix3 (bOf (pt m t) i) tt k) :=
  (iblk0_apply m c t i tt k).trans (congrFun (V_v1_ideal m c) _)
theorem win1_ideal (c : Dev nD) (t : Fin (cfgM m).N) : (iblk m c 1 t : S512x256.Idx → EReal) = (m ((c : Thread nD τ).loc main_arg2)) :=
  (iblk1_eq m c t).trans (V_v2_ideal m c)
theorem win2_ideal (c : Dev nD) (t : Fin (cfgM m).N) (j : Fin 512) : (iblk m c 2 t : S1x512.Idx → EReal) (ix2 0 j) = (m ((c : Thread nD τ).loc main_arg3)) (ix1 j) :=
  (congrFun (iblk2_eq m c t) _).trans (V_v6_ideal m c j)
theorem win3_ideal (c : Dev nD) (t : Fin (cfgM m).N) : (iblk m c 3 t : S2x16x512x512.Idx → EReal) = (m ((c : Thread nD τ).loc main_arg4)) :=
  (iblk3_eq m c t).trans (V_v3_ideal m c)
theorem win4_ideal (c : Dev nD) (t : Fin (cfgM m).N) : (iblk m c 4 t : S2x16x512.Idx → EReal) = (m ((c : Thread nD τ).loc main_arg5)) :=
  (iblk4_eq m c t).trans (V_main_arg5 m c)
theorem win5_ideal (c : Dev nD) (t : Fin (cfgM m).N) : (iblk m c 5 t : S2x1x512x512.Idx → EReal) = (m ((c : Thread nD τ).loc main_arg6)) :=
  (iblk5_eq m c t).trans (V_v4_ideal m c)
theorem win6_ideal (c : Dev nD) (t : Fin (cfgM m).N) : (iblk m c 6 t : S2x1x512.Idx → EReal) = (m ((c : Thread nD τ).loc main_arg7)) :=
  (iblk6_eq m c t).trans (V_main_arg7 m c)
theorem win7_ideal (c : Dev nD) (t : Fin (cfgM m).N) : (iblk m c 7 t : S256x512.Idx → EReal) = (m ((c : Thread nD τ).loc main_arg8)) :=
  (iblk7_eq m c t).trans (V_v5_ideal m c)
theorem win8_ideal (c : Dev nD) (t : Fin (cfgM m).N) (o : Fin 256) : (iblk m c 8 t : S1x256.Idx → EReal) (ix2 0 o) = (m ((c : Thread nD τ).loc main_arg9)) (ix1 o) :=
  (congrFun (iblk8_eq m c t) _).trans (V_v7_ideal m c o)

theorem wr_0_0 (c : Dev nD) (t : Fin (cfgM m).N) (j k : Fin 512) :
    ((((ms0_3 m t).slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt Ideal) (Rect.unit (s := S16x512x512) (k0_off2 (tbM0_0.view.readAt (Elt Ideal) (Rect.unit (s := S64) (k0_off1 (grid0.coords t)) S1.size (k0_off1_inb (grid0.coords t))).toLoadRect (tbl m 0) (Shape.Idx.first (numel1_S1.symm ▸ Nat.one_pos)))) S1x512x512.size (k0_off2_inb (tbM0_0.view.readAt (Elt Ideal) (Rect.unit (s := S64) (k0_off1 (grid0.coords t)) S1.size (k0_off1_inb (grid0.coords t))).toLoadRect (tbl m 0) (Shape.Idx.first (numel1_S1.symm ▸ Nat.one_pos))) (Hyps.c1 (hyps m) c t))).toLoadRect ((hs0_3 m t).unread (iblk m c 3 t))) (ix3 0 j k)
      = (m ((c : Thread nD τ).loc main_arg4)) (ix4 0 (Cert.Spec.expertOf (tbl m 0 (ix1 (bOf (pt m t) 0)))) j k) := by
  have hw := word1_eq m t
  have hlt := word_lt m (k0_off1 (grid0.coords t)) (k0_off1_inb (grid0.coords t)) (Shape.Idx.first (numel1_S1.symm ▸ Nat.one_pos))
  refine (ld_wr_off2_apply _ _ _ _ (Hyps.c1 (hyps m) c t) hlt j k).trans ?_
  refine (congrFun (win3_ideal m c t) _).trans (congrArg _ ?_)
  refine congrArg (fun e => ix4 (0 : Fin 2) e j k) (Fin.ext ?_)
  rw [← hw]; exact (Cert.Spec.expertOf_val_of_lt _ hlt).symm
theorem wr_0_1 (c : Dev nD) (t : Fin (cfgM m).N) (j k : Fin 512) :
    ((((ms0_3 m t).slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt Ideal) (Rect.unit (s := S16x512x512) (k0_off5 (tbM0_0.view.readAt (Elt Ideal) (Rect.unit (s := S64) (k0_off4 (grid0.coords t)) S1.size (k0_off4_inb (grid0.coords t))).toLoadRect (tbl m 0) (Shape.Idx.first (numel1_S1.symm ▸ Nat.one_pos)))) S1x512x512.size (k0_off5_inb (tbM0_0.view.readAt (Elt Ideal) (Rect.unit (s := S64) (k0_off4 (grid0.coords t)) S1.size (k0_off4_inb (grid0.coords t))).toLoadRect (tbl m 0) (Shape.Idx.first (numel1_S1.symm ▸ Nat.one_pos))) (Hyps.c2 (hyps m) c t))).toLoadRect ((hs0_3 m t).unread (iblk m c 3 t))) (ix3 0 j k)
      = (m ((c : Thread nD τ).loc main_arg4)) (ix4 0 (Cert.Spec.expertOf (tbl m 0 (ix1 (bOf (pt m t) 1)))) j k) := by
  have hw := word2_eq m t
  have hlt := word_lt m (k0_off4 (grid0.coords t)) (k0_off4_inb (grid0.coords t)) (Shape.Idx.first (numel1_S1.symm ▸ Nat.one_pos))
  refine (ld_wr_off5_apply _ _ _ _ (Hyps.c2 (hyps m) c t) hlt j k).trans ?_
  refine (congrFun (win3_ideal m c t) _).trans (congrArg _ ?_)
  refine congrArg (fun e => ix4 (0 : Fin 2) e j k) (Fin.ext ?_)
  rw [← hw]; exact (Cert.Spec.expertOf_val_of_lt _ hlt).symm
theorem wr_0_2 (c : Dev nD) (t : Fin (cfgM m).N) (j k : Fin 512) :
    ((((ms0_3 m t).slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt Ideal) (Rect.unit (s := S16x512x512) (k0_off8 (tbM0_0.view.readAt (Elt Ideal) (Rect.unit (s := S64) (k0_off7 (grid0.coords t)) S1.size (k0_off7_inb (grid0.coords t))).toLoadRect (tbl m 0) (Shape.Idx.first (numel1_S1.symm ▸ Nat.one_pos)))) S1x512x512.size (k0_off8_inb (tbM0_0.view.readAt (Elt Ideal) (Rect.unit (s := S64) (k0_off7 (grid0.coords t)) S1.size (k0_off7_inb (grid0.coords t))).toLoadRect (tbl m 0) (Shape.Idx.first (numel1_S1.symm ▸ Nat.one_pos))) (Hyps.c3 (hyps m) c t))).toLoadRect ((hs0_3 m t).unread (iblk m c 3 t))) (ix3 0 j k)
      = (m ((c : Thread nD τ).loc main_arg4)) (ix4 0 (Cert.Spec.expertOf (tbl m 0 (ix1 (bOf (pt m t) 2)))) j k) := by
  have hw := word3_eq m t
  have hlt := word_lt m (k0_off7 (grid0.coords t)) (k0_off7_inb (grid0.coords t)) (Shape.Idx.first (numel1_S1.symm ▸ Nat.one_pos))
  refine (ld_wr_off8_apply _ _ _ _ (Hyps.c3 (hyps m) c t) hlt j k).trans ?_
  refine (congrFun (win3_ideal m c t) _).trans (congrArg _ ?_)
  refine congrArg (fun e => ix4 (0 : Fin 2) e j k) (Fin.ext ?_)
  rw [← hw]; exact (Cert.Spec.expertOf_val_of_lt _ hlt).symm
theorem wr_0_3 (c : Dev nD) (t : Fin (cfgM m).N) (j k : Fin 512) :
    ((((ms0_3 m t).slice (Rect.unit (s := S2x16x512x512) ![0, 0, 0, 0] S1x16x512x512.size inb_S2x16x512x512_S1x16x512x512_0_0_0_0) (fun _ => rfl)).squeeze S16x512x512 squeezes_S1x16x512x512_S16x512x512).view.readAt (Elt Ideal) (Rect.unit (s := S16x512x512) (k0_off11 (tbM0_0.view.readAt (Elt Ideal) (Rect.unit (s := S64) (k0_off10 (grid0.coords t)) S1.size (k0_off10_inb (grid0.coords t))).toLoadRect (tbl m 0) (Shape.Idx.first (numel1_S1.symm ▸ Nat.one_pos)))) S1x512x512.size (k0_off11_inb (tbM0_0.view.readAt (Elt Ideal) (Rect.unit (s := S64) (k0_off10 (grid0.coords t)) S1.size (k0_off10_inb (grid0.coords t))).toLoadRect (tbl m 0) (Shape.Idx.first (numel1_S1.symm ▸ Nat.one_pos))) (Hyps.c4 (hyps m) c t))).toLoadRect ((hs0_3 m t).unread (iblk m c 3 t))) (ix3 0 j k)
      = (m ((c : Thread nD τ).loc main_arg4)) (ix4 0 (Cert.Spec.expertOf (tbl m 0 (ix1 (bOf (pt m t) 3)))) j k) := by
  have hw := word4_eq m t
  have hlt := word_lt m (k0_off10 (grid0.coords t)) (k0_off10_inb (grid0.coords t)) (Shape.Idx.first (numel1_S1.symm ▸ Nat.one_pos))
  refine (ld_wr_off11_apply _ _ _ _ (Hyps.c4 (hyps m) c t) hlt j k).trans ?_
  refine (congrFun (win3_ideal m c t) _).trans (congrArg _ ?_)
  refine congrArg (fun e => ix4 (0 : Fin 2) e j k) (Fin.ext ?_)
  rw [← hw]; exact (Cert.Spec.expertOf_val_of_lt _ hlt).symm
theorem wr_1_0 (c : Dev nD) (t : Fin (cfgM m).N) (j k : Fin 512) :
    ((((ms0_3 m t).slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt Ideal) (Rect.unit (s := S16x512x512) (k0_off14 (tbM0_0.view.readAt (Elt Ideal) (Rect.unit (s := S64) (k0_off13 (grid0.coords t)) S1.size (k0_off13_inb (grid0.coords t))).toLoadRect (tbl m 0) (Shape.Idx.first (numel1_S1.symm ▸ Nat.one_pos)))) S1x512x512.size (k0_off14_inb (tbM0_0.view.readAt (Elt Ideal) (Rect.unit (s := S64) (k0_off13 (grid0.coords t)) S1.size (k0_off13_inb (grid0.coords t))).toLoadRect (tbl m 0) (Shape.Idx.first (numel1_S1.symm ▸ Nat.one_pos))) (Hyps.c5 (hyps m) c t))).toLoadRect ((hs0_3 m t).unread (iblk m c 3 t))) (ix3 0 j k)
      = (m ((c : Thread nD τ).loc main_arg4)) (ix4 1 (Cert.Spec.expertOf (tbl m 0 (ix1 (bOf (pt m t) 0)))) j k) := by
  have hw := word5_eq m t
  have hlt := word_lt m (k0_off13 (grid0.coords t)) (k0_off13_inb (grid0.coords t)) (Shape.Idx.first (numel1_S1.symm ▸ Nat.one_pos))
  refine (ld_wr_off14_apply _ _ _ _ (Hyps.c5 (hyps m) c t) hlt j k).trans ?_
  refine (congrFun (win3_ideal m c t) _).trans (congrArg _ ?_)
  refine congrArg (fun e => ix4 (1 : Fin 2) e j k) (Fin.ext ?_)
  rw [← hw]; exact (Cert.Spec.expertOf_val_of_lt _ hlt).symm
theorem wr_1_1 (c : Dev nD) (t : Fin (cfgM m).N) (j k : Fin 512) :
    ((((ms0_3 m t).slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt Ideal) (Rect.unit (s := S16x512x512) (k0_off17 (tbM0_0.view.readAt (Elt Ideal) (Rect.unit (s := S64) (k0_off16 (grid0.coords t)) S1.size (k0_off16_inb (grid0.coords t))).toLoadRect (tbl m 0) (Shape.Idx.first (numel1_S1.symm ▸ Nat.one_pos)))) S1x512x512.size (k0_off17_inb (tbM0_0.view.readAt (Elt Ideal) (Rect.unit (s := S64) (k0_off16 (grid0.coords t)) S1.size (k0_off16_inb (grid0.coords t))).toLoadRect (tbl m 0) (Shape.Idx.first (numel1_S1.symm ▸ Nat.one_pos))) (Hyps.c6 (hyps m) c t))).toLoadRect ((hs0_3 m t).unread (iblk m c 3 t))) (ix3 0 j k)
      = (m ((c : Thread nD τ).loc main_arg4)) (ix4 1 (Cert.Spec.expertOf (tbl m 0 (ix1 (bOf (pt m t) 1)))) j k) := by
  have hw := word6_eq m t
  have hlt := word_lt m (k0_off16 (grid0.coords t)) (k0_off16_inb (grid0.coords t)) (Shape.Idx.first (numel1_S1.symm ▸ Nat.one_pos))
  refine (ld_wr_off17_apply _ _ _ _ (Hyps.c6 (hyps m) c t) hlt j k).trans ?_
  refine (congrFun (win3_ideal m c t) _).trans (congrArg _ ?_)
  refine congrArg (fun e => ix4 (1 : Fin 2) e j k) (Fin.ext ?_)
  rw [← hw]; exact (Cert.Spec.expertOf_val_of_lt _ hlt).symm
theorem wr_1_2 (c : Dev nD) (t : Fin (cfgM m).N) (j k : Fin 512) :
    ((((ms0_3 m t).slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt Ideal) (Rect.unit (s := S16x512x512) (k0_off20 (tbM0_0.view.readAt (Elt Ideal) (Rect.unit (s := S64) (k0_off19 (grid0.coords t)) S1.size (k0_off19_inb (grid0.coords t))).toLoadRect (tbl m 0) (Shape.Idx.first (numel1_S1.symm ▸ Nat.one_pos)))) S1x512x512.size (k0_off20_inb (tbM0_0.view.readAt (Elt Ideal) (Rect.unit (s := S64) (k0_off19 (grid0.coords t)) S1.size (k0_off19_inb (grid0.coords t))).toLoadRect (tbl m 0) (Shape.Idx.first (numel1_S1.symm ▸ Nat.one_pos))) (Hyps.c7 (hyps m) c t))).toLoadRect ((hs0_3 m t).unread (iblk m c 3 t))) (ix3 0 j k)
      = (m ((c : Thread nD τ).loc main_arg4)) (ix4 1 (Cert.Spec.expertOf (tbl m 0 (ix1 (bOf (pt m t) 2)))) j k) := by
  have hw := word7_eq m t
  have hlt := word_lt m (k0_off19 (grid0.coords t)) (k0_off19_inb (grid0.coords t)) (Shape.Idx.first (numel1_S1.symm ▸ Nat.one_pos))
  refine (ld_wr_off20_apply _ _ _ _ (Hyps.c7 (hyps m) c t) hlt j k).trans ?_
  refine (congrFun (win3_ideal m c t) _).trans (congrArg _ ?_)
  refine congrArg (fun e => ix4 (1 : Fin 2) e j k) (Fin.ext ?_)
  rw [← hw]; exact (Cert.Spec.expertOf_val_of_lt _ hlt).symm
theorem wr_1_3 (c : Dev nD) (t : Fin (cfgM m).N) (j k : Fin 512) :
    ((((ms0_3 m t).slice (Rect.unit (s := S2x16x512x512) ![1, 0, 0, 0] S1x16x512x512.size inb_S2x16x512x512_S1x16x512x512_1_0_0_0) (fun _ => rfl)).squeeze S16x512x512 squeezes_S1x16x512x512_S16x512x512).view.readAt (Elt Ideal) (Rect.unit (s := S16x512x512) (k0_off23 (tbM0_0.view.readAt (Elt Ideal) (Rect.unit (s := S64) (k0_off22 (grid0.coords t)) S1.size (k0_off22_inb (grid0.coords t))).toLoadRect (tbl m 0) (Shape.Idx.first (numel1_S1.symm ▸ Nat.one_pos)))) S1x512x512.size (k0_off23_inb (tbM0_0.view.readAt (Elt Ideal) (Rect.unit (s := S64) (k0_off22 (grid0.coords t)) S1.size (k0_off22_inb (grid0.coords t))).toLoadRect (tbl m 0) (Shape.Idx.first (numel1_S1.symm ▸ Nat.one_pos))) (Hyps.c8 (hyps m) c t))).toLoadRect ((hs0_3 m t).unread (iblk m c 3 t))) (ix3 0 j k)
      = (m ((c : Thread nD τ).loc main_arg4)) (ix4 1 (Cert.Spec.expertOf (tbl m 0 (ix1 (bOf (pt m t) 3)))) j k) := by
  have hw := word8_eq m t
  have hlt := word_lt m (k0_off22 (grid0.coords t)) (k0_off22_inb (grid0.coords t)) (Shape.Idx.first (numel1_S1.symm ▸ Nat.one_pos))
  refine (ld_wr_off23_apply _ _ _ _ (Hyps.c8 (hyps m) c t) hlt j k).trans ?_
  refine (congrFun (win3_ideal m c t) _).trans (congrArg _ ?_)
  refine congrArg (fun e => ix4 (1 : Fin 2) e j k) (Fin.ext ?_)
  rw [← hw]; exact (Cert.Spec.expertOf_val_of_lt _ hlt).symm
theorem br_0_0 (c : Dev nD) (t : Fin (cfgM m).N) (j : Fin 512) :
    ((((ms0_4 m t).slice (Rect.unit (s := S2x16x512) ![0, 0, 0] S1x16x512.size inb_S2x16x512_S1x16x512_0_0_0) (fun _ => rfl)).squeeze S16x512 squeezes_S1x16x512_S16x512).view.readAt (Elt Ideal) (Rect.unit (s := S16x512) (k0_off3 (tbM0_0.view.readAt (Elt Ideal) (Rect.unit (s := S64) (k0_off1 (grid0.coords t)) S1.size (k0_off1_inb (grid0.coords t))).toLoadRect (tbl m 0) (Shape.Idx.first (numel1_S1.symm ▸ Nat.one_pos)))) S1x512.size (k0_off3_inb (tbM0_0.view.readAt (Elt Ideal) (Rect.unit (s := S64) (k0_off1 (grid0.coords t)) S1.size (k0_off1_inb (grid0.coords t))).toLoadRect (tbl m 0) (Shape.Idx.first (numel1_S1.symm ▸ Nat.one_pos))) (Hyps.c1 (hyps m) c t))).toLoadRect ((hs0_4 m t).unread (iblk m c 4 t))) (ix2 0 j)
      = (m ((c : Thread nD τ).loc main_arg5)) (ix3 0 (Cert.Spec.expertOf (tbl m 0 (ix1 (bOf (pt m t) 0)))) j) := by
  have hw := word1_eq m t
  have hlt := word_lt m (k0_off1 (grid0.coords t)) (k0_off1_inb (grid0.coords t)) (Shape.Idx.first (numel1_S1.symm ▸ Nat.one_pos))
  refine (ld_br_off3_apply _ _ _ _ (Hyps.c1 (hyps m) c t) hlt j).trans ?_
  refine (congrFun (win4_ideal m c t) _).trans (congrArg _ ?_)
  refine congrArg (fun e => ix3 (0 : Fin 2) e j) (Fin.ext ?_)
  rw [← hw]; exact (Cert.Spec.expertOf_val_of_lt _ hlt).symm
theorem br_0_1 (c : Dev nD) (t : Fin (cfgM m).N) (j : Fin 512) :
    ((((ms0_4 m t).slice (Rect.unit (s := S2x16x512) ![0, 0, 0] S1x16x512.size inb_S2x16x512_S1x16x512_0_0_0) (fun _ => rfl)).squeeze S16x512 squeezes_S1x16x512_S16x512).view.readAt (Elt Ideal) (Rect.unit (s := S16x512) (k0_off6 (tbM0_0.view.readAt (Elt Ideal) (Rect.unit (s := S64) (k0_off4 (grid0.coords t)) S1.size (k0_off4_inb (grid0.coords t))).toLoadRect (tbl m 0) (Shape.Idx.first (numel1_S1.symm ▸ Nat.one_pos)))) S1x512.size (k0_off6_inb (tbM0_0.view.readAt (Elt Ideal) (Rect.unit (s := S64) (k0_off4 (grid0.coords t)) S1.size (k0_off4_inb (grid0.coords t))).toLoadRect (tbl m 0) (Shape.Idx.first (numel1_S1.symm ▸ Nat.one_pos))) (Hyps.c2 (hyps m) c t))).toLoadRect ((hs0_4 m t).unread (iblk m c 4 t))) (ix2 0 j)
      = (m ((c : Thread nD τ).loc main_arg5)) (ix3 0 (Cert.Spec.expertOf (tbl m 0 (ix1 (bOf (pt m t) 1)))) j) := by
  have hw := word2_eq m t
  have hlt := word_lt m (k0_off4 (grid0.coords t)) (k0_off4_inb (grid0.coords t)) (Shape.Idx.first (numel1_S1.symm ▸ Nat.one_pos))
  refine (ld_br_off6_apply _ _ _ _ (Hyps.c2 (hyps m) c t) hlt j).trans ?_
  refine (congrFun (win4_ideal m c t) _).trans (congrArg _ ?_)
  refine congrArg (fun e => ix3 (0 : Fin 2) e j) (Fin.ext ?_)
  rw [← hw]; exact (Cert.Spec.expertOf_val_of_lt _ hlt).symm
theorem br_0_2 (c : Dev nD) (t : Fin (cfgM m).N) (j : Fin 512) :
    ((((ms0_4 m t).slice (Rect.unit (s := S2x16x512) ![0, 0, 0] S1x16x512.size inb_S2x16x512_S1x16x512_0_0_0) (fun _ => rfl)).squeeze S16x512 squeezes_S1x16x512_S16x512).view.readAt (Elt Ideal) (Rect.unit (s := S16x512) (k0_off9 (tbM0_0.view.readAt (Elt Ideal) (Rect.unit (s := S64) (k0_off7 (grid0.coords t)) S1.size (k0_off7_inb (grid0.coords t))).toLoadRect (tbl m 0) (Shape.Idx.first (numel1_S1.symm ▸ Nat.one_pos)))) S1x512.size (k0_off9_inb (tbM0_0.view.readAt (Elt Ideal) (Rect.unit (s := S64) (k0_off7 (grid0.coords t)) S1.size (k0_off7_inb (grid0.coords t))).toLoadRect (tbl m 0) (Shape.Idx.first (numel1_S1.symm ▸ Nat.one_pos))) (Hyps.c3 (hyps m) c t))).toLoadRect ((hs0_4 m t).unread (iblk m c 4 t))) (ix2 0 j)
      = (m ((c : Thread nD τ).loc main_arg5)) (ix3 0 (Cert.Spec.expertOf (tbl m 0 (ix1 (bOf (pt m t) 2)))) j) := by
  have hw := word3_eq m t
  have hlt := word_lt m (k0_off7 (grid0.coords t)) (k0_off7_inb (grid0.coords t)) (Shape.Idx.first (numel1_S1.symm ▸ Nat.one_pos))
  refine (ld_br_off9_apply _ _ _ _ (Hyps.c3 (hyps m) c t) hlt j).trans ?_
  refine (congrFun (win4_ideal m c t) _).trans (congrArg _ ?_)
  refine congrArg (fun e => ix3 (0 : Fin 2) e j) (Fin.ext ?_)
  rw [← hw]; exact (Cert.Spec.expertOf_val_of_lt _ hlt).symm
theorem br_0_3 (c : Dev nD) (t : Fin (cfgM m).N) (j : Fin 512) :
    ((((ms0_4 m t).slice (Rect.unit (s := S2x16x512) ![0, 0, 0] S1x16x512.size inb_S2x16x512_S1x16x512_0_0_0) (fun _ => rfl)).squeeze S16x512 squeezes_S1x16x512_S16x512).view.readAt (Elt Ideal) (Rect.unit (s := S16x512) (k0_off12 (tbM0_0.view.readAt (Elt Ideal) (Rect.unit (s := S64) (k0_off10 (grid0.coords t)) S1.size (k0_off10_inb (grid0.coords t))).toLoadRect (tbl m 0) (Shape.Idx.first (numel1_S1.symm ▸ Nat.one_pos)))) S1x512.size (k0_off12_inb (tbM0_0.view.readAt (Elt Ideal) (Rect.unit (s := S64) (k0_off10 (grid0.coords t)) S1.size (k0_off10_inb (grid0.coords t))).toLoadRect (tbl m 0) (Shape.Idx.first (numel1_S1.symm ▸ Nat.one_pos))) (Hyps.c4 (hyps m) c t))).toLoadRect ((hs0_4 m t).unread (iblk m c 4 t))) (ix2 0 j)
      = (m ((c : Thread nD τ).loc main_arg5)) (ix3 0 (Cert.Spec.expertOf (tbl m 0 (ix1 (bOf (pt m t) 3)))) j) := by
  have hw := word4_eq m t
  have hlt := word_lt m (k0_off10 (grid0.coords t)) (k0_off10_inb (grid0.coords t)) (Shape.Idx.first (numel1_S1.symm ▸ Nat.one_pos))
  refine (ld_br_off12_apply _ _ _ _ (Hyps.c4 (hyps m) c t) hlt j).trans ?_
  refine (congrFun (win4_ideal m c t) _).trans (congrArg _ ?_)
  refine congrArg (fun e => ix3 (0 : Fin 2) e j) (Fin.ext ?_)
  rw [← hw]; exact (Cert.Spec.expertOf_val_of_lt _ hlt).symm
theorem br_1_0 (c : Dev nD) (t : Fin (cfgM m).N) (j : Fin 512) :
    ((((ms0_4 m t).slice (Rect.unit (s := S2x16x512) ![1, 0, 0] S1x16x512.size inb_S2x16x512_S1x16x512_1_0_0) (fun _ => rfl)).squeeze S16x512 squeezes_S1x16x512_S16x512).view.readAt (Elt Ideal) (Rect.unit (s := S16x512) (k0_off15 (tbM0_0.view.readAt (Elt Ideal) (Rect.unit (s := S64) (k0_off13 (grid0.coords t)) S1.size (k0_off13_inb (grid0.coords t))).toLoadRect (tbl m 0) (Shape.Idx.first (numel1_S1.symm ▸ Nat.one_pos)))) S1x512.size (k0_off15_inb (tbM0_0.view.readAt (Elt Ideal) (Rect.unit (s := S64) (k0_off13 (grid0.coords t)) S1.size (k0_off13_inb (grid0.coords t))).toLoadRect (tbl m 0) (Shape.Idx.first (numel1_S1.symm ▸ Nat.one_pos))) (Hyps.c5 (hyps m) c t))).toLoadRect ((hs0_4 m t).unread (iblk m c 4 t))) (ix2 0 j)
      = (m ((c : Thread nD τ).loc main_arg5)) (ix3 1 (Cert.Spec.expertOf (tbl m 0 (ix1 (bOf (pt m t) 0)))) j) := by
  have hw := word5_eq m t
  have hlt := word_lt m (k0_off13 (grid0.coords t)) (k0_off13_inb (grid0.coords t)) (Shape.Idx.first (numel1_S1.symm ▸ Nat.one_pos))
  refine (ld_br_off15_apply _ _ _ _ (Hyps.c5 (hyps m) c t) hlt j).trans ?_
  refine (congrFun (win4_ideal m c t) _).trans (congrArg _ ?_)
  refine congrArg (fun e => ix3 (1 : Fin 2) e j) (Fin.ext ?_)
  rw [← hw]; exact (Cert.Spec.expertOf_val_of_lt _ hlt).symm
theorem br_1_1 (c : Dev nD) (t : Fin (cfgM m).N) (j : Fin 512) :
    ((((ms0_4 m t).slice (Rect.unit (s := S2x16x512) ![1, 0, 0] S1x16x512.size inb_S2x16x512_S1x16x512_1_0_0) (fun _ => rfl)).squeeze S16x512 squeezes_S1x16x512_S16x512).view.readAt (Elt Ideal) (Rect.unit (s := S16x512) (k0_off18 (tbM0_0.view.readAt (Elt Ideal) (Rect.unit (s := S64) (k0_off16 (grid0.coords t)) S1.size (k0_off16_inb (grid0.coords t))).toLoadRect (tbl m 0) (Shape.Idx.first (numel1_S1.symm ▸ Nat.one_pos)))) S1x512.size (k0_off18_inb (tbM0_0.view.readAt (Elt Ideal) (Rect.unit (s := S64) (k0_off16 (grid0.coords t)) S1.size (k0_off16_inb (grid0.coords t))).toLoadRect (tbl m 0) (Shape.Idx.first (numel1_S1.symm ▸ Nat.one_pos))) (Hyps.c6 (hyps m) c t))).toLoadRect ((hs0_4 m t).unread (iblk m c 4 t))) (ix2 0 j)
      = (m ((c : Thread nD τ).loc main_arg5)) (ix3 1 (Cert.Spec.expertOf (tbl m 0 (ix1 (bOf (pt m t) 1)))) j) := by
  have hw := word6_eq m t
  have hlt := word_lt m (k0_off16 (grid0.coords t)) (k0_off16_inb (grid0.coords t)) (Shape.Idx.first (numel1_S1.symm ▸ Nat.one_pos))
  refine (ld_br_off18_apply _ _ _ _ (Hyps.c6 (hyps m) c t) hlt j).trans ?_
  refine (congrFun (win4_ideal m c t) _).trans (congrArg _ ?_)
  refine congrArg (fun e => ix3 (1 : Fin 2) e j) (Fin.ext ?_)
  rw [← hw]; exact (Cert.Spec.expertOf_val_of_lt _ hlt).symm
theorem br_1_2 (c : Dev nD) (t : Fin (cfgM m).N) (j : Fin 512) :
    ((((ms0_4 m t).slice (Rect.unit (s := S2x16x512) ![1, 0, 0] S1x16x512.size inb_S2x16x512_S1x16x512_1_0_0) (fun _ => rfl)).squeeze S16x512 squeezes_S1x16x512_S16x512).view.readAt (Elt Ideal) (Rect.unit (s := S16x512) (k0_off21 (tbM0_0.view.readAt (Elt Ideal) (Rect.unit (s := S64) (k0_off19 (grid0.coords t)) S1.size (k0_off19_inb (grid0.coords t))).toLoadRect (tbl m 0) (Shape.Idx.first (numel1_S1.symm ▸ Nat.one_pos)))) S1x512.size (k0_off21_inb (tbM0_0.view.readAt (Elt Ideal) (Rect.unit (s := S64) (k0_off19 (grid0.coords t)) S1.size (k0_off19_inb (grid0.coords t))).toLoadRect (tbl m 0) (Shape.Idx.first (numel1_S1.symm ▸ Nat.one_pos))) (Hyps.c7 (hyps m) c t))).toLoadRect ((hs0_4 m t).unread (iblk m c 4 t))) (ix2 0 j)
      = (m ((c : Thread nD τ).loc main_arg5)) (ix3 1 (Cert.Spec.expertOf (tbl m 0 (ix1 (bOf (pt m t) 2)))) j) := by
  have hw := word7_eq m t
  have hlt := word_lt m (k0_off19 (grid0.coords t)) (k0_off19_inb (grid0.coords t)) (Shape.Idx.first (numel1_S1.symm ▸ Nat.one_pos))
  refine (ld_br_off21_apply _ _ _ _ (Hyps.c7 (hyps m) c t) hlt j).trans ?_
  refine (congrFun (win4_ideal m c t) _).trans (congrArg _ ?_)
  refine congrArg (fun e => ix3 (1 : Fin 2) e j) (Fin.ext ?_)
  rw [← hw]; exact (Cert.Spec.expertOf_val_of_lt _ hlt).symm
theorem br_1_3 (c : Dev nD) (t : Fin (cfgM m).N) (j : Fin 512) :
    ((((ms0_4 m t).slice (Rect.unit (s := S2x16x512) ![1, 0, 0] S1x16x512.size inb_S2x16x512_S1x16x512_1_0_0) (fun _ => rfl)).squeeze S16x512 squeezes_S1x16x512_S16x512).view.readAt (Elt Ideal) (Rect.unit (s := S16x512) (k0_off24 (tbM0_0.view.readAt (Elt Ideal) (Rect.unit (s := S64) (k0_off22 (grid0.coords t)) S1.size (k0_off22_inb (grid0.coords t))).toLoadRect (tbl m 0) (Shape.Idx.first (numel1_S1.symm ▸ Nat.one_pos)))) S1x512.size (k0_off24_inb (tbM0_0.view.readAt (Elt Ideal) (Rect.unit (s := S64) (k0_off22 (grid0.coords t)) S1.size (k0_off22_inb (grid0.coords t))).toLoadRect (tbl m 0) (Shape.Idx.first (numel1_S1.symm ▸ Nat.one_pos))) (Hyps.c8 (hyps m) c t))).toLoadRect ((hs0_4 m t).unread (iblk m c 4 t))) (ix2 0 j)
      = (m ((c : Thread nD τ).loc main_arg5)) (ix3 1 (Cert.Spec.expertOf (tbl m 0 (ix1 (bOf (pt m t) 3)))) j) := by
  have hw := word8_eq m t
  have hlt := word_lt m (k0_off22 (grid0.coords t)) (k0_off22_inb (grid0.coords t)) (Shape.Idx.first (numel1_S1.symm ▸ Nat.one_pos))
  refine (ld_br_off24_apply _ _ _ _ (Hyps.c8 (hyps m) c t) hlt j).trans ?_
  refine (congrFun (win4_ideal m c t) _).trans (congrArg _ ?_)
  refine congrArg (fun e => ix3 (1 : Fin 2) e j) (Fin.ext ?_)
  rw [← hw]; exact (Cert.Spec.expertOf_val_of_lt _ hlt).symm

set_option maxHeartbeats 2000000 in
theorem outsAt0_apply (c : Dev nD) (t : Fin (cfgM m).N) (i : Fin 4) (tt o : Fin 256) :
    outsAt0 m (hyps m) c t (ix3 i tt o) = Gk m c (ix3 (bOf (pt m t) i) tt o) := by
  unfold outsAt0
  refine (congrFun (out0_9_eq_outPay c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (iblk m c 0 t) (iblk m c 1 t) (iblk m c 2 t) (iblk m c 3 t) (iblk m c 4 t) (iblk m c 5 t) (iblk m c 6 t) (iblk m c 7 t) (iblk m c 8 t) (tbl m 0) (Hyps.c1 (hyps m) c t) (Hyps.c2 (hyps m) c t) (Hyps.c3 (hyps m) c t) (Hyps.c4 (hyps m) c t) (Hyps.c5 (hyps m) c t) (Hyps.c6 (hyps m) c t) (Hyps.c7 (hyps m) c t) (Hyps.c8 (hyps m) c t)) (ix3 i tt o)).trans ?_
  refine (outPay_apply _ _ _ _ _ _ _ _ _ _ _ _ _ _ _ _ _ _ _ _ _ _ _ _ _ i tt o).trans ?_
  refine Eq.trans ?_ (Gk_apply m c (bOf (pt m t) i) tt o).symm
  refine (congrFun (outp_eq_outProj _ _ (m ((c : Thread nD τ).loc main_arg8)) (m ((c : Thread nD τ).loc main_arg9)) _ ?hwo ?hbo) o).trans ?_
  rotate_left 2
  refine congrArg (fun h => Cert.Spec.outProj (m ((c : Thread nD τ).loc main_arg8)) (m ((c : Thread nD τ).loc main_arg9)) h o) ?_
  refine (lay_eq_layer _ _ _ _ (m ((c : Thread nD τ).loc main_arg4)) (m ((c : Thread nD τ).loc main_arg5)) (m ((c : Thread nD τ).loc main_arg6)) (m ((c : Thread nD τ).loc main_arg7)) 1 (Cert.Spec.expertOf (tbl m 0 (ix1 (bOf (pt m t) i)))) _ ?a1 ?a2 ?a3 ?a4).trans ?_
  rotate_left 4
  refine congrArg (Cert.Spec.layer (m ((c : Thread nD τ).loc main_arg4)) (m ((c : Thread nD τ).loc main_arg5)) (m ((c : Thread nD τ).loc main_arg6)) (m ((c : Thread nD τ).loc main_arg7)) 1 (Cert.Spec.expertOf (tbl m 0 (ix1 (bOf (pt m t) i))))) ?_
  refine (lay_eq_layer _ _ _ _ (m ((c : Thread nD τ).loc main_arg4)) (m ((c : Thread nD τ).loc main_arg5)) (m ((c : Thread nD τ).loc main_arg6)) (m ((c : Thread nD τ).loc main_arg7)) 0 (Cert.Spec.expertOf (tbl m 0 (ix1 (bOf (pt m t) i)))) _ ?b1 ?b2 ?b3 ?b4).trans ?_
  rotate_left 4
  refine congrArg (Cert.Spec.layer (m ((c : Thread nD τ).loc main_arg4)) (m ((c : Thread nD τ).loc main_arg5)) (m ((c : Thread nD τ).loc main_arg6)) (m ((c : Thread nD τ).loc main_arg7)) 0 (Cert.Spec.expertOf (tbl m 0 (ix1 (bOf (pt m t) i))))) ?_
  refine hid0_eq_inProj _ _ _ (m ((c : Thread nD τ).loc main_arg0)) (m ((c : Thread nD τ).loc main_arg2)) (m ((c : Thread nD τ).loc main_arg3)) i (bOf (pt m t) i) tt ?hx ?hW ?hb
  case hwo => exact fun o k => (congrFun (ld_wo_eq _ _ _) _).trans (congrFun (win7_ideal m c t) _)
  case hbo => exact fun o => (congrFun (ld_bo_eq _ _ _) _).trans (win8_ideal m c t o)
  case a1 => exact fun j k => (ld_ws1_apply _ _ _ j k).trans (congrFun (win5_ideal m c t) _)
  case a2 => exact fun j => (ld_bs1_apply _ _ _ j).trans (congrFun (win6_ideal m c t) _)
  case a3 =>
    intro j k
    match i with
    | ⟨0, _⟩ => exact wr_1_0 m c t j k
    | ⟨1, _⟩ => exact wr_1_1 m c t j k
    | ⟨2, _⟩ => exact wr_1_2 m c t j k
    | ⟨3, _⟩ => exact wr_1_3 m c t j k
  case a4 =>
    intro j
    match i with
    | ⟨0, _⟩ => exact br_1_0 m c t j
    | ⟨1, _⟩ => exact br_1_1 m c t j
    | ⟨2, _⟩ => exact br_1_2 m c t j
    | ⟨3, _⟩ => exact br_1_3 m c t j
  case b1 => exact fun j k => (ld_ws0_apply _ _ _ j k).trans (congrFun (win5_ideal m c t) _)
  case b2 => exact fun j => (ld_bs0_apply _ _ _ j).trans (congrFun (win6_ideal m c t) _)
  case b3 =>
    intro j k
    match i with
    | ⟨0, _⟩ => exact wr_0_0 m c t j k
    | ⟨1, _⟩ => exact wr_0_1 m c t j k
    | ⟨2, _⟩ => exact wr_0_2 m c t j k
    | ⟨3, _⟩ => exact wr_0_3 m c t j k
  case b4 =>
    intro j
    match i with
    | ⟨0, _⟩ => exact br_0_0 m c t j
    | ⟨1, _⟩ => exact br_0_1 m c t j
    | ⟨2, _⟩ => exact br_0_2 m c t j
    | ⟨3, _⟩ => exact br_0_3 m c t j
  case hx => exact fun k => (congrFun (ld_x_eq _ _ _) _).trans (win0_ideal m c t i tt k)
  case hW => exact fun j k => (congrFun (ld_wi_eq _ _ _) _).trans (congrFun (win1_ideal m c t) _)
  case hb => exact fun j => (congrFun (ld_bi_eq _ _ _) _).trans (win2_ideal m c t j)

theorem final (c : Dev nD) : ((dats m (hyps m) 0 c).arrAt 9 (cfgM m).N : S64x256x256.Idx → EReal) = Gk m c :=
  final_of_flushed m (hyps m) c (Gk m c) (outsAt0_apply m c)

theorem run_value : θ_run defs (onTc (τ := τ) (main (F := Ideal))) ⟨m, fun _ => 0, ρ⟩ (fun r => ∀ c : Dev nD,
      r.2.mem ((c.tc : Thread nD τ).loc main_v8) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 9).trans (final m c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 4).trans (((dats m (hyps m) 0 c).arrAt_in 4 rfl _).trans ((A_eq m (hyps m) c 4).trans (V_main_arg5 m c))),
      ((h c).2 main_arg6 (by decide : main_arg6 ∈ Pipeline.restRefs sig spec0)).trans (V_main_arg6 m c),
      ((h c).1 6).trans (((dats m (hyps m) 0 c).arrAt_in 6 rfl _).trans ((A_eq m (hyps m) c 6).trans (V_main_arg7 m c))),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) (run_main m ρ (hyps m))

end Cert.KernelIdeal.Fr

end
-- ==== Proof.RefExpert.lean ====
import proofs.«406211_j29257317220859_3_alg».proof.Proof.Gen.ReferenceIdeal
import proofs.«406211_j29257317220859_3_alg».proof.Proof.Spec
import Idealize.ShloMosaic.Lib.Pipeline.Value
import Idealize.ShloMosaic.Lib.ValueIdx
import Idealize.ShloMosaic.PureOps.Ideal.Laws
import Mathlib.Tactic.IntervalCases

noncomputable section

namespace Cert.RefValue

open Cert.ReferenceIdeal Cert.ReferenceIdeal.Gen Idealize.ShloMosaic Idealize.ShloMosaic.TcCoe Idealize.ShloMosaic.ValueIdx

theorem slW (l : Fin 2) (e : Fin 16) : S2x16x512x512.Slices ![l.val, e.val, 0, 0] S1x1x512x512 :=
  ⟨rfl, fun a => match a with
    | ⟨0, _⟩ => by have := l.isLt; show l.val + 1 ≤ 2; omega
    | ⟨1, _⟩ => by have := e.isLt; show e.val + 1 ≤ 16; omega
    | ⟨2, _⟩ => Nat.le_refl 512
    | ⟨3, _⟩ => Nat.le_refl 512⟩

theorem slB (l : Fin 2) (e : Fin 16) : S2x16x512.Slices ![l.val, e.val, 0] S1x1x512 :=
  ⟨rfl, fun a => match a with
    | ⟨0, _⟩ => by have := l.isLt; show l.val + 1 ≤ 2; omega
    | ⟨1, _⟩ => by have := e.isLt; show e.val + 1 ≤ 16; omega
    | ⟨2, _⟩ => Nat.le_refl 512⟩

/-! The nineteen operations of routed expert `e` of layer `l`, each as a function of the arrays it depends on: the
    hidden rows `h`, the per-row route words `r`, the routed weights `x4` and biases `x5`. -/
section Stages

variable {F : FTy → Type} [FloatOps F] (l : Fin 2) (e : Fin 16)
  (h : (⟨S16384x512, .f32⟩ : BufTy).Contents (Elt F)) (r : (⟨S16384, .i32⟩ : BufTy).Contents (Elt F))
  (x4 : (⟨S2x16x512x512, .f32⟩ : BufTy).Contents (Elt F)) (x5 : (⟨S2x16x512, .f32⟩ : BufTy).Contents (Elt F))

def eSW : (⟨S1x1x512x512, .f32⟩ : BufTy).Contents (Elt F) :=
  extractStridedSlice S1x1x512x512 ![l.val, e.val, 0, 0] x4 (slW l e)
def eRW : (⟨S512x512, .f32⟩ : BufTy).Contents (Elt F) :=
  shapeCast _ (eSW l e x4) shapeCasts_S1x1x512x512_S512x512
def eW : (⟨S512x512, .f32⟩ : BufTy).Contents (Elt F) :=
  transpose S512x512 [1, 0] (eRW l e x4) transposes_S512x512_S512x512_1_0
def eDot : (⟨S16384x512, .f32⟩ : BufTy).Contents (Elt F) :=
  Host.dotGeneral dot_S16384x512_S512x512_S16384x512_1_0_0_1_n_n none h (eW l e x4)
def eSB : (⟨S1x1x512, .f32⟩ : BufTy).Contents (Elt F) :=
  extractStridedSlice S1x1x512 ![l.val, e.val, 0] x5 (slB l e)
def eRB : (⟨S512, .f32⟩ : BufTy).Contents (Elt F) :=
  shapeCast _ (eSB l e x5) shapeCasts_S1x1x512_S512
def eB1 : (⟨S1x512, .f32⟩ : BufTy).Contents (Elt F) :=
  broadcastInDim S1x512 ![1] bcast_S512_S1x512_1 (eRB l e x5)
def eB : (⟨S16384x512, .f32⟩ : BufTy).Contents (Elt F) :=
  broadcastInDim S16384x512 ![0, 1] bcast_S1x512_S16384x512_0_1 (eB1 l e x5)
def eAff : (⟨S16384x512, .f32⟩ : BufTy).Contents (Elt F) :=
  addf (eDot l e h x4) (eB l e x5)
def eC : (⟨S_, .i32⟩ : BufTy).Contents (Elt F) :=
  constantI S_ 32 (BitVec.ofNat 32 e.val)
def eCb : (⟨S16384, .i32⟩ : BufTy).Contents (Elt F) :=
  broadcastInDim S16384 ![] bcast_S_S16384 (eC (F := F) e)
def eCmp : (⟨S16384, .i1⟩ : BufTy).Contents (Elt F) :=
  cmpi .eq r (eCb (F := F) e)
def eM1 : (⟨S16384x1, .i1⟩ : BufTy).Contents (Elt F) :=
  broadcastInDim S16384x1 ![0] bcast_S16384_S16384x1_0 (eCmp e r)
def eMask : (⟨S16384x512, .i1⟩ : BufTy).Contents (Elt F) :=
  broadcastInDim S16384x512 ![0, 1] bcast_S16384x1_S16384x512_0_1 (eM1 e r)
def zeroS : (⟨S_, .f32⟩ : BufTy).Contents (Elt F) :=
  constant S_ .f32 0x00000000#32
def zeroV : (⟨S16384x512, .f32⟩ : BufTy).Contents (Elt F) :=
  broadcastInDim S16384x512 ![] bcast_S_S16384x512 (zeroS (F := F))

/-- Expert `e`'s affine image of every row, kept on the rows routed to `e` and zero on the others. -/
def eTerm : (⟨S16384x512, .f32⟩ : BufTy).Contents (Elt F) :=
  select (eMask e r) (eAff l e h x4 x5) zeroV

/-- The masked images of the experts `es` added to zero one after the other. -/
def racc (es : List (Fin 16)) : (⟨S16384x512, .f32⟩ : BufTy).Contents (Elt F) :=
  es.foldl (fun a e => addf a (eTerm l e h r x4 x5)) zeroV

def routed : (⟨S16384x512, .f32⟩ : BufTy).Contents (Elt F) :=
  racc l h r x4 x5 [0, 1, 2, 3, 4, 5, 6, 7, 8, 9, 10, 11, 12, 13, 14, 15]

end Stages

section Reads

variable (l : Fin 2) (e : Fin 16)
  (h : (⟨S16384x512, .f32⟩ : BufTy).Contents (Elt Ideal)) (r : (⟨S16384, .i32⟩ : BufTy).Contents (Elt Ideal))
  (x4 : (⟨S2x16x512x512, .f32⟩ : BufTy).Contents (Elt Ideal)) (x5 : (⟨S2x16x512, .f32⟩ : BufTy).Contents (Elt Ideal))
  (ρ : Fin 16384) (j k : Fin 512)

theorem eW_apply : eW (F := Ideal) l e x4 (ix2 k j) = x4 (ix4 l e j k) :=
  (transpose_apply [1, 0] _ transposes_S512x512_S512x512_1_0 (ix2 k j) (ix2 j k) (fun b => match b with
    | ⟨0, _⟩ => rfl
    | ⟨1, _⟩ => rfl)).trans <|
  (shapeCast_apply _ shapeCasts_S1x1x512x512_S512x512 (ix2 j k) (ix4 0 0 j k)
    (by rewrite [Shape.rowMajor_val_four, Shape.rowMajor_val_two]; show ((0 * 1 + 0) * 512 + j.val) * 512 + k.val = j.val * 512 + k.val; omega)).trans <|
  extractStridedSlice_apply ![l.val, e.val, 0, 0] x4 (slW l e) (ix4 0 0 j k) (ix4 l e j k) (fun a => match a with
    | ⟨0, _⟩ => rfl
    | ⟨1, _⟩ => rfl
    | ⟨2, _⟩ => (Nat.zero_add _).symm
    | ⟨3, _⟩ => (Nat.zero_add _).symm)

theorem eB_apply : eB (F := Ideal) l e x5 (ix2 ρ j) = x5 (ix3 l e j) :=
  (broadcastInDim_apply _ bcast_S1x512_S16384x512_0_1 _ (ix2 ρ j) (ix2 0 j) (fun a => match a with
    | ⟨0, _⟩ => by show 0 = if (1 : Nat) = 1 then 0 else ρ.val; rw [if_pos rfl]
    | ⟨1, _⟩ => by show j.val = if (512 : Nat) = 1 then 0 else j.val; rw [if_neg (by decide)])).trans <|
  (broadcastInDim_apply _ bcast_S512_S1x512_1 _ (ix2 0 j) (ix1 j) (fun a => match a with
    | ⟨0, _⟩ => by show j.val = if (512 : Nat) = 1 then 0 else j.val; rw [if_neg (by decide)])).trans <|
  (shapeCast_apply _ shapeCasts_S1x1x512_S512 (ix1 j) (ix3 0 0 j)
    (by rewrite [Shape.rowMajor_val_three, Shape.rowMajor_val_one]; show (0 * 1 + 0) * 512 + j.val = j.val; omega)).trans <|
  extractStridedSlice_apply ![l.val, e.val, 0] x5 (slB l e) (ix3 0 0 j) (ix3 l e j) (fun a => match a with
    | ⟨0, _⟩ => rfl
    | ⟨1, _⟩ => rfl
    | ⟨2, _⟩ => (Nat.zero_add _).symm)

theorem eMask_apply : eMask (F := Ideal) e r (ix2 ρ j) = IntOp.cmpi .eq (r (ix1 ρ)) (BitVec.ofNat 32 e.val) :=
  (broadcastInDim_apply _ bcast_S16384x1_S16384x512_0_1 _ (ix2 ρ j) (ix2 ρ 0) (fun a => match a with
    | ⟨0, _⟩ => by show ρ.val = if (16384 : Nat) = 1 then 0 else ρ.val; rw [if_neg (by decide)]
    | ⟨1, _⟩ => by show 0 = if (1 : Nat) = 1 then 0 else j.val; rw [if_pos rfl])).trans <|
  (broadcastInDim_apply _ bcast_S16384_S16384x1_0 _ (ix2 ρ 0) (ix1 ρ) (fun a => match a with
    | ⟨0, _⟩ => by show ρ.val = if (16384 : Nat) = 1 then 0 else ρ.val; rw [if_neg (by decide)])).trans <|
  congrArg (IntOp.cmpi .eq (r (ix1 ρ))) (broadcastInDim_apply _ bcast_S_S16384 _ (ix1 ρ) ix0 (fun a => a.elim0))

theorem zeroV_apply (i : S16384x512.Idx) : zeroV (F := Ideal) i = 0 :=
  (broadcastInDim_apply _ bcast_S_S16384x512 _ i ix0 (fun a => a.elim0)).trans Ideal.ofBits_zero_f32

theorem lhs_0 (i : S16384x512.Idx) (q : dot_S16384x512_S512x512_S16384x512_1_0_0_1_n_n.contr.Idx) : (dot_S16384x512_S512x512_S16384x512_1_0_0_1_n_n.lhsIdx i q 0).val = (i 0).val := by
  unfold DotDims.lhsIdx
  rw [dif_neg (show ¬(0 : Fin S16384x512.rank) ∈ dot_S16384x512_S512x512_S16384x512_1_0_0_1_n_n.lhsBatch by decide), dif_pos (show (0 : Fin S16384x512.rank) ∈ dot_S16384x512_S512x512_S16384x512_1_0_0_1_n_n.lhsNonContracting by decide)]
  rfl
theorem lhs_1 (i : S16384x512.Idx) (q : dot_S16384x512_S512x512_S16384x512_1_0_0_1_n_n.contr.Idx) : (dot_S16384x512_S512x512_S16384x512_1_0_0_1_n_n.lhsIdx i q 1).val = (q ⟨0, by decide⟩).val :=
  dot_S16384x512_S512x512_S16384x512_1_0_0_1_n_n.lhsIdx_val_of_single rfl i q
theorem rhs_0 (i : S16384x512.Idx) (q : dot_S16384x512_S512x512_S16384x512_1_0_0_1_n_n.contr.Idx) : (dot_S16384x512_S512x512_S16384x512_1_0_0_1_n_n.rhsIdx i q 0).val = (q ⟨0, by decide⟩).val :=
  dot_S16384x512_S512x512_S16384x512_1_0_0_1_n_n.rhsIdx_val_of_single rfl i q
theorem rhs_1 (i : S16384x512.Idx) (q : dot_S16384x512_S512x512_S16384x512_1_0_0_1_n_n.contr.Idx) : (dot_S16384x512_S512x512_S16384x512_1_0_0_1_n_n.rhsIdx i q 1).val = (i 1).val := by
  unfold DotDims.rhsIdx
  rw [dif_neg (show ¬(1 : Fin S512x512.rank) ∈ dot_S16384x512_S512x512_S16384x512_1_0_0_1_n_n.rhsBatch by decide), dif_pos (show (1 : Fin S512x512.rank) ∈ dot_S16384x512_S512x512_S16384x512_1_0_0_1_n_n.rhsNonContracting by decide)]
  rfl

/-- A row times a 512 × 512 matrix, entry by entry: the sum over the contracted axis. -/
theorem dot_apply (a : FVec Ideal S16384x512 .f32) (y : FVec Ideal S512x512 .f32) :
    Host.dotGeneral dot_S16384x512_S512x512_S16384x512_1_0_0_1_n_n none a y (ix2 ρ j) = ∑ k : Fin 512, a (ix2 ρ k) * y (ix2 k j) := by
  simp only [Host.dotGeneral]
  rw [Ideal.dotGeneral_apply, ← Equiv.sum_comp (ValueIdx.contrEquiv1 dot_S16384x512_S512x512_S16384x512_1_0_0_1_n_n 512 rfl rfl).symm]
  refine Finset.sum_congr rfl fun k _ => ?_
  have hk := ValueIdx.contrEquiv1_symm_val dot_S16384x512_S512x512_S16384x512_1_0_0_1_n_n 512 rfl rfl k
  have el : dot_S16384x512_S512x512_S16384x512_1_0_0_1_n_n.lhsIdx (ix2 ρ j) ((ValueIdx.contrEquiv1 dot_S16384x512_S512x512_S16384x512_1_0_0_1_n_n 512 rfl rfl).symm k) = ix2 ρ k := funext fun a => Fin.ext (by
    match a with
    | ⟨0, _⟩ => exact lhs_0 _ _
    | ⟨1, _⟩ => exact (lhs_1 _ _).trans hk)
  have er : dot_S16384x512_S512x512_S16384x512_1_0_0_1_n_n.rhsIdx (ix2 ρ j) ((ValueIdx.contrEquiv1 dot_S16384x512_S512x512_S16384x512_1_0_0_1_n_n 512 rfl rfl).symm k) = ix2 k j := funext fun a => Fin.ext (by
    match a with
    | ⟨0, _⟩ => exact (rhs_0 _ _).trans hk
    | ⟨1, _⟩ => exact rhs_1 _ _)
  rw [el, er]

/-- A select on the equality test of two words is the `if` on their equality. -/
theorem select_cmpi_eq {α : Type} (v c : BitVec 32) (a b : α) :
    Scalar.select (IntOp.cmpi .eq v c) a b = if v = c then a else b := by
  have hc : IntOp.cmpi .eq v c = BitVec.ofBool (v == c) := rfl
  rw [hc]
  unfold Scalar.select
  by_cases h : v = c
  · rw [if_pos h, h, beq_self_eq_true]; exact if_pos (by decide)
  · rw [if_neg h, beq_eq_false_iff_ne.mpr h]; exact if_neg (by decide)

/-- The affine image of row `ρ` under routed expert `e` of layer `l`, at column `j`. -/
def routedAt (e : Fin 16) : EReal :=
  (∑ k : Fin 512, h (ix2 ρ k) * x4 (ix4 l e j k)) + x5 (ix3 l e j)

theorem eTerm_apply : eTerm (F := Ideal) l e h r x4 x5 (ix2 ρ j)
    = if r (ix1 ρ) = BitVec.ofNat 32 e.val then routedAt l h x4 x5 ρ j e else 0 := by
  unfold eTerm eAff eDot routedAt
  rw [select_apply, eMask_apply, select_cmpi_eq, zeroV_apply, addf_apply, dot_apply, eB_apply]
  simp only [eW_apply]

/-- Sixteen terms added to zero one after the other, the term of number `e` kept when the word equals `e`: for a
    word below sixteen exactly the term of that number is kept. -/
theorem pick16 (v : BitVec 32) (hv : v.toNat < 16) (Y : Fin 16 → EReal) :
    ((((((((((((((((0 + (if v = 0#32 then Y 0 else 0)) + (if v = 1#32 then Y 1 else 0)) + (if v = 2#32 then Y 2 else 0))
      + (if v = 3#32 then Y 3 else 0)) + (if v = 4#32 then Y 4 else 0)) + (if v = 5#32 then Y 5 else 0))
      + (if v = 6#32 then Y 6 else 0)) + (if v = 7#32 then Y 7 else 0)) + (if v = 8#32 then Y 8 else 0))
      + (if v = 9#32 then Y 9 else 0)) + (if v = 10#32 then Y 10 else 0)) + (if v = 11#32 then Y 11 else 0))
      + (if v = 12#32 then Y 12 else 0)) + (if v = 13#32 then Y 13 else 0)) + (if v = 14#32 then Y 14 else 0))
      + (if v = 15#32 then Y 15 else 0)) = Y (Cert.Spec.expertOf v) := by
  obtain ⟨n, hn, rfl⟩ : ∃ n : Nat, n < 16 ∧ v = BitVec.ofNat 32 n :=
    ⟨v.toNat, hv, by simp⟩
  interval_cases n <;> simp [Cert.Spec.expertOf] <;> rfl

/-- For a route word below sixteen the sixteen masked images add up to the image under the expert the word names. -/
theorem routed_apply (hv : (r (ix1 ρ)).toNat < 16) :
    routed (F := Ideal) l h r x4 x5 (ix2 ρ j) = routedAt l h x4 x5 ρ j (Cert.Spec.expertOf (r (ix1 ρ))) := by
  simp only [routed, racc, List.foldl, addf_apply, eTerm_apply, zeroV_apply]
  exact pick16 _ hv _

end Reads

end Cert.RefValue

end
-- ==== Proof.RefRead.lean ====
import proofs.«406211_j29257317220859_3_alg».proof.Proof.RefExpert
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

section

variable (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))

def val_main_v0 : (⟨S16384x256, .f32⟩ : BufTy).Contents (Elt F) :=
  shapeCast _ (x0) shapeCasts_S64x256x256_S16384x256

abbrev idx_main_v0 (i : S16384x256.Idx) : S64x256x256.Idx := fun a => match a with
  | ⟨0, _⟩ => ⟨((i 0).val * 256 + (i 1).val) / 65536, by have h0 : (i 0).val < 16384 := (i 0).isLt; have h1 : (i 1).val < 256 := (i 1).isLt; show ((i 0).val * 256 + (i 1).val) / 65536 < 64; omega⟩
  | ⟨1, _⟩ => ⟨((i 0).val * 256 + (i 1).val) / 256 % 256, by have h0 : (i 0).val < 16384 := (i 0).isLt; have h1 : (i 1).val < 256 := (i 1).isLt; show ((i 0).val * 256 + (i 1).val) / 256 % 256 < 256; omega⟩
  | ⟨2, _⟩ => ⟨((i 0).val * 256 + (i 1).val) % 256, by have h0 : (i 0).val < 16384 := (i 0).isLt; have h1 : (i 1).val < 256 := (i 1).isLt; show ((i 0).val * 256 + (i 1).val) % 256 < 256; omega⟩

theorem val_main_v0_apply (i : S16384x256.Idx) :
    val_main_v0 (F := F) x0 i = x0 (idx_main_v0 i) := by
  unfold val_main_v0
  exact shapeCast_apply x0 shapeCasts_S64x256x256_S16384x256 i (idx_main_v0 i)
    (by rewrite [Shape.rowMajor_val_three, Shape.rowMajor_val_two]; have h0 : (i 0).val < 16384 := (i 0).isLt; have h1 : (i 1).val < 256 := (i 1).isLt; show (((i 0).val * 256 + (i 1).val) / 65536 * 256 + ((i 0).val * 256 + (i 1).val) / 256 % 256) * 256 + ((i 0).val * 256 + (i 1).val) % 256 = (i 0).val * 256 + (i 1).val; omega)

def val_main_v1 : (⟨S64x256, .i32⟩ : BufTy).Contents (Elt F) :=
  broadcastInDim S64x256 ![0] bcast_S64_S64x256_0 (x1)

abbrev idx_main_v1 (i : S64x256.Idx) : S64.Idx := fun a => match a with
  | ⟨0, _⟩ => ⟨(i 0).val, (i 0).isLt⟩

theorem val_main_v1_apply (i : S64x256.Idx) :
    val_main_v1 (F := F) x1 i = x1 (idx_main_v1 i) := by
  unfold val_main_v1
  exact broadcastInDim_apply _ bcast_S64_S64x256_0 x1 i (idx_main_v1 i) (fun a => match a with
    | ⟨0, _⟩ => by show (i 0).val = if (64 : Nat) = 1 then 0 else (i 0).val; rw [if_neg (by decide)])

def val_main_v2 : (⟨S16384, .i32⟩ : BufTy).Contents (Elt F) :=
  shapeCast _ (val_main_v1 (F := F) x1) shapeCasts_S64x256_S16384

abbrev idx_main_v2 (i : S16384.Idx) : S64x256.Idx := fun a => match a with
  | ⟨0, _⟩ => ⟨((i 0).val) / 256, by have h0 : (i 0).val < 16384 := (i 0).isLt; show ((i 0).val) / 256 < 64; omega⟩
  | ⟨1, _⟩ => ⟨((i 0).val) % 256, by have h0 : (i 0).val < 16384 := (i 0).isLt; show ((i 0).val) % 256 < 256; omega⟩

theorem val_main_v2_apply (i : S16384.Idx) :
    val_main_v2 (F := F) x1 i = val_main_v1 (F := F) x1 (idx_main_v2 i) := by
  unfold val_main_v2
  generalize val_main_v1 (F := F) x1 = y
  exact shapeCast_apply y shapeCasts_S64x256_S16384 i (idx_main_v2 i)
    (by rewrite [Shape.rowMajor_val_two, Shape.rowMajor_val_one]; have h0 : (i 0).val < 16384 := (i 0).isLt; show ((i 0).val) / 256 * 256 + ((i 0).val) % 256 = (i 0).val; omega)

def val_main_v3 : (⟨S256x512, .f32⟩ : BufTy).Contents (Elt F) :=
  transpose S256x512 [1, 0] (x2) transposes_S512x256_S256x512_1_0

abbrev idx_main_v3 (i : S256x512.Idx) : S512x256.Idx := fun a => match a with
  | ⟨0, _⟩ => ⟨(i 1).val, (i 1).isLt⟩
  | ⟨1, _⟩ => ⟨(i 0).val, (i 0).isLt⟩

theorem val_main_v3_apply (i : S256x512.Idx) :
    val_main_v3 (F := F) x2 i = x2 (idx_main_v3 i) := by
  unfold val_main_v3
  exact transpose_apply [1, 0] x2 transposes_S512x256_S256x512_1_0 i (idx_main_v3 i) (fun b => match b with
    | ⟨0, _⟩ => rfl
    | ⟨1, _⟩ => rfl)

def val_main_v4 : (⟨S16384x512, .f32⟩ : BufTy).Contents (Elt F) :=
  Host.dotGeneral dot_S16384x256_S256x512_S16384x512_1_0_0_1_n_n none (val_main_v0 (F := F) x0) (val_main_v3 (F := F) x2)

theorem lhs_main_v4_0 (i : S16384x512.Idx) (q : dot_S16384x256_S256x512_S16384x512_1_0_0_1_n_n.contr.Idx) :
    (dot_S16384x256_S256x512_S16384x512_1_0_0_1_n_n.lhsIdx i q 0).val = (i 0).val := by
  unfold DotDims.lhsIdx
  rw [dif_neg (show ¬(0 : Fin S16384x256.rank) ∈ dot_S16384x256_S256x512_S16384x512_1_0_0_1_n_n.lhsBatch by decide), dif_pos (show (0 : Fin S16384x256.rank) ∈ dot_S16384x256_S256x512_S16384x512_1_0_0_1_n_n.lhsNonContracting by decide)]
  rfl

theorem lhs_main_v4_1 (i : S16384x512.Idx) (q : dot_S16384x256_S256x512_S16384x512_1_0_0_1_n_n.contr.Idx) :
    (dot_S16384x256_S256x512_S16384x512_1_0_0_1_n_n.lhsIdx i q 1).val = (q ⟨0, by decide⟩).val :=
  dot_S16384x256_S256x512_S16384x512_1_0_0_1_n_n.lhsIdx_val_of_single rfl i q

theorem rhs_main_v4_0 (i : S16384x512.Idx) (q : dot_S16384x256_S256x512_S16384x512_1_0_0_1_n_n.contr.Idx) :
    (dot_S16384x256_S256x512_S16384x512_1_0_0_1_n_n.rhsIdx i q 0).val = (q ⟨0, by decide⟩).val :=
  dot_S16384x256_S256x512_S16384x512_1_0_0_1_n_n.rhsIdx_val_of_single rfl i q

theorem rhs_main_v4_1 (i : S16384x512.Idx) (q : dot_S16384x256_S256x512_S16384x512_1_0_0_1_n_n.contr.Idx) :
    (dot_S16384x256_S256x512_S16384x512_1_0_0_1_n_n.rhsIdx i q 1).val = (i 1).val := by
  unfold DotDims.rhsIdx
  rw [dif_neg (show ¬(1 : Fin S256x512.rank) ∈ dot_S16384x256_S256x512_S16384x512_1_0_0_1_n_n.rhsBatch by decide), dif_pos (show (1 : Fin S256x512.rank) ∈ dot_S16384x256_S256x512_S16384x512_1_0_0_1_n_n.rhsNonContracting by decide)]
  rfl

abbrev lidx_main_v4 (i : S16384x512.Idx) (k : Fin 256) : S16384x256.Idx := fun a => match a with
  | ⟨0, _⟩ => ⟨(i 0).val, (i 0).isLt⟩
  | ⟨1, _⟩ => ⟨k.val, k.isLt⟩

abbrev ridx_main_v4 (i : S16384x512.Idx) (k : Fin 256) : S256x512.Idx := fun a => match a with
  | ⟨0, _⟩ => ⟨k.val, k.isLt⟩
  | ⟨1, _⟩ => ⟨(i 1).val, (i 1).isLt⟩

def val_main_v5 : (⟨S1x512, .f32⟩ : BufTy).Contents (Elt F) :=
  broadcastInDim S1x512 ![1] bcast_S512_S1x512_1 (x3)

abbrev idx_main_v5 (i : S1x512.Idx) : S512.Idx := fun a => match a with
  | ⟨0, _⟩ => ⟨(i 1).val, (i 1).isLt⟩

theorem val_main_v5_apply (i : S1x512.Idx) :
    val_main_v5 (F := F) x3 i = x3 (idx_main_v5 i) := by
  unfold val_main_v5
  exact broadcastInDim_apply _ bcast_S512_S1x512_1 x3 i (idx_main_v5 i) (fun a => match a with
    | ⟨0, _⟩ => by show (i 1).val = if (512 : Nat) = 1 then 0 else (i 1).val; rw [if_neg (by decide)])

def val_main_v6 : (⟨S16384x512, .f32⟩ : BufTy).Contents (Elt F) :=
  broadcastInDim S16384x512 ![0, 1] bcast_S1x512_S16384x512_0_1 (val_main_v5 (F := F) x3)

abbrev idx_main_v6 (i : S16384x512.Idx) : S1x512.Idx := fun a => match a with
  | ⟨0, _⟩ => ⟨0, Nat.one_pos⟩
  | ⟨1, _⟩ => ⟨(i 1).val, (i 1).isLt⟩

theorem val_main_v6_apply (i : S16384x512.Idx) :
    val_main_v6 (F := F) x3 i = val_main_v5 (F := F) x3 (idx_main_v6 i) := by
  unfold val_main_v6
  generalize val_main_v5 (F := F) x3 = y
  exact broadcastInDim_apply _ bcast_S1x512_S16384x512_0_1 y i (idx_main_v6 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v7 : (⟨S16384x512, .f32⟩ : BufTy).Contents (Elt F) :=
  addf (val_main_v4 (F := F) x0 x2) (val_main_v6 (F := F) x3)

theorem val_main_v7_apply (i : S16384x512.Idx) :
    val_main_v7 (F := F) x0 x2 x3 i = FloatOps.addf (val_main_v4 (F := F) x0 x2 i) (val_main_v6 (F := F) x3 i) := rfl

def val_main_call0_cst : (⟨S_, .f32⟩ : BufTy).Contents (Elt F) :=
  constant S_ .f32 0x00000000#32

theorem val_main_call0_cst_apply (i : S_.Idx) :
    val_main_call0_cst (F := F) i = FloatOps.ofBits .f32 0x00000000#32 := rfl

def val_main_call0_v0 : (⟨S16384x512, .f32⟩ : BufTy).Contents (Elt F) :=
  broadcastInDim S16384x512 ![] bcast_S_S16384x512 (val_main_call0_cst (F := F))

abbrev idx_main_call0_v0 (i : S16384x512.Idx) : S_.Idx := fun a => a.elim0

theorem val_main_call0_v0_apply (i : S16384x512.Idx) :
    val_main_call0_v0 (F := F) i = val_main_call0_cst (F := F) (idx_main_call0_v0 i) := by
  unfold val_main_call0_v0
  generalize val_main_call0_cst (F := F) = y
  exact broadcastInDim_apply _ bcast_S_S16384x512 y i (idx_main_call0_v0 i) (fun a => a.elim0)

def val_main_v8 : (⟨S16384x512, .f32⟩ : BufTy).Contents (Elt F) :=
  maximumf (val_main_v7 (F := F) x0 x2 x3) (val_main_call0_v0 (F := F))

theorem val_main_v8_apply (i : S16384x512.Idx) :
    val_main_v8 (F := F) x0 x2 x3 i = FloatOps.maximumf (val_main_v7 (F := F) x0 x2 x3 i) (val_main_call0_v0 (F := F) i) := rfl

def val_main_v9 : (⟨S1x1x512x512, .f32⟩ : BufTy).Contents (Elt F) :=
  extractStridedSlice S1x1x512x512 ![0, 0, 0, 0] (x6) slices_S2x1x512x512_S1x1x512x512_0_0_0_0

abbrev idx_main_v9 (i : S1x1x512x512.Idx) : S2x1x512x512.Idx := fun a => match a with
  | ⟨0, _⟩ => ⟨(i 0).val, by have h0 : (i 0).val < 1 := (i 0).isLt; show (i 0).val < 2; omega⟩
  | ⟨1, _⟩ => ⟨(i 1).val, (i 1).isLt⟩
  | ⟨2, _⟩ => ⟨(i 2).val, (i 2).isLt⟩
  | ⟨3, _⟩ => ⟨(i 3).val, (i 3).isLt⟩

theorem val_main_v9_apply (i : S1x1x512x512.Idx) :
    val_main_v9 (F := F) x6 i = x6 (idx_main_v9 i) := by
  unfold val_main_v9
  exact extractStridedSlice_apply ![0, 0, 0, 0] x6 slices_S2x1x512x512_S1x1x512x512_0_0_0_0 i (idx_main_v9 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v10 : (⟨S1x512x512, .f32⟩ : BufTy).Contents (Elt F) :=
  shapeCast _ (val_main_v9 (F := F) x6) shapeCasts_S1x1x512x512_S1x512x512

abbrev idx_main_v10 (i : S1x512x512.Idx) : S1x1x512x512.Idx := fun a => match a with
  | ⟨0, _⟩ => ⟨0, Nat.one_pos⟩
  | ⟨1, _⟩ => ⟨0, Nat.one_pos⟩
  | ⟨2, _⟩ => ⟨(((i 0).val * 512 + (i 1).val) * 512 + (i 2).val) / 512 % 512, by have h0 : (i 0).val < 1 := (i 0).isLt; have h1 : (i 1).val < 512 := (i 1).isLt; have h2 : (i 2).val < 512 := (i 2).isLt; show (((i 0).val * 512 + (i 1).val) * 512 + (i 2).val) / 512 % 512 < 512; omega⟩
  | ⟨3, _⟩ => ⟨(((i 0).val * 512 + (i 1).val) * 512 + (i 2).val) % 512, by have h0 : (i 0).val < 1 := (i 0).isLt; have h1 : (i 1).val < 512 := (i 1).isLt; have h2 : (i 2).val < 512 := (i 2).isLt; show (((i 0).val * 512 + (i 1).val) * 512 + (i 2).val) % 512 < 512; omega⟩

theorem val_main_v10_apply (i : S1x512x512.Idx) :
    val_main_v10 (F := F) x6 i = val_main_v9 (F := F) x6 (idx_main_v10 i) := by
  unfold val_main_v10
  generalize val_main_v9 (F := F) x6 = y
  exact shapeCast_apply y shapeCasts_S1x1x512x512_S1x512x512 i (idx_main_v10 i)
    (by rewrite [Shape.rowMajor_val_four, Shape.rowMajor_val_three]; have h0 : (i 0).val < 1 := (i 0).isLt; have h1 : (i 1).val < 512 := (i 1).isLt; have h2 : (i 2).val < 512 := (i 2).isLt; show ((0 * 1 + 0) * 512 + (((i 0).val * 512 + (i 1).val) * 512 + (i 2).val) / 512 % 512) * 512 + (((i 0).val * 512 + (i 1).val) * 512 + (i 2).val) % 512 = ((i 0).val * 512 + (i 1).val) * 512 + (i 2).val; omega)

def val_main_v11 : (⟨S1x512x16384, .f32⟩ : BufTy).Contents (Elt F) :=
  Host.dotGeneral dot_S1x512x512_S16384x512_S1x512x16384_2_1_01_0_n_n none (val_main_v10 (F := F) x6) (val_main_v8 (F := F) x0 x2 x3)

theorem lhs_main_v11_0 (i : S1x512x16384.Idx) (q : dot_S1x512x512_S16384x512_S1x512x16384_2_1_01_0_n_n.contr.Idx) :
    (dot_S1x512x512_S16384x512_S1x512x16384_2_1_01_0_n_n.lhsIdx i q 0).val = (i 0).val := by
  unfold DotDims.lhsIdx
  rw [dif_neg (show ¬(0 : Fin S1x512x512.rank) ∈ dot_S1x512x512_S16384x512_S1x512x16384_2_1_01_0_n_n.lhsBatch by decide), dif_pos (show (0 : Fin S1x512x512.rank) ∈ dot_S1x512x512_S16384x512_S1x512x16384_2_1_01_0_n_n.lhsNonContracting by decide)]
  rfl

theorem lhs_main_v11_1 (i : S1x512x16384.Idx) (q : dot_S1x512x512_S16384x512_S1x512x16384_2_1_01_0_n_n.contr.Idx) :
    (dot_S1x512x512_S16384x512_S1x512x16384_2_1_01_0_n_n.lhsIdx i q 1).val = (i 1).val := by
  unfold DotDims.lhsIdx
  rw [dif_neg (show ¬(1 : Fin S1x512x512.rank) ∈ dot_S1x512x512_S16384x512_S1x512x16384_2_1_01_0_n_n.lhsBatch by decide), dif_pos (show (1 : Fin S1x512x512.rank) ∈ dot_S1x512x512_S16384x512_S1x512x16384_2_1_01_0_n_n.lhsNonContracting by decide)]
  rfl

theorem lhs_main_v11_2 (i : S1x512x16384.Idx) (q : dot_S1x512x512_S16384x512_S1x512x16384_2_1_01_0_n_n.contr.Idx) :
    (dot_S1x512x512_S16384x512_S1x512x16384_2_1_01_0_n_n.lhsIdx i q 2).val = (q ⟨0, by decide⟩).val :=
  dot_S1x512x512_S16384x512_S1x512x16384_2_1_01_0_n_n.lhsIdx_val_of_single rfl i q

theorem rhs_main_v11_0 (i : S1x512x16384.Idx) (q : dot_S1x512x512_S16384x512_S1x512x16384_2_1_01_0_n_n.contr.Idx) :
    (dot_S1x512x512_S16384x512_S1x512x16384_2_1_01_0_n_n.rhsIdx i q 0).val = (i 2).val := by
  unfold DotDims.rhsIdx
  rw [dif_neg (show ¬(0 : Fin S16384x512.rank) ∈ dot_S1x512x512_S16384x512_S1x512x16384_2_1_01_0_n_n.rhsBatch by decide), dif_pos (show (0 : Fin S16384x512.rank) ∈ dot_S1x512x512_S16384x512_S1x512x16384_2_1_01_0_n_n.rhsNonContracting by decide)]
  rfl

theorem rhs_main_v11_1 (i : S1x512x16384.Idx) (q : dot_S1x512x512_S16384x512_S1x512x16384_2_1_01_0_n_n.contr.Idx) :
    (dot_S1x512x512_S16384x512_S1x512x16384_2_1_01_0_n_n.rhsIdx i q 1).val = (q ⟨0, by decide⟩).val :=
  dot_S1x512x512_S16384x512_S1x512x16384_2_1_01_0_n_n.rhsIdx_val_of_single rfl i q

abbrev lidx_main_v11 (i : S1x512x16384.Idx) (k : Fin 512) : S1x512x512.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v11 (i : S1x512x16384.Idx) (k : Fin 512) : S16384x512.Idx := fun a => match a with
  | ⟨0, _⟩ => ⟨(i 2).val, (i 2).isLt⟩
  | ⟨1, _⟩ => ⟨k.val, k.isLt⟩

def val_main_v12 : (⟨S1x16384x512, .f32⟩ : BufTy).Contents (Elt F) :=
  transpose S1x16384x512 [0, 2, 1] (val_main_v11 (F := F) x0 x2 x3 x6) transposes_S1x512x16384_S1x16384x512_0_2_1

abbrev idx_main_v12 (i : S1x16384x512.Idx) : S1x512x16384.Idx := fun a => match a with
  | ⟨0, _⟩ => ⟨(i 0).val, (i 0).isLt⟩
  | ⟨1, _⟩ => ⟨(i 2).val, (i 2).isLt⟩
  | ⟨2, _⟩ => ⟨(i 1).val, (i 1).isLt⟩

theorem val_main_v12_apply (i : S1x16384x512.Idx) :
    val_main_v12 (F := F) x0 x2 x3 x6 i = val_main_v11 (F := F) x0 x2 x3 x6 (idx_main_v12 i) := by
  unfold val_main_v12
  generalize val_main_v11 (F := F) x0 x2 x3 x6 = y
  exact transpose_apply [0, 2, 1] y transposes_S1x512x16384_S1x16384x512_0_2_1 i (idx_main_v12 i) (fun b => match b with
    | ⟨0, _⟩ => rfl
    | ⟨1, _⟩ => rfl
    | ⟨2, _⟩ => rfl)

def val_main_v13 : (⟨S1x1x512, .f32⟩ : BufTy).Contents (Elt F) :=
  extractStridedSlice S1x1x512 ![0, 0, 0] (x7) slices_S2x1x512_S1x1x512_0_0_0

abbrev idx_main_v13 (i : S1x1x512.Idx) : S2x1x512.Idx := fun a => match a with
  | ⟨0, _⟩ => ⟨(i 0).val, by have h0 : (i 0).val < 1 := (i 0).isLt; show (i 0).val < 2; omega⟩
  | ⟨1, _⟩ => ⟨(i 1).val, (i 1).isLt⟩
  | ⟨2, _⟩ => ⟨(i 2).val, (i 2).isLt⟩

theorem val_main_v13_apply (i : S1x1x512.Idx) :
    val_main_v13 (F := F) x7 i = x7 (idx_main_v13 i) := by
  unfold val_main_v13
  exact extractStridedSlice_apply ![0, 0, 0] x7 slices_S2x1x512_S1x1x512_0_0_0 i (idx_main_v13 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v14 : (⟨S1x512, .f32⟩ : BufTy).Contents (Elt F) :=
  shapeCast _ (val_main_v13 (F := F) x7) shapeCasts_S1x1x512_S1x512

abbrev idx_main_v14 (i : S1x512.Idx) : S1x1x512.Idx := fun a => match a with
  | ⟨0, _⟩ => ⟨0, Nat.one_pos⟩
  | ⟨1, _⟩ => ⟨0, Nat.one_pos⟩
  | ⟨2, _⟩ => ⟨((i 0).val * 512 + (i 1).val) % 512, by have h0 : (i 0).val < 1 := (i 0).isLt; have h1 : (i 1).val < 512 := (i 1).isLt; show ((i 0).val * 512 + (i 1).val) % 512 < 512; omega⟩

theorem val_main_v14_apply (i : S1x512.Idx) :
    val_main_v14 (F := F) x7 i = val_main_v13 (F := F) x7 (idx_main_v14 i) := by
  unfold val_main_v14
  generalize val_main_v13 (F := F) x7 = y
  exact shapeCast_apply y shapeCasts_S1x1x512_S1x512 i (idx_main_v14 i)
    (by rewrite [Shape.rowMajor_val_three, Shape.rowMajor_val_two]; have h0 : (i 0).val < 1 := (i 0).isLt; have h1 : (i 1).val < 512 := (i 1).isLt; show (0 * 1 + 0) * 512 + ((i 0).val * 512 + (i 1).val) % 512 = (i 0).val * 512 + (i 1).val; omega)

def val_main_v15 : (⟨S1x1x512, .f32⟩ : BufTy).Contents (Elt F) :=
  broadcastInDim S1x1x512 ![0, 2] bcast_S1x512_S1x1x512_0_2 (val_main_v14 (F := F) x7)

abbrev idx_main_v15 (i : S1x1x512.Idx) : S1x512.Idx := fun a => match a with
  | ⟨0, _⟩ => ⟨0, Nat.one_pos⟩
  | ⟨1, _⟩ => ⟨(i 2).val, (i 2).isLt⟩

theorem val_main_v15_apply (i : S1x1x512.Idx) :
    val_main_v15 (F := F) x7 i = val_main_v14 (F := F) x7 (idx_main_v15 i) := by
  unfold val_main_v15
  generalize val_main_v14 (F := F) x7 = y
  exact broadcastInDim_apply _ bcast_S1x512_S1x1x512_0_2 y i (idx_main_v15 i) (fun a => match a with
    | ⟨0, _⟩ => by show 0 = if (1 : Nat) = 1 then 0 else (i 0).val; rw [if_pos rfl]
    | ⟨1, _⟩ => by show (i 2).val = if (512 : Nat) = 1 then 0 else (i 2).val; rw [if_neg (by decide)])

def val_main_v16 : (⟨S1x16384x512, .f32⟩ : BufTy).Contents (Elt F) :=
  broadcastInDim S1x16384x512 ![0, 1, 2] bcast_S1x1x512_S1x16384x512_0_1_2 (val_main_v15 (F := F) x7)

abbrev idx_main_v16 (i : S1x16384x512.Idx) : S1x1x512.Idx := fun a => match a with
  | ⟨0, _⟩ => ⟨0, Nat.one_pos⟩
  | ⟨1, _⟩ => ⟨0, Nat.one_pos⟩
  | ⟨2, _⟩ => ⟨(i 2).val, (i 2).isLt⟩

theorem val_main_v16_apply (i : S1x16384x512.Idx) :
    val_main_v16 (F := F) x7 i = val_main_v15 (F := F) x7 (idx_main_v16 i) := by
  unfold val_main_v16
  generalize val_main_v15 (F := F) x7 = y
  exact broadcastInDim_apply _ bcast_S1x1x512_S1x16384x512_0_1_2 y i (idx_main_v16 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (512 : Nat) = 1 then 0 else (i 2).val; rw [if_neg (by decide)])

def val_main_v17 : (⟨S1x16384x512, .f32⟩ : BufTy).Contents (Elt F) :=
  addf (val_main_v12 (F := F) x0 x2 x3 x6) (val_main_v16 (F := F) x7)

theorem val_main_v17_apply (i : S1x16384x512.Idx) :
    val_main_v17 (F := F) x0 x2 x3 x6 x7 i = FloatOps.addf (val_main_v12 (F := F) x0 x2 x3 x6 i) (val_main_v16 (F := F) x7 i) := rfl

def val_main_cst : (⟨S_, .f32⟩ : BufTy).Contents (Elt F) :=
  constant S_ .f32 0x00000000#32

theorem val_main_cst_apply (i : S_.Idx) :
    val_main_cst (F := F) i = FloatOps.ofBits .f32 0x00000000#32 := rfl

def val_main_v18 : (⟨S16384x512, .f32⟩ : BufTy).Contents (Elt F) :=
  Host.reduceAdd (val_main_v17 (F := F) x0 x2 x3 x6 x7) (val_main_cst (F := F)) reducesTo_S1x16384x512_S16384x512_d0 h_S_

abbrev idx_main_v18 (i : S16384x512.Idx) (k : Fin 1) : S1x16384x512.Idx := fun a => match a with
  | ⟨0, _⟩ => ⟨k.val, k.isLt⟩
  | ⟨1, _⟩ => ⟨(i 0).val, (i 0).isLt⟩
  | ⟨2, _⟩ => ⟨(i 1).val, (i 1).isLt⟩

def val_main_cst_0 : (⟨S_, .f32⟩ : BufTy).Contents (Elt F) :=
  constant S_ .f32 0x3F800000#32

theorem val_main_cst_0_apply (i : S_.Idx) :
    val_main_cst_0 (F := F) i = FloatOps.ofBits .f32 0x3F800000#32 := rfl

def val_main_v19 : (⟨S16384x512, .f32⟩ : BufTy).Contents (Elt F) :=
  broadcastInDim S16384x512 ![] bcast_S_S16384x512 (val_main_cst_0 (F := F))

abbrev idx_main_v19 (i : S16384x512.Idx) : S_.Idx := fun a => a.elim0

theorem val_main_v19_apply (i : S16384x512.Idx) :
    val_main_v19 (F := F) i = val_main_cst_0 (F := F) (idx_main_v19 i) := by
  unfold val_main_v19
  generalize val_main_cst_0 (F := F) = y
  exact broadcastInDim_apply _ bcast_S_S16384x512 y i (idx_main_v19 i) (fun a => a.elim0)

def val_main_v20 : (⟨S16384x512, .f32⟩ : BufTy).Contents (Elt F) :=
  Host.divf (val_main_v18 (F := F) x0 x2 x3 x6 x7) (val_main_v19 (F := F))

theorem val_main_v20_apply (i : S16384x512.Idx) :
    val_main_v20 (F := F) x0 x2 x3 x6 x7 i = FloatOps.hostDivf (val_main_v18 (F := F) x0 x2 x3 x6 x7 i) (val_main_v19 (F := F) i) := rfl

def val_main_cst_1 : (⟨S_, .f32⟩ : BufTy).Contents (Elt F) :=
  constant S_ .f32 0x00000000#32

theorem val_main_cst_1_apply (i : S_.Idx) :
    val_main_cst_1 (F := F) i = FloatOps.ofBits .f32 0x00000000#32 := rfl

def val_main_v21 : (⟨S16384x512, .f32⟩ : BufTy).Contents (Elt F) :=
  broadcastInDim S16384x512 ![] bcast_S_S16384x512 (val_main_cst_1 (F := F))

abbrev idx_main_v21 (i : S16384x512.Idx) : S_.Idx := fun a => a.elim0

theorem val_main_v21_apply (i : S16384x512.Idx) :
    val_main_v21 (F := F) i = val_main_cst_1 (F := F) (idx_main_v21 i) := by
  unfold val_main_v21
  generalize val_main_cst_1 (F := F) = y
  exact broadcastInDim_apply _ bcast_S_S16384x512 y i (idx_main_v21 i) (fun a => a.elim0)

def val_main_v246 : (⟨S16384x512, .f32⟩ : BufTy).Contents (Elt F) :=
  addf (val_main_v20 (F := F) x0 x2 x3 x6 x7) (Cert.RefValue.routed (F := F) 0 (val_main_v8 (F := F) x0 x2 x3) (val_main_v2 (F := F) x1) x4 x5)

theorem val_main_v246_apply (i : S16384x512.Idx) :
    val_main_v246 (F := F) x0 x1 x2 x3 x4 x5 x6 x7 i = FloatOps.addf (val_main_v20 (F := F) x0 x2 x3 x6 x7 i) (Cert.RefValue.routed (F := F) 0 (val_main_v8 (F := F) x0 x2 x3) (val_main_v2 (F := F) x1) x4 x5 i) := rfl

def val_main_v247 : (⟨S16384x512, .f32⟩ : BufTy).Contents (Elt F) :=
  addf (val_main_v246 (F := F) x0 x1 x2 x3 x4 x5 x6 x7) (val_main_v8 (F := F) x0 x2 x3)

theorem val_main_v247_apply (i : S16384x512.Idx) :
    val_main_v247 (F := F) x0 x1 x2 x3 x4 x5 x6 x7 i = FloatOps.addf (val_main_v246 (F := F) x0 x1 x2 x3 x4 x5 x6 x7 i) (val_main_v8 (F := F) x0 x2 x3 i) := rfl

def val_main_call17_cst : (⟨S_, .f32⟩ : BufTy).Contents (Elt F) :=
  constant S_ .f32 0x00000000#32

theorem val_main_call17_cst_apply (i : S_.Idx) :
    val_main_call17_cst (F := F) i = FloatOps.ofBits .f32 0x00000000#32 := rfl

def val_main_call17_v0 : (⟨S16384x512, .f32⟩ : BufTy).Contents (Elt F) :=
  broadcastInDim S16384x512 ![] bcast_S_S16384x512 (val_main_call17_cst (F := F))

abbrev idx_main_call17_v0 (i : S16384x512.Idx) : S_.Idx := fun a => a.elim0

theorem val_main_call17_v0_apply (i : S16384x512.Idx) :
    val_main_call17_v0 (F := F) i = val_main_call17_cst (F := F) (idx_main_call17_v0 i) := by
  unfold val_main_call17_v0
  generalize val_main_call17_cst (F := F) = y
  exact broadcastInDim_apply _ bcast_S_S16384x512 y i (idx_main_call17_v0 i) (fun a => a.elim0)

def val_main_v248 : (⟨S16384x512, .f32⟩ : BufTy).Contents (Elt F) :=
  maximumf (val_main_v247 (F := F) x0 x1 x2 x3 x4 x5 x6 x7) (val_main_call17_v0 (F := F))

theorem val_main_v248_apply (i : S16384x512.Idx) :
    val_main_v248 (F := F) x0 x1 x2 x3 x4 x5 x6 x7 i = FloatOps.maximumf (val_main_v247 (F := F) x0 x1 x2 x3 x4 x5 x6 x7 i) (val_main_call17_v0 (F := F) i) := rfl

def val_main_v249 : (⟨S1x1x512x512, .f32⟩ : BufTy).Contents (Elt F) :=
  extractStridedSlice S1x1x512x512 ![1, 0, 0, 0] (x6) slices_S2x1x512x512_S1x1x512x512_1_0_0_0

abbrev idx_main_v249 (i : S1x1x512x512.Idx) : S2x1x512x512.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
  | ⟨2, _⟩ => ⟨(i 2).val, (i 2).isLt⟩
  | ⟨3, _⟩ => ⟨(i 3).val, (i 3).isLt⟩

theorem val_main_v249_apply (i : S1x1x512x512.Idx) :
    val_main_v249 (F := F) x6 i = x6 (idx_main_v249 i) := by
  unfold val_main_v249
  exact extractStridedSlice_apply ![1, 0, 0, 0] x6 slices_S2x1x512x512_S1x1x512x512_1_0_0_0 i (idx_main_v249 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v250 : (⟨S1x512x512, .f32⟩ : BufTy).Contents (Elt F) :=
  shapeCast _ (val_main_v249 (F := F) x6) shapeCasts_S1x1x512x512_S1x512x512

abbrev idx_main_v250 (i : S1x512x512.Idx) : S1x1x512x512.Idx := fun a => match a with
  | ⟨0, _⟩ => ⟨0, Nat.one_pos⟩
  | ⟨1, _⟩ => ⟨0, Nat.one_pos⟩
  | ⟨2, _⟩ => ⟨(((i 0).val * 512 + (i 1).val) * 512 + (i 2).val) / 512 % 512, by have h0 : (i 0).val < 1 := (i 0).isLt; have h1 : (i 1).val < 512 := (i 1).isLt; have h2 : (i 2).val < 512 := (i 2).isLt; show (((i 0).val * 512 + (i 1).val) * 512 + (i 2).val) / 512 % 512 < 512; omega⟩
  | ⟨3, _⟩ => ⟨(((i 0).val * 512 + (i 1).val) * 512 + (i 2).val) % 512, by have h0 : (i 0).val < 1 := (i 0).isLt; have h1 : (i 1).val < 512 := (i 1).isLt; have h2 : (i 2).val < 512 := (i 2).isLt; show (((i 0).val * 512 + (i 1).val) * 512 + (i 2).val) % 512 < 512; omega⟩

theorem val_main_v250_apply (i : S1x512x512.Idx) :
    val_main_v250 (F := F) x6 i = val_main_v249 (F := F) x6 (idx_main_v250 i) := by
  unfold val_main_v250
  generalize val_main_v249 (F := F) x6 = y
  exact shapeCast_apply y shapeCasts_S1x1x512x512_S1x512x512 i (idx_main_v250 i)
    (by rewrite [Shape.rowMajor_val_four, Shape.rowMajor_val_three]; have h0 : (i 0).val < 1 := (i 0).isLt; have h1 : (i 1).val < 512 := (i 1).isLt; have h2 : (i 2).val < 512 := (i 2).isLt; show ((0 * 1 + 0) * 512 + (((i 0).val * 512 + (i 1).val) * 512 + (i 2).val) / 512 % 512) * 512 + (((i 0).val * 512 + (i 1).val) * 512 + (i 2).val) % 512 = ((i 0).val * 512 + (i 1).val) * 512 + (i 2).val; omega)

def val_main_v251 : (⟨S1x512x16384, .f32⟩ : BufTy).Contents (Elt F) :=
  Host.dotGeneral dot_S1x512x512_S16384x512_S1x512x16384_2_1_01_0_n_n none (val_main_v250 (F := F) x6) (val_main_v248 (F := F) x0 x1 x2 x3 x4 x5 x6 x7)

theorem lhs_main_v251_0 (i : S1x512x16384.Idx) (q : dot_S1x512x512_S16384x512_S1x512x16384_2_1_01_0_n_n.contr.Idx) :
    (dot_S1x512x512_S16384x512_S1x512x16384_2_1_01_0_n_n.lhsIdx i q 0).val = (i 0).val := by
  unfold DotDims.lhsIdx
  rw [dif_neg (show ¬(0 : Fin S1x512x512.rank) ∈ dot_S1x512x512_S16384x512_S1x512x16384_2_1_01_0_n_n.lhsBatch by decide), dif_pos (show (0 : Fin S1x512x512.rank) ∈ dot_S1x512x512_S16384x512_S1x512x16384_2_1_01_0_n_n.lhsNonContracting by decide)]
  rfl

theorem lhs_main_v251_1 (i : S1x512x16384.Idx) (q : dot_S1x512x512_S16384x512_S1x512x16384_2_1_01_0_n_n.contr.Idx) :
    (dot_S1x512x512_S16384x512_S1x512x16384_2_1_01_0_n_n.lhsIdx i q 1).val = (i 1).val := by
  unfold DotDims.lhsIdx
  rw [dif_neg (show ¬(1 : Fin S1x512x512.rank) ∈ dot_S1x512x512_S16384x512_S1x512x16384_2_1_01_0_n_n.lhsBatch by decide), dif_pos (show (1 : Fin S1x512x512.rank) ∈ dot_S1x512x512_S16384x512_S1x512x16384_2_1_01_0_n_n.lhsNonContracting by decide)]
  rfl

theorem lhs_main_v251_2 (i : S1x512x16384.Idx) (q : dot_S1x512x512_S16384x512_S1x512x16384_2_1_01_0_n_n.contr.Idx) :
    (dot_S1x512x512_S16384x512_S1x512x16384_2_1_01_0_n_n.lhsIdx i q 2).val = (q ⟨0, by decide⟩).val :=
  dot_S1x512x512_S16384x512_S1x512x16384_2_1_01_0_n_n.lhsIdx_val_of_single rfl i q

theorem rhs_main_v251_0 (i : S1x512x16384.Idx) (q : dot_S1x512x512_S16384x512_S1x512x16384_2_1_01_0_n_n.contr.Idx) :
    (dot_S1x512x512_S16384x512_S1x512x16384_2_1_01_0_n_n.rhsIdx i q 0).val = (i 2).val := by
  unfold DotDims.rhsIdx
  rw [dif_neg (show ¬(0 : Fin S16384x512.rank) ∈ dot_S1x512x512_S16384x512_S1x512x16384_2_1_01_0_n_n.rhsBatch by decide), dif_pos (show (0 : Fin S16384x512.rank) ∈ dot_S1x512x512_S16384x512_S1x512x16384_2_1_01_0_n_n.rhsNonContracting by decide)]
  rfl

theorem rhs_main_v251_1 (i : S1x512x16384.Idx) (q : dot_S1x512x512_S16384x512_S1x512x16384_2_1_01_0_n_n.contr.Idx) :
    (dot_S1x512x512_S16384x512_S1x512x16384_2_1_01_0_n_n.rhsIdx i q 1).val = (q ⟨0, by decide⟩).val :=
  dot_S1x512x512_S16384x512_S1x512x16384_2_1_01_0_n_n.rhsIdx_val_of_single rfl i q

abbrev lidx_main_v251 (i : S1x512x16384.Idx) (k : Fin 512) : S1x512x512.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v251 (i : S1x512x16384.Idx) (k : Fin 512) : S16384x512.Idx := fun a => match a with
  | ⟨0, _⟩ => ⟨(i 2).val, (i 2).isLt⟩
  | ⟨1, _⟩ => ⟨k.val, k.isLt⟩

def val_main_v252 : (⟨S1x16384x512, .f32⟩ : BufTy).Contents (Elt F) :=
  transpose S1x16384x512 [0, 2, 1] (val_main_v251 (F := F) x0 x1 x2 x3 x4 x5 x6 x7) transposes_S1x512x16384_S1x16384x512_0_2_1

abbrev idx_main_v252 (i : S1x16384x512.Idx) : S1x512x16384.Idx := fun a => match a with
  | ⟨0, _⟩ => ⟨(i 0).val, (i 0).isLt⟩
  | ⟨1, _⟩ => ⟨(i 2).val, (i 2).isLt⟩
  | ⟨2, _⟩ => ⟨(i 1).val, (i 1).isLt⟩

theorem val_main_v252_apply (i : S1x16384x512.Idx) :
    val_main_v252 (F := F) x0 x1 x2 x3 x4 x5 x6 x7 i = val_main_v251 (F := F) x0 x1 x2 x3 x4 x5 x6 x7 (idx_main_v252 i) := by
  unfold val_main_v252
  generalize val_main_v251 (F := F) x0 x1 x2 x3 x4 x5 x6 x7 = y
  exact transpose_apply [0, 2, 1] y transposes_S1x512x16384_S1x16384x512_0_2_1 i (idx_main_v252 i) (fun b => match b with
    | ⟨0, _⟩ => rfl
    | ⟨1, _⟩ => rfl
    | ⟨2, _⟩ => rfl)

def val_main_v253 : (⟨S1x1x512, .f32⟩ : BufTy).Contents (Elt F) :=
  extractStridedSlice S1x1x512 ![1, 0, 0] (x7) slices_S2x1x512_S1x1x512_1_0_0

abbrev idx_main_v253 (i : S1x1x512.Idx) : S2x1x512.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
  | ⟨2, _⟩ => ⟨(i 2).val, (i 2).isLt⟩

theorem val_main_v253_apply (i : S1x1x512.Idx) :
    val_main_v253 (F := F) x7 i = x7 (idx_main_v253 i) := by
  unfold val_main_v253
  exact extractStridedSlice_apply ![1, 0, 0] x7 slices_S2x1x512_S1x1x512_1_0_0 i (idx_main_v253 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v254 : (⟨S1x512, .f32⟩ : BufTy).Contents (Elt F) :=
  shapeCast _ (val_main_v253 (F := F) x7) shapeCasts_S1x1x512_S1x512

abbrev idx_main_v254 (i : S1x512.Idx) : S1x1x512.Idx := fun a => match a with
  | ⟨0, _⟩ => ⟨0, Nat.one_pos⟩
  | ⟨1, _⟩ => ⟨0, Nat.one_pos⟩
  | ⟨2, _⟩ => ⟨((i 0).val * 512 + (i 1).val) % 512, by have h0 : (i 0).val < 1 := (i 0).isLt; have h1 : (i 1).val < 512 := (i 1).isLt; show ((i 0).val * 512 + (i 1).val) % 512 < 512; omega⟩

theorem val_main_v254_apply (i : S1x512.Idx) :
    val_main_v254 (F := F) x7 i = val_main_v253 (F := F) x7 (idx_main_v254 i) := by
  unfold val_main_v254
  generalize val_main_v253 (F := F) x7 = y
  exact shapeCast_apply y shapeCasts_S1x1x512_S1x512 i (idx_main_v254 i)
    (by rewrite [Shape.rowMajor_val_three, Shape.rowMajor_val_two]; have h0 : (i 0).val < 1 := (i 0).isLt; have h1 : (i 1).val < 512 := (i 1).isLt; show (0 * 1 + 0) * 512 + ((i 0).val * 512 + (i 1).val) % 512 = (i 0).val * 512 + (i 1).val; omega)

def val_main_v255 : (⟨S1x1x512, .f32⟩ : BufTy).Contents (Elt F) :=
  broadcastInDim S1x1x512 ![0, 2] bcast_S1x512_S1x1x512_0_2 (val_main_v254 (F := F) x7)

abbrev idx_main_v255 (i : S1x1x512.Idx) : S1x512.Idx := fun a => match a with
  | ⟨0, _⟩ => ⟨0, Nat.one_pos⟩
  | ⟨1, _⟩ => ⟨(i 2).val, (i 2).isLt⟩

theorem val_main_v255_apply (i : S1x1x512.Idx) :
    val_main_v255 (F := F) x7 i = val_main_v254 (F := F) x7 (idx_main_v255 i) := by
  unfold val_main_v255
  generalize val_main_v254 (F := F) x7 = y
  exact broadcastInDim_apply _ bcast_S1x512_S1x1x512_0_2 y i (idx_main_v255 i) (fun a => match a with
    | ⟨0, _⟩ => by show 0 = if (1 : Nat) = 1 then 0 else (i 0).val; rw [if_pos rfl]
    | ⟨1, _⟩ => by show (i 2).val = if (512 : Nat) = 1 then 0 else (i 2).val; rw [if_neg (by decide)])

def val_main_v256 : (⟨S1x16384x512, .f32⟩ : BufTy).Contents (Elt F) :=
  broadcastInDim S1x16384x512 ![0, 1, 2] bcast_S1x1x512_S1x16384x512_0_1_2 (val_main_v255 (F := F) x7)

abbrev idx_main_v256 (i : S1x16384x512.Idx) : S1x1x512.Idx := fun a => match a with
  | ⟨0, _⟩ => ⟨0, Nat.one_pos⟩
  | ⟨1, _⟩ => ⟨0, Nat.one_pos⟩
  | ⟨2, _⟩ => ⟨(i 2).val, (i 2).isLt⟩

theorem val_main_v256_apply (i : S1x16384x512.Idx) :
    val_main_v256 (F := F) x7 i = val_main_v255 (F := F) x7 (idx_main_v256 i) := by
  unfold val_main_v256
  generalize val_main_v255 (F := F) x7 = y
  exact broadcastInDim_apply _ bcast_S1x1x512_S1x16384x512_0_1_2 y i (idx_main_v256 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (512 : Nat) = 1 then 0 else (i 2).val; rw [if_neg (by decide)])

def val_main_v257 : (⟨S1x16384x512, .f32⟩ : BufTy).Contents (Elt F) :=
  addf (val_main_v252 (F := F) x0 x1 x2 x3 x4 x5 x6 x7) (val_main_v256 (F := F) x7)

theorem val_main_v257_apply (i : S1x16384x512.Idx) :
    val_main_v257 (F := F) x0 x1 x2 x3 x4 x5 x6 x7 i = FloatOps.addf (val_main_v252 (F := F) x0 x1 x2 x3 x4 x5 x6 x7 i) (val_main_v256 (F := F) x7 i) := rfl

def val_main_cst_33 : (⟨S_, .f32⟩ : BufTy).Contents (Elt F) :=
  constant S_ .f32 0x00000000#32

theorem val_main_cst_33_apply (i : S_.Idx) :
    val_main_cst_33 (F := F) i = FloatOps.ofBits .f32 0x00000000#32 := rfl

def val_main_v258 : (⟨S16384x512, .f32⟩ : BufTy).Contents (Elt F) :=
  Host.reduceAdd (val_main_v257 (F := F) x0 x1 x2 x3 x4 x5 x6 x7) (val_main_cst_33 (F := F)) reducesTo_S1x16384x512_S16384x512_d0 h_S_

abbrev idx_main_v258 (i : S16384x512.Idx) (k : Fin 1) : S1x16384x512.Idx := fun a => match a with
  | ⟨0, _⟩ => ⟨k.val, k.isLt⟩
  | ⟨1, _⟩ => ⟨(i 0).val, (i 0).isLt⟩
  | ⟨2, _⟩ => ⟨(i 1).val, (i 1).isLt⟩

def val_main_cst_34 : (⟨S_, .f32⟩ : BufTy).Contents (Elt F) :=
  constant S_ .f32 0x3F800000#32

theorem val_main_cst_34_apply (i : S_.Idx) :
    val_main_cst_34 (F := F) i = FloatOps.ofBits .f32 0x3F800000#32 := rfl

def val_main_v259 : (⟨S16384x512, .f32⟩ : BufTy).Contents (Elt F) :=
  broadcastInDim S16384x512 ![] bcast_S_S16384x512 (val_main_cst_34 (F := F))

abbrev idx_main_v259 (i : S16384x512.Idx) : S_.Idx := fun a => a.elim0

theorem val_main_v259_apply (i : S16384x512.Idx) :
    val_main_v259 (F := F) i = val_main_cst_34 (F := F) (idx_main_v259 i) := by
  unfold val_main_v259
  generalize val_main_cst_34 (F := F) = y
  exact broadcastInDim_apply _ bcast_S_S16384x512 y i (idx_main_v259 i) (fun a => a.elim0)

def val_main_v260 : (⟨S16384x512, .f32⟩ : BufTy).Contents (Elt F) :=
  Host.divf (val_main_v258 (F := F) x0 x1 x2 x3 x4 x5 x6 x7) (val_main_v259 (F := F))

theorem val_main_v260_apply (i : S16384x512.Idx) :
    val_main_v260 (F := F) x0 x1 x2 x3 x4 x5 x6 x7 i = FloatOps.hostDivf (val_main_v258 (F := F) x0 x1 x2 x3 x4 x5 x6 x7 i) (val_main_v259 (F := F) i) := rfl

def val_main_cst_35 : (⟨S_, .f32⟩ : BufTy).Contents (Elt F) :=
  constant S_ .f32 0x00000000#32

theorem val_main_cst_35_apply (i : S_.Idx) :
    val_main_cst_35 (F := F) i = FloatOps.ofBits .f32 0x00000000#32 := rfl

def val_main_v261 : (⟨S16384x512, .f32⟩ : BufTy).Contents (Elt F) :=
  broadcastInDim S16384x512 ![] bcast_S_S16384x512 (val_main_cst_35 (F := F))

abbrev idx_main_v261 (i : S16384x512.Idx) : S_.Idx := fun a => a.elim0

theorem val_main_v261_apply (i : S16384x512.Idx) :
    val_main_v261 (F := F) i = val_main_cst_35 (F := F) (idx_main_v261 i) := by
  unfold val_main_v261
  generalize val_main_cst_35 (F := F) = y
  exact broadcastInDim_apply _ bcast_S_S16384x512 y i (idx_main_v261 i) (fun a => a.elim0)

def val_main_v486 : (⟨S16384x512, .f32⟩ : BufTy).Contents (Elt F) :=
  addf (val_main_v260 (F := F) x0 x1 x2 x3 x4 x5 x6 x7) (Cert.RefValue.routed (F := F) 1 (val_main_v248 (F := F) x0 x1 x2 x3 x4 x5 x6 x7) (val_main_v2 (F := F) x1) x4 x5)

theorem val_main_v486_apply (i : S16384x512.Idx) :
    val_main_v486 (F := F) x0 x1 x2 x3 x4 x5 x6 x7 i = FloatOps.addf (val_main_v260 (F := F) x0 x1 x2 x3 x4 x5 x6 x7 i) (Cert.RefValue.routed (F := F) 1 (val_main_v248 (F := F) x0 x1 x2 x3 x4 x5 x6 x7) (val_main_v2 (F := F) x1) x4 x5 i) := rfl

def val_main_v487 : (⟨S16384x512, .f32⟩ : BufTy).Contents (Elt F) :=
  addf (val_main_v486 (F := F) x0 x1 x2 x3 x4 x5 x6 x7) (val_main_v248 (F := F) x0 x1 x2 x3 x4 x5 x6 x7)

theorem val_main_v487_apply (i : S16384x512.Idx) :
    val_main_v487 (F := F) x0 x1 x2 x3 x4 x5 x6 x7 i = FloatOps.addf (val_main_v486 (F := F) x0 x1 x2 x3 x4 x5 x6 x7 i) (val_main_v248 (F := F) x0 x1 x2 x3 x4 x5 x6 x7 i) := rfl

def val_main_call34_cst : (⟨S_, .f32⟩ : BufTy).Contents (Elt F) :=
  constant S_ .f32 0x00000000#32

theorem val_main_call34_cst_apply (i : S_.Idx) :
    val_main_call34_cst (F := F) i = FloatOps.ofBits .f32 0x00000000#32 := rfl

def val_main_call34_v0 : (⟨S16384x512, .f32⟩ : BufTy).Contents (Elt F) :=
  broadcastInDim S16384x512 ![] bcast_S_S16384x512 (val_main_call34_cst (F := F))

abbrev idx_main_call34_v0 (i : S16384x512.Idx) : S_.Idx := fun a => a.elim0

theorem val_main_call34_v0_apply (i : S16384x512.Idx) :
    val_main_call34_v0 (F := F) i = val_main_call34_cst (F := F) (idx_main_call34_v0 i) := by
  unfold val_main_call34_v0
  generalize val_main_call34_cst (F := F) = y
  exact broadcastInDim_apply _ bcast_S_S16384x512 y i (idx_main_call34_v0 i) (fun a => a.elim0)

def val_main_v488 : (⟨S16384x512, .f32⟩ : BufTy).Contents (Elt F) :=
  maximumf (val_main_v487 (F := F) x0 x1 x2 x3 x4 x5 x6 x7) (val_main_call34_v0 (F := F))

theorem val_main_v488_apply (i : S16384x512.Idx) :
    val_main_v488 (F := F) x0 x1 x2 x3 x4 x5 x6 x7 i = FloatOps.maximumf (val_main_v487 (F := F) x0 x1 x2 x3 x4 x5 x6 x7 i) (val_main_call34_v0 (F := F) i) := rfl

def val_main_v489 : (⟨S512x256, .f32⟩ : BufTy).Contents (Elt F) :=
  transpose S512x256 [1, 0] (x8) transposes_S256x512_S512x256_1_0

abbrev idx_main_v489 (i : S512x256.Idx) : S256x512.Idx := fun a => match a with
  | ⟨0, _⟩ => ⟨(i 1).val, (i 1).isLt⟩
  | ⟨1, _⟩ => ⟨(i 0).val, (i 0).isLt⟩

theorem val_main_v489_apply (i : S512x256.Idx) :
    val_main_v489 (F := F) x8 i = x8 (idx_main_v489 i) := by
  unfold val_main_v489
  exact transpose_apply [1, 0] x8 transposes_S256x512_S512x256_1_0 i (idx_main_v489 i) (fun b => match b with
    | ⟨0, _⟩ => rfl
    | ⟨1, _⟩ => rfl)

def val_main_v490 : (⟨S16384x256, .f32⟩ : BufTy).Contents (Elt F) :=
  Host.dotGeneral dot_S16384x512_S512x256_S16384x256_1_0_0_1_n_n none (val_main_v488 (F := F) x0 x1 x2 x3 x4 x5 x6 x7) (val_main_v489 (F := F) x8)

theorem lhs_main_v490_0 (i : S16384x256.Idx) (q : dot_S16384x512_S512x256_S16384x256_1_0_0_1_n_n.contr.Idx) :
    (dot_S16384x512_S512x256_S16384x256_1_0_0_1_n_n.lhsIdx i q 0).val = (i 0).val := by
  unfold DotDims.lhsIdx
  rw [dif_neg (show ¬(0 : Fin S16384x512.rank) ∈ dot_S16384x512_S512x256_S16384x256_1_0_0_1_n_n.lhsBatch by decide), dif_pos (show (0 : Fin S16384x512.rank) ∈ dot_S16384x512_S512x256_S16384x256_1_0_0_1_n_n.lhsNonContracting by decide)]
  rfl

theorem lhs_main_v490_1 (i : S16384x256.Idx) (q : dot_S16384x512_S512x256_S16384x256_1_0_0_1_n_n.contr.Idx) :
    (dot_S16384x512_S512x256_S16384x256_1_0_0_1_n_n.lhsIdx i q 1).val = (q ⟨0, by decide⟩).val :=
  dot_S16384x512_S512x256_S16384x256_1_0_0_1_n_n.lhsIdx_val_of_single rfl i q

theorem rhs_main_v490_0 (i : S16384x256.Idx) (q : dot_S16384x512_S512x256_S16384x256_1_0_0_1_n_n.contr.Idx) :
    (dot_S16384x512_S512x256_S16384x256_1_0_0_1_n_n.rhsIdx i q 0).val = (q ⟨0, by decide⟩).val :=
  dot_S16384x512_S512x256_S16384x256_1_0_0_1_n_n.rhsIdx_val_of_single rfl i q

theorem rhs_main_v490_1 (i : S16384x256.Idx) (q : dot_S16384x512_S512x256_S16384x256_1_0_0_1_n_n.contr.Idx) :
    (dot_S16384x512_S512x256_S16384x256_1_0_0_1_n_n.rhsIdx i q 1).val = (i 1).val := by
  unfold DotDims.rhsIdx
  rw [dif_neg (show ¬(1 : Fin S512x256.rank) ∈ dot_S16384x512_S512x256_S16384x256_1_0_0_1_n_n.rhsBatch by decide), dif_pos (show (1 : Fin S512x256.rank) ∈ dot_S16384x512_S512x256_S16384x256_1_0_0_1_n_n.rhsNonContracting by decide)]
  rfl

abbrev lidx_main_v490 (i : S16384x256.Idx) (k : Fin 512) : S16384x512.Idx := fun a => match a with
  | ⟨0, _⟩ => ⟨(i 0).val, (i 0).isLt⟩
  | ⟨1, _⟩ => ⟨k.val, k.isLt⟩

abbrev ridx_main_v490 (i : S16384x256.Idx) (k : Fin 512) : S512x256.Idx := fun a => match a with
  | ⟨0, _⟩ => ⟨k.val, k.isLt⟩
  | ⟨1, _⟩ => ⟨(i 1).val, (i 1).isLt⟩

def val_main_v491 : (⟨S1x256, .f32⟩ : BufTy).Contents (Elt F) :=
  broadcastInDim S1x256 ![1] bcast_S256_S1x256_1 (x9)

abbrev idx_main_v491 (i : S1x256.Idx) : S256.Idx := fun a => match a with
  | ⟨0, _⟩ => ⟨(i 1).val, (i 1).isLt⟩

theorem val_main_v491_apply (i : S1x256.Idx) :
    val_main_v491 (F := F) x9 i = x9 (idx_main_v491 i) := by
  unfold val_main_v491
  exact broadcastInDim_apply _ bcast_S256_S1x256_1 x9 i (idx_main_v491 i) (fun a => match a with
    | ⟨0, _⟩ => by show (i 1).val = if (256 : Nat) = 1 then 0 else (i 1).val; rw [if_neg (by decide)])

def val_main_v492 : (⟨S16384x256, .f32⟩ : BufTy).Contents (Elt F) :=
  broadcastInDim S16384x256 ![0, 1] bcast_S1x256_S16384x256_0_1 (val_main_v491 (F := F) x9)

abbrev idx_main_v492 (i : S16384x256.Idx) : S1x256.Idx := fun a => match a with
  | ⟨0, _⟩ => ⟨0, Nat.one_pos⟩
  | ⟨1, _⟩ => ⟨(i 1).val, (i 1).isLt⟩

theorem val_main_v492_apply (i : S16384x256.Idx) :
    val_main_v492 (F := F) x9 i = val_main_v491 (F := F) x9 (idx_main_v492 i) := by
  unfold val_main_v492
  generalize val_main_v491 (F := F) x9 = y
  exact broadcastInDim_apply _ bcast_S1x256_S16384x256_0_1 y i (idx_main_v492 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v493 : (⟨S16384x256, .f32⟩ : BufTy).Contents (Elt F) :=
  addf (val_main_v490 (F := F) x0 x1 x2 x3 x4 x5 x6 x7 x8) (val_main_v492 (F := F) x9)

theorem val_main_v493_apply (i : S16384x256.Idx) :
    val_main_v493 (F := F) x0 x1 x2 x3 x4 x5 x6 x7 x8 x9 i = FloatOps.addf (val_main_v490 (F := F) x0 x1 x2 x3 x4 x5 x6 x7 x8 i) (val_main_v492 (F := F) x9 i) := rfl

def val_main_v494 : (⟨S64x256x256, .f32⟩ : BufTy).Contents (Elt F) :=
  shapeCast _ (val_main_v493 (F := F) x0 x1 x2 x3 x4 x5 x6 x7 x8 x9) shapeCasts_S16384x256_S64x256x256

abbrev idx_main_v494 (i : S64x256x256.Idx) : S16384x256.Idx := fun a => match a with
  | ⟨0, _⟩ => ⟨(((i 0).val * 256 + (i 1).val) * 256 + (i 2).val) / 256, by have h0 : (i 0).val < 64 := (i 0).isLt; have h1 : (i 1).val < 256 := (i 1).isLt; have h2 : (i 2).val < 256 := (i 2).isLt; show (((i 0).val * 256 + (i 1).val) * 256 + (i 2).val) / 256 < 16384; omega⟩
  | ⟨1, _⟩ => ⟨(((i 0).val * 256 + (i 1).val) * 256 + (i 2).val) % 256, by have h0 : (i 0).val < 64 := (i 0).isLt; have h1 : (i 1).val < 256 := (i 1).isLt; have h2 : (i 2).val < 256 := (i 2).isLt; show (((i 0).val * 256 + (i 1).val) * 256 + (i 2).val) % 256 < 256; omega⟩

theorem val_main_v494_apply (i : S64x256x256.Idx) :
    val_main_v494 (F := F) x0 x1 x2 x3 x4 x5 x6 x7 x8 x9 i = val_main_v493 (F := F) x0 x1 x2 x3 x4 x5 x6 x7 x8 x9 (idx_main_v494 i) := by
  unfold val_main_v494
  generalize val_main_v493 (F := F) x0 x1 x2 x3 x4 x5 x6 x7 x8 x9 = y
  exact shapeCast_apply y shapeCasts_S16384x256_S64x256x256 i (idx_main_v494 i)
    (by rewrite [Shape.rowMajor_val_two, Shape.rowMajor_val_three]; have h0 : (i 0).val < 64 := (i 0).isLt; have h1 : (i 1).val < 256 := (i 1).isLt; have h2 : (i 2).val < 256 := (i 2).isLt; show (((i 0).val * 256 + (i 1).val) * 256 + (i 2).val) / 256 * 256 + (((i 0).val * 256 + (i 1).val) * 256 + (i 2).val) % 256 = ((i 0).val * 256 + (i 1).val) * 256 + (i 2).val; omega)

end

section

variable (x0 : (⟨S64x256x256, .f32⟩ : BufTy).Contents (Elt Ideal)) (x1 : (⟨S64, .i32⟩ : BufTy).Contents (Elt Ideal)) (x2 : (⟨S512x256, .f32⟩ : BufTy).Contents (Elt Ideal)) (x3 : (⟨S512, .f32⟩ : BufTy).Contents (Elt Ideal)) (x4 : (⟨S2x16x512x512, .f32⟩ : BufTy).Contents (Elt Ideal)) (x5 : (⟨S2x16x512, .f32⟩ : BufTy).Contents (Elt Ideal)) (x6 : (⟨S2x1x512x512, .f32⟩ : BufTy).Contents (Elt Ideal)) (x7 : (⟨S2x1x512, .f32⟩ : BufTy).Contents (Elt Ideal)) (x8 : (⟨S256x512, .f32⟩ : BufTy).Contents (Elt Ideal)) (x9 : (⟨S256, .f32⟩ : BufTy).Contents (Elt Ideal))

theorem val_main_v4_apply (i : S16384x512.Idx) :
    val_main_v4 (F := Ideal) x0 x2 i = ∑ k : Fin 256, (val_main_v0 (F := Ideal) x0) (lidx_main_v4 i k) * (val_main_v3 (F := Ideal) x2) (ridx_main_v4 i k) := by
  unfold val_main_v4
  generalize val_main_v0 (F := Ideal) x0 = y0
  generalize val_main_v3 (F := Ideal) x2 = y1
  simp only [Host.dotGeneral]
  rw [Ideal.dotGeneral_apply, ← Equiv.sum_comp (ValueIdx.contrEquiv1 dot_S16384x256_S256x512_S16384x512_1_0_0_1_n_n 256 rfl rfl).symm]
  refine Finset.sum_congr rfl fun k _ => ?_
  have hk := ValueIdx.contrEquiv1_symm_val dot_S16384x256_S256x512_S16384x512_1_0_0_1_n_n 256 rfl rfl k
  have el : dot_S16384x256_S256x512_S16384x512_1_0_0_1_n_n.lhsIdx i ((ValueIdx.contrEquiv1 dot_S16384x256_S256x512_S16384x512_1_0_0_1_n_n 256 rfl rfl).symm k) = lidx_main_v4 i k := funext fun a => Fin.ext (by
    match a with
    | ⟨0, _⟩ => exact lhs_main_v4_0 _ _
    | ⟨1, _⟩ => exact (lhs_main_v4_1 _ _).trans hk)
  have er : dot_S16384x256_S256x512_S16384x512_1_0_0_1_n_n.rhsIdx i ((ValueIdx.contrEquiv1 dot_S16384x256_S256x512_S16384x512_1_0_0_1_n_n 256 rfl rfl).symm k) = ridx_main_v4 i k := funext fun a => Fin.ext (by
    match a with
    | ⟨0, _⟩ => exact (rhs_main_v4_0 _ _).trans hk
    | ⟨1, _⟩ => exact rhs_main_v4_1 _ _)
  rw [el, er]

theorem val_main_v11_apply (i : S1x512x16384.Idx) :
    val_main_v11 (F := Ideal) x0 x2 x3 x6 i = ∑ k : Fin 512, (val_main_v10 (F := Ideal) x6) (lidx_main_v11 i k) * (val_main_v8 (F := Ideal) x0 x2 x3) (ridx_main_v11 i k) := by
  unfold val_main_v11
  generalize val_main_v10 (F := Ideal) x6 = y0
  generalize val_main_v8 (F := Ideal) x0 x2 x3 = y1
  simp only [Host.dotGeneral]
  rw [Ideal.dotGeneral_apply, ← Equiv.sum_comp (ValueIdx.contrEquiv1 dot_S1x512x512_S16384x512_S1x512x16384_2_1_01_0_n_n 512 rfl rfl).symm]
  refine Finset.sum_congr rfl fun k _ => ?_
  have hk := ValueIdx.contrEquiv1_symm_val dot_S1x512x512_S16384x512_S1x512x16384_2_1_01_0_n_n 512 rfl rfl k
  have el : dot_S1x512x512_S16384x512_S1x512x16384_2_1_01_0_n_n.lhsIdx i ((ValueIdx.contrEquiv1 dot_S1x512x512_S16384x512_S1x512x16384_2_1_01_0_n_n 512 rfl rfl).symm k) = lidx_main_v11 i k := funext fun a => Fin.ext (by
    match a with
    | ⟨0, _⟩ => exact lhs_main_v11_0 _ _
    | ⟨1, _⟩ => exact lhs_main_v11_1 _ _
    | ⟨2, _⟩ => exact (lhs_main_v11_2 _ _).trans hk)
  have er : dot_S1x512x512_S16384x512_S1x512x16384_2_1_01_0_n_n.rhsIdx i ((ValueIdx.contrEquiv1 dot_S1x512x512_S16384x512_S1x512x16384_2_1_01_0_n_n 512 rfl rfl).symm k) = ridx_main_v11 i k := funext fun a => Fin.ext (by
    match a with
    | ⟨0, _⟩ => exact rhs_main_v11_0 _ _
    | ⟨1, _⟩ => exact (rhs_main_v11_1 _ _).trans hk)
  rw [el, er]

theorem val_main_v18_apply (i : S16384x512.Idx) :
    val_main_v18 (F := Ideal) x0 x2 x3 x6 x7 i = (val_main_cst (F := Ideal)) (Shape.Idx.first h_S_) + ∑ k : Fin 1, (val_main_v17 (F := Ideal) x0 x2 x3 x6 x7) (idx_main_v18 i k) := by
  unfold val_main_v18
  generalize val_main_v17 (F := Ideal) x0 x2 x3 x6 x7 = y0
  simp only [Host.reduceAdd, Ideal.hostReduceAdd_def]
  rw [Ideal.hostReduceAdd_single reducesTo_S1x16384x512_S16384x512_d0 (by decide)]
  refine congrArg (_ + ·) (Finset.sum_congr rfl fun k _ => ?_)
  exact congrArg y0 (funext fun a => Fin.ext (by match a with | ⟨0, _⟩ => rfl | ⟨1, _⟩ => rfl | ⟨2, _⟩ => rfl))

theorem val_main_v251_apply (i : S1x512x16384.Idx) :
    val_main_v251 (F := Ideal) x0 x1 x2 x3 x4 x5 x6 x7 i = ∑ k : Fin 512, (val_main_v250 (F := Ideal) x6) (lidx_main_v251 i k) * (val_main_v248 (F := Ideal) x0 x1 x2 x3 x4 x5 x6 x7) (ridx_main_v251 i k) := by
  unfold val_main_v251
  generalize val_main_v250 (F := Ideal) x6 = y0
  generalize val_main_v248 (F := Ideal) x0 x1 x2 x3 x4 x5 x6 x7 = y1
  simp only [Host.dotGeneral]
  rw [Ideal.dotGeneral_apply, ← Equiv.sum_comp (ValueIdx.contrEquiv1 dot_S1x512x512_S16384x512_S1x512x16384_2_1_01_0_n_n 512 rfl rfl).symm]
  refine Finset.sum_congr rfl fun k _ => ?_
  have hk := ValueIdx.contrEquiv1_symm_val dot_S1x512x512_S16384x512_S1x512x16384_2_1_01_0_n_n 512 rfl rfl k
  have el : dot_S1x512x512_S16384x512_S1x512x16384_2_1_01_0_n_n.lhsIdx i ((ValueIdx.contrEquiv1 dot_S1x512x512_S16384x512_S1x512x16384_2_1_01_0_n_n 512 rfl rfl).symm k) = lidx_main_v251 i k := funext fun a => Fin.ext (by
    match a with
    | ⟨0, _⟩ => exact lhs_main_v251_0 _ _
    | ⟨1, _⟩ => exact lhs_main_v251_1 _ _
    | ⟨2, _⟩ => exact (lhs_main_v251_2 _ _).trans hk)
  have er : dot_S1x512x512_S16384x512_S1x512x16384_2_1_01_0_n_n.rhsIdx i ((ValueIdx.contrEquiv1 dot_S1x512x512_S16384x512_S1x512x16384_2_1_01_0_n_n 512 rfl rfl).symm k) = ridx_main_v251 i k := funext fun a => Fin.ext (by
    match a with
    | ⟨0, _⟩ => exact rhs_main_v251_0 _ _
    | ⟨1, _⟩ => exact (rhs_main_v251_1 _ _).trans hk)
  rw [el, er]

theorem val_main_v258_apply (i : S16384x512.Idx) :
    val_main_v258 (F := Ideal) x0 x1 x2 x3 x4 x5 x6 x7 i = (val_main_cst_33 (F := Ideal)) (Shape.Idx.first h_S_) + ∑ k : Fin 1, (val_main_v257 (F := Ideal) x0 x1 x2 x3 x4 x5 x6 x7) (idx_main_v258 i k) := by
  unfold val_main_v258
  generalize val_main_v257 (F := Ideal) x0 x1 x2 x3 x4 x5 x6 x7 = y0
  simp only [Host.reduceAdd, Ideal.hostReduceAdd_def]
  rw [Ideal.hostReduceAdd_single reducesTo_S1x16384x512_S16384x512_d0 (by decide)]
  refine congrArg (_ + ·) (Finset.sum_congr rfl fun k _ => ?_)
  exact congrArg y0 (funext fun a => Fin.ext (by match a with | ⟨0, _⟩ => rfl | ⟨1, _⟩ => rfl | ⟨2, _⟩ => rfl))

theorem val_main_v490_apply (i : S16384x256.Idx) :
    val_main_v490 (F := Ideal) x0 x1 x2 x3 x4 x5 x6 x7 x8 i = ∑ k : Fin 512, (val_main_v488 (F := Ideal) x0 x1 x2 x3 x4 x5 x6 x7) (lidx_main_v490 i k) * (val_main_v489 (F := Ideal) x8) (ridx_main_v490 i k) := by
  unfold val_main_v490
  generalize val_main_v488 (F := Ideal) x0 x1 x2 x3 x4 x5 x6 x7 = y0
  generalize val_main_v489 (F := Ideal) x8 = y1
  simp only [Host.dotGeneral]
  rw [Ideal.dotGeneral_apply, ← Equiv.sum_comp (ValueIdx.contrEquiv1 dot_S16384x512_S512x256_S16384x256_1_0_0_1_n_n 512 rfl rfl).symm]
  refine Finset.sum_congr rfl fun k _ => ?_
  have hk := ValueIdx.contrEquiv1_symm_val dot_S16384x512_S512x256_S16384x256_1_0_0_1_n_n 512 rfl rfl k
  have el : dot_S16384x512_S512x256_S16384x256_1_0_0_1_n_n.lhsIdx i ((ValueIdx.contrEquiv1 dot_S16384x512_S512x256_S16384x256_1_0_0_1_n_n 512 rfl rfl).symm k) = lidx_main_v490 i k := funext fun a => Fin.ext (by
    match a with
    | ⟨0, _⟩ => exact lhs_main_v490_0 _ _
    | ⟨1, _⟩ => exact (lhs_main_v490_1 _ _).trans hk)
  have er : dot_S16384x512_S512x256_S16384x256_1_0_0_1_n_n.rhsIdx i ((ValueIdx.contrEquiv1 dot_S16384x512_S512x256_S16384x256_1_0_0_1_n_n 512 rfl rfl).symm k) = ridx_main_v490 i k := funext fun a => Fin.ext (by
    match a with
    | ⟨0, _⟩ => exact (rhs_main_v490_0 _ _).trans hk
    | ⟨1, _⟩ => exact rhs_main_v490_1 _ _)
  rw [el, er]

end

end Cert.ReferenceIdeal.ReadP

end
-- ==== Proof.RefOps.lean ====
import proofs.«406211_j29257317220859_3_alg».proof.Proof.RefRead

noncomputable section

namespace Cert.RefRun

open Cert.ReferenceIdeal Cert.ReferenceIdeal.Gen Idealize.ShloMosaic Idealize.ShloMosaic.TcCoe Idealize.SL.Sem Idealize.ShloMosaic.StableHlo

/-- One routed expert's place in the program: its layer and number, the rows it reads, the running total it adds
    to, and the nineteen results of its operations. -/
structure EI where
  l : Fin 2
  e : Fin 16
  h : TRef sig ⟨S16384x512, .f32⟩
  a : TRef sig ⟨S16384x512, .f32⟩
  r0 : TRef sig ⟨S1x1x512x512, .f32⟩
  r1 : TRef sig ⟨S512x512, .f32⟩
  r2 : TRef sig ⟨S512x512, .f32⟩
  r3 : TRef sig ⟨S16384x512, .f32⟩
  r4 : TRef sig ⟨S1x1x512, .f32⟩
  r5 : TRef sig ⟨S512, .f32⟩
  r6 : TRef sig ⟨S1x512, .f32⟩
  r7 : TRef sig ⟨S16384x512, .f32⟩
  r8 : TRef sig ⟨S16384x512, .f32⟩
  r9 : TRef sig ⟨S_, .i32⟩
  r10 : TRef sig ⟨S16384, .i32⟩
  r11 : TRef sig ⟨S16384, .i1⟩
  r12 : TRef sig ⟨S16384x1, .i1⟩
  r13 : TRef sig ⟨S_, .f32⟩
  r14 : TRef sig ⟨S_, .f32⟩
  r15 : TRef sig ⟨S16384x512, .i1⟩
  r16 : TRef sig ⟨S16384x512, .f32⟩
  r17 : TRef sig ⟨S16384x512, .f32⟩
  r18 : TRef sig ⟨S16384x512, .f32⟩

variable {F : FTy → Type} [FloatOps F] (X : EI)

/-! The expert's nineteen operations, in program order. -/
abbrev o0 : HloOp τ sig (Elt F) := TRef.unary (TRef.of (T := ⟨S2x16x512x512, .f32⟩) main_arg4) X.r0 (extractStridedSlice S1x1x512x512 ![X.l.val, X.e.val, 0, 0] · (RefValue.slW X.l X.e))
abbrev o1 : HloOp τ sig (Elt F) := TRef.reshape X.r0 X.r1 rfl shapeCasts_S1x1x512x512_S512x512
abbrev o2 : HloOp τ sig (Elt F) := TRef.unary X.r1 X.r2 (transpose S512x512 [1, 0] · transposes_S512x512_S512x512_1_0)
abbrev o3 : HloOp τ sig (Elt F) := TRef.binary X.h X.r2 X.r3 (fun l r => Host.dotGeneral dot_S16384x512_S512x512_S16384x512_1_0_0_1_n_n none l r)
abbrev o4 : HloOp τ sig (Elt F) := TRef.unary (TRef.of (T := ⟨S2x16x512, .f32⟩) main_arg5) X.r4 (extractStridedSlice S1x1x512 ![X.l.val, X.e.val, 0] · (RefValue.slB X.l X.e))
abbrev o5 : HloOp τ sig (Elt F) := TRef.reshape X.r4 X.r5 rfl shapeCasts_S1x1x512_S512
abbrev o6 : HloOp τ sig (Elt F) := TRef.unary X.r5 X.r6 (broadcastInDim S1x512 ![1] bcast_S512_S1x512_1)
abbrev o7 : HloOp τ sig (Elt F) := TRef.unary X.r6 X.r7 (broadcastInDim S16384x512 ![0, 1] bcast_S1x512_S16384x512_0_1)
abbrev o8 : HloOp τ sig (Elt F) := TRef.binary X.r3 X.r7 X.r8 addf
abbrev o9 : HloOp τ sig (Elt F) := TRef.nullary X.r9 (constantI S_ 32 (BitVec.ofNat 32 X.e.val))
abbrev o10 : HloOp τ sig (Elt F) := TRef.unary X.r9 X.r10 (broadcastInDim S16384 ![] bcast_S_S16384)
abbrev o11 : HloOp τ sig (Elt F) := TRef.binary (TRef.of (T := ⟨S16384, .i32⟩) main_v2) X.r10 X.r11 (cmpi .eq)
abbrev o12 : HloOp τ sig (Elt F) := TRef.unary X.r11 X.r12 (broadcastInDim S16384x1 ![0] bcast_S16384_S16384x1_0)
abbrev o13 : HloOp τ sig (Elt F) := TRef.nullary X.r13 (constant S_ .f32 0x00000000#32)
abbrev o14 : HloOp τ sig (Elt F) := TRef.unary X.r13 X.r14 id
abbrev o15 : HloOp τ sig (Elt F) := TRef.unary X.r12 X.r15 (broadcastInDim S16384x512 ![0, 1] bcast_S16384x1_S16384x512_0_1)
abbrev o16 : HloOp τ sig (Elt F) := TRef.unary X.r14 X.r16 (broadcastInDim S16384x512 ![] bcast_S_S16384x512)
abbrev o17 : HloOp τ sig (Elt F) := TRef.ternary X.r15 X.r8 X.r16 X.r17 select
abbrev o18 : HloOp τ sig (Elt F) := TRef.binary X.a X.r17 X.r18 addf

/-! The thirty-two experts. -/
abbrev X00 : EI := ⟨0, 0, .of main_v8, .of main_v21, .of main_v22, .of main_v23, .of main_v24, .of main_v25, .of main_v26, .of main_v27, .of main_v28, .of main_v29, .of main_v30, .of main_c, .of main_v31, .of main_v32, .of main_v33, .of main_cst_2, .of main_call1_v0, .of main_call1_v1, .of main_call1_v2, .of main_v34, .of main_v35⟩
abbrev X01 : EI := ⟨0, 1, .of main_v8, .of main_v35, .of main_v36, .of main_v37, .of main_v38, .of main_v39, .of main_v40, .of main_v41, .of main_v42, .of main_v43, .of main_v44, .of main_c_3, .of main_v45, .of main_v46, .of main_v47, .of main_cst_4, .of main_call2_v0, .of main_call2_v1, .of main_call2_v2, .of main_v48, .of main_v49⟩
abbrev X02 : EI := ⟨0, 2, .of main_v8, .of main_v49, .of main_v50, .of main_v51, .of main_v52, .of main_v53, .of main_v54, .of main_v55, .of main_v56, .of main_v57, .of main_v58, .of main_c_5, .of main_v59, .of main_v60, .of main_v61, .of main_cst_6, .of main_call3_v0, .of main_call3_v1, .of main_call3_v2, .of main_v62, .of main_v63⟩
abbrev X03 : EI := ⟨0, 3, .of main_v8, .of main_v63, .of main_v64, .of main_v65, .of main_v66, .of main_v67, .of main_v68, .of main_v69, .of main_v70, .of main_v71, .of main_v72, .of main_c_7, .of main_v73, .of main_v74, .of main_v75, .of main_cst_8, .of main_call4_v0, .of main_call4_v1, .of main_call4_v2, .of main_v76, .of main_v77⟩
abbrev X04 : EI := ⟨0, 4, .of main_v8, .of main_v77, .of main_v78, .of main_v79, .of main_v80, .of main_v81, .of main_v82, .of main_v83, .of main_v84, .of main_v85, .of main_v86, .of main_c_9, .of main_v87, .of main_v88, .of main_v89, .of main_cst_10, .of main_call5_v0, .of main_call5_v1, .of main_call5_v2, .of main_v90, .of main_v91⟩
abbrev X05 : EI := ⟨0, 5, .of main_v8, .of main_v91, .of main_v92, .of main_v93, .of main_v94, .of main_v95, .of main_v96, .of main_v97, .of main_v98, .of main_v99, .of main_v100, .of main_c_11, .of main_v101, .of main_v102, .of main_v103, .of main_cst_12, .of main_call6_v0, .of main_call6_v1, .of main_call6_v2, .of main_v104, .of main_v105⟩
abbrev X06 : EI := ⟨0, 6, .of main_v8, .of main_v105, .of main_v106, .of main_v107, .of main_v108, .of main_v109, .of main_v110, .of main_v111, .of main_v112, .of main_v113, .of main_v114, .of main_c_13, .of main_v115, .of main_v116, .of main_v117, .of main_cst_14, .of main_call7_v0, .of main_call7_v1, .of main_call7_v2, .of main_v118, .of main_v119⟩
abbrev X07 : EI := ⟨0, 7, .of main_v8, .of main_v119, .of main_v120, .of main_v121, .of main_v122, .of main_v123, .of main_v124, .of main_v125, .of main_v126, .of main_v127, .of main_v128, .of main_c_15, .of main_v129, .of main_v130, .of main_v131, .of main_cst_16, .of main_call8_v0, .of main_call8_v1, .of main_call8_v2, .of main_v132, .of main_v133⟩
abbrev X08 : EI := ⟨0, 8, .of main_v8, .of main_v133, .of main_v134, .of main_v135, .of main_v136, .of main_v137, .of main_v138, .of main_v139, .of main_v140, .of main_v141, .of main_v142, .of main_c_17, .of main_v143, .of main_v144, .of main_v145, .of main_cst_18, .of main_call9_v0, .of main_call9_v1, .of main_call9_v2, .of main_v146, .of main_v147⟩
abbrev X09 : EI := ⟨0, 9, .of main_v8, .of main_v147, .of main_v148, .of main_v149, .of main_v150, .of main_v151, .of main_v152, .of main_v153, .of main_v154, .of main_v155, .of main_v156, .of main_c_19, .of main_v157, .of main_v158, .of main_v159, .of main_cst_20, .of main_call10_v0, .of main_call10_v1, .of main_call10_v2, .of main_v160, .of main_v161⟩
abbrev X0a : EI := ⟨0, 10, .of main_v8, .of main_v161, .of main_v162, .of main_v163, .of main_v164, .of main_v165, .of main_v166, .of main_v167, .of main_v168, .of main_v169, .of main_v170, .of main_c_21, .of main_v171, .of main_v172, .of main_v173, .of main_cst_22, .of main_call11_v0, .of main_call11_v1, .of main_call11_v2, .of main_v174, .of main_v175⟩
abbrev X0b : EI := ⟨0, 11, .of main_v8, .of main_v175, .of main_v176, .of main_v177, .of main_v178, .of main_v179, .of main_v180, .of main_v181, .of main_v182, .of main_v183, .of main_v184, .of main_c_23, .of main_v185, .of main_v186, .of main_v187, .of main_cst_24, .of main_call12_v0, .of main_call12_v1, .of main_call12_v2, .of main_v188, .of main_v189⟩
abbrev X0c : EI := ⟨0, 12, .of main_v8, .of main_v189, .of main_v190, .of main_v191, .of main_v192, .of main_v193, .of main_v194, .of main_v195, .of main_v196, .of main_v197, .of main_v198, .of main_c_25, .of main_v199, .of main_v200, .of main_v201, .of main_cst_26, .of main_call13_v0, .of main_call13_v1, .of main_call13_v2, .of main_v202, .of main_v203⟩
abbrev X0d : EI := ⟨0, 13, .of main_v8, .of main_v203, .of main_v204, .of main_v205, .of main_v206, .of main_v207, .of main_v208, .of main_v209, .of main_v210, .of main_v211, .of main_v212, .of main_c_27, .of main_v213, .of main_v214, .of main_v215, .of main_cst_28, .of main_call14_v0, .of main_call14_v1, .of main_call14_v2, .of main_v216, .of main_v217⟩
abbrev X0e : EI := ⟨0, 14, .of main_v8, .of main_v217, .of main_v218, .of main_v219, .of main_v220, .of main_v221, .of main_v222, .of main_v223, .of main_v224, .of main_v225, .of main_v226, .of main_c_29, .of main_v227, .of main_v228, .of main_v229, .of main_cst_30, .of main_call15_v0, .of main_call15_v1, .of main_call15_v2, .of main_v230, .of main_v231⟩
abbrev X0f : EI := ⟨0, 15, .of main_v8, .of main_v231, .of main_v232, .of main_v233, .of main_v234, .of main_v235, .of main_v236, .of main_v237, .of main_v238, .of main_v239, .of main_v240, .of main_c_31, .of main_v241, .of main_v242, .of main_v243, .of main_cst_32, .of main_call16_v0, .of main_call16_v1, .of main_call16_v2, .of main_v244, .of main_v245⟩
abbrev X10 : EI := ⟨1, 0, .of main_v248, .of main_v261, .of main_v262, .of main_v263, .of main_v264, .of main_v265, .of main_v266, .of main_v267, .of main_v268, .of main_v269, .of main_v270, .of main_c_36, .of main_v271, .of main_v272, .of main_v273, .of main_cst_37, .of main_call18_v0, .of main_call18_v1, .of main_call18_v2, .of main_v274, .of main_v275⟩
abbrev X11 : EI := ⟨1, 1, .of main_v248, .of main_v275, .of main_v276, .of main_v277, .of main_v278, .of main_v279, .of main_v280, .of main_v281, .of main_v282, .of main_v283, .of main_v284, .of main_c_38, .of main_v285, .of main_v286, .of main_v287, .of main_cst_39, .of main_call19_v0, .of main_call19_v1, .of main_call19_v2, .of main_v288, .of main_v289⟩
abbrev X12 : EI := ⟨1, 2, .of main_v248, .of main_v289, .of main_v290, .of main_v291, .of main_v292, .of main_v293, .of main_v294, .of main_v295, .of main_v296, .of main_v297, .of main_v298, .of main_c_40, .of main_v299, .of main_v300, .of main_v301, .of main_cst_41, .of main_call20_v0, .of main_call20_v1, .of main_call20_v2, .of main_v302, .of main_v303⟩
abbrev X13 : EI := ⟨1, 3, .of main_v248, .of main_v303, .of main_v304, .of main_v305, .of main_v306, .of main_v307, .of main_v308, .of main_v309, .of main_v310, .of main_v311, .of main_v312, .of main_c_42, .of main_v313, .of main_v314, .of main_v315, .of main_cst_43, .of main_call21_v0, .of main_call21_v1, .of main_call21_v2, .of main_v316, .of main_v317⟩
abbrev X14 : EI := ⟨1, 4, .of main_v248, .of main_v317, .of main_v318, .of main_v319, .of main_v320, .of main_v321, .of main_v322, .of main_v323, .of main_v324, .of main_v325, .of main_v326, .of main_c_44, .of main_v327, .of main_v328, .of main_v329, .of main_cst_45, .of main_call22_v0, .of main_call22_v1, .of main_call22_v2, .of main_v330, .of main_v331⟩
abbrev X15 : EI := ⟨1, 5, .of main_v248, .of main_v331, .of main_v332, .of main_v333, .of main_v334, .of main_v335, .of main_v336, .of main_v337, .of main_v338, .of main_v339, .of main_v340, .of main_c_46, .of main_v341, .of main_v342, .of main_v343, .of main_cst_47, .of main_call23_v0, .of main_call23_v1, .of main_call23_v2, .of main_v344, .of main_v345⟩
abbrev X16 : EI := ⟨1, 6, .of main_v248, .of main_v345, .of main_v346, .of main_v347, .of main_v348, .of main_v349, .of main_v350, .of main_v351, .of main_v352, .of main_v353, .of main_v354, .of main_c_48, .of main_v355, .of main_v356, .of main_v357, .of main_cst_49, .of main_call24_v0, .of main_call24_v1, .of main_call24_v2, .of main_v358, .of main_v359⟩
abbrev X17 : EI := ⟨1, 7, .of main_v248, .of main_v359, .of main_v360, .of main_v361, .of main_v362, .of main_v363, .of main_v364, .of main_v365, .of main_v366, .of main_v367, .of main_v368, .of main_c_50, .of main_v369, .of main_v370, .of main_v371, .of main_cst_51, .of main_call25_v0, .of main_call25_v1, .of main_call25_v2, .of main_v372, .of main_v373⟩
abbrev X18 : EI := ⟨1, 8, .of main_v248, .of main_v373, .of main_v374, .of main_v375, .of main_v376, .of main_v377, .of main_v378, .of main_v379, .of main_v380, .of main_v381, .of main_v382, .of main_c_52, .of main_v383, .of main_v384, .of main_v385, .of main_cst_53, .of main_call26_v0, .of main_call26_v1, .of main_call26_v2, .of main_v386, .of main_v387⟩
abbrev X19 : EI := ⟨1, 9, .of main_v248, .of main_v387, .of main_v388, .of main_v389, .of main_v390, .of main_v391, .of main_v392, .of main_v393, .of main_v394, .of main_v395, .of main_v396, .of main_c_54, .of main_v397, .of main_v398, .of main_v399, .of main_cst_55, .of main_call27_v0, .of main_call27_v1, .of main_call27_v2, .of main_v400, .of main_v401⟩
abbrev X1a : EI := ⟨1, 10, .of main_v248, .of main_v401, .of main_v402, .of main_v403, .of main_v404, .of main_v405, .of main_v406, .of main_v407, .of main_v408, .of main_v409, .of main_v410, .of main_c_56, .of main_v411, .of main_v412, .of main_v413, .of main_cst_57, .of main_call28_v0, .of main_call28_v1, .of main_call28_v2, .of main_v414, .of main_v415⟩
abbrev X1b : EI := ⟨1, 11, .of main_v248, .of main_v415, .of main_v416, .of main_v417, .of main_v418, .of main_v419, .of main_v420, .of main_v421, .of main_v422, .of main_v423, .of main_v424, .of main_c_58, .of main_v425, .of main_v426, .of main_v427, .of main_cst_59, .of main_call29_v0, .of main_call29_v1, .of main_call29_v2, .of main_v428, .of main_v429⟩
abbrev X1c : EI := ⟨1, 12, .of main_v248, .of main_v429, .of main_v430, .of main_v431, .of main_v432, .of main_v433, .of main_v434, .of main_v435, .of main_v436, .of main_v437, .of main_v438, .of main_c_60, .of main_v439, .of main_v440, .of main_v441, .of main_cst_61, .of main_call30_v0, .of main_call30_v1, .of main_call30_v2, .of main_v442, .of main_v443⟩
abbrev X1d : EI := ⟨1, 13, .of main_v248, .of main_v443, .of main_v444, .of main_v445, .of main_v446, .of main_v447, .of main_v448, .of main_v449, .of main_v450, .of main_v451, .of main_v452, .of main_c_62, .of main_v453, .of main_v454, .of main_v455, .of main_cst_63, .of main_call31_v0, .of main_call31_v1, .of main_call31_v2, .of main_v456, .of main_v457⟩
abbrev X1e : EI := ⟨1, 14, .of main_v248, .of main_v457, .of main_v458, .of main_v459, .of main_v460, .of main_v461, .of main_v462, .of main_v463, .of main_v464, .of main_v465, .of main_v466, .of main_c_64, .of main_v467, .of main_v468, .of main_v469, .of main_cst_65, .of main_call32_v0, .of main_call32_v1, .of main_call32_v2, .of main_v470, .of main_v471⟩
abbrev X1f : EI := ⟨1, 15, .of main_v248, .of main_v471, .of main_v472, .of main_v473, .of main_v474, .of main_v475, .of main_v476, .of main_v477, .of main_v478, .of main_v479, .of main_v480, .of main_c_66, .of main_v481, .of main_v482, .of main_v483, .of main_cst_67, .of main_call33_v0, .of main_call33_v1, .of main_call33_v2, .of main_v484, .of main_v485⟩

end Cert.RefRun

end
-- ==== Proof.RefRun_Aux.lean ====
import proofs.«406211_j29257317220859_3_alg».proof.Proof.RefOps
import Mathlib.Tactic.CasesM

namespace Cert.RefRun

open Cert.ReferenceIdeal Cert.ReferenceIdeal.Gen Idealize.ShloMosaic Idealize.ShloMosaic.TcCoe Idealize.SL.Sem Idealize.ShloMosaic.StableHlo

/-- `TRef.of`'s congruence lemma, realized once here for the ten modules below that rewrite under it. -/
theorem tref_congr_realized : True := by
  have := @TRef.of.congr_simp
  trivial

/-- Every operation of a literal list stays inside `tcRefs`. -/
macro "all_sub" : tactic =>
  `(tactic| simp only [List.Forall, nullary_bufs_sub, unary_bufs_sub, binary_bufs_sub, ternary_bufs_sub, reshape_bufs_sub, and_self])

macro "all_fresh" : tactic =>
  `(tactic| (simp only [List.Forall]; constructorm* _ ∧ _ <;> rfl))

/-- Every operation of a literal list writes a reference of the given list. -/
macro "all_writes" : tactic =>
  `(tactic| (simp only [List.Forall, nullary_writes, unary_writes, binary_writes, ternary_writes, reshape_writes, Finset.singleton_subset_iff, List.mem_toFinset]; constructorm* _ ∧ _ <;> exact List.mem_map_of_mem (by decide)))

variable {F : FTy → Type} [FloatOps F]

/-- The ten argument arrays hold `x0 … x9`. -/
def Args (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3
    ∧ V (Proc.devRef .tc main_arg4) = x4 ∧ V (Proc.devRef .tc main_arg5) = x5 ∧ V (Proc.devRef .tc main_arg6) = x6 ∧ V (Proc.devRef .tc main_arg7) = x7
    ∧ V (Proc.devRef .tc main_arg8) = x8 ∧ V (Proc.devRef .tc main_arg9) = x9

/-- Operations that write none of the arguments leave them as they were. -/
theorem Args.after {V : Valuation τ sig (Elt F)} {x0 x1 x2 x3 x4 x5 x6 x7 x8 x9} (ops : List (HloOp τ sig (Elt F))) {W : List (Ref sig .tc)}
    (hW : ops.Forall fun op => op.writes ⊆ (W.map (Proc.devRef (τ := τ) .tc)).toFinset)
    (n0 : main_arg0 ∉ W) (n1 : main_arg1 ∉ W) (n2 : main_arg2 ∉ W) (n3 : main_arg3 ∉ W) (n4 : main_arg4 ∉ W) (n5 : main_arg5 ∉ W) (n6 : main_arg6 ∉ W) (n7 : main_arg7 ∉ W) (n8 : main_arg8 ∉ W) (n9 : main_arg9 ∉ W)
    (h : Args V x0 x1 x2 x3 x4 x5 x6 x7 x8 x9) : Args (after ops V) x0 x1 x2 x3 x4 x5 x6 x7 x8 x9 := by
  obtain ⟨h0, h1, h2, h3, h4, h5, h6, h7, h8, h9⟩ := h
  exact ⟨(after_of_writes_sub ops V hW n0).trans h0, (after_of_writes_sub ops V hW n1).trans h1,
    (after_of_writes_sub ops V hW n2).trans h2, (after_of_writes_sub ops V hW n3).trans h3,
    (after_of_writes_sub ops V hW n4).trans h4, (after_of_writes_sub ops V hW n5).trans h5,
    (after_of_writes_sub ops V hW n6).trans h6, (after_of_writes_sub ops V hW n7).trans h7,
    (after_of_writes_sub ops V hW n8).trans h8, (after_of_writes_sub ops V hW n9).trans h9⟩

end Cert.RefRun
-- ==== Proof.RefRun_W0.lean ====
import proofs.«406211_j29257317220859_3_alg».proof.Proof.RefRead
import proofs.«406211_j29257317220859_3_alg».proof.Proof.RefRun_Aux

noncomputable section

namespace Cert.RefRun.W0

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ reshape main_arg0 main_v0 rfl shapeCasts_S64x256x256_S16384x256,
    unary main_arg1 main_v1 (broadcastInDim S64x256 ![0] bcast_S64_S64x256_0 : (⟨S64, .i32⟩ : BufTy).Contents (Elt F) → (⟨S64x256, .i32⟩ : BufTy).Contents (Elt F)),
    reshape main_v1 main_v2 rfl shapeCasts_S64x256_S16384,
    unary main_arg2 main_v3 ((transpose S256x512 [1, 0] · transposes_S512x256_S256x512_1_0) : (⟨S512x256, .f32⟩ : BufTy).Contents (Elt F) → (⟨S256x512, .f32⟩ : BufTy).Contents (Elt F)),
    binary main_v0 main_v3 main_v4 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg3 main_v5 (broadcastInDim S1x512 ![1] bcast_S512_S1x512_1 : (⟨S512, .f32⟩ : BufTy).Contents (Elt F) → (⟨S1x512, .f32⟩ : BufTy).Contents (Elt F)),
    unary main_v5 main_v6 (broadcastInDim S16384x512 ![0, 1] bcast_S1x512_S16384x512_0_1 : (⟨S1x512, .f32⟩ : BufTy).Contents (Elt F) → (⟨S16384x512, .f32⟩ : BufTy).Contents (Elt F)),
    binary main_v4 main_v6 main_v7 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v7) (TRef.of (T := ⟨S16384x512, .f32⟩) main_call0_v0) (TRef.of (T := ⟨S16384x512, .f32⟩) main_v8) maximumf,
    unary main_arg6 main_v9 ((extractStridedSlice S1x1x512x512 ![0, 0, 0, 0] · slices_S2x1x512x512_S1x1x512x512_0_0_0_0) : (⟨S2x1x512x512, .f32⟩ : BufTy).Contents (Elt F) → (⟨S1x1x512x512, .f32⟩ : BufTy).Contents (Elt F)),
    reshape main_v9 main_v10 rfl shapeCasts_S1x1x512x512_S1x512x512,
    binary main_v10 main_v8 main_v11 ((fun l r => Host.dotGeneral dot_S1x512x512_S16384x512_S1x512x16384_2_1_01_0_n_n none l r) : (⟨S1x512x512, .f32⟩ : BufTy).Contents (Elt F) → (⟨S16384x512, .f32⟩ : BufTy).Contents (Elt F) → (⟨S1x512x16384, .f32⟩ : BufTy).Contents (Elt F)),
    unary main_v11 main_v12 ((transpose S1x16384x512 [0, 2, 1] · transposes_S1x512x16384_S1x16384x512_0_2_1) : (⟨S1x512x16384, .f32⟩ : BufTy).Contents (Elt F) → (⟨S1x16384x512, .f32⟩ : BufTy).Contents (Elt F)),
    unary main_arg7 main_v13 ((extractStridedSlice S1x1x512 ![0, 0, 0] · slices_S2x1x512_S1x1x512_0_0_0) : (⟨S2x1x512, .f32⟩ : BufTy).Contents (Elt F) → (⟨S1x1x512, .f32⟩ : BufTy).Contents (Elt F)),
    reshape main_v13 main_v14 rfl shapeCasts_S1x1x512_S1x512,
    unary main_v14 main_v15 (broadcastInDim S1x1x512 ![0, 2] bcast_S1x512_S1x1x512_0_2 : (⟨S1x512, .f32⟩ : BufTy).Contents (Elt F) → (⟨S1x1x512, .f32⟩ : BufTy).Contents (Elt F)),
    unary main_v15 main_v16 (broadcastInDim S1x16384x512 ![0, 1, 2] bcast_S1x1x512_S1x16384x512_0_1_2 : (⟨S1x1x512, .f32⟩ : BufTy).Contents (Elt F) → (⟨S1x16384x512, .f32⟩ : BufTy).Contents (Elt F)),
    binary main_v12 main_v16 main_v17 (addf : (⟨S1x16384x512, .f32⟩ : BufTy).Contents (Elt F) → (⟨S1x16384x512, .f32⟩ : BufTy).Contents (Elt F) → (⟨S1x16384x512, .f32⟩ : BufTy).Contents (Elt F)),
    nullary main_cst (constant S_ .f32 0x00000000#32),
    binary main_v17 main_cst main_v18 ((fun x v => Host.reduceAdd x v reducesTo_S1x16384x512_S16384x512_d0 h_S_) : (⟨S1x16384x512, .f32⟩ : BufTy).Contents (Elt F) → (⟨S_, .f32⟩ : BufTy).Contents (Elt F) → (⟨S16384x512, .f32⟩ : BufTy).Contents (Elt F)),
    nullary main_cst_0 (constant S_ .f32 0x3F800000#32),
    unary main_cst_0 main_v19 (broadcastInDim S16384x512 ![] bcast_S_S16384x512 : (⟨S_, .f32⟩ : BufTy).Contents (Elt F) → (⟨S16384x512, .f32⟩ : BufTy).Contents (Elt F)),
    binary main_v18 main_v19 main_v20 (Host.divf : (⟨S16384x512, .f32⟩ : BufTy).Contents (Elt F) → (⟨S16384x512, .f32⟩ : BufTy).Contents (Elt F) → (⟨S16384x512, .f32⟩ : BufTy).Contents (Elt F)),
    nullary main_cst_1 (constant S_ .f32 0x00000000#32),
    unary main_cst_1 main_v21 (broadcastInDim S16384x512 ![] bcast_S_S16384x512 : (⟨S_, .f32⟩ : BufTy).Contents (Elt F) → (⟨S16384x512, .f32⟩ : BufTy).Contents (Elt F)),
    o0 X00, o1 X00, o2 X00, o3 X00, o4 X00, o5 X00, o6 X00 ]

theorem opsA_sub : (opsA : List (HloOp τ sig (Elt F))).Forall fun op => op.bufs ⊆ tcRefs τ sig := by all_sub

theorem opsA_fresh : (opsA : List (HloOp τ sig (Elt F))).Forall fun op => op.fresh = ∅ := by all_fresh

abbrev opsA_W : List (Ref sig .tc) := [main_v0, main_v1, main_v2, main_v3, main_v4, main_v5, main_v6, main_v7, main_call0_cst, main_call0_v0, main_v8, main_v9, main_v10, main_v11, main_v12, main_v13, main_v14, main_v15, main_v16, main_v17, main_cst, main_v18, main_cst_0, main_v19, main_v20, main_cst_1, main_v21, main_v22, main_v23, main_v24, main_v25, main_v26, main_v27, main_v28]

theorem opsA_writes : (opsA : List (HloOp τ sig (Elt F))).Forall fun op => op.writes ⊆ (opsA_W.map (Proc.devRef (τ := τ) .tc)).toFinset := by all_writes

theorem opsA_keep (V : Valuation τ sig (Elt F)) (r : Ref sig .tc) (h : r ∉ opsA_W) :
    after opsA V (Proc.devRef .tc r) = V (Proc.devRef .tc r) :=
  after_of_writes_sub opsA V opsA_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

def PreA : Prop :=
    Args V x0 x1 x2 x3 x4 x5 x6 x7 x8 x9

set_option maxRecDepth 8192 in
set_option maxHeartbeats 4000000 in
theorem opsA_main_v2 (h : PreA V x0 x1 x2 x3 x4 x5 x6 x7 x8 x9) :
    after opsA V (Proc.devRef .tc main_v2) = ReadP.val_main_v2 (F := F) x1 := by
  obtain ⟨h_main_arg0, h_main_arg1, h_main_arg2, h_main_arg3, h_main_arg4, h_main_arg5, h_main_arg6, h_main_arg7, h_main_arg8, h_main_arg9⟩ := h
  simp only [opsA]
  after_results_simp
  simp only [h_main_arg1]
  rfl

set_option maxRecDepth 8192 in
set_option maxHeartbeats 4000000 in
theorem opsA_main_v8 (h : PreA V x0 x1 x2 x3 x4 x5 x6 x7 x8 x9) :
    after opsA V (Proc.devRef .tc main_v8) = ReadP.val_main_v8 (F := F) x0 x2 x3 := by
  obtain ⟨h_main_arg0, h_main_arg1, h_main_arg2, h_main_arg3, h_main_arg4, h_main_arg5, h_main_arg6, h_main_arg7, h_main_arg8, h_main_arg9⟩ := h
  simp only [opsA]
  after_results_simp
  simp only [h_main_arg3, h_main_arg2, h_main_arg0]
  rfl

set_option maxRecDepth 8192 in
set_option maxHeartbeats 4000000 in
theorem opsA_main_v20 (h : PreA V x0 x1 x2 x3 x4 x5 x6 x7 x8 x9) :
    after opsA V (Proc.devRef .tc main_v20) = ReadP.val_main_v20 (F := F) x0 x2 x3 x6 x7 := by
  obtain ⟨h_main_arg0, h_main_arg1, h_main_arg2, h_main_arg3, h_main_arg4, h_main_arg5, h_main_arg6, h_main_arg7, h_main_arg8, h_main_arg9⟩ := h
  simp only [opsA]
  after_results_simp
  simp only [h_main_arg7, h_main_arg3, h_main_arg2, h_main_arg0, h_main_arg6]
  rfl

set_option maxRecDepth 8192 in
set_option maxHeartbeats 4000000 in
theorem opsA_main_v21 (h : PreA V x0 x1 x2 x3 x4 x5 x6 x7 x8 x9) :
    after opsA V (Proc.devRef .tc main_v21) = ReadP.val_main_v21 (F := F) := by
  obtain ⟨h_main_arg0, h_main_arg1, h_main_arg2, h_main_arg3, h_main_arg4, h_main_arg5, h_main_arg6, h_main_arg7, h_main_arg8, h_main_arg9⟩ := h
  simp only [opsA]
  after_results_simp
  rfl

set_option maxRecDepth 8192 in
set_option maxHeartbeats 4000000 in
theorem opsA_main_v25 (h : PreA V x0 x1 x2 x3 x4 x5 x6 x7 x8 x9) :
    after opsA V (Proc.devRef .tc main_v25) = (RefValue.eDot (F := F) 0 0 (ReadP.val_main_v8 (F := F) x0 x2 x3) x4) := by
  obtain ⟨h_main_arg0, h_main_arg1, h_main_arg2, h_main_arg3, h_main_arg4, h_main_arg5, h_main_arg6, h_main_arg7, h_main_arg8, h_main_arg9⟩ := h
  simp only [opsA]
  after_results_simp
  simp only [h_main_arg4, h_main_arg3, h_main_arg2, h_main_arg0]
  rfl

set_option maxRecDepth 8192 in
set_option maxHeartbeats 4000000 in
theorem opsA_main_v28 (h : PreA V x0 x1 x2 x3 x4 x5 x6 x7 x8 x9) :
    after opsA V (Proc.devRef .tc main_v28) = (RefValue.eB1 (F := F) 0 0 x5) := by
  obtain ⟨h_main_arg0, h_main_arg1, h_main_arg2, h_main_arg3, h_main_arg4, h_main_arg5, h_main_arg6, h_main_arg7, h_main_arg8, h_main_arg9⟩ := h
  simp only [opsA]
  after_results_simp
  simp only [h_main_arg5]
  rfl

def PostA : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v21) = ReadP.val_main_v21 (F := F)
    ∧ V (Proc.devRef .tc main_v25) = (RefValue.eDot (F := F) 0 0 (ReadP.val_main_v8 (F := F) x0 x2 x3) x4)
    ∧ V (Proc.devRef .tc main_v28) = (RefValue.eB1 (F := F) 0 0 x5)

theorem stepA (h : PreA V x0 x1 x2 x3 x4 x5 x6 x7 x8 x9) :
    PostA (after opsA V) x0 x1 x2 x3 x4 x5 x6 x7 x8 x9 := by
  obtain hargs := id h
  exact ⟨Args.after opsA opsA_writes (by decide) (by decide) (by decide) (by decide) (by decide) (by decide) (by decide) (by decide) (by decide) (by decide) hargs,
    opsA_main_v2 V x0 x1 x2 x3 x4 x5 x6 x7 x8 x9 h,
    opsA_main_v8 V x0 x1 x2 x3 x4 x5 x6 x7 x8 x9 h,
    opsA_main_v20 V x0 x1 x2 x3 x4 x5 x6 x7 x8 x9 h,
    opsA_main_v21 V x0 x1 x2 x3 x4 x5 x6 x7 x8 x9 h,
    opsA_main_v25 V x0 x1 x2 x3 x4 x5 x6 x7 x8 x9 h,
    opsA_main_v28 V x0 x1 x2 x3 x4 x5 x6 x7 x8 x9 h⟩

end

abbrev opsB : List (HloOp τ sig (Elt F)) :=
  [ o7 X00, o8 X00, o9 X00, o10 X00, o11 X00, o12 X00, o13 X00, o14 X00, o15 X00, o16 X00, o17 X00, o18 X00, o0 X01,
    o1 X01, o2 X01, o3 X01, o4 X01, o5 X01, o6 X01, o7 X01, o8 X01, o9 X01, o10 X01, o11 X01, o12 X01, o13 X01, o14 X01,
    o15 X01, o16 X01, o17 X01, o18 X01, o0 X02, o1 X02, o2 X02 ]

theorem opsB_sub : (opsB : List (HloOp τ sig (Elt F))).Forall fun op => op.bufs ⊆ tcRefs τ sig := by all_sub

theorem opsB_fresh : (opsB : List (HloOp τ sig (Elt F))).Forall fun op => op.fresh = ∅ := by all_fresh

abbrev opsB_W : List (Ref sig .tc) := [main_v29, main_v30, main_c, main_v31, main_v32, main_v33, main_cst_2, main_call1_v0, main_call1_v1, main_call1_v2, main_v34, main_v35, main_v36, main_v37, main_v38, main_v39, main_v40, main_v41, main_v42, main_v43, main_v44, main_c_3, main_v45, main_v46, main_v47, main_cst_4, main_call2_v0, main_call2_v1, main_call2_v2, main_v48, main_v49, main_v50, main_v51, main_v52]

theorem opsB_writes : (opsB : List (HloOp τ sig (Elt F))).Forall fun op => op.writes ⊆ (opsB_W.map (Proc.devRef (τ := τ) .tc)).toFinset := by all_writes

theorem opsB_keep (V : Valuation τ sig (Elt F)) (r : Ref sig .tc) (h : r ∉ opsB_W) :
    after opsB V (Proc.devRef .tc r) = V (Proc.devRef .tc r) :=
  after_of_writes_sub opsB V opsB_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

abbrev PreB : Prop := PostA V x0 x1 x2 x3 x4 x5 x6 x7 x8 x9

set_option maxRecDepth 8192 in
set_option maxHeartbeats 4000000 in
theorem opsB_main_v49 (h : PreB V x0 x1 x2 x3 x4 x5 x6 x7 x8 x9) :
    after opsB V (Proc.devRef .tc main_v49) = (RefValue.racc (F := F) 0 (ReadP.val_main_v8 (F := F) x0 x2 x3) (ReadP.val_main_v2 (F := F) x1) x4 x5 [0, 1]) := by
  obtain ⟨⟨h_main_arg0, h_main_arg1, h_main_arg2, h_main_arg3, h_main_arg4, h_main_arg5, h_main_arg6, h_main_arg7, h_main_arg8, h_main_arg9⟩, h_main_v2, h_main_v8, h_main_v20, h_main_v21, h_main_v25, h_main_v28⟩ := h
  simp only [opsB]
  after_results_simp
  simp only [h_main_arg5, h_main_arg4, h_main_v8, h_main_v2, h_main_v28, h_main_v25, h_main_v21]
  rfl

set_option maxRecDepth 8192 in
set_option maxHeartbeats 4000000 in
theorem opsB_main_v52 (h : PreB V x0 x1 x2 x3 x4 x5 x6 x7 x8 x9) :
    after opsB V (Proc.devRef .tc main_v52) = (RefValue.eW (F := F) 0 2 x4) := by
  obtain ⟨⟨h_main_arg0, h_main_arg1, h_main_arg2, h_main_arg3, h_main_arg4, h_main_arg5, h_main_arg6, h_main_arg7, h_main_arg8, h_main_arg9⟩, h_main_v2, h_main_v8, h_main_v20, h_main_v21, h_main_v25, h_main_v28⟩ := h
  simp only [opsB]
  after_results_simp
  simp only [h_main_arg4]
  rfl

def PostB : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v49) = (RefValue.racc (F := F) 0 (ReadP.val_main_v8 (F := F) x0 x2 x3) (ReadP.val_main_v2 (F := F) x1) x4 x5 [0, 1])
    ∧ V (Proc.devRef .tc main_v52) = (RefValue.eW (F := F) 0 2 x4)

theorem stepB (h : PreB V x0 x1 x2 x3 x4 x5 x6 x7 x8 x9) :
    PostB (after opsB V) x0 x1 x2 x3 x4 x5 x6 x7 x8 x9 := by
  obtain ⟨hargs, h_main_v2, h_main_v8, h_main_v20, h_main_v21, h_main_v25, h_main_v28⟩ := id h
  exact ⟨Args.after opsB opsB_writes (by decide) (by decide) (by decide) (by decide) (by decide) (by decide) (by decide) (by decide) (by decide) (by decide) hargs,
    (opsB_keep V main_v2 (by decide)).trans h_main_v2,
    (opsB_keep V main_v8 (by decide)).trans h_main_v8,
    (opsB_keep V main_v20 (by decide)).trans h_main_v20,
    opsB_main_v49 V x0 x1 x2 x3 x4 x5 x6 x7 x8 x9 h,
    opsB_main_v52 V x0 x1 x2 x3 x4 x5 x6 x7 x8 x9 h⟩

end

set_option maxRecDepth 8192 in
set_option maxHeartbeats 4000000 in
theorem part_eq (c : Dev nD) : main_part0 (F := F) c = seq (opsA ++ opsB) := rfl

end Cert.RefRun.W0

end
-- ==== Proof.RefRun_W1.lean ====
import proofs.«406211_j29257317220859_3_alg».proof.Proof.RefRead
import proofs.«406211_j29257317220859_3_alg».proof.Proof.RefRun_Aux

noncomputable section

namespace Cert.RefRun.W1

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ o3 X02, o4 X02, o5 X02, o6 X02, o7 X02, o8 X02, o9 X02, o10 X02, o11 X02, o12 X02, o13 X02, o14 X02, o15 X02, o16 X02,
    o17 X02, o18 X02, o0 X03, o1 X03, o2 X03, o3 X03, o4 X03, o5 X03, o6 X03, o7 X03, o8 X03, o9 X03, o10 X03, o11 X03,
    o12 X03, o13 X03, o14 X03, o15 X03, o16 X03, o17 X03, o18 X03, o0 X04 ]

theorem opsA_sub : (opsA : List (HloOp τ sig (Elt F))).Forall fun op => op.bufs ⊆ tcRefs τ sig := by all_sub

theorem opsA_fresh : (opsA : List (HloOp τ sig (Elt F))).Forall fun op => op.fresh = ∅ := by all_fresh

abbrev opsA_W : List (Ref sig .tc) := [main_v53, main_v54, main_v55, main_v56, main_v57, main_v58, main_c_5, main_v59, main_v60, main_v61, main_cst_6, main_call3_v0, main_call3_v1, main_call3_v2, main_v62, main_v63, main_v64, main_v65, main_v66, main_v67, main_v68, main_v69, main_v70, main_v71, main_v72, main_c_7, main_v73, main_v74, main_v75, main_cst_8, main_call4_v0, main_call4_v1, main_call4_v2, main_v76, main_v77, main_v78]

theorem opsA_writes : (opsA : List (HloOp τ sig (Elt F))).Forall fun op => op.writes ⊆ (opsA_W.map (Proc.devRef (τ := τ) .tc)).toFinset := by all_writes

theorem opsA_keep (V : Valuation τ sig (Elt F)) (r : Ref sig .tc) (h : r ∉ opsA_W) :
    after opsA V (Proc.devRef .tc r) = V (Proc.devRef .tc r) :=
  after_of_writes_sub opsA V opsA_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

def PreA : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v49) = (RefValue.racc (F := F) 0 (ReadP.val_main_v8 (F := F) x0 x2 x3) (ReadP.val_main_v2 (F := F) x1) x4 x5 [0, 1])
    ∧ V (Proc.devRef .tc main_v52) = (RefValue.eW (F := F) 0 2 x4)

set_option maxRecDepth 8192 in
set_option maxHeartbeats 4000000 in
theorem opsA_main_v77 (h : PreA V x0 x1 x2 x3 x4 x5 x6 x7 x8 x9) :
    after opsA V (Proc.devRef .tc main_v77) = (RefValue.racc (F := F) 0 (ReadP.val_main_v8 (F := F) x0 x2 x3) (ReadP.val_main_v2 (F := F) x1) x4 x5 [0, 1, 2, 3]) := by
  obtain ⟨⟨h_main_arg0, h_main_arg1, h_main_arg2, h_main_arg3, h_main_arg4, h_main_arg5, h_main_arg6, h_main_arg7, h_main_arg8, h_main_arg9⟩, h_main_v2, h_main_v8, h_main_v20, h_main_v49, h_main_v52⟩ := h
  simp only [opsA]
  after_results_simp
  simp only [h_main_arg5, h_main_arg4, h_main_v8, h_main_v2, h_main_v52, h_main_v49]
  rfl

set_option maxRecDepth 8192 in
set_option maxHeartbeats 4000000 in
theorem opsA_main_v78 (h : PreA V x0 x1 x2 x3 x4 x5 x6 x7 x8 x9) :
    after opsA V (Proc.devRef .tc main_v78) = (RefValue.eSW (F := F) 0 4 x4) := by
  obtain ⟨⟨h_main_arg0, h_main_arg1, h_main_arg2, h_main_arg3, h_main_arg4, h_main_arg5, h_main_arg6, h_main_arg7, h_main_arg8, h_main_arg9⟩, h_main_v2, h_main_v8, h_main_v20, h_main_v49, h_main_v52⟩ := h
  simp only [opsA]
  after_results_simp
  simp only [h_main_arg4]
  rfl

def PostA : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v77) = (RefValue.racc (F := F) 0 (ReadP.val_main_v8 (F := F) x0 x2 x3) (ReadP.val_main_v2 (F := F) x1) x4 x5 [0, 1, 2, 3])
    ∧ V (Proc.devRef .tc main_v78) = (RefValue.eSW (F := F) 0 4 x4)

theorem stepA (h : PreA V x0 x1 x2 x3 x4 x5 x6 x7 x8 x9) :
    PostA (after opsA V) x0 x1 x2 x3 x4 x5 x6 x7 x8 x9 := by
  obtain ⟨hargs, h_main_v2, h_main_v8, h_main_v20, h_main_v49, h_main_v52⟩ := id h
  exact ⟨Args.after opsA opsA_writes (by decide) (by decide) (by decide) (by decide) (by decide) (by decide) (by decide) (by decide) (by decide) (by decide) hargs,
    (opsA_keep V main_v2 (by decide)).trans h_main_v2,
    (opsA_keep V main_v8 (by decide)).trans h_main_v8,
    (opsA_keep V main_v20 (by decide)).trans h_main_v20,
    opsA_main_v77 V x0 x1 x2 x3 x4 x5 x6 x7 x8 x9 h,
    opsA_main_v78 V x0 x1 x2 x3 x4 x5 x6 x7 x8 x9 h⟩

end

abbrev opsB : List (HloOp τ sig (Elt F)) :=
  [ o1 X04, o2 X04, o3 X04, o4 X04, o5 X04, o6 X04, o7 X04, o8 X04, o9 X04, o10 X04, o11 X04, o12 X04, o13 X04, o14 X04,
    o15 X04, o16 X04, o17 X04, o18 X04, o0 X05, o1 X05, o2 X05, o3 X05, o4 X05, o5 X05, o6 X05, o7 X05, o8 X05, o9 X05,
    o10 X05, o11 X05, o12 X05, o13 X05, o14 X05, o15 X05, o16 X05, o17 X05 ]

theorem opsB_sub : (opsB : List (HloOp τ sig (Elt F))).Forall fun op => op.bufs ⊆ tcRefs τ sig := by all_sub

theorem opsB_fresh : (opsB : List (HloOp τ sig (Elt F))).Forall fun op => op.fresh = ∅ := by all_fresh

abbrev opsB_W : List (Ref sig .tc) := [main_v79, main_v80, main_v81, main_v82, main_v83, main_v84, main_v85, main_v86, main_c_9, main_v87, main_v88, main_v89, main_cst_10, main_call5_v0, main_call5_v1, main_call5_v2, main_v90, main_v91, main_v92, main_v93, main_v94, main_v95, main_v96, main_v97, main_v98, main_v99, main_v100, main_c_11, main_v101, main_v102, main_v103, main_cst_12, main_call6_v0, main_call6_v1, main_call6_v2, main_v104]

theorem opsB_writes : (opsB : List (HloOp τ sig (Elt F))).Forall fun op => op.writes ⊆ (opsB_W.map (Proc.devRef (τ := τ) .tc)).toFinset := by all_writes

theorem opsB_keep (V : Valuation τ sig (Elt F)) (r : Ref sig .tc) (h : r ∉ opsB_W) :
    after opsB V (Proc.devRef .tc r) = V (Proc.devRef .tc r) :=
  after_of_writes_sub opsB V opsB_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

abbrev PreB : Prop := PostA V x0 x1 x2 x3 x4 x5 x6 x7 x8 x9

set_option maxRecDepth 8192 in
set_option maxHeartbeats 4000000 in
theorem opsB_main_v91 (h : PreB V x0 x1 x2 x3 x4 x5 x6 x7 x8 x9) :
    after opsB V (Proc.devRef .tc main_v91) = (RefValue.racc (F := F) 0 (ReadP.val_main_v8 (F := F) x0 x2 x3) (ReadP.val_main_v2 (F := F) x1) x4 x5 [0, 1, 2, 3, 4]) := by
  obtain ⟨⟨h_main_arg0, h_main_arg1, h_main_arg2, h_main_arg3, h_main_arg4, h_main_arg5, h_main_arg6, h_main_arg7, h_main_arg8, h_main_arg9⟩, h_main_v2, h_main_v8, h_main_v20, h_main_v77, h_main_v78⟩ := h
  simp only [opsB]
  after_results_simp
  simp only [h_main_arg5, h_main_v78, h_main_v8, h_main_v2, h_main_v77]
  rfl

set_option maxRecDepth 8192 in
set_option maxHeartbeats 4000000 in
theorem opsB_main_v104 (h : PreB V x0 x1 x2 x3 x4 x5 x6 x7 x8 x9) :
    after opsB V (Proc.devRef .tc main_v104) = (RefValue.eTerm (F := F) 0 5 (ReadP.val_main_v8 (F := F) x0 x2 x3) (ReadP.val_main_v2 (F := F) x1) x4 x5) := by
  obtain ⟨⟨h_main_arg0, h_main_arg1, h_main_arg2, h_main_arg3, h_main_arg4, h_main_arg5, h_main_arg6, h_main_arg7, h_main_arg8, h_main_arg9⟩, h_main_v2, h_main_v8, h_main_v20, h_main_v77, h_main_v78⟩ := h
  simp only [opsB]
  after_results_simp
  simp only [h_main_arg5, h_main_arg4, h_main_v8, h_main_v2]
  rfl

def PostB : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v91) = (RefValue.racc (F := F) 0 (ReadP.val_main_v8 (F := F) x0 x2 x3) (ReadP.val_main_v2 (F := F) x1) x4 x5 [0, 1, 2, 3, 4])
    ∧ V (Proc.devRef .tc main_v104) = (RefValue.eTerm (F := F) 0 5 (ReadP.val_main_v8 (F := F) x0 x2 x3) (ReadP.val_main_v2 (F := F) x1) x4 x5)

theorem stepB (h : PreB V x0 x1 x2 x3 x4 x5 x6 x7 x8 x9) :
    PostB (after opsB V) x0 x1 x2 x3 x4 x5 x6 x7 x8 x9 := by
  obtain ⟨hargs, h_main_v2, h_main_v8, h_main_v20, h_main_v77, h_main_v78⟩ := id h
  exact ⟨Args.after opsB opsB_writes (by decide) (by decide) (by decide) (by decide) (by decide) (by decide) (by decide) (by decide) (by decide) (by decide) hargs,
    (opsB_keep V main_v2 (by decide)).trans h_main_v2,
    (opsB_keep V main_v8 (by decide)).trans h_main_v8,
    (opsB_keep V main_v20 (by decide)).trans h_main_v20,
    opsB_main_v91 V x0 x1 x2 x3 x4 x5 x6 x7 x8 x9 h,
    opsB_main_v104 V x0 x1 x2 x3 x4 x5 x6 x7 x8 x9 h⟩

end

set_option maxRecDepth 8192 in
set_option maxHeartbeats 4000000 in
theorem part_eq (c : Dev nD) : main_part1 (F := F) c = seq (opsA ++ opsB) := rfl

end Cert.RefRun.W1

end
-- ==== Proof.RefRun_W2.lean ====
import proofs.«406211_j29257317220859_3_alg».proof.Proof.RefRead
import proofs.«406211_j29257317220859_3_alg».proof.Proof.RefRun_Aux

noncomputable section

namespace Cert.RefRun.W2

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ o18 X05, o0 X06, o1 X06, o2 X06, o3 X06, o4 X06, o5 X06, o6 X06, o7 X06, o8 X06, o9 X06, o10 X06, o11 X06, o12 X06,
    o13 X06, o14 X06, o15 X06, o16 X06, o17 X06, o18 X06, o0 X07, o1 X07, o2 X07, o3 X07, o4 X07, o5 X07, o6 X07, o7 X07,
    o8 X07, o9 X07, o10 X07, o11 X07, o12 X07, o13 X07, o14 X07 ]

theorem opsA_sub : (opsA : List (HloOp τ sig (Elt F))).Forall fun op => op.bufs ⊆ tcRefs τ sig := by all_sub

theorem opsA_fresh : (opsA : List (HloOp τ sig (Elt F))).Forall fun op => op.fresh = ∅ := by all_fresh

abbrev opsA_W : List (Ref sig .tc) := [main_v105, main_v106, main_v107, main_v108, main_v109, main_v110, main_v111, main_v112, main_v113, main_v114, main_c_13, main_v115, main_v116, main_v117, main_cst_14, main_call7_v0, main_call7_v1, main_call7_v2, main_v118, main_v119, main_v120, main_v121, main_v122, main_v123, main_v124, main_v125, main_v126, main_v127, main_v128, main_c_15, main_v129, main_v130, main_v131, main_cst_16, main_call8_v0]

theorem opsA_writes : (opsA : List (HloOp τ sig (Elt F))).Forall fun op => op.writes ⊆ (opsA_W.map (Proc.devRef (τ := τ) .tc)).toFinset := by all_writes

theorem opsA_keep (V : Valuation τ sig (Elt F)) (r : Ref sig .tc) (h : r ∉ opsA_W) :
    after opsA V (Proc.devRef .tc r) = V (Proc.devRef .tc r) :=
  after_of_writes_sub opsA V opsA_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

def PreA : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v91) = (RefValue.racc (F := F) 0 (ReadP.val_main_v8 (F := F) x0 x2 x3) (ReadP.val_main_v2 (F := F) x1) x4 x5 [0, 1, 2, 3, 4])
    ∧ V (Proc.devRef .tc main_v104) = (RefValue.eTerm (F := F) 0 5 (ReadP.val_main_v8 (F := F) x0 x2 x3) (ReadP.val_main_v2 (F := F) x1) x4 x5)

set_option maxRecDepth 8192 in
set_option maxHeartbeats 4000000 in
theorem opsA_main_v119 (h : PreA V x0 x1 x2 x3 x4 x5 x6 x7 x8 x9) :
    after opsA V (Proc.devRef .tc main_v119) = (RefValue.racc (F := F) 0 (ReadP.val_main_v8 (F := F) x0 x2 x3) (ReadP.val_main_v2 (F := F) x1) x4 x5 [0, 1, 2, 3, 4, 5, 6]) := by
  obtain ⟨⟨h_main_arg0, h_main_arg1, h_main_arg2, h_main_arg3, h_main_arg4, h_main_arg5, h_main_arg6, h_main_arg7, h_main_arg8, h_main_arg9⟩, h_main_v2, h_main_v8, h_main_v20, h_main_v91, h_main_v104⟩ := h
  simp only [opsA]
  after_results_simp
  simp only [h_main_arg5, h_main_arg4, h_main_v8, h_main_v2, h_main_v104, h_main_v91]
  rfl

set_option maxRecDepth 8192 in
set_option maxHeartbeats 4000000 in
theorem opsA_main_v128 (h : PreA V x0 x1 x2 x3 x4 x5 x6 x7 x8 x9) :
    after opsA V (Proc.devRef .tc main_v128) = (RefValue.eAff (F := F) 0 7 (ReadP.val_main_v8 (F := F) x0 x2 x3) x4 x5) := by
  obtain ⟨⟨h_main_arg0, h_main_arg1, h_main_arg2, h_main_arg3, h_main_arg4, h_main_arg5, h_main_arg6, h_main_arg7, h_main_arg8, h_main_arg9⟩, h_main_v2, h_main_v8, h_main_v20, h_main_v91, h_main_v104⟩ := h
  simp only [opsA]
  after_results_simp
  simp only [h_main_arg5, h_main_arg4, h_main_v8]
  rfl

set_option maxRecDepth 8192 in
set_option maxHeartbeats 4000000 in
theorem opsA_main_v131 (h : PreA V x0 x1 x2 x3 x4 x5 x6 x7 x8 x9) :
    after opsA V (Proc.devRef .tc main_v131) = (RefValue.eM1 (F := F) 7 (ReadP.val_main_v2 (F := F) x1)) := by
  obtain ⟨⟨h_main_arg0, h_main_arg1, h_main_arg2, h_main_arg3, h_main_arg4, h_main_arg5, h_main_arg6, h_main_arg7, h_main_arg8, h_main_arg9⟩, h_main_v2, h_main_v8, h_main_v20, h_main_v91, h_main_v104⟩ := h
  simp only [opsA]
  after_results_simp
  simp only [h_main_v2]
  rfl

set_option maxRecDepth 8192 in
set_option maxHeartbeats 4000000 in
theorem opsA_main_call8_v0 (h : PreA V x0 x1 x2 x3 x4 x5 x6 x7 x8 x9) :
    after opsA V (Proc.devRef .tc main_call8_v0) = (RefValue.zeroS (F := F)) := by
  obtain ⟨⟨h_main_arg0, h_main_arg1, h_main_arg2, h_main_arg3, h_main_arg4, h_main_arg5, h_main_arg6, h_main_arg7, h_main_arg8, h_main_arg9⟩, h_main_v2, h_main_v8, h_main_v20, h_main_v91, h_main_v104⟩ := h
  simp only [opsA]
  after_results_simp
  rfl

def PostA : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v119) = (RefValue.racc (F := F) 0 (ReadP.val_main_v8 (F := F) x0 x2 x3) (ReadP.val_main_v2 (F := F) x1) x4 x5 [0, 1, 2, 3, 4, 5, 6])
    ∧ V (Proc.devRef .tc main_v128) = (RefValue.eAff (F := F) 0 7 (ReadP.val_main_v8 (F := F) x0 x2 x3) x4 x5)
    ∧ V (Proc.devRef .tc main_v131) = (RefValue.eM1 (F := F) 7 (ReadP.val_main_v2 (F := F) x1))
    ∧ V (Proc.devRef .tc main_call8_v0) = (RefValue.zeroS (F := F))

theorem stepA (h : PreA V x0 x1 x2 x3 x4 x5 x6 x7 x8 x9) :
    PostA (after opsA V) x0 x1 x2 x3 x4 x5 x6 x7 x8 x9 := by
  obtain ⟨hargs, h_main_v2, h_main_v8, h_main_v20, h_main_v91, h_main_v104⟩ := id h
  exact ⟨Args.after opsA opsA_writes (by decide) (by decide) (by decide) (by decide) (by decide) (by decide) (by decide) (by decide) (by decide) (by decide) hargs,
    (opsA_keep V main_v2 (by decide)).trans h_main_v2,
    (opsA_keep V main_v8 (by decide)).trans h_main_v8,
    (opsA_keep V main_v20 (by decide)).trans h_main_v20,
    opsA_main_v119 V x0 x1 x2 x3 x4 x5 x6 x7 x8 x9 h,
    opsA_main_v128 V x0 x1 x2 x3 x4 x5 x6 x7 x8 x9 h,
    opsA_main_v131 V x0 x1 x2 x3 x4 x5 x6 x7 x8 x9 h,
    opsA_main_call8_v0 V x0 x1 x2 x3 x4 x5 x6 x7 x8 x9 h⟩

end

abbrev opsB : List (HloOp τ sig (Elt F)) :=
  [ o15 X07, o16 X07, o17 X07, o18 X07, o0 X08, o1 X08, o2 X08, o3 X08, o4 X08, o5 X08, o6 X08, o7 X08, o8 X08, o9 X08,
    o10 X08, o11 X08, o12 X08, o13 X08, o14 X08, o15 X08, o16 X08, o17 X08, o18 X08, o0 X09, o1 X09, o2 X09, o3 X09,
    o4 X09, o5 X09, o6 X09, o7 X09, o8 X09, o9 X09, o10 X09 ]

theorem opsB_sub : (opsB : List (HloOp τ sig (Elt F))).Forall fun op => op.bufs ⊆ tcRefs τ sig := by all_sub

theorem opsB_fresh : (opsB : List (HloOp τ sig (Elt F))).Forall fun op => op.fresh = ∅ := by all_fresh

abbrev opsB_W : List (Ref sig .tc) := [main_call8_v1, main_call8_v2, main_v132, main_v133, main_v134, main_v135, main_v136, main_v137, main_v138, main_v139, main_v140, main_v141, main_v142, main_c_17, main_v143, main_v144, main_v145, main_cst_18, main_call9_v0, main_call9_v1, main_call9_v2, main_v146, main_v147, main_v148, main_v149, main_v150, main_v151, main_v152, main_v153, main_v154, main_v155, main_v156, main_c_19, main_v157]

theorem opsB_writes : (opsB : List (HloOp τ sig (Elt F))).Forall fun op => op.writes ⊆ (opsB_W.map (Proc.devRef (τ := τ) .tc)).toFinset := by all_writes

theorem opsB_keep (V : Valuation τ sig (Elt F)) (r : Ref sig .tc) (h : r ∉ opsB_W) :
    after opsB V (Proc.devRef .tc r) = V (Proc.devRef .tc r) :=
  after_of_writes_sub opsB V opsB_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

abbrev PreB : Prop := PostA V x0 x1 x2 x3 x4 x5 x6 x7 x8 x9

set_option maxRecDepth 8192 in
set_option maxHeartbeats 4000000 in
theorem opsB_main_v147 (h : PreB V x0 x1 x2 x3 x4 x5 x6 x7 x8 x9) :
    after opsB V (Proc.devRef .tc main_v147) = (RefValue.racc (F := F) 0 (ReadP.val_main_v8 (F := F) x0 x2 x3) (ReadP.val_main_v2 (F := F) x1) x4 x5 [0, 1, 2, 3, 4, 5, 6, 7, 8]) := by
  obtain ⟨⟨h_main_arg0, h_main_arg1, h_main_arg2, h_main_arg3, h_main_arg4, h_main_arg5, h_main_arg6, h_main_arg7, h_main_arg8, h_main_arg9⟩, h_main_v2, h_main_v8, h_main_v20, h_main_v119, h_main_v128, h_main_v131, h_main_call8_v0⟩ := h
  simp only [opsB]
  after_results_simp
  simp only [h_main_arg5, h_main_arg4, h_main_v8, h_main_v2, h_main_call8_v0, h_main_v128, h_main_v131, h_main_v119]
  rfl

set_option maxRecDepth 8192 in
set_option maxHeartbeats 4000000 in
theorem opsB_main_v156 (h : PreB V x0 x1 x2 x3 x4 x5 x6 x7 x8 x9) :
    after opsB V (Proc.devRef .tc main_v156) = (RefValue.eAff (F := F) 0 9 (ReadP.val_main_v8 (F := F) x0 x2 x3) x4 x5) := by
  obtain ⟨⟨h_main_arg0, h_main_arg1, h_main_arg2, h_main_arg3, h_main_arg4, h_main_arg5, h_main_arg6, h_main_arg7, h_main_arg8, h_main_arg9⟩, h_main_v2, h_main_v8, h_main_v20, h_main_v119, h_main_v128, h_main_v131, h_main_call8_v0⟩ := h
  simp only [opsB]
  after_results_simp
  simp only [h_main_arg5, h_main_arg4, h_main_v8]
  rfl

set_option maxRecDepth 8192 in
set_option maxHeartbeats 4000000 in
theorem opsB_main_v157 (h : PreB V x0 x1 x2 x3 x4 x5 x6 x7 x8 x9) :
    after opsB V (Proc.devRef .tc main_v157) = (RefValue.eCb (F := F) 9) := by
  obtain ⟨⟨h_main_arg0, h_main_arg1, h_main_arg2, h_main_arg3, h_main_arg4, h_main_arg5, h_main_arg6, h_main_arg7, h_main_arg8, h_main_arg9⟩, h_main_v2, h_main_v8, h_main_v20, h_main_v119, h_main_v128, h_main_v131, h_main_call8_v0⟩ := h
  simp only [opsB]
  after_results_simp
  rfl

def PostB : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v147) = (RefValue.racc (F := F) 0 (ReadP.val_main_v8 (F := F) x0 x2 x3) (ReadP.val_main_v2 (F := F) x1) x4 x5 [0, 1, 2, 3, 4, 5, 6, 7, 8])
    ∧ V (Proc.devRef .tc main_v156) = (RefValue.eAff (F := F) 0 9 (ReadP.val_main_v8 (F := F) x0 x2 x3) x4 x5)
    ∧ V (Proc.devRef .tc main_v157) = (RefValue.eCb (F := F) 9)

theorem stepB (h : PreB V x0 x1 x2 x3 x4 x5 x6 x7 x8 x9) :
    PostB (after opsB V) x0 x1 x2 x3 x4 x5 x6 x7 x8 x9 := by
  obtain ⟨hargs, h_main_v2, h_main_v8, h_main_v20, h_main_v119, h_main_v128, h_main_v131, h_main_call8_v0⟩ := id h
  exact ⟨Args.after opsB opsB_writes (by decide) (by decide) (by decide) (by decide) (by decide) (by decide) (by decide) (by decide) (by decide) (by decide) hargs,
    (opsB_keep V main_v2 (by decide)).trans h_main_v2,
    (opsB_keep V main_v8 (by decide)).trans h_main_v8,
    (opsB_keep V main_v20 (by decide)).trans h_main_v20,
    opsB_main_v147 V x0 x1 x2 x3 x4 x5 x6 x7 x8 x9 h,
    opsB_main_v156 V x0 x1 x2 x3 x4 x5 x6 x7 x8 x9 h,
    opsB_main_v157 V x0 x1 x2 x3 x4 x5 x6 x7 x8 x9 h⟩

end

set_option maxRecDepth 8192 in
set_option maxHeartbeats 4000000 in
theorem part_eq (c : Dev nD) : main_part2 (F := F) c = seq (opsA ++ opsB) := rfl

end Cert.RefRun.W2

end
-- ==== Proof.RefRun_W3.lean ====
import proofs.«406211_j29257317220859_3_alg».proof.Proof.RefRead
import proofs.«406211_j29257317220859_3_alg».proof.Proof.RefRun_Aux

noncomputable section

namespace Cert.RefRun.W3

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ o11 X09, o12 X09, o13 X09, o14 X09, o15 X09, o16 X09, o17 X09, o18 X09, o0 X0a, o1 X0a, o2 X0a, o3 X0a, o4 X0a, o5 X0a,
    o6 X0a, o7 X0a, o8 X0a, o9 X0a, o10 X0a, o11 X0a, o12 X0a, o13 X0a, o14 X0a, o15 X0a, o16 X0a, o17 X0a, o18 X0a,
    o0 X0b, o1 X0b, o2 X0b, o3 X0b, o4 X0b, o5 X0b, o6 X0b, o7 X0b, o8 X0b ]

theorem opsA_sub : (opsA : List (HloOp τ sig (Elt F))).Forall fun op => op.bufs ⊆ tcRefs τ sig := by all_sub

theorem opsA_fresh : (opsA : List (HloOp τ sig (Elt F))).Forall fun op => op.fresh = ∅ := by all_fresh

abbrev opsA_W : List (Ref sig .tc) := [main_v158, main_v159, main_cst_20, main_call10_v0, main_call10_v1, main_call10_v2, main_v160, main_v161, main_v162, main_v163, main_v164, main_v165, main_v166, main_v167, main_v168, main_v169, main_v170, main_c_21, main_v171, main_v172, main_v173, main_cst_22, main_call11_v0, main_call11_v1, main_call11_v2, main_v174, main_v175, main_v176, main_v177, main_v178, main_v179, main_v180, main_v181, main_v182, main_v183, main_v184]

theorem opsA_writes : (opsA : List (HloOp τ sig (Elt F))).Forall fun op => op.writes ⊆ (opsA_W.map (Proc.devRef (τ := τ) .tc)).toFinset := by all_writes

theorem opsA_keep (V : Valuation τ sig (Elt F)) (r : Ref sig .tc) (h : r ∉ opsA_W) :
    after opsA V (Proc.devRef .tc r) = V (Proc.devRef .tc r) :=
  after_of_writes_sub opsA V opsA_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

def PreA : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v147) = (RefValue.racc (F := F) 0 (ReadP.val_main_v8 (F := F) x0 x2 x3) (ReadP.val_main_v2 (F := F) x1) x4 x5 [0, 1, 2, 3, 4, 5, 6, 7, 8])
    ∧ V (Proc.devRef .tc main_v156) = (RefValue.eAff (F := F) 0 9 (ReadP.val_main_v8 (F := F) x0 x2 x3) x4 x5)
    ∧ V (Proc.devRef .tc main_v157) = (RefValue.eCb (F := F) 9)

set_option maxRecDepth 8192 in
set_option maxHeartbeats 4000000 in
theorem opsA_main_v175 (h : PreA V x0 x1 x2 x3 x4 x5 x6 x7 x8 x9) :
    after opsA V (Proc.devRef .tc main_v175) = (RefValue.racc (F := F) 0 (ReadP.val_main_v8 (F := F) x0 x2 x3) (ReadP.val_main_v2 (F := F) x1) x4 x5 [0, 1, 2, 3, 4, 5, 6, 7, 8, 9, 10]) := by
  obtain ⟨⟨h_main_arg0, h_main_arg1, h_main_arg2, h_main_arg3, h_main_arg4, h_main_arg5, h_main_arg6, h_main_arg7, h_main_arg8, h_main_arg9⟩, h_main_v2, h_main_v8, h_main_v20, h_main_v147, h_main_v156, h_main_v157⟩ := h
  simp only [opsA]
  after_results_simp
  simp only [h_main_arg5, h_main_arg4, h_main_v8, h_main_v2, h_main_v156, h_main_v157, h_main_v147]
  rfl

set_option maxRecDepth 8192 in
set_option maxHeartbeats 4000000 in
theorem opsA_main_v184 (h : PreA V x0 x1 x2 x3 x4 x5 x6 x7 x8 x9) :
    after opsA V (Proc.devRef .tc main_v184) = (RefValue.eAff (F := F) 0 11 (ReadP.val_main_v8 (F := F) x0 x2 x3) x4 x5) := by
  obtain ⟨⟨h_main_arg0, h_main_arg1, h_main_arg2, h_main_arg3, h_main_arg4, h_main_arg5, h_main_arg6, h_main_arg7, h_main_arg8, h_main_arg9⟩, h_main_v2, h_main_v8, h_main_v20, h_main_v147, h_main_v156, h_main_v157⟩ := h
  simp only [opsA]
  after_results_simp
  simp only [h_main_arg5, h_main_arg4, h_main_v8]
  rfl

def PostA : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v175) = (RefValue.racc (F := F) 0 (ReadP.val_main_v8 (F := F) x0 x2 x3) (ReadP.val_main_v2 (F := F) x1) x4 x5 [0, 1, 2, 3, 4, 5, 6, 7, 8, 9, 10])
    ∧ V (Proc.devRef .tc main_v184) = (RefValue.eAff (F := F) 0 11 (ReadP.val_main_v8 (F := F) x0 x2 x3) x4 x5)

theorem stepA (h : PreA V x0 x1 x2 x3 x4 x5 x6 x7 x8 x9) :
    PostA (after opsA V) x0 x1 x2 x3 x4 x5 x6 x7 x8 x9 := by
  obtain ⟨hargs, h_main_v2, h_main_v8, h_main_v20, h_main_v147, h_main_v156, h_main_v157⟩ := id h
  exact ⟨Args.after opsA opsA_writes (by decide) (by decide) (by decide) (by decide) (by decide) (by decide) (by decide) (by decide) (by decide) (by decide) hargs,
    (opsA_keep V main_v2 (by decide)).trans h_main_v2,
    (opsA_keep V main_v8 (by decide)).trans h_main_v8,
    (opsA_keep V main_v20 (by decide)).trans h_main_v20,
    opsA_main_v175 V x0 x1 x2 x3 x4 x5 x6 x7 x8 x9 h,
    opsA_main_v184 V x0 x1 x2 x3 x4 x5 x6 x7 x8 x9 h⟩

end

abbrev opsB : List (HloOp τ sig (Elt F)) :=
  [ o9 X0b, o10 X0b, o11 X0b, o12 X0b, o13 X0b, o14 X0b, o15 X0b, o16 X0b, o17 X0b, o18 X0b, o0 X0c, o1 X0c, o2 X0c,
    o3 X0c, o4 X0c, o5 X0c, o6 X0c, o7 X0c, o8 X0c, o9 X0c, o10 X0c, o11 X0c, o12 X0c, o13 X0c, o14 X0c, o15 X0c, o16 X0c,
    o17 X0c, o18 X0c, o0 X0d, o1 X0d, o2 X0d, o3 X0d, o4 X0d, o5 X0d, o6 X0d ]

theorem opsB_sub : (opsB : List (HloOp τ sig (Elt F))).Forall fun op => op.bufs ⊆ tcRefs τ sig := by all_sub

theorem opsB_fresh : (opsB : List (HloOp τ sig (Elt F))).Forall fun op => op.fresh = ∅ := by all_fresh

abbrev opsB_W : List (Ref sig .tc) := [main_c_23, main_v185, main_v186, main_v187, main_cst_24, main_call12_v0, main_call12_v1, main_call12_v2, main_v188, main_v189, main_v190, main_v191, main_v192, main_v193, main_v194, main_v195, main_v196, main_v197, main_v198, main_c_25, main_v199, main_v200, main_v201, main_cst_26, main_call13_v0, main_call13_v1, main_call13_v2, main_v202, main_v203, main_v204, main_v205, main_v206, main_v207, main_v208, main_v209, main_v210]

theorem opsB_writes : (opsB : List (HloOp τ sig (Elt F))).Forall fun op => op.writes ⊆ (opsB_W.map (Proc.devRef (τ := τ) .tc)).toFinset := by all_writes

theorem opsB_keep (V : Valuation τ sig (Elt F)) (r : Ref sig .tc) (h : r ∉ opsB_W) :
    after opsB V (Proc.devRef .tc r) = V (Proc.devRef .tc r) :=
  after_of_writes_sub opsB V opsB_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

abbrev PreB : Prop := PostA V x0 x1 x2 x3 x4 x5 x6 x7 x8 x9

set_option maxRecDepth 8192 in
set_option maxHeartbeats 4000000 in
theorem opsB_main_v203 (h : PreB V x0 x1 x2 x3 x4 x5 x6 x7 x8 x9) :
    after opsB V (Proc.devRef .tc main_v203) = (RefValue.racc (F := F) 0 (ReadP.val_main_v8 (F := F) x0 x2 x3) (ReadP.val_main_v2 (F := F) x1) x4 x5 [0, 1, 2, 3, 4, 5, 6, 7, 8, 9, 10, 11, 12]) := by
  obtain ⟨⟨h_main_arg0, h_main_arg1, h_main_arg2, h_main_arg3, h_main_arg4, h_main_arg5, h_main_arg6, h_main_arg7, h_main_arg8, h_main_arg9⟩, h_main_v2, h_main_v8, h_main_v20, h_main_v175, h_main_v184⟩ := h
  simp only [opsB]
  after_results_simp
  simp only [h_main_arg5, h_main_arg4, h_main_v8, h_main_v2, h_main_v184, h_main_v175]
  rfl

set_option maxRecDepth 8192 in
set_option maxHeartbeats 4000000 in
theorem opsB_main_v207 (h : PreB V x0 x1 x2 x3 x4 x5 x6 x7 x8 x9) :
    after opsB V (Proc.devRef .tc main_v207) = (RefValue.eDot (F := F) 0 13 (ReadP.val_main_v8 (F := F) x0 x2 x3) x4) := by
  obtain ⟨⟨h_main_arg0, h_main_arg1, h_main_arg2, h_main_arg3, h_main_arg4, h_main_arg5, h_main_arg6, h_main_arg7, h_main_arg8, h_main_arg9⟩, h_main_v2, h_main_v8, h_main_v20, h_main_v175, h_main_v184⟩ := h
  simp only [opsB]
  after_results_simp
  simp only [h_main_arg4, h_main_v8]
  rfl

set_option maxRecDepth 8192 in
set_option maxHeartbeats 4000000 in
theorem opsB_main_v210 (h : PreB V x0 x1 x2 x3 x4 x5 x6 x7 x8 x9) :
    after opsB V (Proc.devRef .tc main_v210) = (RefValue.eB1 (F := F) 0 13 x5) := by
  obtain ⟨⟨h_main_arg0, h_main_arg1, h_main_arg2, h_main_arg3, h_main_arg4, h_main_arg5, h_main_arg6, h_main_arg7, h_main_arg8, h_main_arg9⟩, h_main_v2, h_main_v8, h_main_v20, h_main_v175, h_main_v184⟩ := h
  simp only [opsB]
  after_results_simp
  simp only [h_main_arg5]
  rfl

def PostB : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v203) = (RefValue.racc (F := F) 0 (ReadP.val_main_v8 (F := F) x0 x2 x3) (ReadP.val_main_v2 (F := F) x1) x4 x5 [0, 1, 2, 3, 4, 5, 6, 7, 8, 9, 10, 11, 12])
    ∧ V (Proc.devRef .tc main_v207) = (RefValue.eDot (F := F) 0 13 (ReadP.val_main_v8 (F := F) x0 x2 x3) x4)
    ∧ V (Proc.devRef .tc main_v210) = (RefValue.eB1 (F := F) 0 13 x5)

theorem stepB (h : PreB V x0 x1 x2 x3 x4 x5 x6 x7 x8 x9) :
    PostB (after opsB V) x0 x1 x2 x3 x4 x5 x6 x7 x8 x9 := by
  obtain ⟨hargs, h_main_v2, h_main_v8, h_main_v20, h_main_v175, h_main_v184⟩ := id h
  exact ⟨Args.after opsB opsB_writes (by decide) (by decide) (by decide) (by decide) (by decide) (by decide) (by decide) (by decide) (by decide) (by decide) hargs,
    (opsB_keep V main_v2 (by decide)).trans h_main_v2,
    (opsB_keep V main_v8 (by decide)).trans h_main_v8,
    (opsB_keep V main_v20 (by decide)).trans h_main_v20,
    opsB_main_v203 V x0 x1 x2 x3 x4 x5 x6 x7 x8 x9 h,
    opsB_main_v207 V x0 x1 x2 x3 x4 x5 x6 x7 x8 x9 h,
    opsB_main_v210 V x0 x1 x2 x3 x4 x5 x6 x7 x8 x9 h⟩

end

set_option maxRecDepth 8192 in
set_option maxHeartbeats 4000000 in
theorem part_eq (c : Dev nD) : main_part3 (F := F) c = seq (opsA ++ opsB) := rfl

end Cert.RefRun.W3

end
-- ==== Proof.RefRun_W4.lean ====
import proofs.«406211_j29257317220859_3_alg».proof.Proof.RefRead
import proofs.«406211_j29257317220859_3_alg».proof.Proof.RefRun_Aux

noncomputable section

namespace Cert.RefRun.W4

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ o7 X0d, o8 X0d, o9 X0d, o10 X0d, o11 X0d, o12 X0d, o13 X0d, o14 X0d, o15 X0d, o16 X0d, o17 X0d, o18 X0d, o0 X0e,
    o1 X0e, o2 X0e, o3 X0e, o4 X0e, o5 X0e, o6 X0e, o7 X0e, o8 X0e, o9 X0e, o10 X0e, o11 X0e, o12 X0e, o13 X0e, o14 X0e,
    o15 X0e, o16 X0e, o17 X0e, o18 X0e, o0 X0f, o1 X0f, o2 X0f, o3 X0f, o4 X0f ]

theorem opsA_sub : (opsA : List (HloOp τ sig (Elt F))).Forall fun op => op.bufs ⊆ tcRefs τ sig := by all_sub

theorem opsA_fresh : (opsA : List (HloOp τ sig (Elt F))).Forall fun op => op.fresh = ∅ := by all_fresh

abbrev opsA_W : List (Ref sig .tc) := [main_v211, main_v212, main_c_27, main_v213, main_v214, main_v215, main_cst_28, main_call14_v0, main_call14_v1, main_call14_v2, main_v216, main_v217, main_v218, main_v219, main_v220, main_v221, main_v222, main_v223, main_v224, main_v225, main_v226, main_c_29, main_v227, main_v228, main_v229, main_cst_30, main_call15_v0, main_call15_v1, main_call15_v2, main_v230, main_v231, main_v232, main_v233, main_v234, main_v235, main_v236]

theorem opsA_writes : (opsA : List (HloOp τ sig (Elt F))).Forall fun op => op.writes ⊆ (opsA_W.map (Proc.devRef (τ := τ) .tc)).toFinset := by all_writes

theorem opsA_keep (V : Valuation τ sig (Elt F)) (r : Ref sig .tc) (h : r ∉ opsA_W) :
    after opsA V (Proc.devRef .tc r) = V (Proc.devRef .tc r) :=
  after_of_writes_sub opsA V opsA_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

def PreA : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v203) = (RefValue.racc (F := F) 0 (ReadP.val_main_v8 (F := F) x0 x2 x3) (ReadP.val_main_v2 (F := F) x1) x4 x5 [0, 1, 2, 3, 4, 5, 6, 7, 8, 9, 10, 11, 12])
    ∧ V (Proc.devRef .tc main_v207) = (RefValue.eDot (F := F) 0 13 (ReadP.val_main_v8 (F := F) x0 x2 x3) x4)
    ∧ V (Proc.devRef .tc main_v210) = (RefValue.eB1 (F := F) 0 13 x5)

set_option maxRecDepth 8192 in
set_option maxHeartbeats 4000000 in
theorem opsA_main_v231 (h : PreA V x0 x1 x2 x3 x4 x5 x6 x7 x8 x9) :
    after opsA V (Proc.devRef .tc main_v231) = (RefValue.racc (F := F) 0 (ReadP.val_main_v8 (F := F) x0 x2 x3) (ReadP.val_main_v2 (F := F) x1) x4 x5 [0, 1, 2, 3, 4, 5, 6, 7, 8, 9, 10, 11, 12, 13, 14]) := by
  obtain ⟨⟨h_main_arg0, h_main_arg1, h_main_arg2, h_main_arg3, h_main_arg4, h_main_arg5, h_main_arg6, h_main_arg7, h_main_arg8, h_main_arg9⟩, h_main_v2, h_main_v8, h_main_v20, h_main_v203, h_main_v207, h_main_v210⟩ := h
  simp only [opsA]
  after_results_simp
  simp only [h_main_arg5, h_main_arg4, h_main_v8, h_main_v2, h_main_v210, h_main_v207, h_main_v203]
  rfl

set_option maxRecDepth 8192 in
set_option maxHeartbeats 4000000 in
theorem opsA_main_v235 (h : PreA V x0 x1 x2 x3 x4 x5 x6 x7 x8 x9) :
    after opsA V (Proc.devRef .tc main_v235) = (RefValue.eDot (F := F) 0 15 (ReadP.val_main_v8 (F := F) x0 x2 x3) x4) := by
  obtain ⟨⟨h_main_arg0, h_main_arg1, h_main_arg2, h_main_arg3, h_main_arg4, h_main_arg5, h_main_arg6, h_main_arg7, h_main_arg8, h_main_arg9⟩, h_main_v2, h_main_v8, h_main_v20, h_main_v203, h_main_v207, h_main_v210⟩ := h
  simp only [opsA]
  after_results_simp
  simp only [h_main_arg4, h_main_v8]
  rfl

set_option maxRecDepth 8192 in
set_option maxHeartbeats 4000000 in
theorem opsA_main_v236 (h : PreA V x0 x1 x2 x3 x4 x5 x6 x7 x8 x9) :
    after opsA V (Proc.devRef .tc main_v236) = (RefValue.eSB (F := F) 0 15 x5) := by
  obtain ⟨⟨h_main_arg0, h_main_arg1, h_main_arg2, h_main_arg3, h_main_arg4, h_main_arg5, h_main_arg6, h_main_arg7, h_main_arg8, h_main_arg9⟩, h_main_v2, h_main_v8, h_main_v20, h_main_v203, h_main_v207, h_main_v210⟩ := h
  simp only [opsA]
  after_results_simp
  simp only [h_main_arg5]
  rfl

def PostA : Prop :=
    Args V x0 x1 x2 x3 x4 x5 x6 x7 x8 x9
    ∧ V (Proc.devRef .tc main_v2) = ReadP.val_main_v2 (F := F) x1
    ∧ V (Proc.devRef .tc main_v8) = ReadP.val_main_v8 (F := F) x0 x2 x3
    ∧ V (Proc.devRef .tc main_v20) = ReadP.val_main_v20 (F := F) x0 x2 x3 x6 x7
    ∧ V (Proc.devRef .tc main_v231) = (RefValue.racc (F := F) 0 (ReadP.val_main_v8 (F := F) x0 x2 x3) (ReadP.val_main_v2 (F := F) x1) x4 x5 [0, 1, 2, 3, 4, 5, 6, 7, 8, 9, 10, 11, 12, 13, 14])
    ∧ V (Proc.devRef .tc main_v235) = (RefValue.eDot (F := F) 0 15 (ReadP.val_main_v8 (F := F) x0 x2 x3) x4)
    ∧ V (Proc.devRef .tc main_v236) = (RefValue.eSB (F := F) 0 15 x5)

theorem stepA (h : PreA V x0 x1 x2 x3 x4 x5 x6 x7 x8 x9) :
    PostA (after opsA V) x0 x1 x2 x3 x4 x5 x6 x7 x8 x9 := by
  obtain ⟨hargs, h_main_v2, h_main_v8, h_main_v20, h_main_v203, h_main_v207, h_main_v210⟩ := id h
  exact ⟨Args.after opsA opsA_writes (by decide) (by decide) (by decide) (by decide) (by decide) (by decide) (by decide) (by decide) (by decide) (by decide) hargs,
    (opsA_keep V main_v2 (by decide)).trans h_main_v2,
    (opsA_keep V main_v8 (by decide)).trans h_main_v8,
    (opsA_keep V main_v20 (by decide)).trans h_main_v20,
    opsA_main_v231 V x0 x1 x2 x3 x4 x5 x6 x7 x8 x9 h,
    opsA_main_v235 V x0 x1 x2 x3 x4 x5 x6 x7 x8 x9 h,
    opsA_main_v236 V x0 x1 x2 x3 x4 x5 x6 x7 x8 x9 h⟩

end

abbrev opsB : List (HloOp τ sig (Elt F)) :=
  [ o5 X0f, o6 X0f, o7 X0f, o8 X0f, o9 X0f, o10 X0f, o11 X0f, o12 X0f, o13 X0f, o14 X0f, o15 X0f, o16 X0f, o17 X0f, o18 X0f,
    binary main_v20 main_v245 main_v246 (addf : (⟨S16384x512, .f32⟩ : BufTy).Contents (Elt F) → (⟨S16384x512, .f32⟩ : BufTy).Contents (Elt F) → (⟨S16384x512, .f32⟩ : BufTy).Contents (Elt F)),
    binary main_v246 main_v8 main_v247 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S16384x512, .f32⟩) main_call17_v0) (broadcastInDim S16384x512 ![] bcast_S_S16384x512),
    TRef.binary (TRef.of (T := ⟨S16384x512, .f32⟩) main_v247) (TRef.of (T := ⟨S16384x512, .f32⟩) main_call17_v0) (TRef.of (T := ⟨S16384x512, .f32⟩) main_v248) maximumf,
    unary main_arg6 main_v249 ((extractStridedSlice S1x1x512x512 ![1, 0, 0, 0] · slices_S2x1x512x512_S1x1x512x512_1_0_0_0) : (⟨S2x1x512x512, .f32⟩ : BufTy).Contents (Elt F) → (⟨S1x1x512x512, .f32⟩ : BufTy).Contents (Elt F)),
    reshape main_v249 main_v250 rfl shapeCasts_S1x1x512x512_S1x512x512,
    binary main_v250 main_v248 main_v251 ((fun l r => Host.dotGeneral dot_S1x512x512_S16384x512_S1x512x16384_2_1_01_0_n_n none l r) : (⟨S1x512x512, .f32⟩ : BufTy).Contents (Elt F) → (⟨S16384x512, .f32⟩ : BufTy).Contents (Elt F) → (⟨S1x512x16384, .f32⟩ : BufTy).Contents (Elt F)),
    unary main_v251 main_v252 ((transpose S1x16384x512 [0, 2, 1] · transposes_S1x512x16384_S1x16384x512_0_2_1) : (⟨S1x512x16384, .f32⟩ : BufTy).Contents (Elt F) → (⟨S1x16384x512, .f32⟩ : BufTy).Contents (Elt F)),
    unary main_arg7 main_v253 ((extractStridedSlice S1x1x512 ![1, 0, 0] · slices_S2x1x512_S1x1x512_1_0_0) : (⟨S2x1x512, .f32⟩ : BufTy).Contents (Elt F) → (⟨S1x1x512, .f32⟩ : BufTy).Contents (Elt F)),
    reshape main_v253 main_v254 rfl shapeCasts_S1x1x512_S1x512,
    unary main_v254 main_v255 (broadcastInDim S1x1x512 ![0, 2] bcast_S1x512_S1x1x512_0_2 : (⟨S1x512, .f32⟩ : BufTy).Contents (Elt F) → (⟨S1x1x512, .f32⟩ : BufTy).Contents (Elt F)),
    unary main_v255 main_v256 (broadcastInDim S1x16384x512 ![0, 1, 2] bcast_S1x1x512_S1x16384x512_0_1_2 : (⟨S1x1x512, .f32⟩ : BufTy).Contents (Elt F) → (⟨S1x16384x512, .f32⟩ : BufTy).Contents (Elt F)),
    binary main_v252 main_v256 main_v257 (addf : (⟨S1x16384x512, .f32⟩ : BufTy).Contents (Elt F) → (⟨S1x16384x512, .f32⟩ : BufTy).Contents (Elt F) → (⟨S1x16384x512, .f32⟩ : BufTy).Contents (Elt F)),
    nullary main_cst_33 (constant S_ .f32 0x00000000#32),
    binary main_v257 main_cst_33 main_v258 ((fun x v => Host.reduceAdd x v reducesTo_S1x16384x512_S16384x512_d0 h_S_) : (⟨S1x16384x512, .f32⟩ : BufTy).Contents (Elt F) → (⟨S_, .f32⟩ : BufTy).Contents (Elt F) → (⟨S16384x512, .f32⟩ : BufTy).Contents (Elt F)),
    nullary main_cst_34 (constant S_ .f32 0x3F800000#32),
    unary main_cst_34 main_v259 (broadcastInDim S16384x512 ![] bcast_S_S16384x512 : (⟨S_, .f32⟩ : BufTy).Contents (Elt F) → (⟨S16384x512, .f32⟩ : BufTy).Contents (Elt F)),
    binary main_v258 main_v259 main_v260 (Host.divf : (⟨S16384x512, .f32⟩ : BufTy).Contents (Elt F) → (⟨S16384x512, .f32⟩ : BufTy).Contents (Elt F) → (⟨S16384x512, .f32⟩ : BufTy).Contents (Elt F)),
    nullary main_cst_35 (constant S_ .f32 0x00000000#32),
    unary main_cst_35 main_v261 (broadcastInDim S16384x512 ![] bcast_S_S16384x512 : (⟨S_, .f32⟩ : BufTy).Contents (Elt F) → (⟨S16384x512, .f32⟩ : BufTy).Contents (Elt F)) ]

theorem opsB_sub : (opsB : List (HloOp τ sig (Elt F))).Forall fun op => op.bufs ⊆ tcRefs τ sig := by all_sub

theorem opsB_fresh : (opsB : List (HloOp τ sig (Elt F))).Forall fun op => op.fresh = ∅ := by all_fresh

abbrev opsB_W : List (Ref sig .tc) := [main_v237, main_v238, main_v239, main_v240, main_c_31, main_v241, main_v242, main_v243, main_cst_32, main_call16_v0, main_call16_v1, main_call16_v2, main_v244, main_v245, main_v246, main_v247, main_call17_cst, main_call17_v0, main_v248, main_v249, main_v250, main_v251, main_v252, main_v253, main_v254, main_v255, main_v256, main_v257, main_cst_33, main_v258, main_cst_34, main_v259, main_v260, main_cst_35, main_v261]

theorem opsB_writes : (opsB : List (HloOp τ sig (Elt F))).Forall fun op => op.writes ⊆ (opsB_W.map (Proc.devRef (τ := τ) .tc)).toFinset := by all_writes

theorem opsB_keep (V : Valuation τ sig (Elt F)) (r : Ref sig .tc) (h : r ∉ opsB_W) :
    after opsB V (Proc.devRef .tc r) = V (Proc.devRef .tc r) :=
  after_of_writes_sub opsB V opsB_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

abbrev PreB : Prop := PostA V x0 x1 x2 x3 x4 x5 x6 x7 x8 x9

set_option maxRecDepth 8192 in
set_option maxHeartbeats 4000000 in
theorem opsB_main_v248 (h : PreB V x0 x1 x2 x3 x4 x5 x6 x7 x8 x9) :
    after opsB V (Proc.devRef .tc main_v248) = ReadP.val_main_v248 (F := F) x0 x1 x2 x3 x4 x5 x6 x7 := by
  obtain ⟨⟨h_main_arg0, h_main_arg1, h_main_arg2, h_main_arg3, h_main_arg4, h_main_arg5, h_main_arg6, h_main_arg7, h_main_arg8, h_main_arg9⟩, h_main_v2, h_main_v8, h_main_v20, h_main_v231, h_main_v235, h_main_v236⟩ := h
  simp only [opsB]
  after_results_simp
  simp only [h_main_v8, h_main_v236, h_main_v235, h_main_v2, h_main_v231, h_main_v20]
  rfl

set_option maxRecDepth 8192 in
set_option maxHeartbeats 4000000 in
theorem opsB_main_v260 (h : PreB V x0 x1 x2 x3 x4 x5 x6 x7 x8 x9) :
    after opsB V (Proc.devRef .tc main_v260) = ReadP.val_main_v260 (F := F) x0 x1 x2 x3 x4 x5 x6 x7 := by
  obtain ⟨⟨h_main_arg0, h_main_arg1, h_main_arg2, h_main_arg3, h_main_arg4, h_main_arg5, h_main_arg6, h_main_arg7, h_main_arg8, h_main_arg9⟩, h_main_v2, h_main_v8, h_main_v20, h_main_v231, h_main_v235, h_main_v236⟩ := h
  simp only [opsB]
  after_results_simp
  simp only [h_main_arg7, h_main_v8, h_main_v236, h_main_v235, h_main_v2, h_main_v231, h_main_v20, h_main_arg6]
  rfl

set_option maxRecDepth 8192 in
set_option maxHeartbeats 4000000 in
theorem opsB_main_v261 (h : PreB V x0 x1 x2 x3 x4 x5 x6 x7 x8 x9) :
    after opsB V (Proc.devRef .tc main_v261) = ReadP.val_main_v261 (F := F) := by
  obtain ⟨⟨h_main_arg0, h_main_arg1, h_main_arg2, h_main_arg3, h_main_arg4, h_main_arg5, h_main_arg6, h_main_arg7, h_main_arg8, h_main_arg9⟩, h_main_v2, h_main_v8, h_main_v20, h_main_v231, h_main_v235, h_main_v236⟩ := h
  simp only [opsB]
  after_results_simp
  rfl

def PostB : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v261) = ReadP.val_main_v261 (F := F)

theorem stepB (h : PreB V x0 x1 x2 x3 x4 x5 x6 x7 x8 x9) :
    PostB (after opsB V) x0 x1 x2 x3 x4 x5 x6 x7 x8 x9 := by
  obtain ⟨hargs, h_main_v2, h_main_v8, h_main_v20, h_main_v231, h_main_v235, h_main_v236⟩ := id h
  exact ⟨Args.after opsB opsB_writes (by decide) (by decide) (by decide) (by decide) (by decide) (by decide) (by decide) (by decide) (by decide) (by decide) hargs,
    (opsB_keep V main_v2 (by decide)).trans h_main_v2,
    opsB_main_v248 V x0 x1 x2 x3 x4 x5 x6 x7 x8 x9 h,
    opsB_main_v260 V x0 x1 x2 x3 x4 x5 x6 x7 x8 x9 h,
    opsB_main_v261 V x0 x1 x2 x3 x4 x5 x6 x7 x8 x9 h⟩

end

set_option maxRecDepth 8192 in
set_option maxHeartbeats 4000000 in
theorem part_eq (c : Dev nD) : main_part4 (F := F) c = seq (opsA ++ opsB) := rfl

end Cert.RefRun.W4

end
-- ==== Proof.RefRun_W5.lean ====
import proofs.«406211_j29257317220859_3_alg».proof.Proof.RefRead
import proofs.«406211_j29257317220859_3_alg».proof.Proof.RefRun_Aux

noncomputable section

namespace Cert.RefRun.W5

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ o0 X10, o1 X10, o2 X10, o3 X10, o4 X10, o5 X10, o6 X10, o7 X10, o8 X10, o9 X10, o10 X10, o11 X10, o12 X10, o13 X10,
    o14 X10, o15 X10, o16 X10, o17 X10, o18 X10, o0 X11, o1 X11, o2 X11, o3 X11, o4 X11, o5 X11, o6 X11, o7 X11, o8 X11,
    o9 X11, o10 X11, o11 X11, o12 X11, o13 X11, o14 X11, o15 X11 ]

theorem opsA_sub : (opsA : List (HloOp τ sig (Elt F))).Forall fun op => op.bufs ⊆ tcRefs τ sig := by all_sub

theorem opsA_fresh : (opsA : List (HloOp τ sig (Elt F))).Forall fun op => op.fresh = ∅ := by all_fresh

abbrev opsA_W : List (Ref sig .tc) := [main_v262, main_v263, main_v264, main_v265, main_v266, main_v267, main_v268, main_v269, main_v270, main_c_36, main_v271, main_v272, main_v273, main_cst_37, main_call18_v0, main_call18_v1, main_call18_v2, main_v274, main_v275, main_v276, main_v277, main_v278, main_v279, main_v280, main_v281, main_v282, main_v283, main_v284, main_c_38, main_v285, main_v286, main_v287, main_cst_39, main_call19_v0, main_call19_v1]

theorem opsA_writes : (opsA : List (HloOp τ sig (Elt F))).Forall fun op => op.writes ⊆ (opsA_W.map (Proc.devRef (τ := τ) .tc)).toFinset := by all_writes

theorem opsA_keep (V : Valuation τ sig (Elt F)) (r : Ref sig .tc) (h : r ∉ opsA_W) :
    after opsA V (Proc.devRef .tc r) = V (Proc.devRef .tc r) :=
  after_of_writes_sub opsA V opsA_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

def PreA : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v261) = ReadP.val_main_v261 (F := F)

set_option maxRecDepth 8192 in
set_option maxHeartbeats 4000000 in
theorem opsA_main_v275 (h : PreA V x0 x1 x2 x3 x4 x5 x6 x7 x8 x9) :
    after opsA V (Proc.devRef .tc main_v275) = (RefValue.racc (F := F) 1 (ReadP.val_main_v248 (F := F) x0 x1 x2 x3 x4 x5 x6 x7) (ReadP.val_main_v2 (F := F) x1) x4 x5 [0]) := by
  obtain ⟨⟨h_main_arg0, h_main_arg1, h_main_arg2, h_main_arg3, h_main_arg4, h_main_arg5, h_main_arg6, h_main_arg7, h_main_arg8, h_main_arg9⟩, h_main_v2, h_main_v248, h_main_v260, h_main_v261⟩ := h
  simp only [opsA]
  after_results_simp
  simp only [h_main_arg5, h_main_arg4, h_main_v248, h_main_v2, h_main_v261]
  rfl

set_option maxRecDepth 8192 in
set_option maxHeartbeats 4000000 in
theorem opsA_main_v284 (h : PreA V x0 x1 x2 x3 x4 x5 x6 x7 x8 x9) :
    after opsA V (Proc.devRef .tc main_v284) = (RefValue.eAff (F := F) 1 1 (ReadP.val_main_v248 (F := F) x0 x1 x2 x3 x4 x5 x6 x7) x4 x5) := by
  obtain ⟨⟨h_main_arg0, h_main_arg1, h_main_arg2, h_main_arg3, h_main_arg4, h_main_arg5, h_main_arg6, h_main_arg7, h_main_arg8, h_main_arg9⟩, h_main_v2, h_main_v248, h_main_v260, h_main_v261⟩ := h
  simp only [opsA]
  after_results_simp
  simp only [h_main_arg5, h_main_arg4, h_main_v248]
  rfl

set_option maxRecDepth 8192 in
set_option maxHeartbeats 4000000 in
theorem opsA_main_call19_v0 (h : PreA V x0 x1 x2 x3 x4 x5 x6 x7 x8 x9) :
    after opsA V (Proc.devRef .tc main_call19_v0) = (RefValue.zeroS (F := F)) := by
  obtain ⟨⟨h_main_arg0, h_main_arg1, h_main_arg2, h_main_arg3, h_main_arg4, h_main_arg5, h_main_arg6, h_main_arg7, h_main_arg8, h_main_arg9⟩, h_main_v2, h_main_v248, h_main_v260, h_main_v261⟩ := h
  simp only [opsA]
  after_results_simp
  rfl

set_option maxRecDepth 8192 in
set_option maxHeartbeats 4000000 in
theorem opsA_main_call19_v1 (h : PreA V x0 x1 x2 x3 x4 x5 x6 x7 x8 x9) :
    after opsA V (Proc.devRef .tc main_call19_v1) = (RefValue.eMask (F := F) 1 (ReadP.val_main_v2 (F := F) x1)) := by
  obtain ⟨⟨h_main_arg0, h_main_arg1, h_main_arg2, h_main_arg3, h_main_arg4, h_main_arg5, h_main_arg6, h_main_arg7, h_main_arg8, h_main_arg9⟩, h_main_v2, h_main_v248, h_main_v260, h_main_v261⟩ := h
  simp only [opsA]
  after_results_simp
  simp only [h_main_v2]
  rfl

def PostA : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v275) = (RefValue.racc (F := F) 1 (ReadP.val_main_v248 (F := F) x0 x1 x2 x3 x4 x5 x6 x7) (ReadP.val_main_v2 (F := F) x1) x4 x5 [0])
    ∧ V (Proc.devRef .tc main_v284) = (RefValue.eAff (F := F) 1 1 (ReadP.val_main_v248 (F := F) x0 x1 x2 x3 x4 x5 x6 x7) x4 x5)
    ∧ V (Proc.devRef .tc main_call19_v0) = (RefValue.zeroS (F := F))
    ∧ V (Proc.devRef .tc main_call19_v1) = (RefValue.eMask (F := F) 1 (ReadP.val_main_v2 (F := F) x1))

theorem stepA (h : PreA V x0 x1 x2 x3 x4 x5 x6 x7 x8 x9) :
    PostA (after opsA V) x0 x1 x2 x3 x4 x5 x6 x7 x8 x9 := by
  obtain ⟨hargs, h_main_v2, h_main_v248, h_main_v260, h_main_v261⟩ := id h
  exact ⟨Args.after opsA opsA_writes (by decide) (by decide) (by decide) (by decide) (by decide) (by decide) (by decide) (by decide) (by decide) (by decide) hargs,
    (opsA_keep V main_v2 (by decide)).trans h_main_v2,
    (opsA_keep V main_v248 (by decide)).trans h_main_v248,
    (opsA_keep V main_v260 (by decide)).trans h_main_v260,
    opsA_main_v275 V x0 x1 x2 x3 x4 x5 x6 x7 x8 x9 h,
    opsA_main_v284 V x0 x1 x2 x3 x4 x5 x6 x7 x8 x9 h,
    opsA_main_call19_v0 V x0 x1 x2 x3 x4 x5 x6 x7 x8 x9 h,
    opsA_main_call19_v1 V x0 x1 x2 x3 x4 x5 x6 x7 x8 x9 h⟩

end

abbrev opsB : List (HloOp τ sig (Elt F)) :=
  [ o16 X11, o17 X11, o18 X11, o0 X12, o1 X12, o2 X12, o3 X12, o4 X12, o5 X12, o6 X12, o7 X12, o8 X12, o9 X12, o10 X12,
    o11 X12, o12 X12, o13 X12, o14 X12, o15 X12, o16 X12, o17 X12, o18 X12, o0 X13, o1 X13, o2 X13, o3 X13, o4 X13, o5 X13,
    o6 X13, o7 X13, o8 X13, o9 X13, o10 X13, o11 X13 ]

theorem opsB_sub : (opsB : List (HloOp τ sig (Elt F))).Forall fun op => op.bufs ⊆ tcRefs τ sig := by all_sub

theorem opsB_fresh : (opsB : List (HloOp τ sig (Elt F))).Forall fun op => op.fresh = ∅ := by all_fresh

abbrev opsB_W : List (Ref sig .tc) := [main_call19_v2, main_v288, main_v289, main_v290, main_v291, main_v292, main_v293, main_v294, main_v295, main_v296, main_v297, main_v298, main_c_40, main_v299, main_v300, main_v301, main_cst_41, main_call20_v0, main_call20_v1, main_call20_v2, main_v302, main_v303, main_v304, main_v305, main_v306, main_v307, main_v308, main_v309, main_v310, main_v311, main_v312, main_c_42, main_v313, main_v314]

theorem opsB_writes : (opsB : List (HloOp τ sig (Elt F))).Forall fun op => op.writes ⊆ (opsB_W.map (Proc.devRef (τ := τ) .tc)).toFinset := by all_writes

theorem opsB_keep (V : Valuation τ sig (Elt F)) (r : Ref sig .tc) (h : r ∉ opsB_W) :
    after opsB V (Proc.devRef .tc r) = V (Proc.devRef .tc r) :=
  after_of_writes_sub opsB V opsB_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

abbrev PreB : Prop := PostA V x0 x1 x2 x3 x4 x5 x6 x7 x8 x9

set_option maxRecDepth 8192 in
set_option maxHeartbeats 4000000 in
theorem opsB_main_v303 (h : PreB V x0 x1 x2 x3 x4 x5 x6 x7 x8 x9) :
    after opsB V (Proc.devRef .tc main_v303) = (RefValue.racc (F := F) 1 (ReadP.val_main_v248 (F := F) x0 x1 x2 x3 x4 x5 x6 x7) (ReadP.val_main_v2 (F := F) x1) x4 x5 [0, 1, 2]) := by
  obtain ⟨⟨h_main_arg0, h_main_arg1, h_main_arg2, h_main_arg3, h_main_arg4, h_main_arg5, h_main_arg6, h_main_arg7, h_main_arg8, h_main_arg9⟩, h_main_v2, h_main_v248, h_main_v260, h_main_v275, h_main_v284, h_main_call19_v0, h_main_call19_v1⟩ := h
  simp only [opsB]
  after_results_simp
  simp only [h_main_arg5, h_main_arg4, h_main_v248, h_main_v2, h_main_call19_v0, h_main_v284, h_main_call19_v1, h_main_v275]
  rfl

set_option maxRecDepth 8192 in
set_option maxHeartbeats 4000000 in
theorem opsB_main_v312 (h : PreB V x0 x1 x2 x3 x4 x5 x6 x7 x8 x9) :
    after opsB V (Proc.devRef .tc main_v312) = (RefValue.eAff (F := F) 1 3 (ReadP.val_main_v248 (F := F) x0 x1 x2 x3 x4 x5 x6 x7) x4 x5) := by
  obtain ⟨⟨h_main_arg0, h_main_arg1, h_main_arg2, h_main_arg3, h_main_arg4, h_main_arg5, h_main_arg6, h_main_arg7, h_main_arg8, h_main_arg9⟩, h_main_v2, h_main_v248, h_main_v260, h_main_v275, h_main_v284, h_main_call19_v0, h_main_call19_v1⟩ := h
  simp only [opsB]
  after_results_simp
  simp only [h_main_arg5, h_main_arg4, h_main_v248]
  rfl

set_option maxRecDepth 8192 in
set_option maxHeartbeats 4000000 in
theorem opsB_main_v314 (h : PreB V x0 x1 x2 x3 x4 x5 x6 x7 x8 x9) :
    after opsB V (Proc.devRef .tc main_v314) = (RefValue.eCmp (F := F) 3 (ReadP.val_main_v2 (F := F) x1)) := by
  obtain ⟨⟨h_main_arg0, h_main_arg1, h_main_arg2, h_main_arg3, h_main_arg4, h_main_arg5, h_main_arg6, h_main_arg7, h_main_arg8, h_main_arg9⟩, h_main_v2, h_main_v248, h_main_v260, h_main_v275, h_main_v284, h_main_call19_v0, h_main_call19_v1⟩ := h
  simp only [opsB]
  after_results_simp
  simp only [h_main_v2]
  rfl

def PostB : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v303) = (RefValue.racc (F := F) 1 (ReadP.val_main_v248 (F := F) x0 x1 x2 x3 x4 x5 x6 x7) (ReadP.val_main_v2 (F := F) x1) x4 x5 [0, 1, 2])
    ∧ V (Proc.devRef .tc main_v312) = (RefValue.eAff (F := F) 1 3 (ReadP.val_main_v248 (F := F) x0 x1 x2 x3 x4 x5 x6 x7) x4 x5)
    ∧ V (Proc.devRef .tc main_v314) = (RefValue.eCmp (F := F) 3 (ReadP.val_main_v2 (F := F) x1))

theorem stepB (h : PreB V x0 x1 x2 x3 x4 x5 x6 x7 x8 x9) :
    PostB (after opsB V) x0 x1 x2 x3 x4 x5 x6 x7 x8 x9 := by
  obtain ⟨hargs, h_main_v2, h_main_v248, h_main_v260, h_main_v275, h_main_v284, h_main_call19_v0, h_main_call19_v1⟩ := id h
  exact ⟨Args.after opsB opsB_writes (by decide) (by decide) (by decide) (by decide) (by decide) (by decide) (by decide) (by decide) (by decide) (by decide) hargs,
    (opsB_keep V main_v2 (by decide)).trans h_main_v2,
    (opsB_keep V main_v248 (by decide)).trans h_main_v248,
    (opsB_keep V main_v260 (by decide)).trans h_main_v260,
    opsB_main_v303 V x0 x1 x2 x3 x4 x5 x6 x7 x8 x9 h,
    opsB_main_v312 V x0 x1 x2 x3 x4 x5 x6 x7 x8 x9 h,
    opsB_main_v314 V x0 x1 x2 x3 x4 x5 x6 x7 x8 x9 h⟩

end

set_option maxRecDepth 8192 in
set_option maxHeartbeats 4000000 in
theorem part_eq (c : Dev nD) : main_part5 (F := F) c = seq (opsA ++ opsB) := rfl

end Cert.RefRun.W5

end
-- ==== Proof.RefRun_W6.lean ====
import proofs.«406211_j29257317220859_3_alg».proof.Proof.RefRead
import proofs.«406211_j29257317220859_3_alg».proof.Proof.RefRun_Aux

noncomputable section

namespace Cert.RefRun.W6

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ o12 X13, o13 X13, o14 X13, o15 X13, o16 X13, o17 X13, o18 X13, o0 X14, o1 X14, o2 X14, o3 X14, o4 X14, o5 X14, o6 X14,
    o7 X14, o8 X14, o9 X14, o10 X14, o11 X14, o12 X14, o13 X14, o14 X14, o15 X14, o16 X14, o17 X14, o18 X14, o0 X15,
    o1 X15, o2 X15, o3 X15, o4 X15, o5 X15, o6 X15, o7 X15, o8 X15, o9 X15 ]

theorem opsA_sub : (opsA : List (HloOp τ sig (Elt F))).Forall fun op => op.bufs ⊆ tcRefs τ sig := by all_sub

theorem opsA_fresh : (opsA : List (HloOp τ sig (Elt F))).Forall fun op => op.fresh = ∅ := by all_fresh

abbrev opsA_W : List (Ref sig .tc) := [main_v315, main_cst_43, main_call21_v0, main_call21_v1, main_call21_v2, main_v316, main_v317, main_v318, main_v319, main_v320, main_v321, main_v322, main_v323, main_v324, main_v325, main_v326, main_c_44, main_v327, main_v328, main_v329, main_cst_45, main_call22_v0, main_call22_v1, main_call22_v2, main_v330, main_v331, main_v332, main_v333, main_v334, main_v335, main_v336, main_v337, main_v338, main_v339, main_v340, main_c_46]

theorem opsA_writes : (opsA : List (HloOp τ sig (Elt F))).Forall fun op => op.writes ⊆ (opsA_W.map (Proc.devRef (τ := τ) .tc)).toFinset := by all_writes

theorem opsA_keep (V : Valuation τ sig (Elt F)) (r : Ref sig .tc) (h : r ∉ opsA_W) :
    after opsA V (Proc.devRef .tc r) = V (Proc.devRef .tc r) :=
  after_of_writes_sub opsA V opsA_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

def PreA : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v303) = (RefValue.racc (F := F) 1 (ReadP.val_main_v248 (F := F) x0 x1 x2 x3 x4 x5 x6 x7) (ReadP.val_main_v2 (F := F) x1) x4 x5 [0, 1, 2])
    ∧ V (Proc.devRef .tc main_v312) = (RefValue.eAff (F := F) 1 3 (ReadP.val_main_v248 (F := F) x0 x1 x2 x3 x4 x5 x6 x7) x4 x5)
    ∧ V (Proc.devRef .tc main_v314) = (RefValue.eCmp (F := F) 3 (ReadP.val_main_v2 (F := F) x1))

set_option maxRecDepth 8192 in
set_option maxHeartbeats 4000000 in
theorem opsA_main_v331 (h : PreA V x0 x1 x2 x3 x4 x5 x6 x7 x8 x9) :
    after opsA V (Proc.devRef .tc main_v331) = (RefValue.racc (F := F) 1 (ReadP.val_main_v248 (F := F) x0 x1 x2 x3 x4 x5 x6 x7) (ReadP.val_main_v2 (F := F) x1) x4 x5 [0, 1, 2, 3, 4]) := by
  obtain ⟨⟨h_main_arg0, h_main_arg1, h_main_arg2, h_main_arg3, h_main_arg4, h_main_arg5, h_main_arg6, h_main_arg7, h_main_arg8, h_main_arg9⟩, h_main_v2, h_main_v248, h_main_v260, h_main_v303, h_main_v312, h_main_v314⟩ := h
  simp only [opsA]
  after_results_simp
  simp only [h_main_arg5, h_main_arg4, h_main_v248, h_main_v2, h_main_v312, h_main_v314, h_main_v303]
  rfl

set_option maxRecDepth 8192 in
set_option maxHeartbeats 4000000 in
theorem opsA_main_v340 (h : PreA V x0 x1 x2 x3 x4 x5 x6 x7 x8 x9) :
    after opsA V (Proc.devRef .tc main_v340) = (RefValue.eAff (F := F) 1 5 (ReadP.val_main_v248 (F := F) x0 x1 x2 x3 x4 x5 x6 x7) x4 x5) := by
  obtain ⟨⟨h_main_arg0, h_main_arg1, h_main_arg2, h_main_arg3, h_main_arg4, h_main_arg5, h_main_arg6, h_main_arg7, h_main_arg8, h_main_arg9⟩, h_main_v2, h_main_v248, h_main_v260, h_main_v303, h_main_v312, h_main_v314⟩ := h
  simp only [opsA]
  after_results_simp
  simp only [h_main_arg5, h_main_arg4, h_main_v248]
  rfl

set_option maxRecDepth 8192 in
set_option maxHeartbeats 4000000 in
theorem opsA_main_c_46 (h : PreA V x0 x1 x2 x3 x4 x5 x6 x7 x8 x9) :
    after opsA V (Proc.devRef .tc main_c_46) = (RefValue.eC (F := F) 5) := by
  obtain ⟨⟨h_main_arg0, h_main_arg1, h_main_arg2, h_main_arg3, h_main_arg4, h_main_arg5, h_main_arg6, h_main_arg7, h_main_arg8, h_main_arg9⟩, h_main_v2, h_main_v248, h_main_v260, h_main_v303, h_main_v312, h_main_v314⟩ := h
  simp only [opsA]
  after_results_simp
  rfl

def PostA : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v331) = (RefValue.racc (F := F) 1 (ReadP.val_main_v248 (F := F) x0 x1 x2 x3 x4 x5 x6 x7) (ReadP.val_main_v2 (F := F) x1) x4 x5 [0, 1, 2, 3, 4])
    ∧ V (Proc.devRef .tc main_v340) = (RefValue.eAff (F := F) 1 5 (ReadP.val_main_v248 (F := F) x0 x1 x2 x3 x4 x5 x6 x7) x4 x5)
    ∧ V (Proc.devRef .tc main_c_46) = (RefValue.eC (F := F) 5)

theorem stepA (h : PreA V x0 x1 x2 x3 x4 x5 x6 x7 x8 x9) :
    PostA (after opsA V) x0 x1 x2 x3 x4 x5 x6 x7 x8 x9 := by
  obtain ⟨hargs, h_main_v2, h_main_v248, h_main_v260, h_main_v303, h_main_v312, h_main_v314⟩ := id h
  exact ⟨Args.after opsA opsA_writes (by decide) (by decide) (by decide) (by decide) (by decide) (by decide) (by decide) (by decide) (by decide) (by decide) hargs,
    (opsA_keep V main_v2 (by decide)).trans h_main_v2,
    (opsA_keep V main_v248 (by decide)).trans h_main_v248,
    (opsA_keep V main_v260 (by decide)).trans h_main_v260,
    opsA_main_v331 V x0 x1 x2 x3 x4 x5 x6 x7 x8 x9 h,
    opsA_main_v340 V x0 x1 x2 x3 x4 x5 x6 x7 x8 x9 h,
    opsA_main_c_46 V x0 x1 x2 x3 x4 x5 x6 x7 x8 x9 h⟩

end

abbrev opsB : List (HloOp τ sig (Elt F)) :=
  [ o10 X15, o11 X15, o12 X15, o13 X15, o14 X15, o15 X15, o16 X15, o17 X15, o18 X15, o0 X16, o1 X16, o2 X16, o3 X16,
    o4 X16, o5 X16, o6 X16, o7 X16, o8 X16, o9 X16, o10 X16, o11 X16, o12 X16, o13 X16, o14 X16, o15 X16, o16 X16, o17 X16,
    o18 X16, o0 X17, o1 X17, o2 X17, o3 X17, o4 X17, o5 X17, o6 X17, o7 X17 ]

theorem opsB_sub : (opsB : List (HloOp τ sig (Elt F))).Forall fun op => op.bufs ⊆ tcRefs τ sig := by all_sub

theorem opsB_fresh : (opsB : List (HloOp τ sig (Elt F))).Forall fun op => op.fresh = ∅ := by all_fresh

abbrev opsB_W : List (Ref sig .tc) := [main_v341, main_v342, main_v343, main_cst_47, main_call23_v0, main_call23_v1, main_call23_v2, main_v344, main_v345, main_v346, main_v347, main_v348, main_v349, main_v350, main_v351, main_v352, main_v353, main_v354, main_c_48, main_v355, main_v356, main_v357, main_cst_49, main_call24_v0, main_call24_v1, main_call24_v2, main_v358, main_v359, main_v360, main_v361, main_v362, main_v363, main_v364, main_v365, main_v366, main_v367]

theorem opsB_writes : (opsB : List (HloOp τ sig (Elt F))).Forall fun op => op.writes ⊆ (opsB_W.map (Proc.devRef (τ := τ) .tc)).toFinset := by all_writes

theorem opsB_keep (V : Valuation τ sig (Elt F)) (r : Ref sig .tc) (h : r ∉ opsB_W) :
    after opsB V (Proc.devRef .tc r) = V (Proc.devRef .tc r) :=
  after_of_writes_sub opsB V opsB_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

abbrev PreB : Prop := PostA V x0 x1 x2 x3 x4 x5 x6 x7 x8 x9

set_option maxRecDepth 8192 in
set_option maxHeartbeats 4000000 in
theorem opsB_main_v359 (h : PreB V x0 x1 x2 x3 x4 x5 x6 x7 x8 x9) :
    after opsB V (Proc.devRef .tc main_v359) = (RefValue.racc (F := F) 1 (ReadP.val_main_v248 (F := F) x0 x1 x2 x3 x4 x5 x6 x7) (ReadP.val_main_v2 (F := F) x1) x4 x5 [0, 1, 2, 3, 4, 5, 6]) := by
  obtain ⟨⟨h_main_arg0, h_main_arg1, h_main_arg2, h_main_arg3, h_main_arg4, h_main_arg5, h_main_arg6, h_main_arg7, h_main_arg8, h_main_arg9⟩, h_main_v2, h_main_v248, h_main_v260, h_main_v331, h_main_v340, h_main_c_46⟩ := h
  simp only [opsB]
  after_results_simp
  simp only [h_main_arg5, h_main_arg4, h_main_v248, h_main_v2, h_main_v340, h_main_c_46, h_main_v331]
  rfl

set_option maxRecDepth 8192 in
set_option maxHeartbeats 4000000 in
theorem opsB_main_v363 (h : PreB V x0 x1 x2 x3 x4 x5 x6 x7 x8 x9) :
    after opsB V (Proc.devRef .tc main_v363) = (RefValue.eDot (F := F) 1 7 (ReadP.val_main_v248 (F := F) x0 x1 x2 x3 x4 x5 x6 x7) x4) := by
  obtain ⟨⟨h_main_arg0, h_main_arg1, h_main_arg2, h_main_arg3, h_main_arg4, h_main_arg5, h_main_arg6, h_main_arg7, h_main_arg8, h_main_arg9⟩, h_main_v2, h_main_v248, h_main_v260, h_main_v331, h_main_v340, h_main_c_46⟩ := h
  simp only [opsB]
  after_results_simp
  simp only [h_main_arg4, h_main_v248]
  rfl

set_option maxRecDepth 8192 in
set_option maxHeartbeats 4000000 in
theorem opsB_main_v367 (h : PreB V x0 x1 x2 x3 x4 x5 x6 x7 x8 x9) :
    after opsB V (Proc.devRef .tc main_v367) = (RefValue.eB (F := F) 1 7 x5) := by
  obtain ⟨⟨h_main_arg0, h_main_arg1, h_main_arg2, h_main_arg3, h_main_arg4, h_main_arg5, h_main_arg6, h_main_arg7, h_main_arg8, h_main_arg9⟩, h_main_v2, h_main_v248, h_main_v260, h_main_v331, h_main_v340, h_main_c_46⟩ := h
  simp only [opsB]
  after_results_simp
  simp only [h_main_arg5]
  rfl

def PostB : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v359) = (RefValue.racc (F := F) 1 (ReadP.val_main_v248 (F := F) x0 x1 x2 x3 x4 x5 x6 x7) (ReadP.val_main_v2 (F := F) x1) x4 x5 [0, 1, 2, 3, 4, 5, 6])
    ∧ V (Proc.devRef .tc main_v363) = (RefValue.eDot (F := F) 1 7 (ReadP.val_main_v248 (F := F) x0 x1 x2 x3 x4 x5 x6 x7) x4)
    ∧ V (Proc.devRef .tc main_v367) = (RefValue.eB (F := F) 1 7 x5)

theorem stepB (h : PreB V x0 x1 x2 x3 x4 x5 x6 x7 x8 x9) :
    PostB (after opsB V) x0 x1 x2 x3 x4 x5 x6 x7 x8 x9 := by
  obtain ⟨hargs, h_main_v2, h_main_v248, h_main_v260, h_main_v331, h_main_v340, h_main_c_46⟩ := id h
  exact ⟨Args.after opsB opsB_writes (by decide) (by decide) (by decide) (by decide) (by decide) (by decide) (by decide) (by decide) (by decide) (by decide) hargs,
    (opsB_keep V main_v2 (by decide)).trans h_main_v2,
    (opsB_keep V main_v248 (by decide)).trans h_main_v248,
    (opsB_keep V main_v260 (by decide)).trans h_main_v260,
    opsB_main_v359 V x0 x1 x2 x3 x4 x5 x6 x7 x8 x9 h,
    opsB_main_v363 V x0 x1 x2 x3 x4 x5 x6 x7 x8 x9 h,
    opsB_main_v367 V x0 x1 x2 x3 x4 x5 x6 x7 x8 x9 h⟩

end

set_option maxRecDepth 8192 in
set_option maxHeartbeats 4000000 in
theorem part_eq (c : Dev nD) : main_part6 (F := F) c = seq (opsA ++ opsB) := rfl

end Cert.RefRun.W6

end
-- ==== Proof.RefRun_W7.lean ====
import proofs.«406211_j29257317220859_3_alg».proof.Proof.RefRead
import proofs.«406211_j29257317220859_3_alg».proof.Proof.RefRun_Aux

noncomputable section

namespace Cert.RefRun.W7

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ o8 X17, o9 X17, o10 X17, o11 X17, o12 X17, o13 X17, o14 X17, o15 X17, o16 X17, o17 X17, o18 X17, o0 X18, o1 X18,
    o2 X18, o3 X18, o4 X18, o5 X18, o6 X18, o7 X18, o8 X18, o9 X18, o10 X18, o11 X18, o12 X18, o13 X18, o14 X18, o15 X18,
    o16 X18, o17 X18, o18 X18, o0 X19, o1 X19, o2 X19, o3 X19, o4 X19, o5 X19 ]

theorem opsA_sub : (opsA : List (HloOp τ sig (Elt F))).Forall fun op => op.bufs ⊆ tcRefs τ sig := by all_sub

theorem opsA_fresh : (opsA : List (HloOp τ sig (Elt F))).Forall fun op => op.fresh = ∅ := by all_fresh

abbrev opsA_W : List (Ref sig .tc) := [main_v368, main_c_50, main_v369, main_v370, main_v371, main_cst_51, main_call25_v0, main_call25_v1, main_call25_v2, main_v372, main_v373, main_v374, main_v375, main_v376, main_v377, main_v378, main_v379, main_v380, main_v381, main_v382, main_c_52, main_v383, main_v384, main_v385, main_cst_53, main_call26_v0, main_call26_v1, main_call26_v2, main_v386, main_v387, main_v388, main_v389, main_v390, main_v391, main_v392, main_v393]

theorem opsA_writes : (opsA : List (HloOp τ sig (Elt F))).Forall fun op => op.writes ⊆ (opsA_W.map (Proc.devRef (τ := τ) .tc)).toFinset := by all_writes

theorem opsA_keep (V : Valuation τ sig (Elt F)) (r : Ref sig .tc) (h : r ∉ opsA_W) :
    after opsA V (Proc.devRef .tc r) = V (Proc.devRef .tc r) :=
  after_of_writes_sub opsA V opsA_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

def PreA : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v359) = (RefValue.racc (F := F) 1 (ReadP.val_main_v248 (F := F) x0 x1 x2 x3 x4 x5 x6 x7) (ReadP.val_main_v2 (F := F) x1) x4 x5 [0, 1, 2, 3, 4, 5, 6])
    ∧ V (Proc.devRef .tc main_v363) = (RefValue.eDot (F := F) 1 7 (ReadP.val_main_v248 (F := F) x0 x1 x2 x3 x4 x5 x6 x7) x4)
    ∧ V (Proc.devRef .tc main_v367) = (RefValue.eB (F := F) 1 7 x5)

set_option maxRecDepth 8192 in
set_option maxHeartbeats 4000000 in
theorem opsA_main_v387 (h : PreA V x0 x1 x2 x3 x4 x5 x6 x7 x8 x9) :
    after opsA V (Proc.devRef .tc main_v387) = (RefValue.racc (F := F) 1 (ReadP.val_main_v248 (F := F) x0 x1 x2 x3 x4 x5 x6 x7) (ReadP.val_main_v2 (F := F) x1) x4 x5 [0, 1, 2, 3, 4, 5, 6, 7, 8]) := by
  obtain ⟨⟨h_main_arg0, h_main_arg1, h_main_arg2, h_main_arg3, h_main_arg4, h_main_arg5, h_main_arg6, h_main_arg7, h_main_arg8, h_main_arg9⟩, h_main_v2, h_main_v248, h_main_v260, h_main_v359, h_main_v363, h_main_v367⟩ := h
  simp only [opsA]
  after_results_simp
  simp only [h_main_arg5, h_main_arg4, h_main_v248, h_main_v2, h_main_v367, h_main_v363, h_main_v359]
  rfl

set_option maxRecDepth 8192 in
set_option maxHeartbeats 4000000 in
theorem opsA_main_v391 (h : PreA V x0 x1 x2 x3 x4 x5 x6 x7 x8 x9) :
    after opsA V (Proc.devRef .tc main_v391) = (RefValue.eDot (F := F) 1 9 (ReadP.val_main_v248 (F := F) x0 x1 x2 x3 x4 x5 x6 x7) x4) := by
  obtain ⟨⟨h_main_arg0, h_main_arg1, h_main_arg2, h_main_arg3, h_main_arg4, h_main_arg5, h_main_arg6, h_main_arg7, h_main_arg8, h_main_arg9⟩, h_main_v2, h_main_v248, h_main_v260, h_main_v359, h_main_v363, h_main_v367⟩ := h
  simp only [opsA]
  after_results_simp
  simp only [h_main_arg4, h_main_v248]
  rfl

set_option maxRecDepth 8192 in
set_option maxHeartbeats 4000000 in
theorem opsA_main_v393 (h : PreA V x0 x1 x2 x3 x4 x5 x6 x7 x8 x9) :
    after opsA V (Proc.devRef .tc main_v393) = (RefValue.eRB (F := F) 1 9 x5) := by
  obtain ⟨⟨h_main_arg0, h_main_arg1, h_main_arg2, h_main_arg3, h_main_arg4, h_main_arg5, h_main_arg6, h_main_arg7, h_main_arg8, h_main_arg9⟩, h_main_v2, h_main_v248, h_main_v260, h_main_v359, h_main_v363, h_main_v367⟩ := h
  simp only [opsA]
  after_results_simp
  simp only [h_main_arg5]
  rfl

def PostA : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v387) = (RefValue.racc (F := F) 1 (ReadP.val_main_v248 (F := F) x0 x1 x2 x3 x4 x5 x6 x7) (ReadP.val_main_v2 (F := F) x1) x4 x5 [0, 1, 2, 3, 4, 5, 6, 7, 8])
    ∧ V (Proc.devRef .tc main_v391) = (RefValue.eDot (F := F) 1 9 (ReadP.val_main_v248 (F := F) x0 x1 x2 x3 x4 x5 x6 x7) x4)
    ∧ V (Proc.devRef .tc main_v393) = (RefValue.eRB (F := F) 1 9 x5)

theorem stepA (h : PreA V x0 x1 x2 x3 x4 x5 x6 x7 x8 x9) :
    PostA (after opsA V) x0 x1 x2 x3 x4 x5 x6 x7 x8 x9 := by
  obtain ⟨hargs, h_main_v2, h_main_v248, h_main_v260, h_main_v359, h_main_v363, h_main_v367⟩ := id h
  exact ⟨Args.after opsA opsA_writes (by decide) (by decide) (by decide) (by decide) (by decide) (by decide) (by decide) (by decide) (by decide) (by decide) hargs,
    (opsA_keep V main_v2 (by decide)).trans h_main_v2,
    (opsA_keep V main_v248 (by decide)).trans h_main_v248,
    (opsA_keep V main_v260 (by decide)).trans h_main_v260,
    opsA_main_v387 V x0 x1 x2 x3 x4 x5 x6 x7 x8 x9 h,
    opsA_main_v391 V x0 x1 x2 x3 x4 x5 x6 x7 x8 x9 h,
    opsA_main_v393 V x0 x1 x2 x3 x4 x5 x6 x7 x8 x9 h⟩

end

abbrev opsB : List (HloOp τ sig (Elt F)) :=
  [ o6 X19, o7 X19, o8 X19, o9 X19, o10 X19, o11 X19, o12 X19, o13 X19, o14 X19, o15 X19, o16 X19, o17 X19, o18 X19,
    o0 X1a, o1 X1a, o2 X1a, o3 X1a, o4 X1a, o5 X1a, o6 X1a, o7 X1a, o8 X1a, o9 X1a, o10 X1a, o11 X1a, o12 X1a, o13 X1a,
    o14 X1a, o15 X1a, o16 X1a, o17 X1a, o18 X1a, o0 X1b, o1 X1b, o2 X1b, o3 X1b ]

theorem opsB_sub : (opsB : List (HloOp τ sig (Elt F))).Forall fun op => op.bufs ⊆ tcRefs τ sig := by all_sub

theorem opsB_fresh : (opsB : List (HloOp τ sig (Elt F))).Forall fun op => op.fresh = ∅ := by all_fresh

abbrev opsB_W : List (Ref sig .tc) := [main_v394, main_v395, main_v396, main_c_54, main_v397, main_v398, main_v399, main_cst_55, main_call27_v0, main_call27_v1, main_call27_v2, main_v400, main_v401, main_v402, main_v403, main_v404, main_v405, main_v406, main_v407, main_v408, main_v409, main_v410, main_c_56, main_v411, main_v412, main_v413, main_cst_57, main_call28_v0, main_call28_v1, main_call28_v2, main_v414, main_v415, main_v416, main_v417, main_v418, main_v419]

theorem opsB_writes : (opsB : List (HloOp τ sig (Elt F))).Forall fun op => op.writes ⊆ (opsB_W.map (Proc.devRef (τ := τ) .tc)).toFinset := by all_writes

theorem opsB_keep (V : Valuation τ sig (Elt F)) (r : Ref sig .tc) (h : r ∉ opsB_W) :
    after opsB V (Proc.devRef .tc r) = V (Proc.devRef .tc r) :=
  after_of_writes_sub opsB V opsB_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

abbrev PreB : Prop := PostA V x0 x1 x2 x3 x4 x5 x6 x7 x8 x9

set_option maxRecDepth 8192 in
set_option maxHeartbeats 4000000 in
theorem opsB_main_v415 (h : PreB V x0 x1 x2 x3 x4 x5 x6 x7 x8 x9) :
    after opsB V (Proc.devRef .tc main_v415) = (RefValue.racc (F := F) 1 (ReadP.val_main_v248 (F := F) x0 x1 x2 x3 x4 x5 x6 x7) (ReadP.val_main_v2 (F := F) x1) x4 x5 [0, 1, 2, 3, 4, 5, 6, 7, 8, 9, 10]) := by
  obtain ⟨⟨h_main_arg0, h_main_arg1, h_main_arg2, h_main_arg3, h_main_arg4, h_main_arg5, h_main_arg6, h_main_arg7, h_main_arg8, h_main_arg9⟩, h_main_v2, h_main_v248, h_main_v260, h_main_v387, h_main_v391, h_main_v393⟩ := h
  simp only [opsB]
  after_results_simp
  simp only [h_main_arg5, h_main_arg4, h_main_v248, h_main_v2, h_main_v393, h_main_v391, h_main_v387]
  rfl

set_option maxRecDepth 8192 in
set_option maxHeartbeats 4000000 in
theorem opsB_main_v419 (h : PreB V x0 x1 x2 x3 x4 x5 x6 x7 x8 x9) :
    after opsB V (Proc.devRef .tc main_v419) = (RefValue.eDot (F := F) 1 11 (ReadP.val_main_v248 (F := F) x0 x1 x2 x3 x4 x5 x6 x7) x4) := by
  obtain ⟨⟨h_main_arg0, h_main_arg1, h_main_arg2, h_main_arg3, h_main_arg4, h_main_arg5, h_main_arg6, h_main_arg7, h_main_arg8, h_main_arg9⟩, h_main_v2, h_main_v248, h_main_v260, h_main_v387, h_main_v391, h_main_v393⟩ := h
  simp only [opsB]
  after_results_simp
  simp only [h_main_arg4, h_main_v248]
  rfl

def PostB : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v415) = (RefValue.racc (F := F) 1 (ReadP.val_main_v248 (F := F) x0 x1 x2 x3 x4 x5 x6 x7) (ReadP.val_main_v2 (F := F) x1) x4 x5 [0, 1, 2, 3, 4, 5, 6, 7, 8, 9, 10])
    ∧ V (Proc.devRef .tc main_v419) = (RefValue.eDot (F := F) 1 11 (ReadP.val_main_v248 (F := F) x0 x1 x2 x3 x4 x5 x6 x7) x4)

theorem stepB (h : PreB V x0 x1 x2 x3 x4 x5 x6 x7 x8 x9) :
    PostB (after opsB V) x0 x1 x2 x3 x4 x5 x6 x7 x8 x9 := by
  obtain ⟨hargs, h_main_v2, h_main_v248, h_main_v260, h_main_v387, h_main_v391, h_main_v393⟩ := id h
  exact ⟨Args.after opsB opsB_writes (by decide) (by decide) (by decide) (by decide) (by decide) (by decide) (by decide) (by decide) (by decide) (by decide) hargs,
    (opsB_keep V main_v2 (by decide)).trans h_main_v2,
    (opsB_keep V main_v248 (by decide)).trans h_main_v248,
    (opsB_keep V main_v260 (by decide)).trans h_main_v260,
    opsB_main_v415 V x0 x1 x2 x3 x4 x5 x6 x7 x8 x9 h,
    opsB_main_v419 V x0 x1 x2 x3 x4 x5 x6 x7 x8 x9 h⟩

end

set_option maxRecDepth 8192 in
set_option maxHeartbeats 4000000 in
theorem part_eq (c : Dev nD) : main_part7 (F := F) c = seq (opsA ++ opsB) := rfl

end Cert.RefRun.W7

end
-- ==== Proof.RefRun_W8.lean ====
import proofs.«406211_j29257317220859_3_alg».proof.Proof.RefRead
import proofs.«406211_j29257317220859_3_alg».proof.Proof.RefRun_Aux

noncomputable section

namespace Cert.RefRun.W8

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ o4 X1b, o5 X1b, o6 X1b, o7 X1b, o8 X1b, o9 X1b, o10 X1b, o11 X1b, o12 X1b, o13 X1b, o14 X1b, o15 X1b, o16 X1b, o17 X1b,
    o18 X1b, o0 X1c, o1 X1c, o2 X1c, o3 X1c, o4 X1c, o5 X1c, o6 X1c, o7 X1c, o8 X1c, o9 X1c, o10 X1c, o11 X1c, o12 X1c,
    o13 X1c, o14 X1c, o15 X1c, o16 X1c, o17 X1c, o18 X1c, o0 X1d, o1 X1d ]

theorem opsA_sub : (opsA : List (HloOp τ sig (Elt F))).Forall fun op => op.bufs ⊆ tcRefs τ sig := by all_sub

theorem opsA_fresh : (opsA : List (HloOp τ sig (Elt F))).Forall fun op => op.fresh = ∅ := by all_fresh

abbrev opsA_W : List (Ref sig .tc) := [main_v420, main_v421, main_v422, main_v423, main_v424, main_c_58, main_v425, main_v426, main_v427, main_cst_59, main_call29_v0, main_call29_v1, main_call29_v2, main_v428, main_v429, main_v430, main_v431, main_v432, main_v433, main_v434, main_v435, main_v436, main_v437, main_v438, main_c_60, main_v439, main_v440, main_v441, main_cst_61, main_call30_v0, main_call30_v1, main_call30_v2, main_v442, main_v443, main_v444, main_v445]

theorem opsA_writes : (opsA : List (HloOp τ sig (Elt F))).Forall fun op => op.writes ⊆ (opsA_W.map (Proc.devRef (τ := τ) .tc)).toFinset := by all_writes

theorem opsA_keep (V : Valuation τ sig (Elt F)) (r : Ref sig .tc) (h : r ∉ opsA_W) :
    after opsA V (Proc.devRef .tc r) = V (Proc.devRef .tc r) :=
  after_of_writes_sub opsA V opsA_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

def PreA : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v415) = (RefValue.racc (F := F) 1 (ReadP.val_main_v248 (F := F) x0 x1 x2 x3 x4 x5 x6 x7) (ReadP.val_main_v2 (F := F) x1) x4 x5 [0, 1, 2, 3, 4, 5, 6, 7, 8, 9, 10])
    ∧ V (Proc.devRef .tc main_v419) = (RefValue.eDot (F := F) 1 11 (ReadP.val_main_v248 (F := F) x0 x1 x2 x3 x4 x5 x6 x7) x4)

set_option maxRecDepth 8192 in
set_option maxHeartbeats 4000000 in
theorem opsA_main_v443 (h : PreA V x0 x1 x2 x3 x4 x5 x6 x7 x8 x9) :
    after opsA V (Proc.devRef .tc main_v443) = (RefValue.racc (F := F) 1 (ReadP.val_main_v248 (F := F) x0 x1 x2 x3 x4 x5 x6 x7) (ReadP.val_main_v2 (F := F) x1) x4 x5 [0, 1, 2, 3, 4, 5, 6, 7, 8, 9, 10, 11, 12]) := by
  obtain ⟨⟨h_main_arg0, h_main_arg1, h_main_arg2, h_main_arg3, h_main_arg4, h_main_arg5, h_main_arg6, h_main_arg7, h_main_arg8, h_main_arg9⟩, h_main_v2, h_main_v248, h_main_v260, h_main_v415, h_main_v419⟩ := h
  simp only [opsA]
  after_results_simp
  simp only [h_main_arg5, h_main_arg4, h_main_v248, h_main_v2, h_main_v419, h_main_v415]
  rfl

set_option maxRecDepth 8192 in
set_option maxHeartbeats 4000000 in
theorem opsA_main_v445 (h : PreA V x0 x1 x2 x3 x4 x5 x6 x7 x8 x9) :
    after opsA V (Proc.devRef .tc main_v445) = (RefValue.eRW (F := F) 1 13 x4) := by
  obtain ⟨⟨h_main_arg0, h_main_arg1, h_main_arg2, h_main_arg3, h_main_arg4, h_main_arg5, h_main_arg6, h_main_arg7, h_main_arg8, h_main_arg9⟩, h_main_v2, h_main_v248, h_main_v260, h_main_v415, h_main_v419⟩ := h
  simp only [opsA]
  after_results_simp
  simp only [h_main_arg4]
  rfl

def PostA : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v443) = (RefValue.racc (F := F) 1 (ReadP.val_main_v248 (F := F) x0 x1 x2 x3 x4 x5 x6 x7) (ReadP.val_main_v2 (F := F) x1) x4 x5 [0, 1, 2, 3, 4, 5, 6, 7, 8, 9, 10, 11, 12])
    ∧ V (Proc.devRef .tc main_v445) = (RefValue.eRW (F := F) 1 13 x4)

theorem stepA (h : PreA V x0 x1 x2 x3 x4 x5 x6 x7 x8 x9) :
    PostA (after opsA V) x0 x1 x2 x3 x4 x5 x6 x7 x8 x9 := by
  obtain ⟨hargs, h_main_v2, h_main_v248, h_main_v260, h_main_v415, h_main_v419⟩ := id h
  exact ⟨Args.after opsA opsA_writes (by decide) (by decide) (by decide) (by decide) (by decide) (by decide) (by decide) (by decide) (by decide) (by decide) hargs,
    (opsA_keep V main_v2 (by decide)).trans h_main_v2,
    (opsA_keep V main_v248 (by decide)).trans h_main_v248,
    (opsA_keep V main_v260 (by decide)).trans h_main_v260,
    opsA_main_v443 V x0 x1 x2 x3 x4 x5 x6 x7 x8 x9 h,
    opsA_main_v445 V x0 x1 x2 x3 x4 x5 x6 x7 x8 x9 h⟩

end

abbrev opsB : List (HloOp τ sig (Elt F)) :=
  [ o2 X1d, o3 X1d, o4 X1d, o5 X1d, o6 X1d, o7 X1d, o8 X1d, o9 X1d, o10 X1d, o11 X1d, o12 X1d, o13 X1d, o14 X1d, o15 X1d,
    o16 X1d, o17 X1d, o18 X1d, o0 X1e, o1 X1e, o2 X1e, o3 X1e, o4 X1e, o5 X1e, o6 X1e, o7 X1e, o8 X1e, o9 X1e, o10 X1e,
    o11 X1e, o12 X1e, o13 X1e, o14 X1e, o15 X1e, o16 X1e, o17 X1e, o18 X1e ]

theorem opsB_sub : (opsB : List (HloOp τ sig (Elt F))).Forall fun op => op.bufs ⊆ tcRefs τ sig := by all_sub

theorem opsB_fresh : (opsB : List (HloOp τ sig (Elt F))).Forall fun op => op.fresh = ∅ := by all_fresh

abbrev opsB_W : List (Ref sig .tc) := [main_v446, main_v447, main_v448, main_v449, main_v450, main_v451, main_v452, main_c_62, main_v453, main_v454, main_v455, main_cst_63, main_call31_v0, main_call31_v1, main_call31_v2, main_v456, main_v457, main_v458, main_v459, main_v460, main_v461, main_v462, main_v463, main_v464, main_v465, main_v466, main_c_64, main_v467, main_v468, main_v469, main_cst_65, main_call32_v0, main_call32_v1, main_call32_v2, main_v470, main_v471]

theorem opsB_writes : (opsB : List (HloOp τ sig (Elt F))).Forall fun op => op.writes ⊆ (opsB_W.map (Proc.devRef (τ := τ) .tc)).toFinset := by all_writes

theorem opsB_keep (V : Valuation τ sig (Elt F)) (r : Ref sig .tc) (h : r ∉ opsB_W) :
    after opsB V (Proc.devRef .tc r) = V (Proc.devRef .tc r) :=
  after_of_writes_sub opsB V opsB_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

abbrev PreB : Prop := PostA V x0 x1 x2 x3 x4 x5 x6 x7 x8 x9

set_option maxRecDepth 8192 in
set_option maxHeartbeats 4000000 in
theorem opsB_main_v471 (h : PreB V x0 x1 x2 x3 x4 x5 x6 x7 x8 x9) :
    after opsB V (Proc.devRef .tc main_v471) = (RefValue.racc (F := F) 1 (ReadP.val_main_v248 (F := F) x0 x1 x2 x3 x4 x5 x6 x7) (ReadP.val_main_v2 (F := F) x1) x4 x5 [0, 1, 2, 3, 4, 5, 6, 7, 8, 9, 10, 11, 12, 13, 14]) := by
  obtain ⟨⟨h_main_arg0, h_main_arg1, h_main_arg2, h_main_arg3, h_main_arg4, h_main_arg5, h_main_arg6, h_main_arg7, h_main_arg8, h_main_arg9⟩, h_main_v2, h_main_v248, h_main_v260, h_main_v443, h_main_v445⟩ := h
  simp only [opsB]
  after_results_simp
  simp only [h_main_arg5, h_main_arg4, h_main_v248, h_main_v2, h_main_v445, h_main_v443]
  rfl

def PostB : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v471) = (RefValue.racc (F := F) 1 (ReadP.val_main_v248 (F := F) x0 x1 x2 x3 x4 x5 x6 x7) (ReadP.val_main_v2 (F := F) x1) x4 x5 [0, 1, 2, 3, 4, 5, 6, 7, 8, 9, 10, 11, 12, 13, 14])

theorem stepB (h : PreB V x0 x1 x2 x3 x4 x5 x6 x7 x8 x9) :
    PostB (after opsB V) x0 x1 x2 x3 x4 x5 x6 x7 x8 x9 := by
  obtain ⟨hargs, h_main_v2, h_main_v248, h_main_v260, h_main_v443, h_main_v445⟩ := id h
  exact ⟨Args.after opsB opsB_writes (by decide) (by decide) (by decide) (by decide) (by decide) (by decide) (by decide) (by decide) (by decide) (by decide) hargs,
    (opsB_keep V main_v2 (by decide)).trans h_main_v2,
    (opsB_keep V main_v248 (by decide)).trans h_main_v248,
    (opsB_keep V main_v260 (by decide)).trans h_main_v260,
    opsB_main_v471 V x0 x1 x2 x3 x4 x5 x6 x7 x8 x9 h⟩

end

set_option maxRecDepth 8192 in
set_option maxHeartbeats 4000000 in
theorem part_eq (c : Dev nD) : main_part8 (F := F) c = seq (opsA ++ opsB) := rfl

end Cert.RefRun.W8

end
-- ==== Proof.RefRun_W9.lean ====
import proofs.«406211_j29257317220859_3_alg».proof.Proof.RefRead
import proofs.«406211_j29257317220859_3_alg».proof.Proof.RefRun_Aux

noncomputable section

namespace Cert.RefRun.W9

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ o0 X1f, o1 X1f, o2 X1f, o3 X1f, o4 X1f, o5 X1f, o6 X1f, o7 X1f, o8 X1f, o9 X1f, o10 X1f, o11 X1f, o12 X1f, o13 X1f,
    o14 X1f, o15 X1f, o16 X1f, o17 X1f, o18 X1f,
    binary main_v260 main_v485 main_v486 (addf : (⟨S16384x512, .f32⟩ : BufTy).Contents (Elt F) → (⟨S16384x512, .f32⟩ : BufTy).Contents (Elt F) → (⟨S16384x512, .f32⟩ : BufTy).Contents (Elt F)),
    binary main_v486 main_v248 main_v487 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call34_cst) (constant S_ .f32 0x00000000#32),
    TRef.unary (TRef.of (T := ⟨S_, .f32⟩) main_call34_cst) (TRef.of (T := ⟨S16384x512, .f32⟩) main_call34_v0) (broadcastInDim S16384x512 ![] bcast_S_S16384x512),
    TRef.binary (TRef.of (T := ⟨S16384x512, .f32⟩) main_v487) (TRef.of (T := ⟨S16384x512, .f32⟩) main_call34_v0) (TRef.of (T := ⟨S16384x512, .f32⟩) main_v488) maximumf,
    unary main_arg8 main_v489 ((transpose S512x256 [1, 0] · transposes_S256x512_S512x256_1_0) : (⟨S256x512, .f32⟩ : BufTy).Contents (Elt F) → (⟨S512x256, .f32⟩ : BufTy).Contents (Elt F)),
    binary main_v488 main_v489 main_v490 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg9 main_v491 (broadcastInDim S1x256 ![1] bcast_S256_S1x256_1 : (⟨S256, .f32⟩ : BufTy).Contents (Elt F) → (⟨S1x256, .f32⟩ : BufTy).Contents (Elt F)),
    unary main_v491 main_v492 (broadcastInDim S16384x256 ![0, 1] bcast_S1x256_S16384x256_0_1 : (⟨S1x256, .f32⟩ : BufTy).Contents (Elt F) → (⟨S16384x256, .f32⟩ : BufTy).Contents (Elt F)),
    binary main_v490 main_v492 main_v493 (addf : (⟨S16384x256, .f32⟩ : BufTy).Contents (Elt F) → (⟨S16384x256, .f32⟩ : BufTy).Contents (Elt F) → (⟨S16384x256, .f32⟩ : BufTy).Contents (Elt F)),
    reshape main_v493 main_v494 rfl shapeCasts_S16384x256_S64x256x256 ]

theorem opsA_sub : (opsA : List (HloOp τ sig (Elt F))).Forall fun op => op.bufs ⊆ tcRefs τ sig := by all_sub

theorem opsA_fresh : (opsA : List (HloOp τ sig (Elt F))).Forall fun op => op.fresh = ∅ := by all_fresh

abbrev opsA_W : List (Ref sig .tc) := [main_v472, main_v473, main_v474, main_v475, main_v476, main_v477, main_v478, main_v479, main_v480, main_c_66, main_v481, main_v482, main_v483, main_cst_67, main_call33_v0, main_call33_v1, main_call33_v2, main_v484, main_v485, main_v486, main_v487, main_call34_cst, main_call34_v0, main_v488, main_v489, main_v490, main_v491, main_v492, main_v493, main_v494]

theorem opsA_writes : (opsA : List (HloOp τ sig (Elt F))).Forall fun op => op.writes ⊆ (opsA_W.map (Proc.devRef (τ := τ) .tc)).toFinset := by all_writes

theorem opsA_keep (V : Valuation τ sig (Elt F)) (r : Ref sig .tc) (h : r ∉ opsA_W) :
    after opsA V (Proc.devRef .tc r) = V (Proc.devRef .tc r) :=
  after_of_writes_sub opsA V opsA_writes h

section

variable (V : Valuation τ sig (Elt F)) (x0 : (⟨S64x256x256, .f32⟩ : BufTy).Contents (Elt F)) (x1 : (⟨S64, .i32⟩ : BufTy).Contents (Elt F)) (x2 : (⟨S512x256, .f32⟩ : BufTy).Contents (Elt F)) (x3 : (⟨S512, .f32⟩ : BufTy).Contents (Elt F)) (x4 : (⟨S2x16x512x512, .f32⟩ : BufTy).Contents (Elt F)) (x5 : (⟨S2x16x512, .f32⟩ : BufTy).Contents (Elt F)) (x6 : (⟨S2x1x512x512, .f32⟩ : BufTy).Contents (Elt F)) (x7 : (⟨S2x1x512, .f32⟩ : BufTy).Contents (Elt F)) (x8 : (⟨S256x512, .f32⟩ : BufTy).Contents (Elt F)) (x9 : (⟨S256, .f32⟩ : BufTy).Contents (Elt F))
include x0 x1 x2 x3 x4 x5 x6 x7 x8 x9

def PreA : Prop :=
    Args V x0 x1 x2 x3 x4 x5 x6 x7 x8 x9
    ∧ V (Proc.devRef .tc main_v2) = ReadP.val_main_v2 (F := F) x1
    ∧ V (Proc.devRef .tc main_v248) = ReadP.val_main_v248 (F := F) x0 x1 x2 x3 x4 x5 x6 x7
    ∧ V (Proc.devRef .tc main_v260) = ReadP.val_main_v260 (F := F) x0 x1 x2 x3 x4 x5 x6 x7
    ∧ V (Proc.devRef .tc main_v471) = (RefValue.racc (F := F) 1 (ReadP.val_main_v248 (F := F) x0 x1 x2 x3 x4 x5 x6 x7) (ReadP.val_main_v2 (F := F) x1) x4 x5 [0, 1, 2, 3, 4, 5, 6, 7, 8, 9, 10, 11, 12, 13, 14])

set_option maxRecDepth 8192 in
set_option maxHeartbeats 4000000 in
theorem opsA_main_v494 (h : PreA V x0 x1 x2 x3 x4 x5 x6 x7 x8 x9) :
    after opsA V (Proc.devRef .tc main_v494) = ReadP.val_main_v494 (F := F) x0 x1 x2 x3 x4 x5 x6 x7 x8 x9 := by
  obtain ⟨⟨h_main_arg0, h_main_arg1, h_main_arg2, h_main_arg3, h_main_arg4, h_main_arg5, h_main_arg6, h_main_arg7, h_main_arg8, h_main_arg9⟩, h_main_v2, h_main_v248, h_main_v260, h_main_v471⟩ := h
  simp only [opsA]
  after_results_simp
  simp only [h_main_arg9, h_main_arg8, h_main_v248, h_main_arg5, h_main_arg4, h_main_v2, h_main_v471, h_main_v260]
  rfl

def PostA : Prop :=
    Args V x0 x1 x2 x3 x4 x5 x6 x7 x8 x9
    ∧ V (Proc.devRef .tc main_v494) = ReadP.val_main_v494 (F := F) x0 x1 x2 x3 x4 x5 x6 x7 x8 x9

theorem stepA (h : PreA V x0 x1 x2 x3 x4 x5 x6 x7 x8 x9) :
    PostA (after opsA V) x0 x1 x2 x3 x4 x5 x6 x7 x8 x9 := by
  obtain ⟨hargs, h_main_v2, h_main_v248, h_main_v260, h_main_v471⟩ := id h
  exact ⟨Args.after opsA opsA_writes (by decide) (by decide) (by decide) (by decide) (by decide) (by decide) (by decide) (by decide) (by decide) (by decide) hargs,
    opsA_main_v494 V x0 x1 x2 x3 x4 x5 x6 x7 x8 x9 h⟩

end

set_option maxRecDepth 8192 in
set_option maxHeartbeats 4000000 in
theorem part_eq (c : Dev nD) : main_part9 (F := F) c = seq (opsA) := rfl

end Cert.RefRun.W9

end
-- ==== Proof.RefRun.lean ====
import proofs.«406211_j29257317220859_3_alg».proof.Proof.RefRead
import proofs.«406211_j29257317220859_3_alg».proof.Proof.RefRun_W0
import proofs.«406211_j29257317220859_3_alg».proof.Proof.RefRun_W1
import proofs.«406211_j29257317220859_3_alg».proof.Proof.RefRun_W2
import proofs.«406211_j29257317220859_3_alg».proof.Proof.RefRun_W3
import proofs.«406211_j29257317220859_3_alg».proof.Proof.RefRun_W4
import proofs.«406211_j29257317220859_3_alg».proof.Proof.RefRun_W5
import proofs.«406211_j29257317220859_3_alg».proof.Proof.RefRun_W6
import proofs.«406211_j29257317220859_3_alg».proof.Proof.RefRun_W7
import proofs.«406211_j29257317220859_3_alg».proof.Proof.RefRun_W8
import proofs.«406211_j29257317220859_3_alg».proof.Proof.RefRun_W9

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

def ops : List (HloOp τ sig (Elt F)) :=
  (W0.opsA ++ W0.opsB) ++ ((W1.opsA ++ W1.opsB) ++ ((W2.opsA ++ W2.opsB) ++ ((W3.opsA ++ W3.opsB) ++ ((W4.opsA ++ W4.opsB) ++ ((W5.opsA ++ W5.opsB) ++ ((W6.opsA ++ W6.opsB) ++ ((W7.opsA ++ W7.opsB) ++ ((W8.opsA ++ W8.opsB) ++ ((W9.opsA))))))))))

theorem main_eq (c : Dev nD) : main (F := F) c = seq ops := by
  unfold ops
  rw [seq_append (W0.opsA ++ W0.opsB),
    seq_append (W1.opsA ++ W1.opsB),
    seq_append (W2.opsA ++ W2.opsB),
    seq_append (W3.opsA ++ W3.opsB),
    seq_append (W4.opsA ++ W4.opsB),
    seq_append (W5.opsA ++ W5.opsB),
    seq_append (W6.opsA ++ W6.opsB),
    seq_append (W7.opsA ++ W7.opsB),
    seq_append (W8.opsA ++ W8.opsB)]
  rw [← W0.part_eq c, ← W1.part_eq c, ← W2.part_eq c, ← W3.part_eq c, ← W4.part_eq c, ← W5.part_eq c, ← W6.part_eq c, ← W7.part_eq c, ← W8.part_eq c, ← W9.part_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr (by
    simp only [ops, List.forall_mem_append]
    exact ⟨⟨List.forall_iff_forall_mem.mp W0.opsA_sub, List.forall_iff_forall_mem.mp W0.opsB_sub⟩,
      ⟨List.forall_iff_forall_mem.mp W1.opsA_sub, List.forall_iff_forall_mem.mp W1.opsB_sub⟩,
      ⟨List.forall_iff_forall_mem.mp W2.opsA_sub, List.forall_iff_forall_mem.mp W2.opsB_sub⟩,
      ⟨List.forall_iff_forall_mem.mp W3.opsA_sub, List.forall_iff_forall_mem.mp W3.opsB_sub⟩,
      ⟨List.forall_iff_forall_mem.mp W4.opsA_sub, List.forall_iff_forall_mem.mp W4.opsB_sub⟩,
      ⟨List.forall_iff_forall_mem.mp W5.opsA_sub, List.forall_iff_forall_mem.mp W5.opsB_sub⟩,
      ⟨List.forall_iff_forall_mem.mp W6.opsA_sub, List.forall_iff_forall_mem.mp W6.opsB_sub⟩,
      ⟨List.forall_iff_forall_mem.mp W7.opsA_sub, List.forall_iff_forall_mem.mp W7.opsB_sub⟩,
      ⟨List.forall_iff_forall_mem.mp W8.opsA_sub, List.forall_iff_forall_mem.mp W8.opsB_sub⟩,
      List.forall_iff_forall_mem.mp W9.opsA_sub⟩)

theorem ops_fresh : ∀ op ∈ (ops : List (HloOp τ sig (Elt F))), op.fresh = ∅ := by
  simp only [ops, List.forall_mem_append]
  exact ⟨⟨List.forall_iff_forall_mem.mp W0.opsA_fresh, List.forall_iff_forall_mem.mp W0.opsB_fresh⟩,
      ⟨List.forall_iff_forall_mem.mp W1.opsA_fresh, List.forall_iff_forall_mem.mp W1.opsB_fresh⟩,
      ⟨List.forall_iff_forall_mem.mp W2.opsA_fresh, List.forall_iff_forall_mem.mp W2.opsB_fresh⟩,
      ⟨List.forall_iff_forall_mem.mp W3.opsA_fresh, List.forall_iff_forall_mem.mp W3.opsB_fresh⟩,
      ⟨List.forall_iff_forall_mem.mp W4.opsA_fresh, List.forall_iff_forall_mem.mp W4.opsB_fresh⟩,
      ⟨List.forall_iff_forall_mem.mp W5.opsA_fresh, List.forall_iff_forall_mem.mp W5.opsB_fresh⟩,
      ⟨List.forall_iff_forall_mem.mp W6.opsA_fresh, List.forall_iff_forall_mem.mp W6.opsB_fresh⟩,
      ⟨List.forall_iff_forall_mem.mp W7.opsA_fresh, List.forall_iff_forall_mem.mp W7.opsB_fresh⟩,
      ⟨List.forall_iff_forall_mem.mp W8.opsA_fresh, List.forall_iff_forall_mem.mp W8.opsB_fresh⟩,
      List.forall_iff_forall_mem.mp W9.opsA_fresh⟩

theorem after_ops (V0 : Valuation τ sig (Elt F)) :
    W9.PostA (after ops V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  simp only [ops, after_append]
  have h0 : W0.PreA V0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := ⟨rfl, rfl, rfl, rfl, rfl, rfl, rfl, rfl, rfl, rfl⟩
  have h1 := W0.stepA _ _ _ _ _ _ _ _ _ _ _ h0
  have h2 := W0.stepB _ _ _ _ _ _ _ _ _ _ _ h1
  have h3 := W1.stepA _ _ _ _ _ _ _ _ _ _ _ h2
  have h4 := W1.stepB _ _ _ _ _ _ _ _ _ _ _ h3
  have h5 := W2.stepA _ _ _ _ _ _ _ _ _ _ _ h4
  have h6 := W2.stepB _ _ _ _ _ _ _ _ _ _ _ h5
  have h7 := W3.stepA _ _ _ _ _ _ _ _ _ _ _ h6
  have h8 := W3.stepB _ _ _ _ _ _ _ _ _ _ _ h7
  have h9 := W4.stepA _ _ _ _ _ _ _ _ _ _ _ h8
  have h10 := W4.stepB _ _ _ _ _ _ _ _ _ _ _ h9
  have h11 := W5.stepA _ _ _ _ _ _ _ _ _ _ _ h10
  have h12 := W5.stepB _ _ _ _ _ _ _ _ _ _ _ h11
  have h13 := W6.stepA _ _ _ _ _ _ _ _ _ _ _ h12
  have h14 := W6.stepB _ _ _ _ _ _ _ _ _ _ _ h13
  have h15 := W7.stepA _ _ _ _ _ _ _ _ _ _ _ h14
  have h16 := W7.stepB _ _ _ _ _ _ _ _ _ _ _ h15
  have h17 := W8.stepA _ _ _ _ _ _ _ _ _ _ _ h16
  have h18 := W8.stepB _ _ _ _ _ _ _ _ _ _ _ h17
  have h19 := W9.stepA _ _ _ _ _ _ _ _ _ _ _ h18
  exact h19

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v494) = ReadP.val_main_v494 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨⟨h_main_arg0, h_main_arg1, h_main_arg2, h_main_arg3, h_main_arg4, h_main_arg5, h_main_arg6, h_main_arg7, h_main_arg8, h_main_arg9⟩, h_res⟩ := after_ops (F := F) (launchContents m c)
      exact ⟨(h c main_v494).trans h_res, (h c main_arg0).trans h_main_arg0, (h c main_arg1).trans h_main_arg1, (h c main_arg2).trans h_main_arg2, (h c main_arg3).trans h_main_arg3, (h c main_arg4).trans h_main_arg4, (h c main_arg5).trans h_main_arg5, (h c main_arg6).trans h_main_arg6, (h c main_arg7).trans h_main_arg7, (h c main_arg8).trans h_main_arg8, (h c main_arg9).trans h_main_arg9⟩)
    (run_seq scopedRefs_eq scopedSems_eq defs main (fun _ => ops) main_eq (fun _ => ops_sub) m ρ (fun _ => ops_fresh))

end Cert.RefRun

end
-- ==== Proof.RefHead.lean ====
import proofs.«406211_j29257317220859_3_alg».proof.Proof.RefRead
import proofs.«406211_j29257317220859_3_alg».proof.Proof.Spec
import proofs.«406211_j29257317220859_3_alg».proof.Proof.Rows

noncomputable section

namespace Cert.RefValue

open Cert.ReferenceIdeal Cert.ReferenceIdeal.Gen Idealize.ShloMosaic Idealize.ShloMosaic.TcCoe Idealize.ShloMosaic.ValueIdx
open Cert.Spec (row)

theorem head_idx_x (b : Fin 64) (t : Fin 256) (j : Fin 512) (k : Fin 256) :
    ReadP.idx_main_v0 (ReadP.lidx_main_v4 (ix2 (row b t) j) k) = ix3 b t k := by
  have hb : b.val < 64 := b.isLt
  have ht : t.val < 256 := t.isLt
  have hk : k.val < 256 := k.isLt
  funext a
  match a with
  | ⟨0, _⟩ =>
    refine Fin.ext ?_
    show ((row b t).val * 256 + k.val) / 65536 = b.val
    rw [Cert.Spec.row_val]; omega
  | ⟨1, _⟩ =>
    refine Fin.ext ?_
    show ((row b t).val * 256 + k.val) / 256 % 256 = t.val
    rw [Cert.Spec.row_val]; omega
  | ⟨2, _⟩ =>
    refine Fin.ext ?_
    show ((row b t).val * 256 + k.val) % 256 = k.val
    omega

theorem head_idx_w (r : Fin 16384) (j : Fin 512) (k : Fin 256) :
    ReadP.idx_main_v3 (ReadP.ridx_main_v4 (ix2 r j) k) = ix2 j k := by
  funext a
  match a with
  | ⟨0, _⟩ => rfl
  | ⟨1, _⟩ => rfl

theorem head_idx_b (r : Fin 16384) (j : Fin 512) :
    ReadP.idx_main_v5 (ReadP.idx_main_v6 (ix2 r j)) = ix1 j := by
  funext a
  match a with
  | ⟨0, _⟩ => rfl

theorem head_apply (x0 : (⟨S64x256x256, .f32⟩ : BufTy).Contents (Elt Ideal)) (x2 : (⟨S512x256, .f32⟩ : BufTy).Contents (Elt Ideal)) (x3 : (⟨S512, .f32⟩ : BufTy).Contents (Elt Ideal))
    (b : Fin 64) (t : Fin 256) (j : Fin 512) :
    ReadP.val_main_v8 (F := Ideal) x0 x2 x3 (ix2 (row b t) j) = Cert.Spec.inProj x0 x2 x3 b t j := by
  rw [ReadP.val_main_v8_apply, ReadP.val_main_v7_apply, ReadP.val_main_v4_apply, ReadP.val_main_v6_apply,
    ReadP.val_main_v5_apply, ReadP.val_main_call0_v0_apply, ReadP.val_main_call0_cst_apply, head_idx_b]
  simp only [ReadP.val_main_v0_apply, ReadP.val_main_v3_apply, head_idx_x, head_idx_w]
  rw [Ideal.maximumf_def, Ideal.addf_def, Ideal.ofBits_def, Ideal.ofBits_zero_f32]
  rfl

theorem tail_idx_out (b : Fin 64) (t : Fin 256) (o : Fin 256) :
    ReadP.idx_main_v494 (ix3 b t o) = ix2 (row b t) o := by
  have hb : b.val < 64 := b.isLt
  have ht : t.val < 256 := t.isLt
  have ho : o.val < 256 := o.isLt
  funext a
  match a with
  | ⟨0, _⟩ =>
    refine Fin.ext ?_
    show ((b.val * 256 + t.val) * 256 + o.val) / 256 = (row b t).val
    rw [Cert.Spec.row_val]; omega
  | ⟨1, _⟩ =>
    refine Fin.ext ?_
    show ((b.val * 256 + t.val) * 256 + o.val) % 256 = o.val
    omega

theorem tail_idx_h (r : Fin 16384) (o : Fin 256) (k : Fin 512) :
    ReadP.lidx_main_v490 (ix2 r o) k = ix2 r k := by
  funext a
  match a with
  | ⟨0, _⟩ => rfl
  | ⟨1, _⟩ => rfl

theorem tail_idx_w (r : Fin 16384) (o : Fin 256) (k : Fin 512) :
    ReadP.idx_main_v489 (ReadP.ridx_main_v490 (ix2 r o) k) = ix2 o k := by
  funext a
  match a with
  | ⟨0, _⟩ => rfl
  | ⟨1, _⟩ => rfl

theorem tail_idx_b (r : Fin 16384) (o : Fin 256) :
    ReadP.idx_main_v491 (ReadP.idx_main_v492 (ix2 r o)) = ix1 o := by
  funext a
  match a with
  | ⟨0, _⟩ => rfl

theorem tail_apply (x0 : (⟨S64x256x256, .f32⟩ : BufTy).Contents (Elt Ideal)) (x1 : (⟨S64, .i32⟩ : BufTy).Contents (Elt Ideal)) (x2 : (⟨S512x256, .f32⟩ : BufTy).Contents (Elt Ideal)) (x3 : (⟨S512, .f32⟩ : BufTy).Contents (Elt Ideal)) (x4 : (⟨S2x16x512x512, .f32⟩ : BufTy).Contents (Elt Ideal)) (x5 : (⟨S2x16x512, .f32⟩ : BufTy).Contents (Elt Ideal)) (x6 : (⟨S2x1x512x512, .f32⟩ : BufTy).Contents (Elt Ideal)) (x7 : (⟨S2x1x512, .f32⟩ : BufTy).Contents (Elt Ideal)) (x8 : (⟨S256x512, .f32⟩ : BufTy).Contents (Elt Ideal)) (x9 : (⟨S256, .f32⟩ : BufTy).Contents (Elt Ideal))
    (b : Fin 64) (t : Fin 256) (o : Fin 256) :
    ReadP.val_main_v494 (F := Ideal) x0 x1 x2 x3 x4 x5 x6 x7 x8 x9 (ix3 b t o)
      = Cert.Spec.outProj x8 x9 (fun k => ReadP.val_main_v488 (F := Ideal) x0 x1 x2 x3 x4 x5 x6 x7 (ix2 (row b t) k)) o := by
  rw [ReadP.val_main_v494_apply, tail_idx_out, ReadP.val_main_v493_apply, ReadP.val_main_v490_apply,
    ReadP.val_main_v492_apply, ReadP.val_main_v491_apply, tail_idx_b]
  simp only [ReadP.val_main_v489_apply, tail_idx_h, tail_idx_w]
  rw [Ideal.addf_def]
  rfl

end Cert.RefValue

end
-- ==== Proof.RefLayer.lean ====
import proofs.«406211_j29257317220859_3_alg».proof.Proof.RefRead
import proofs.«406211_j29257317220859_3_alg».proof.Proof.Rows
import Idealize.ShloMosaic.Lib.IdealHost

noncomputable section

namespace Cert.RefValue

open Cert.ReferenceIdeal Cert.ReferenceIdeal.Gen Idealize.ShloMosaic Idealize.ShloMosaic.TcCoe Idealize.ShloMosaic.ValueIdx
open Cert.Spec (row)

variable (x0 : (⟨S64x256x256, .f32⟩ : BufTy).Contents (Elt Ideal)) (x1 : (⟨S64, .i32⟩ : BufTy).Contents (Elt Ideal)) (x2 : (⟨S512x256, .f32⟩ : BufTy).Contents (Elt Ideal)) (x3 : (⟨S512, .f32⟩ : BufTy).Contents (Elt Ideal)) (x4 : (⟨S2x16x512x512, .f32⟩ : BufTy).Contents (Elt Ideal)) (x5 : (⟨S2x16x512, .f32⟩ : BufTy).Contents (Elt Ideal)) (x6 : (⟨S2x1x512x512, .f32⟩ : BufTy).Contents (Elt Ideal)) (x7 : (⟨S2x1x512, .f32⟩ : BufTy).Contents (Elt Ideal))

theorem div_one' (x : EReal) : Ideal.div x 1 = x := by
  unfold Ideal.div
  rw [if_neg one_ne_zero, inv_one, mul_one]

/-- The route word of the token at row `256 * b + t` is the batch element's. -/
theorem route_apply (b : Fin 64) (t : Fin 256) :
    ReadP.val_main_v2 (F := Ideal) x1 (ix1 (row b t)) = x1 (ix1 b) := by
  rw [ReadP.val_main_v2_apply, ReadP.val_main_v1_apply]
  refine congrArg x1 ?_
  funext a
  match a with
  | ⟨0, _⟩ => exact Fin.ext (by show (row b t).val / 256 = b.val; exact Cert.Spec.row_div b t)

/-- The shared expert's part of layer 0: a sum over one expert from zero, divided by one, is that expert's affine
    image of the row. -/
theorem shared0_apply (r : Fin 16384) (j : Fin 512) :
    ReadP.val_main_v20 (F := Ideal) x0 x2 x3 x6 x7 (ix2 r j)
      = (∑ k : Fin 512, ReadP.val_main_v8 (F := Ideal) x0 x2 x3 (ix2 r k) * x6 (ix4 0 0 j k)) + x7 (ix3 0 0 j) := by
  rw [ReadP.val_main_v20_apply, Ideal.hostDivf_def, ReadP.val_main_v19_apply, ReadP.val_main_cst_0_apply, Ideal.ofBits_def,
    Ideal.ofBits_one_f32, div_one', ReadP.val_main_v18_apply, ReadP.val_main_cst_apply, Ideal.ofBits_def, Ideal.ofBits_zero_f32,
    zero_add, Fin.sum_univ_one, ReadP.val_main_v17_apply, Ideal.addf_def, ReadP.val_main_v12_apply, ReadP.val_main_v11_apply,
    ReadP.val_main_v16_apply, ReadP.val_main_v15_apply, ReadP.val_main_v14_apply, ReadP.val_main_v13_apply]
  refine congrArg₂ (· + ·) (Finset.sum_congr rfl fun k _ => ?_) (congrArg x7 ?_)
  · rw [ReadP.val_main_v10_apply, ReadP.val_main_v9_apply, mul_comm]
    refine congrArg₂ (· * ·) (congrArg _ ?_) (congrArg x6 ?_)
    · funext a
      match a with
      | ⟨0, _⟩ => rfl
      | ⟨1, _⟩ => rfl
    · funext a
      match a with
      | ⟨0, _⟩ => rfl
      | ⟨1, _⟩ => rfl
      | ⟨2, _⟩ => exact Fin.ext (by show ((0 * 512 + j.val) * 512 + k.val) / 512 % 512 = j.val; omega)
      | ⟨3, _⟩ => exact Fin.ext (by show ((0 * 512 + j.val) * 512 + k.val) % 512 = k.val; omega)
  · funext a
    match a with
    | ⟨0, _⟩ => rfl
    | ⟨1, _⟩ => rfl
    | ⟨2, _⟩ => exact Fin.ext (by show (0 * 512 + j.val) % 512 = j.val; omega)

/-- The same for layer 1, over the rows after layer 0. -/
theorem shared1_apply (r : Fin 16384) (j : Fin 512) :
    ReadP.val_main_v260 (F := Ideal) x0 x1 x2 x3 x4 x5 x6 x7 (ix2 r j)
      = (∑ k : Fin 512, ReadP.val_main_v248 (F := Ideal) x0 x1 x2 x3 x4 x5 x6 x7 (ix2 r k) * x6 (ix4 1 0 j k)) + x7 (ix3 1 0 j) := by
  rw [ReadP.val_main_v260_apply, Ideal.hostDivf_def, ReadP.val_main_v259_apply, ReadP.val_main_cst_34_apply, Ideal.ofBits_def,
    Ideal.ofBits_one_f32, div_one', ReadP.val_main_v258_apply, ReadP.val_main_cst_33_apply, Ideal.ofBits_def, Ideal.ofBits_zero_f32,
    zero_add, Fin.sum_univ_one, ReadP.val_main_v257_apply, Ideal.addf_def, ReadP.val_main_v252_apply, ReadP.val_main_v251_apply,
    ReadP.val_main_v256_apply, ReadP.val_main_v255_apply, ReadP.val_main_v254_apply, ReadP.val_main_v253_apply]
  refine congrArg₂ (· + ·) (Finset.sum_congr rfl fun k _ => ?_) (congrArg x7 ?_)
  · rw [ReadP.val_main_v250_apply, ReadP.val_main_v249_apply, mul_comm]
    refine congrArg₂ (· * ·) (congrArg _ ?_) (congrArg x6 ?_)
    · funext a
      match a with
      | ⟨0, _⟩ => rfl
      | ⟨1, _⟩ => rfl
    · funext a
      match a with
      | ⟨0, _⟩ => rfl
      | ⟨1, _⟩ => rfl
      | ⟨2, _⟩ => exact Fin.ext (by show ((0 * 512 + j.val) * 512 + k.val) / 512 % 512 = j.val; omega)
      | ⟨3, _⟩ => exact Fin.ext (by show ((0 * 512 + j.val) * 512 + k.val) % 512 = k.val; omega)
  · funext a
    match a with
    | ⟨0, _⟩ => rfl
    | ⟨1, _⟩ => rfl
    | ⟨2, _⟩ => exact Fin.ext (by show (0 * 512 + j.val) % 512 = j.val; omega)

/-- The reference's hidden rows after layer 0, at the row of token `t` of batch element `b`: the specification's
    `layer` at the expert the batch element's route word names, of the row before the layer. -/
theorem layer0_apply (hr : ∀ b : Fin 64, (x1 (ix1 b)).toNat < 16) (b : Fin 64) (t : Fin 256) (j : Fin 512) :
    ReadP.val_main_v248 (F := Ideal) x0 x1 x2 x3 x4 x5 x6 x7 (ix2 (row b t) j)
      = Cert.Spec.layer x4 x5 x6 x7 0 (Cert.Spec.expertOf (x1 (ix1 b)))
          (fun k => ReadP.val_main_v8 (F := Ideal) x0 x2 x3 (ix2 (row b t) k)) j := by
  have hv : (ReadP.val_main_v2 (F := Ideal) x1 (ix1 (row b t))).toNat < 16 := by
    rw [route_apply]; exact hr b
  rw [ReadP.val_main_v248_apply, Ideal.maximumf_def, ReadP.val_main_call17_v0_apply, ReadP.val_main_call17_cst_apply,
    Ideal.ofBits_def, Ideal.ofBits_zero_f32, ReadP.val_main_v247_apply, Ideal.addf_def, ReadP.val_main_v246_apply,
    Ideal.addf_def, shared0_apply, routed_apply 0 _ _ x4 x5 (row b t) j hv, route_apply]
  rfl

/-- The same after layer 1, of the row after layer 0. -/
theorem layer1_apply (hr : ∀ b : Fin 64, (x1 (ix1 b)).toNat < 16) (b : Fin 64) (t : Fin 256) (j : Fin 512) :
    ReadP.val_main_v488 (F := Ideal) x0 x1 x2 x3 x4 x5 x6 x7 (ix2 (row b t) j)
      = Cert.Spec.layer x4 x5 x6 x7 1 (Cert.Spec.expertOf (x1 (ix1 b)))
          (fun k => ReadP.val_main_v248 (F := Ideal) x0 x1 x2 x3 x4 x5 x6 x7 (ix2 (row b t) k)) j := by
  have hv : (ReadP.val_main_v2 (F := Ideal) x1 (ix1 (row b t))).toNat < 16 := by
    rw [route_apply]; exact hr b
  rw [ReadP.val_main_v488_apply, Ideal.maximumf_def, ReadP.val_main_call34_v0_apply, ReadP.val_main_call34_cst_apply,
    Ideal.ofBits_def, Ideal.ofBits_zero_f32, ReadP.val_main_v487_apply, Ideal.addf_def, ReadP.val_main_v486_apply,
    Ideal.addf_def, shared1_apply, routed_apply 1 _ _ x4 x5 (row b t) j hv, route_apply]
  rfl

end Cert.RefValue

end
-- ==== Proof.RefValue.lean ====
import proofs.«406211_j29257317220859_3_alg».proof.Proof.RefRead
import proofs.«406211_j29257317220859_3_alg».proof.Proof.Spec
import proofs.«406211_j29257317220859_3_alg».proof.Proof.Rows
import proofs.«406211_j29257317220859_3_alg».proof.Proof.RefHead
import proofs.«406211_j29257317220859_3_alg».proof.Proof.RefLayer

noncomputable section

namespace Cert.RefValue

open Cert.ReferenceIdeal Cert.ReferenceIdeal.Gen Idealize.ShloMosaic Idealize.ShloMosaic.TcCoe Idealize.ShloMosaic.ValueIdx
open Cert.Spec (row)

theorem ref_is_G (x0 : (⟨S64x256x256, .f32⟩ : BufTy).Contents (Elt Ideal)) (x1 : (⟨S64, .i32⟩ : BufTy).Contents (Elt Ideal)) (x2 : (⟨S512x256, .f32⟩ : BufTy).Contents (Elt Ideal)) (x3 : (⟨S512, .f32⟩ : BufTy).Contents (Elt Ideal)) (x4 : (⟨S2x16x512x512, .f32⟩ : BufTy).Contents (Elt Ideal)) (x5 : (⟨S2x16x512, .f32⟩ : BufTy).Contents (Elt Ideal)) (x6 : (⟨S2x1x512x512, .f32⟩ : BufTy).Contents (Elt Ideal)) (x7 : (⟨S2x1x512, .f32⟩ : BufTy).Contents (Elt Ideal)) (x8 : (⟨S256x512, .f32⟩ : BufTy).Contents (Elt Ideal)) (x9 : (⟨S256, .f32⟩ : BufTy).Contents (Elt Ideal))
    (hr : ∀ b : Fin 64, (x1 (ix1 b)).toNat < 16) :
    ReadP.val_main_v494 (F := Ideal) x0 x1 x2 x3 x4 x5 x6 x7 x8 x9 = Cert.Spec.G x0 x1 x2 x3 x4 x5 x6 x7 x8 x9 := by
  funext i
  obtain ⟨b, t, o, rfl⟩ : ∃ (b : Fin 64) (t : Fin 256) (o : Fin 256), i = ix3 b t o := ⟨i 0, i 1, i 2, eq_ix3 i⟩
  rw [tail_apply, Cert.Spec.G_apply]
  refine congrArg (fun h => Cert.Spec.outProj x8 x9 h o) ?_
  funext k
  rw [layer1_apply x0 x1 x2 x3 x4 x5 x6 x7 hr b t k]
  unfold Cert.Spec.hidden
  refine congrArg (fun h => Cert.Spec.layer x4 x5 x6 x7 1 (Cert.Spec.expertOf (x1 (ix1 b))) h k) ?_
  funext k'
  rw [layer0_apply x0 x1 x2 x3 x4 x5 x6 x7 hr b t k']
  refine congrArg (fun h => Cert.Spec.layer x4 x5 x6 x7 0 (Cert.Spec.expertOf (x1 (ix1 b))) h k') ?_
  funext k''
  exact head_apply x0 x2 x3 b t k''

end Cert.RefValue

end
-- ==== Proof.lean ====
import proofs.«406211_j29257317220859_3_alg».proof.Defs
import proofs.«406211_j29257317220859_3_alg».proof.Proof.Gen.Kernel
import proofs.«406211_j29257317220859_3_alg».proof.Proof.Gen.KernelIdeal
import proofs.«406211_j29257317220859_3_alg».proof.Proof.Gen.ReferenceIdeal
import proofs.«406211_j29257317220859_3_alg».proof.Proof.Gen.Pre_finite_inputs
import proofs.«406211_j29257317220859_3_alg».proof.Proof.KbFrame
import proofs.«406211_j29257317220859_3_alg».proof.Proof.KbHyps
import proofs.«406211_j29257317220859_3_alg».proof.Proof.KiFrame
import proofs.«406211_j29257317220859_3_alg».proof.Proof.KiHyps
import proofs.«406211_j29257317220859_3_alg».proof.Proof.KiValue
import proofs.«406211_j29257317220859_3_alg».proof.Proof.RefRun
import proofs.«406211_j29257317220859_3_alg».proof.Proof.RefValue
import proofs.«406211_j29257317220859_3_alg».proof.Proof.RouteRange

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Fr.frame m ρ (Cert.Kernel.Fr.hyps m)

theorem frame_ki : Cert.frame_KernelIdeal := fun m ρ _ => Cert.KernelIdeal.Fr.frame m ρ (Cert.KernelIdeal.Fr.hyps m)

theorem frame_ri : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- Both programs end at the specification's function of the arguments: the kernel at the clamped route table, which is
    the table itself once every route word is an expert number, as the precondition says. -/
theorem algebraic : Cert.algebraic_KernelIdeal_ReferenceIdeal := by
  intro m ρ m' ρ' hpre hagree
  refine ⟨fun c => Cert.KernelIdeal.Fr.Gk m c, Cert.KernelIdeal.Fr.run_value m ρ, ?_⟩
  refine (θ_run Cert.ReferenceIdeal.defs _ _).mono (fun _ h c => ⟨(h c).1.trans ?_, (h c).2⟩)
    (Cert.RefRun.run (F := Ideal) m' ρ')
  have hr : ∀ b : Fin 64, ((m ((c.tc : Thread Cert.KernelIdeal.nD Cert.KernelIdeal.τ).loc Cert.KernelIdeal.main_arg1) : Cert.Spec.SRoute.Idx → BitVec 32) (ix1 b)).toNat < 16 :=
    Cert.RouteRange.route_lt_of_pre _ _ _ _ _ _ _ _ _ _ (hpre c)
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  rw [Cert.RefValue.ref_is_G _ _ _ _ _ _ _ _ _ _ hr]
  unfold Cert.KernelIdeal.Fr.Gk
  refine Cert.Spec.G_congr_route _ _ _ _ _ _ _ _ _ _ _ (fun b => congrArg Cert.Spec.expertOf ?_)
  obtain rfl : c = 0 := Subsingleton.elim _ _
  rw [Cert.KernelIdeal.Fr.tbl_eq]
  exact (Cert.RouteRange.clamp_eq_of_lt _ _ _ (hr b)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
